-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x1600000 : Shape := ⟨2, ![2, 1600000]⟩
abbrev S64x128 : Shape := ⟨2, ![64, 128]⟩
abbrev S32x128 : Shape := ⟨2, ![32, 128]⟩
abbrev S513x128 : Shape := ⟨2, ![513, 128]⟩
abbrev S128x128 : Shape := ⟨2, ![128, 128]⟩
abbrev S128 : Shape := ⟨1, ![128]⟩
abbrev S10x128 : Shape := ⟨2, ![10, 128]⟩
abbrev S10 : Shape := ⟨1, ![10]⟩
abbrev S_ : Shape := ⟨0, ![]⟩

class Facts : Prop where
  bcast_S_S64x128 : S_.BroadcastsInDim S64x128 (![] : Fin 0 → Fin S64x128.rank)
  reducesTo_S64x128_S_d0_1 : S64x128.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S513x128 : S_.BroadcastsInDim S513x128 (![] : Fin 0 → Fin S513x128.rank)
  reducesTo_S513x128_S_d0_1 : S513x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S10x128 : S_.BroadcastsInDim S10x128 (![] : Fin 0 → Fin S10x128.rank)
  reducesTo_S10x128_S_d0_1 : S10x128.ReducesTo [0, 1] S_
  bcast_S_S10 : S_.BroadcastsInDim S10 (![] : Fin 0 → Fin S10.rank)
  reducesTo_S10_S_d0 : S10.ReducesTo [0] S_
  bcast_S_S100000 : S_.BroadcastsInDim S100000 (![] : Fin 0 → Fin S100000.rank)
  reducesTo_S100000_S_d0 : S100000.ReducesTo [0] S_

variable [Facts]

def fn_part5 {F : FTy → Type} [FloatOps F] (main_arg1 : IVec S100000 32) (main_arg2 : IVec S100000 32) (main_v81 : IVec S_ 1) (main_v83 : IVec S100000 1) (main_c_33 : IVec S_ 1) : IVec S_ 1 :=
  let main_v84 : IVec S_ 1 := (fun x v => Host.reduce IntOp.andi x v reducesTo_S100000_S_d0 h_S_) main_v83 main_c_33
  let main_v85 : IVec S_ 1 := andi main_v81 main_v84
  let main_c_34 : IVec S_ 32 := constantI S_ 32 32#32
  let main_v86 : IVec S100000 32 := broadcastInDim S100000 ![] bcast_S_S100000 main_c_34
  let main_v87 : IVec S100000 1 := cmpi .slt main_arg1 main_v86
  let main_c_35 : IVec S_ 1 := constantI S_ 1 1#1
  let main_v88 : IVec S_ 1 := (fun x v => Host.reduce IntOp.andi x v reducesTo_S100000_S_d0 h_S_) main_v87 main_c_35
  let main_v89 : IVec S_ 1 := andi main_v85 main_v88
  let main_c_36 : IVec S_ 32 := constantI S_ 32 0#32
  let main_v90 : IVec S100000 32 := broadcastInDim S100000 ![] bcast_S_S100000 main_c_36
  let main_v91 : IVec S100000 1 := cmpi .sge main_arg2 main_v90
  let main_c_37 : IVec S_ 1 := constantI S_ 1 1#1
  let main_v92 : IVec S_ 1 := (fun x v => Host.reduce IntOp.andi x v reducesTo_S100000_S_d0 h_S_) main_v91 main_c_37
  let main_v93 : IVec S_ 1 := andi main_v89 main_v92
  main_v93

def fn_part4 {F : FTy → Type} [FloatOps F] (main_arg0 : IVec S100000 32) (main_arg1 : IVec S100000 32) (main_arg2 : IVec S100000 32) (main_arg19 : FVec F S10 .f32) (main_v63 : IVec S_ 1) (main_v67 : IVec S_ 1) : IVec S_ 1 :=
  let main_v68 : IVec S_ 1 := andi main_v63 main_v67
  let main_v69 : FVec F S10 .f32 := Host.absf main_arg19
  let main_cst_26 : FVec F S_ .f32 := constant S_ .f32 0x7F800000#32
  let main_v70 : FVec F S10 .f32 := broadcastInDim S10 ![] bcast_S_S10 main_cst_26
  let main_v71 : IVec S10 1 := cmpf .olt main_v69 main_v70
  let main_c_27 : IVec S_ 1 := constantI S_ 1 1#1
  let main_v72 : IVec S_ 1 := (fun x v => Host.reduce IntOp.andi x v reducesTo_S10_S_d0 h_S_) main_v71 main_c_27
  let main_v73 : IVec S_ 1 := andi main_v68 main_v72
  let main_c_28 : IVec S_ 32 := constantI S_ 32 0#32
  let main_v74 : IVec S100000 32 := broadcastInDim S100000 ![] bcast_S_S100000 main_c_28
  let main_v75 : IVec S100000 1 := cmpi .sge main_arg0 main_v74
  let main_c_29 : IVec S_ 1 := constantI S_ 1 1#1
  let main_v76 : IVec S_ 1 := (fun x v => Host.reduce IntOp.andi x v reducesTo_S100000_S_d0 h_S_) main_v75 main_c_29
  let main_v77 : IVec S_ 1 := andi main_v73 main_v76
  let main_c_30 : IVec S_ 32 := constantI S_ 32 64#32
  let main_v78 : IVec S100000 32 := broadcastInDim S100000 ![] bcast_S_S100000 main_c_30
  let main_v79 : IVec S100000 1 := cmpi .slt main_arg0 main_v78
  let main_c_31 : IVec S_ 1 := constantI S_ 1 1#1
  let main_v80 : IVec S_ 1 := (fun x v => Host.reduce IntOp.andi x v reducesTo_S100000_S_d0 h_S_) main_v79 main_c_31
  let main_v81 : IVec S_ 1 := andi main_v77 main_v80
  let main_c_32 : IVec S_ 32 := constantI S_ 32 0#32
  let main_v82 : IVec S100000 32 := broadcastInDim S100000 ![] bcast_S_S100000 main_c_32
  let main_v83 : IVec S100000 1 := cmpi .sge main_arg1 main_v82
  let main_c_33 : IVec S_ 1 := constantI S_ 1 1#1
  fn_part5 (F := F) main_arg1 main_arg2 main_v81 main_v83 main_c_33

def fn_part3 {F : FTy → Type} [FloatOps F] (main_arg0 : IVec S100000 32) (main_arg1 : IVec S100000 32) (main_arg2 : IVec S100000 32) (main_arg16 : FVec F S128 .f32) (main_arg17 : FVec F S128 .f32) (main_arg18 : FVec F S10x128 .f32) (main_arg19 : FVec F S10 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg16
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg17
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S10x128 .f32 := Host.absf main_arg18
  let main_cst_24 : FVec F S_ .f32 := constant S_ .f32 0x7F800000#32
  let main_v65 : FVec F S10x128 .f32 := broadcastInDim S10x128 ![] bcast_S_S10x128 main_cst_24
  let main_v66 : IVec S10x128 1 := cmpf .olt main_v64 main_v65
  let main_c_25 : IVec S_ 1 := constantI S_ 1 1#1
  let main_v67 : IVec S_ 1 := (fun x v => Host.reduce IntOp.andi x v reducesTo_S10x128_S_d0_1 h_S_) main_v66 main_c_25
  fn_part4 (F := F) main_arg0 main_arg1 main_arg2 main_arg19 main_v63 main_v67

def fn_part2 {F : FTy → Type} [FloatOps F] (main_arg0 : IVec S100000 32) (main_arg1 : IVec S100000 32) (main_arg2 : IVec S100000 32) (main_arg12 : FVec F S128 .f32) (main_arg13 : FVec F S128x128 .f32) (main_arg14 : FVec F S128 .f32) (main_arg15 : FVec F S128x128 .f32) (main_arg16 : FVec F S128 .f32) (main_arg17 : FVec F S128 .f32) (main_arg18 : FVec F S10x128 .f32) (main_arg19 : FVec F S10 .f32) (main_v33 : IVec S_ 1) : IVec S_ 1 :=
  let main_v34 : FVec F S128 .f32 := Host.absf main_arg12
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg13
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg14
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg15
  let main_cst_18 : FVec F S_ .f32 := constant S_ .f32 0x7F800000#32
  let main_v50 : FVec F S128x128 .f32 := broadcastInDim S128x128 ![] bcast_S_S128x128 main_cst_18
  fn_part3 (F := F) main_arg0 main_arg1 main_arg2 main_arg16 main_arg17 main_arg18 main_arg19 main_v48 main_v49 main_v50

def fn_part1 {F : FTy → Type} [FloatOps F] (main_arg0 : IVec S100000 32) (main_arg1 : IVec S100000 32) (main_arg2 : IVec S100000 32) (main_arg9 : FVec F S128 .f32) (main_arg10 : FVec F S128x128 .f32) (main_arg11 : FVec F S128 .f32) (main_arg12 : FVec F S128 .f32) (main_arg13 : FVec F S128x128 .f32) (main_arg14 : FVec F S128 .f32) (main_arg15 : FVec F S128x128 .f32) (main_arg16 : FVec F S128 .f32) (main_arg17 : FVec F S128 .f32) (main_arg18 : FVec F S10x128 .f32) (main_arg19 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg9
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg10
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg11
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg0 main_arg1 main_arg2 main_arg12 main_arg13 main_arg14 main_arg15 main_arg16 main_arg17 main_arg18 main_arg19 main_v33

def fn {F : FTy → Type} [FloatOps F] (main_arg0 : IVec S100000 32) (main_arg1 : IVec S100000 32) (main_arg2 : IVec S100000 32) (main_arg3 : IVec S2x1600000 32) (main_arg4 : IVec S100000 32) (main_arg5 : FVec F S64x128 .f32) (main_arg6 : FVec F S32x128 .f32) (main_arg7 : FVec F S513x128 .f32) (main_arg8 : FVec F S128x128 .f32) (main_arg9 : FVec F S128 .f32) (main_arg10 : FVec F S128x128 .f32) (main_arg11 : FVec F S128 .f32) (main_arg12 : FVec F S128 .f32) (main_arg13 : FVec F S128x128 .f32) (main_arg14 : FVec F S128 .f32) (main_arg15 : FVec F S128x128 .f32) (main_arg16 : FVec F S128 .f32) (main_arg17 : FVec F S128 .f32) (main_arg18 : FVec F S10x128 .f32) (main_arg19 : FVec F S10 .f32) : IVec S_ 1 :=
  let main_v0 : FVec F S64x128 .f32 := Host.absf main_arg5
  let main_cst : FVec F S_ .f32 := constant S_ .f32 0x7F800000#32
  let main_v1 : FVec F S64x128 .f32 := broadcastInDim S64x128 ![] bcast_S_S64x128 main_cst
  let main_v2 : IVec S64x128 1 := cmpf .olt main_v0 main_v1
  let main_c : IVec S_ 1 := constantI S_ 1 1#1
  let main_v3 : IVec S_ 1 := (fun x v => Host.reduce IntOp.andi x v reducesTo_S64x128_S_d0_1 h_S_) main_v2 main_c
  let main_v4 : FVec F S32x128 .f32 := Host.absf main_arg6
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S513x128 .f32 := Host.absf main_arg7
  let main_cst_2 : FVec F S_ .f32 := constant S_ .f32 0x7F800000#32
  let main_v10 : FVec F S513x128 .f32 := broadcastInDim S513x128 ![] bcast_S_S513x128 main_cst_2
  let main_v11 : IVec S513x128 1 := cmpf .olt main_v9 main_v10
  let main_c_3 : IVec S_ 1 := constantI S_ 1 1#1
  let main_v12 : IVec S_ 1 := (fun x v => Host.reduce IntOp.andi x v reducesTo_S513x128_S_d0_1 h_S_) main_v11 main_c_3
  let main_v13 : IVec S_ 1 := andi main_v8 main_v12
  let main_v14 : FVec F S128x128 .f32 := Host.absf main_arg8
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg0 main_arg1 main_arg2 main_arg9 main_arg10 main_arg11 main_arg12 main_arg13 main_arg14 main_arg15 main_arg16 main_arg17 main_arg18 main_arg19 main_v13 main_v16
-- ==== Kernel.lean ====
abbrev S100000 : Shape := ⟨1, ![100000]⟩
abbrev S2x1600000 : Shape := ⟨2, ![2, 1600000]⟩
abbrev S64x128 : Shape := ⟨2, ![64, 128]⟩
abbrev S32x128 : Shape := ⟨2, ![32, 128]⟩
abbrev S513x128 : Shape := ⟨2, ![513, 128]⟩
abbrev S128x128 : Shape := ⟨2, ![128, 128]⟩
abbrev S128 : Shape := ⟨1, ![128]⟩
abbrev S10x128 : Shape := ⟨2, ![10, 128]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S640x128 : Shape := ⟨2, ![640, 128]⟩
abbrev S100000x1 : Shape := ⟨2, ![100000, 1]⟩
abbrev S100000x128 : Shape := ⟨2, ![100000, 128]⟩
abbrev S10000x1 : Shape := ⟨2, ![10000, 1]⟩
abbrev S10000x128 : Shape := ⟨2, ![10000, 128]⟩
abbrev S10000x64 : Shape := ⟨2, ![10000, 64]⟩
abbrev S10000x32 : Shape := ⟨2, ![10000, 32]⟩
abbrev S10000x640 : Shape := ⟨2, ![10000, 640]⟩
abbrev S1600000x1 : Shape := ⟨2, ![1600000, 1]⟩
abbrev S1600000x128 : Shape := ⟨2, ![1600000, 128]⟩
abbrev S1x128 : Shape := ⟨2, ![1, 128]⟩
abbrev S512x128 : Shape := ⟨2, ![512, 128]⟩
abbrev S10000x512 : Shape := ⟨2, ![10000, 512]⟩
abbrev S512x10 : Shape := ⟨2, ![512, 10]⟩

abbrev nBuf : Space → Nat
  | .hbm => 137
  | .vmem => 53
  | .smem => 0
  | _ => 0

abbrev hbmTy0_0 (i : Nat) : BufTy := match i % 128 with
  | 0 => ⟨S100000, .i32⟩
  | 1 => ⟨S100000, .i32⟩
  | 2 => ⟨S100000, .i32⟩
  | 3 => ⟨S2x1600000, .i32⟩
  | 4 => ⟨S100000, .i32⟩
  | 5 => ⟨S64x128, .f32⟩
  | 6 => ⟨S32x128, .f32⟩
  | 7 => ⟨S513x128, .f32⟩
  | 8 => ⟨S128x128, .f32⟩
  | 9 => ⟨S128, .f32⟩
  | 10 => ⟨S128x128, .f32⟩
  | 11 => ⟨S128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128, .f32⟩
  | 18 => ⟨S10x128, .f32⟩
  | 19 => ⟨S10, .f32⟩
  | 20 => ⟨S1x1600000, .i32⟩
  | 21 => ⟨S1600000, .i32⟩
  | 22 => ⟨S1x1600000, .i32⟩
  | 23 => ⟨S1600000, .i32⟩
  | 24 => ⟨S_, .i32⟩
  | 25 => ⟨S_, .f32⟩
  | 26 => ⟨S640x128, .f32⟩
  | 27 => ⟨S100000x1, .i32⟩
  | 28 => ⟨S100000x1, .i32⟩
  | 29 => ⟨S100000x1, .i32⟩
  | 30 => ⟨S100000x128, .bf16⟩
  | 31 => ⟨S_, .f32⟩
  | 32 => ⟨S1600000x1, .f32⟩
  | 33 => ⟨S_, .f32⟩
  | 34 => ⟨S100000x1, .f32⟩
  | 35 => ⟨S1600000x1, .i32⟩
  | 36 => ⟨S100000x1, .f32⟩
  | 37 => ⟨S_, .f32⟩
  | 38 => ⟨S100000x1, .f32⟩
  | 39 => ⟨S100000x1, .f32⟩
  | 40 => ⟨S128x128, .f32⟩
  | 41 => ⟨S128x128, .f32⟩
  | 42 => ⟨S128x128, .f32⟩
  | 43 => ⟨S128x128, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x128, .bf16⟩
  | 53 => ⟨S1600000x128, .f32⟩
  | 54 => ⟨S_, .f32⟩
  | 55 => ⟨S100000x128, .f32⟩
  | 56 => ⟨S1600000x1, .i32⟩
  | 57 => ⟨S100000x128, .f32⟩
  | 58 => ⟨S100000x128, .f32⟩
  | 59 => ⟨S100000x128, .f32⟩
  | 60 => ⟨S1x128, .f32⟩
  | 61 => ⟨S100000x128, .f32⟩
  | 62 => ⟨S1x128, .f32⟩
  | 63 => ⟨S1x128, .f32⟩
  | 64 => ⟨S_, .f32⟩
  | 65 => ⟨S1x128, .f32⟩
  | 66 => ⟨S1x128, .f32⟩
  | 67 => ⟨S_, .f32⟩
  | 68 => ⟨S1x128, .f32⟩
  | 69 => ⟨S1x128, .f32⟩
  | 70 => ⟨S1x128, .f32⟩
  | 71 => ⟨S1x128, .f32⟩
  | 72 => ⟨S_, .f32⟩
  | 73 => ⟨S1x128, .f32⟩
  | 74 => ⟨S1x128, .f32⟩
  | 75 => ⟨S1x128, .f32⟩
  | 76 => ⟨S_, .f32⟩
  | 77 => ⟨S1x128, .f32⟩
  | 78 => ⟨S1x128, .f32⟩
  | 79 => ⟨S1x128, .f32⟩
  | 80 => ⟨S1x128, .f32⟩
  | 81 => ⟨S1x128, .f32⟩
  | 82 => ⟨S1x128, .f32⟩
  | 83 => ⟨S1x128, .f32⟩
  | 84 => ⟨S100000x128, .bf16⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000x128, .bf16⟩
  | 94 => ⟨S1600000x128, .f32⟩
  | 95 => ⟨S_, .f32⟩
  | 96 => ⟨S100000x128, .f32⟩
  | 97 => ⟨S1600000x1, .i32⟩
  | 98 => ⟨S100000x128, .f32⟩
  | 99 => ⟨S100000x128, .f32⟩
  | 100 => ⟨S100000x128, .f32⟩
  | 101 => ⟨S1x128, .f32⟩
  | 102 => ⟨S100000x128, .f32⟩
  | 103 => ⟨S1x128, .f32⟩
  | 104 => ⟨S1x128, .f32⟩
  | 105 => ⟨S_, .f32⟩
  | 106 => ⟨S1x128, .f32⟩
  | 107 => ⟨S1x128, .f32⟩
  | 108 => ⟨S_, .f32⟩
  | 109 => ⟨S1x128, .f32⟩
  | 110 => ⟨S1x128, .f32⟩
  | 111 => ⟨S1x128, .f32⟩
  | 112 => ⟨S1x128, .f32⟩
  | 113 => ⟨S_, .f32⟩
  | 114 => ⟨S1x128, .f32⟩
  | 115 => ⟨S1x128, .f32⟩
  | 116 => ⟨S1x128, .f32⟩
  | 117 => ⟨S_, .f32⟩
  | 118 => ⟨S1x128, .f32⟩
  | 119 => ⟨S1x128, .f32⟩
  | 120 => ⟨S1x128, .f32⟩
  | 121 => ⟨S1x128, .f32⟩
  | 122 => ⟨S1x128, .f32⟩
  | 123 => ⟨S1x128, .f32⟩
  | 124 => ⟨S1x128, .f32⟩
  | 125 => ⟨S100000x128, .bf16⟩
  | 126 => ⟨S_, .i32⟩
  | 127 => ⟨S_, .f32⟩
  | _ => ⟨S100000, .i32⟩

abbrev hbmTy0_1 (i : Nat) : BufTy := match i % 128 with
  | 0 => ⟨S128x128, .f32⟩
  | 1 => ⟨S128x128, .f32⟩
  | 2 => ⟨S_, .i32⟩
  | 3 => ⟨S_, .f32⟩
  | 4 => ⟨S128, .f32⟩
  | 5 => ⟨S1x128, .f32⟩
  | 6 => ⟨S100000x1, .i32⟩
  | 7 => ⟨S512x128, .f32⟩
  | 8 => ⟨S512x10, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | .local _ .vmem, ⟨0, _⟩ => ⟨S10000x1, .i32⟩
  | .local _ .vmem, ⟨1, _⟩ => ⟨S10000x1, .i32⟩
  | .local _ .vmem, ⟨2, _⟩ => ⟨S10000x1, .i32⟩
  | .local _ .vmem, ⟨3, _⟩ => ⟨S10000x1, .i32⟩
  | .local _ .vmem, ⟨4, _⟩ => ⟨S10000x1, .i32⟩
  | .local _ .vmem, ⟨5, _⟩ => ⟨S10000x1, .i32⟩
  | .local _ .vmem, ⟨6, _⟩ => ⟨S64x128, .f32⟩
  | .local _ .vmem, ⟨7, _⟩ => ⟨S32x128, .f32⟩
  | .local _ .vmem, ⟨8, _⟩ => ⟨S640x128, .f32⟩
  | .local _ .vmem, ⟨9, _⟩ => ⟨S10000x128, .bf16⟩
  | .local _ .vmem, ⟨10, _⟩ => ⟨S10000x128, .bf16⟩
  | .local _ .vmem, ⟨11, _⟩ => ⟨S10000x128, .f32⟩
  | .local _ .vmem, ⟨12, _⟩ => ⟨S10000x128, .f32⟩
  | .local _ .vmem, ⟨13, _⟩ => ⟨S10000x128, .bf16⟩
  | .local _ .vmem, ⟨14, _⟩ => ⟨S10000x128, .bf16⟩
  | .local _ .vmem, ⟨15, _⟩ => ⟨S128x128, .f32⟩
  | .local _ .vmem, ⟨16, _⟩ => ⟨S1x128, .f32⟩
  | .local _ .vmem, ⟨17, _⟩ => ⟨S128x128, .f32⟩
  | .local _ .vmem, ⟨18, _⟩ => ⟨S10000x128, .f32⟩
  | .local _ .vmem, ⟨19, _⟩ => ⟨S10000x128, .f32⟩
  | .local _ .vmem, ⟨20, _⟩ => ⟨S1x128, .f32⟩
  | .local _ .vmem, ⟨21, _⟩ => ⟨S1x128, .f32⟩
  | .local _ .vmem, ⟨22, _⟩ => ⟨S10000x128, .f32⟩
  | .local _ .vmem, ⟨23, _⟩ => ⟨S10000x128, .f32⟩
  | .local _ .vmem, ⟨24, _⟩ => ⟨S1x128, .f32⟩
  | .local _ .vmem, ⟨25, _⟩ => ⟨S1x128, .f32⟩
  | .local _ .vmem, ⟨26, _⟩ => ⟨S10000x128, .bf16⟩
  | .local _ .vmem, ⟨27, _⟩ => ⟨S10000x128, .bf16⟩
  | .local _ .vmem, ⟨28, _⟩ => ⟨S10000x128, .f32⟩
  | .local _ .vmem, ⟨29, _⟩ => ⟨S10000x128, .f32⟩
  | .local _ .vmem, ⟨30, _⟩ => ⟨S10000x128, .bf16⟩
  | .local _ .vmem, ⟨31, _⟩ => ⟨S10000x128, .bf16⟩
  | .local _ .vmem, ⟨32, _⟩ => ⟨S128x128, .f32⟩
  | .local _ .vmem, ⟨33, _⟩ => ⟨S1x128, .f32⟩
  | .local _ .vmem, ⟨34, _⟩ => ⟨S128x128, .f32⟩
  | .local _ .vmem, ⟨35, _⟩ => ⟨S10000x128, .f32⟩
  | .local _ .vmem, ⟨36, _⟩ => ⟨S10000x128, .f32⟩
  | .local _ .vmem, ⟨37, _⟩ => ⟨S1x128, .f32⟩
  | .local _ .vmem, ⟨38, _⟩ => ⟨S1x128, .f32⟩
  | .local _ .vmem, ⟨39, _⟩ => ⟨S10000x128, .f32⟩
  | .local _ .vmem, ⟨40, _⟩ => ⟨S10000x128, .f32⟩
  | .local _ .vmem, ⟨41, _⟩ => ⟨S1x128, .f32⟩
  | .local _ .vmem, ⟨42, _⟩ => ⟨S1x128, .f32⟩
  | .local _ .vmem, ⟨43, _⟩ => ⟨S10000x128, .bf16⟩
  | .local _ .vmem, ⟨44, _⟩ => ⟨S10000x128, .bf16⟩
  | .local _ .vmem, ⟨45, _⟩ => ⟨S10000x128, .bf16⟩
  | .local _ .vmem, ⟨46, _⟩ => ⟨S10000x128, .bf16⟩
  | .local _ .vmem, ⟨47, _⟩ => ⟨S10000x1, .i32⟩
  | .local _ .vmem, ⟨48, _⟩ => ⟨S10000x1, .i32⟩
  | .local _ .vmem, ⟨49, _⟩ => ⟨S128x128, .f32⟩
  | .local _ .vmem, ⟨50, _⟩ => ⟨S1x128, .f32⟩
  | .local _ .vmem, ⟨51, _⟩ => ⟨S512x128, .f32⟩
  | .local _ .vmem, ⟨52, _⟩ => ⟨S512x128, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_call0_v0 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_cst : Ref sig .tc := ⟨.hbm, 31, rfl⟩
abbrev main_v9 : Ref sig .tc := ⟨.hbm, 32, rfl⟩
abbrev main_cst_0 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_1 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_c_2 : Ref sig .tc := ⟨.hbm, 44, rfl⟩
abbrev main_v19 : Ref sig .tc := ⟨.hbm, 45, rfl⟩
abbrev main_v20 : Ref sig .tc := ⟨.hbm, 46, rfl⟩
abbrev main_c_3 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_4 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33_0 : Ref sig .tc := ⟨.hbm, 61, rfl⟩
abbrev main_v33_1 : Ref sig .tc := ⟨.hbm, 62, rfl⟩
abbrev main_v33_2 : Ref sig .tc := ⟨.hbm, 63, rfl⟩
abbrev main_cst_5 : Ref sig .tc := ⟨.hbm, 64, rfl⟩
abbrev main_v34 : Ref sig .tc := ⟨.hbm, 65, rfl⟩
abbrev main_v35 : Ref sig .tc := ⟨.hbm, 66, rfl⟩
abbrev main_cst_6 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_7 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_8 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_c_9 : Ref sig .tc := ⟨.hbm, 85, rfl⟩
abbrev main_v51 : Ref sig .tc := ⟨.hbm, 86, rfl⟩
abbrev main_v52 : Ref sig .tc := ⟨.hbm, 87, rfl⟩
abbrev main_c_10 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_11 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65_0 : Ref sig .tc := ⟨.hbm, 102, rfl⟩
abbrev main_v65_1 : Ref sig .tc := ⟨.hbm, 103, rfl⟩
abbrev main_v65_2 : Ref sig .tc := ⟨.hbm, 104, rfl⟩
abbrev main_cst_12 : Ref sig .tc := ⟨.hbm, 105, rfl⟩
abbrev main_v66 : Ref sig .tc := ⟨.hbm, 106, rfl⟩
abbrev main_v67 : Ref sig .tc := ⟨.hbm, 107, rfl⟩
abbrev main_cst_13 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_cst_14 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_cst_15 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_c_16 : Ref sig .tc := ⟨.hbm, 126, rfl⟩
abbrev main_call1_v0 : Ref sig .tc := ⟨.hbm, 127, rfl⟩
abbrev main_v83 : Ref sig .tc := ⟨.hbm, 128, rfl⟩
abbrev main_v84 : Ref sig .tc := ⟨.hbm, 129, rfl⟩
abbrev main_c_17 : Ref sig .tc := ⟨.hbm, 130, rfl⟩
abbrev main_call2_v0 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg7_0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg3_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg5_1 : Ref sig .tc := ⟨.vmem, 36, rfl⟩
abbrev cc3_stg6_0 : Ref sig .tc := ⟨.vmem, 37, rfl⟩
abbrev cc3_stg7_0 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg3_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_scratch0 : Ref sig .tc := ⟨.vmem, 52, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem7_0 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem3_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem5_1 : DmaSem sig := 36
abbrev cc3_sem6_0 : DmaSem sig := 37
abbrev cc3_sem7_0 : DmaSem sig := 38
abbrev cc4_sem0_0 : DmaSem sig := 39
abbrev cc4_sem0_1 : DmaSem sig := 40
abbrev cc4_sem1_0 : DmaSem sig := 41
abbrev cc4_sem2_0 : DmaSem sig := 42
abbrev cc4_sem3_0 : DmaSem sig := 43
abbrev cc4_sem3_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem3_0 : DmaSem sig := 50
abbrev cc5_sem4_0 : DmaSem sig := 51

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S640x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x128 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def k5_cond2 (i : grid5.Coords) : BitVec 1 :=
  let arg0 : BitVec 32 := BitVec.ofNat 32 (i 0).val
  let c9_i32 : BitVec 32 := 9#32
  let v19 : BitVec 1 := Scalar.cmpi .eq arg0 c9_i32
  let v20 : BitVec 32 := Scalar.extui v19
  let c0_i32_8 : BitVec 32 := 0#32
  let v21 : BitVec 1 := Scalar.cmpi .ne v20 c0_i32_8
  v21

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S10000x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x1 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S512x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  pads_S513x128_S640x128_01270_000 : S513x128.Pads (![0, 0] : Fin 2 → Nat) ![127, 0] ![0, 0] S640x128
  h_S_ : 0 < S_.numel
  shapeCasts_S100000_S100000x1 : S100000.ShapeCasts S100000x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  iota_S10000x64_d1_w32 : S10000x64.Iotas .tc 32 [1]
  broadcasts_S10000x1_S10000x64 : S10000x1.Broadcasts S10000x64
  natLt_1_32 : 1 < 32
  iota_S10000x32_d1_w32 : S10000x32.Iotas .tc 32 [1]
  broadcasts_S10000x1_S10000x32 : S10000x1.Broadcasts S10000x32
  iota_S10000x640_d1_w32 : S10000x640.Iotas .tc 32 [1]
  broadcasts_S10000x1_S10000x640 : S10000x1.Broadcasts S10000x640
  inb_S64x128_S64x128_0_0 : ∀ a, (![0, 0] : Fin 2 → Nat) a + S64x128.size a ≤ S64x128.size a
  h_S64x128 : 0 < S64x128.numel
  inb_S32x128_S32x128_0_0 : ∀ a, (![0, 0] : Fin 2 → Nat) a + S32x128.size a ≤ S32x128.size a
  h_S32x128 : 0 < S32x128.numel
  inb_S640x128_S640x128_0_0 : ∀ a, (![0, 0] : Fin 2 → Nat) a + S640x128.size a ≤ S640x128.size a
  h_S640x128 : 0 < S640x128.numel
  shapeCasts_S640x128_S640x128 : S640x128.ShapeCasts S640x128
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  packedbf16_S10000x128_S10000x128_0_0 : (Rect.unit (s := S10000x128) ![0, 0] S10000x128.size inb_S10000x128_S10000x128_0_0).PackedRows (EltTy.packing .bf16)
  bcast_S_S1600000x1 : S_.BroadcastsInDim S1600000x1 (![] : Fin 0 → Fin S1600000x1.rank)
  bcast_S_S100000x1 : S_.BroadcastsInDim S100000x1 (![] : Fin 0 → Fin S100000x1.rank)
  bcast_S1600000_S1600000x1_0 : S1600000.BroadcastsInDim S1600000x1 (![0] : Fin 1 → Fin S1600000x1.rank)
  transposes_S128x128_S128x128_1_0 : S128x128.Transposes [1, 0] S128x128
  bcast_S_S1600000 : S_.BroadcastsInDim S1600000 (![] : Fin 0 → Fin S1600000.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  broadcasts_S1x128_S10000x128 : S1x128.Broadcasts S10000x128
  reduces_S10000x128_S128 : S10000x128.Reduces [0] S128
  bcast_S_S1x128 : S_.BroadcastsInDim S1x128 (![] : Fin 0 → Fin S1x128.rank)
  pads_S10x128_S128x128_01180_000 : S10x128.Pads (![0, 0] : Fin 2 → Nat) ![118, 0] ![0, 0] S128x128
  pads_S10_S128_01180 : S10.Pads (![0] : Fin 1 → Nat) ![118] ![0] S128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  iota_S10000x512_d1_w32 : S10000x512.Iotas .tc 32 [1]
  broadcasts_S10000x1_S10000x512 : S10000x1.Broadcasts S10000x512
  broadcasts_S1x128_S512x128 : S1x128.Broadcasts S512x128
  slices_S512x128_S512x10_0_0 : S512x128.Slices ![0, 0] S512x10
  dot_S10000x64_S64x128_S10000x128_1_0_0_1_n_n_wf : DotDims.WF S10000x64 S64x128 S10000x128 [1] [0] [0] [1] [] []
  dot_S10000x32_S32x128_S10000x128_1_0_0_1_n_n_wf : DotDims.WF S10000x32 S32x128 S10000x128 [1] [0] [0] [1] [] []
  dot_S10000x640_S640x128_S10000x128_1_0_0_1_n_n_wf : DotDims.WF S10000x640 S640x128 S10000x128 [1] [0] [0] [1] [] []
  scatter_S100000x1_S1600000x1_S1600000x1_1_0_0_1_wf : ScatterDims.WF S100000x1 S1600000x1 S1600000x1 [1] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  dot_S10000x512_S10000x128_S512x128_0_0_1_1_n_n_wf : DotDims.WF S10000x512 S10000x128 S512x128 [0] [0] [1] [1] [] []
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S100000x1.size a
  hwx0_0 : ∀ i : grid0.Coords, EltTy.bits .i32 = 32 ∨ (Rect.block (s := S100000x1) S10000x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .i32 = 32 ∨ (Rect.block (s := S100000x1) S10000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .i32 = 32 ∨ (Rect.block (s := S100000x1) S10000x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x128.size a ≤ S32x128.size a
  hwx0_4 : ∀ i : grid0.Coords, EltTy.bits .f32 = 32 ∨ (Rect.block (s := S32x128) S32x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S640x128.size a ≤ S640x128.size a
  hwx0_5 : ∀ i : grid0.Coords, EltTy.bits .f32 = 32 ∨ (Rect.block (s := S640x128) S640x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S100000x128.size a
  hwx0_6 : ∀ i : grid0.Coords, EltTy.bits .bf16 = 32 ∨ (Rect.block (s := S100000x128) S10000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .bf16 = 32 ∨ (Rect.block (s := S100000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S100000x128.size a
  hwx1_5 : ∀ i : grid1.Coords, EltTy.bits .f32 = 32 ∨ (Rect.block (s := S100000x128) S10000x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S100000x128.size a
  hwx2_3 : ∀ i : grid2.Coords, EltTy.bits .bf16 = 32 ∨ (Rect.block (s := S100000x128) S10000x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S100000x128.size a
  hwx3_1 : ∀ i : grid3.Coords, EltTy.bits .bf16 = 32 ∨ (Rect.block (s := S100000x128) S10000x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x128.size a ≤ S100000x128.size a
  hwx3_5 : ∀ i : grid3.Coords, EltTy.bits .f32 = 32 ∨ (Rect.block (s := S100000x128) S10000x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x128.size a ≤ S100000x128.size a
  hwx4_3 : ∀ i : grid4.Coords, EltTy.bits .bf16 = 32 ∨ (Rect.block (s := S100000x128) S10000x128.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .bf16 = 32 ∨ (Rect.block (s := S100000x128) S10000x128.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x1.size a ≤ S100000x1.size a
  hwx5_1 : ∀ i : grid5.Coords, EltTy.bits .i32 = 32 ∨ (Rect.block (s := S100000x1) S10000x1.size (cc5_transform_1 i) (hinb5_1 i)).WholeWords (EltTy.packing .i32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S512x128.size a ≤ S512x128.size a
  hwx5_4 : ∀ i : grid5.Coords, EltTy.bits .f32 = 32 ∨ (Rect.block (s := S512x128) S512x128.size (cc5_transform_4 i) (hinb5_4 i)).WholeWords (EltTy.packing .f32)

variable [Facts₀]

def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x32_S32x128_S10000x128_1_0_0_1_n_n : DotDims S10000x32 S32x128 S10000x128 where
  lhsContracting := [1]
  rhsContracting := [0]
  lhsNonContracting := [0]
  rhsNonContracting := [1]
  lhsBatch := []
  rhsBatch := []
  wf := dot_S10000x32_S32x128_S10000x128_1_0_0_1_n_n_wf
def dot_S10000x640_S640x128_S10000x128_1_0_0_1_n_n : DotDims S10000x640 S640x128 S10000x128 where
  lhsContracting := [1]
  rhsContracting := [0]
  lhsNonContracting := [0]
  rhsNonContracting := [1]
  lhsBatch := []
  rhsBatch := []
  wf := dot_S10000x640_S640x128_S10000x128_1_0_0_1_n_n_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x512_S10000x128_S512x128_0_0_1_1_n_n : DotDims S10000x512 S10000x128 S512x128 where
  lhsContracting := [0]
  rhsContracting := [0]
  lhsNonContracting := [1]
  rhsNonContracting := [1]
  lhsBatch := []
  rhsBatch := []
  wf := dot_S10000x512_S10000x128_S512x128_0_0_1_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_v5) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S32x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S640x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S10000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v31) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33_0) S10000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v33_1) S1x128.size cc1_transform_6 reads1_6 true true 1 stage1_6 sem1_6
    hrank1 hreads1_6 hinb1_6 nbuf1_6 (Memref.isWhole_whole _) hwx1_6 hstage1_6

abbrev win1_7 : Pipeline.Window sig grid1 :=
  Pipeline.Window.ofSpec (Memref.whole main_v33_2) S1x128.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v33_0) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v63) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S10000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v17) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v64) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v18) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v65_0) S10000x128.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v65_1) S1x128.size cc3_transform_6 reads3_6 true true 1 stage3_6 sem3_6
    hrank3 hreads3_6 hinb3_6 nbuf3_6 (Memref.isWhole_whole _) hwx3_6 hstage3_6

abbrev win3_7 : Pipeline.Window sig grid3 :=
  Pipeline.Window.ofSpec (Memref.whole main_v65_2) S1x128.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v65_0) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v78) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v81) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v82) S10000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v82) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v87) S10000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v84) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v86) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v88) S512x128.size cc5_transform_4 reads5_4 true true 1 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev idle5 : Fin 5 → grid5.Coords → Bool := fun | 0 => fun _ => false | 1 => fun _ => false | 2 => fun _ => false | 3 => fun _ => false | 4 => fun i => !(k5_cond2 i == 1#1) | ⟨_ + 5, h⟩ => absurd h (Nat.not_lt.2 (Nat.le_add_left _ _))

class Facts : Prop extends Facts₀ where

variable [Facts]
-- ==== ReferenceIdeal.lean ====
abbrev S100000 : Shape := ⟨1, ![100000]⟩
abbrev S2x1600000 : Shape := ⟨2, ![2, 1600000]⟩
abbrev S64x128 : Shape := ⟨2, ![64, 128]⟩
abbrev S32x128 : Shape := ⟨2, ![32, 128]⟩
abbrev S513x128 : Shape := ⟨2, ![513, 128]⟩
abbrev S128x128 : Shape := ⟨2, ![128, 128]⟩
abbrev S128 : Shape := ⟨1, ![128]⟩
abbrev S10x128 : Shape := ⟨2, ![10, 128]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S100000x1 : Shape := ⟨2, ![100000, 1]⟩
abbrev S100000x128 : Shape := ⟨2, ![100000, 128]⟩
abbrev S1600000x1 : Shape := ⟨2, ![1600000, 1]⟩
abbrev S1600000x128 : Shape := ⟨2, ![1600000, 128]⟩
abbrev S1x128 : Shape := ⟨2, ![1, 128]⟩
abbrev S512x128 : Shape := ⟨2, ![512, 128]⟩
abbrev S128x10 : Shape := ⟨2, ![128, 10]⟩
abbrev S512x10 : Shape := ⟨2, ![512, 10]⟩
abbrev S1x10 : Shape := ⟨2, ![1, 10]⟩

abbrev nBuf : Space → Nat
  | .hbm => 223
  | .vmem => 0
  | .smem => 0
  | _ => 0

abbrev hbmTy0_0 (i : Nat) : BufTy := match i % 128 with
  | 0 => ⟨S100000, .i32⟩
  | 1 => ⟨S100000, .i32⟩
  | 2 => ⟨S100000, .i32⟩
  | 3 => ⟨S2x1600000, .i32⟩
  | 4 => ⟨S100000, .i32⟩
  | 5 => ⟨S64x128, .f32⟩
  | 6 => ⟨S32x128, .f32⟩
  | 7 => ⟨S513x128, .f32⟩
  | 8 => ⟨S128x128, .f32⟩
  | 9 => ⟨S128, .f32⟩
  | 10 => ⟨S128x128, .f32⟩
  | 11 => ⟨S128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128, .f32⟩
  | 18 => ⟨S10x128, .f32⟩
  | 19 => ⟨S10, .f32⟩
  | 20 => ⟨S1x1600000, .i32⟩
  | 21 => ⟨S1600000, .i32⟩
  | 22 => ⟨S1x1600000, .i32⟩
  | 23 => ⟨S1600000, .i32⟩
  | 24 => ⟨S_, .i32⟩
  | 25 => ⟨S100000, .i32⟩
  | 26 => ⟨S100000, .i32⟩
  | 27 => ⟨S_, .i32⟩
  | 28 => ⟨S100000, .i32⟩
  | 29 => ⟨S100000, .i1⟩
  | 30 => ⟨S_, .i32⟩
  | 31 => ⟨S100000, .i32⟩
  | 32 => ⟨S100000, .i32⟩
  | 33 => ⟨S100000, .i32⟩
  | 34 => ⟨S100000x1, .i32⟩
  | 35 => ⟨S100000x128, .f32⟩
  | 36 => ⟨S_, .i32⟩
  | 37 => ⟨S100000, .i32⟩
  | 38 => ⟨S100000, .i1⟩
  | 39 => ⟨S_, .i32⟩
  | 40 => ⟨S100000, .i32⟩
  | 41 => ⟨S100000, .i32⟩
  | 42 => ⟨S100000, .i32⟩
  | 43 => ⟨S100000x1, .i32⟩
  | 44 => ⟨S100000x128, .f32⟩
  | 45 => ⟨S100000x128, .f32⟩
  | 46 => ⟨S_, .i32⟩
  | 47 => ⟨S100000, .i32⟩
  | 48 => ⟨S100000, .i1⟩
  | 49 => ⟨S_, .i32⟩
  | 50 => ⟨S100000, .i32⟩
  | 51 => ⟨S100000, .i32⟩
  | 52 => ⟨S100000, .i32⟩
  | 53 => ⟨S100000x1, .i32⟩
  | 54 => ⟨S100000x128, .f32⟩
  | 55 => ⟨S100000x128, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x128, .f32⟩
  | 65 => ⟨S_, .f32⟩
  | 66 => ⟨S100000x128, .f32⟩
  | 67 => ⟨S1600000x1, .i32⟩
  | 68 => ⟨S100000x128, .f32⟩
  | 69 => ⟨S_, .f32⟩
  | 70 => ⟨S1600000x1, .f32⟩
  | 71 => ⟨S_, .f32⟩
  | 72 => ⟨S100000x1, .f32⟩
  | 73 => ⟨S1600000x1, .i32⟩
  | 74 => ⟨S100000x1, .f32⟩
  | 75 => ⟨S_, .f32⟩
  | 76 => ⟨S100000x1, .f32⟩
  | 77 => ⟨S100000x1, .f32⟩
  | 78 => ⟨S100000x128, .f32⟩
  | 79 => ⟨S100000x128, .f32⟩
  | 80 => ⟨S128x128, .f32⟩
  | 81 => ⟨S100000x128, .f32⟩
  | 82 => ⟨S1x128, .f32⟩
  | 83 => ⟨S100000x128, .f32⟩
  | 84 => ⟨S100000x128, .f32⟩
  | 85 => ⟨S128x128, .f32⟩
  | 86 => ⟨S100000x128, .f32⟩
  | 87 => ⟨S100000x128, .f32⟩
  | 88 => ⟨S_, .f32⟩
  | 89 => ⟨S128, .f32⟩
  | 90 => ⟨S_, .f32⟩
  | 91 => ⟨S128, .f32⟩
  | 92 => ⟨S128, .f32⟩
  | 93 => ⟨S_, .i32⟩
  | 94 => ⟨S_, .f32⟩
  | 95 => ⟨S128, .f32⟩
  | 96 => ⟨S1x128, .f32⟩
  | 97 => ⟨S_, .f32⟩
  | 98 => ⟨S1x128, .f32⟩
  | 99 => ⟨S1x128, .f32⟩
  | 100 => ⟨S100000x128, .f32⟩
  | 101 => ⟨S100000x128, .f32⟩
  | 102 => ⟨S100000x128, .f32⟩
  | 103 => ⟨S_, .f32⟩
  | 104 => ⟨S_, .f32⟩
  | 105 => ⟨S_, .f32⟩
  | 106 => ⟨S_, .f32⟩
  | 107 => ⟨S128, .f32⟩
  | 108 => ⟨S128, .f32⟩
  | 109 => ⟨S128, .f32⟩
  | 110 => ⟨S_, .f32⟩
  | 111 => ⟨S_, .i1⟩
  | 112 => ⟨S_, .f32⟩
  | 113 => ⟨S_, .f32⟩
  | 114 => ⟨S128, .f32⟩
  | 115 => ⟨S128, .f32⟩
  | 116 => ⟨S1x128, .f32⟩
  | 117 => ⟨S100000x128, .f32⟩
  | 118 => ⟨S100000x128, .f32⟩
  | 119 => ⟨S_, .f32⟩
  | 120 => ⟨S128, .f32⟩
  | 121 => ⟨S128, .f32⟩
  | 122 => ⟨S128, .f32⟩
  | 123 => ⟨S1x128, .f32⟩
  | 124 => ⟨S100000x128, .f32⟩
  | 125 => ⟨S100000x128, .f32⟩
  | 126 => ⟨S1x128, .f32⟩
  | 127 => ⟨S100000x128, .f32⟩
  | _ => ⟨S100000, .i32⟩

abbrev hbmTy0_1 (i : Nat) : BufTy := match i % 128 with
  | 0 => ⟨S100000x128, .f32⟩
  | 1 => ⟨S1x128, .f32⟩
  | 2 => ⟨S100000x128, .f32⟩
  | 3 => ⟨S100000x128, .f32⟩
  | 4 => ⟨S_, .f32⟩
  | 5 => ⟨S100000x128, .f32⟩
  | 6 => ⟨S100000x128, .f32⟩
  | 7 => ⟨S_, .i32⟩
  | 8 => ⟨S1600000, .i32⟩
  | 9 => ⟨S1600000, .i1⟩
  | 10 => ⟨S_, .i32⟩
  | 11 => ⟨S1600000, .i32⟩
  | 12 => ⟨S1600000, .i32⟩
  | 13 => ⟨S1600000, .i32⟩
  | 14 => ⟨S1600000x1, .i32⟩
  | 15 => ⟨S1600000x128, .f32⟩
  | 16 => ⟨S_, .f32⟩
  | 17 => ⟨S100000x128, .f32⟩
  | 18 => ⟨S1600000x1, .i32⟩
  | 19 => ⟨S100000x128, .f32⟩
  | 20 => ⟨S_, .f32⟩
  | 21 => ⟨S1600000x1, .f32⟩
  | 22 => ⟨S_, .f32⟩
  | 23 => ⟨S100000x1, .f32⟩
  | 24 => ⟨S1600000x1, .i32⟩
  | 25 => ⟨S100000x1, .f32⟩
  | 26 => ⟨S_, .f32⟩
  | 27 => ⟨S100000x1, .f32⟩
  | 28 => ⟨S100000x1, .f32⟩
  | 29 => ⟨S100000x128, .f32⟩
  | 30 => ⟨S100000x128, .f32⟩
  | 31 => ⟨S128x128, .f32⟩
  | 32 => ⟨S100000x128, .f32⟩
  | 33 => ⟨S1x128, .f32⟩
  | 34 => ⟨S100000x128, .f32⟩
  | 35 => ⟨S100000x128, .f32⟩
  | 36 => ⟨S128x128, .f32⟩
  | 37 => ⟨S100000x128, .f32⟩
  | 38 => ⟨S100000x128, .f32⟩
  | 39 => ⟨S_, .f32⟩
  | 40 => ⟨S128, .f32⟩
  | 41 => ⟨S_, .f32⟩
  | 42 => ⟨S128, .f32⟩
  | 43 => ⟨S128, .f32⟩
  | 44 => ⟨S_, .i32⟩
  | 45 => ⟨S_, .f32⟩
  | 46 => ⟨S128, .f32⟩
  | 47 => ⟨S1x128, .f32⟩
  | 48 => ⟨S_, .f32⟩
  | 49 => ⟨S1x128, .f32⟩
  | 50 => ⟨S1x128, .f32⟩
  | 51 => ⟨S100000x128, .f32⟩
  | 52 => ⟨S100000x128, .f32⟩
  | 53 => ⟨S100000x128, .f32⟩
  | 54 => ⟨S_, .f32⟩
  | 55 => ⟨S_, .f32⟩
  | 56 => ⟨S_, .f32⟩
  | 57 => ⟨S_, .f32⟩
  | 58 => ⟨S128, .f32⟩
  | 59 => ⟨S128, .f32⟩
  | 60 => ⟨S128, .f32⟩
  | 61 => ⟨S_, .f32⟩
  | 62 => ⟨S_, .i1⟩
  | 63 => ⟨S_, .f32⟩
  | 64 => ⟨S_, .f32⟩
  | 65 => ⟨S128, .f32⟩
  | 66 => ⟨S128, .f32⟩
  | 67 => ⟨S1x128, .f32⟩
  | 68 => ⟨S100000x128, .f32⟩
  | 69 => ⟨S100000x128, .f32⟩
  | 70 => ⟨S_, .f32⟩
  | 71 => ⟨S128, .f32⟩
  | 72 => ⟨S128, .f32⟩
  | 73 => ⟨S128, .f32⟩
  | 74 => ⟨S1x128, .f32⟩
  | 75 => ⟨S100000x128, .f32⟩
  | 76 => ⟨S100000x128, .f32⟩
  | 77 => ⟨S1x128, .f32⟩
  | 78 => ⟨S100000x128, .f32⟩
  | 79 => ⟨S100000x128, .f32⟩
  | 80 => ⟨S1x128, .f32⟩
  | 81 => ⟨S100000x128, .f32⟩
  | 82 => ⟨S100000x128, .f32⟩
  | 83 => ⟨S_, .f32⟩
  | 84 => ⟨S100000x128, .f32⟩
  | 85 => ⟨S100000x128, .f32⟩
  | 86 => ⟨S_, .f32⟩
  | 87 => ⟨S512x128, .f32⟩
  | 88 => ⟨S100000x1, .i32⟩
  | 89 => ⟨S512x128, .f32⟩
  | 90 => ⟨S128x10, .f32⟩
  | 91 => ⟨S512x10, .f32⟩
  | 92 => ⟨S1x10, .f32⟩
  | 93 => ⟨S512x10, .f32⟩
  | 94 => ⟨S512x10, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_c_1 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c_2 : Ref sig .tc := ⟨.hbm, 36, rfl⟩
abbrev main_v13 : Ref sig .tc := ⟨.hbm, 37, rfl⟩
abbrev main_v14 : Ref sig .tc := ⟨.hbm, 38, rfl⟩
abbrev main_c_3 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c_4 : Ref sig .tc := ⟨.hbm, 46, rfl⟩
abbrev main_v21 : Ref sig .tc := ⟨.hbm, 47, rfl⟩
abbrev main_v22 : Ref sig .tc := ⟨.hbm, 48, rfl⟩
abbrev main_c_5 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_c_6 : Ref sig .tc := ⟨.hbm, 56, rfl⟩
abbrev main_v29 : Ref sig .tc := ⟨.hbm, 57, rfl⟩
abbrev main_v30 : Ref sig .tc := ⟨.hbm, 58, rfl⟩
abbrev main_c_7 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_8 : Ref sig .tc := ⟨.hbm, 69, rfl⟩
abbrev main_v39 : Ref sig .tc := ⟨.hbm, 70, rfl⟩
abbrev main_cst_9 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_10 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_11 : Ref sig .tc := ⟨.hbm, 88, rfl⟩
abbrev main_v55 : Ref sig .tc := ⟨.hbm, 89, rfl⟩
abbrev main_cst_12 : Ref sig .tc := ⟨.hbm, 90, rfl⟩
abbrev main_v56 : Ref sig .tc := ⟨.hbm, 91, rfl⟩
abbrev main_v57 : Ref sig .tc := ⟨.hbm, 92, rfl⟩
abbrev main_c_13 : Ref sig .tc := ⟨.hbm, 93, rfl⟩
abbrev main_call0_cst : Ref sig .tc := ⟨.hbm, 94, rfl⟩
abbrev main_call0_v0 : Ref sig .tc := ⟨.hbm, 95, rfl⟩
abbrev main_call0_v1 : Ref sig .tc := ⟨.hbm, 96, rfl⟩
abbrev main_call0_cst_0 : Ref sig .tc := ⟨.hbm, 97, rfl⟩
abbrev main_call0_v2 : Ref sig .tc := ⟨.hbm, 98, rfl⟩
abbrev main_call0_v3 : Ref sig .tc := ⟨.hbm, 99, rfl⟩
abbrev main_call0_v4 : Ref sig .tc := ⟨.hbm, 100, rfl⟩
abbrev main_call0_v5 : Ref sig .tc := ⟨.hbm, 101, rfl⟩
abbrev main_call0_v6 : Ref sig .tc := ⟨.hbm, 102, rfl⟩
abbrev main_call0_v7 : Ref sig .tc := ⟨.hbm, 103, rfl⟩
abbrev main_call0_cst_1 : Ref sig .tc := ⟨.hbm, 104, rfl⟩
abbrev main_call0_v8 : Ref sig .tc := ⟨.hbm, 105, rfl⟩
abbrev main_call0_cst_2 : Ref sig .tc := ⟨.hbm, 106, rfl⟩
abbrev main_call0_v9 : Ref sig .tc := ⟨.hbm, 107, rfl⟩
abbrev main_call0_v10 : Ref sig .tc := ⟨.hbm, 108, rfl⟩
abbrev main_call0_v11 : Ref sig .tc := ⟨.hbm, 109, rfl⟩
abbrev main_call0_cst_3 : Ref sig .tc := ⟨.hbm, 110, rfl⟩
abbrev main_call0_v12 : Ref sig .tc := ⟨.hbm, 111, rfl⟩
abbrev main_call0_cst_4 : Ref sig .tc := ⟨.hbm, 112, rfl⟩
abbrev main_call0_call0_v0 : Ref sig .tc := ⟨.hbm, 113, rfl⟩
abbrev main_call0_call0_v1 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_cst_14 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_call1_cst : Ref sig .tc := ⟨.hbm, 132, rfl⟩
abbrev main_call1_v0 : Ref sig .tc := ⟨.hbm, 133, rfl⟩
abbrev main_v74 : Ref sig .tc := ⟨.hbm, 134, rfl⟩
abbrev main_c_15 : Ref sig .tc := ⟨.hbm, 135, rfl⟩
abbrev main_v75 : Ref sig .tc := ⟨.hbm, 136, rfl⟩
abbrev main_v76 : Ref sig .tc := ⟨.hbm, 137, rfl⟩
abbrev main_c_16 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_cst_17 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_cst_18 : Ref sig .tc := ⟨.hbm, 148, rfl⟩
abbrev main_v85 : Ref sig .tc := ⟨.hbm, 149, rfl⟩
abbrev main_cst_19 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_cst_20 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_cst_21 : Ref sig .tc := ⟨.hbm, 167, rfl⟩
abbrev main_v101 : Ref sig .tc := ⟨.hbm, 168, rfl⟩
abbrev main_cst_22 : Ref sig .tc := ⟨.hbm, 169, rfl⟩
abbrev main_v102 : Ref sig .tc := ⟨.hbm, 170, rfl⟩
abbrev main_v103 : Ref sig .tc := ⟨.hbm, 171, rfl⟩
abbrev main_c_23 : Ref sig .tc := ⟨.hbm, 172, rfl⟩
abbrev main_call2_cst : Ref sig .tc := ⟨.hbm, 173, rfl⟩
abbrev main_call2_v0 : Ref sig .tc := ⟨.hbm, 174, rfl⟩
abbrev main_call2_v1 : Ref sig .tc := ⟨.hbm, 175, rfl⟩
abbrev main_call2_cst_0 : Ref sig .tc := ⟨.hbm, 176, rfl⟩
abbrev main_call2_v2 : Ref sig .tc := ⟨.hbm, 177, rfl⟩
abbrev main_call2_v3 : Ref sig .tc := ⟨.hbm, 178, rfl⟩
abbrev main_call2_v4 : Ref sig .tc := ⟨.hbm, 179, rfl⟩
abbrev main_call2_v5 : Ref sig .tc := ⟨.hbm, 180, rfl⟩
abbrev main_call2_v6 : Ref sig .tc := ⟨.hbm, 181, rfl⟩
abbrev main_call2_v7 : Ref sig .tc := ⟨.hbm, 182, rfl⟩
abbrev main_call2_cst_1 : Ref sig .tc := ⟨.hbm, 183, rfl⟩
abbrev main_call2_v8 : Ref sig .tc := ⟨.hbm, 184, rfl⟩
abbrev main_call2_cst_2 : Ref sig .tc := ⟨.hbm, 185, rfl⟩
abbrev main_call2_v9 : Ref sig .tc := ⟨.hbm, 186, rfl⟩
abbrev main_call2_v10 : Ref sig .tc := ⟨.hbm, 187, rfl⟩
abbrev main_call2_v11 : Ref sig .tc := ⟨.hbm, 188, rfl⟩
abbrev main_call2_cst_3 : Ref sig .tc := ⟨.hbm, 189, rfl⟩
abbrev main_call2_v12 : Ref sig .tc := ⟨.hbm, 190, rfl⟩
abbrev main_call2_cst_4 : Ref sig .tc := ⟨.hbm, 191, rfl⟩
abbrev main_call2_call0_v0 : Ref sig .tc := ⟨.hbm, 192, rfl⟩
abbrev main_call2_call0_v1 : Ref sig .tc := ⟨.hbm, 193, rfl⟩
abbrev main_v104 : Ref sig .tc := ⟨.hbm, 194, rfl⟩
abbrev main_v105 : Ref sig .tc := ⟨.hbm, 195, rfl⟩
abbrev main_v106 : Ref sig .tc := ⟨.hbm, 196, rfl⟩
abbrev main_v107 : Ref sig .tc := ⟨.hbm, 197, rfl⟩
abbrev main_cst_24 : Ref sig .tc := ⟨.hbm, 198, rfl⟩
abbrev main_v108 : Ref sig .tc := ⟨.hbm, 199, rfl⟩
abbrev main_v109 : Ref sig .tc := ⟨.hbm, 200, rfl⟩
abbrev main_v110 : Ref sig .tc := ⟨.hbm, 201, rfl⟩
abbrev main_v111 : Ref sig .tc := ⟨.hbm, 202, rfl⟩
abbrev main_v112 : Ref sig .tc := ⟨.hbm, 203, rfl⟩
abbrev main_v113 : Ref sig .tc := ⟨.hbm, 204, rfl⟩
abbrev main_v114 : Ref sig .tc := ⟨.hbm, 205, rfl⟩
abbrev main_v115 : Ref sig .tc := ⟨.hbm, 206, rfl⟩
abbrev main_v116 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_call3_cst : Ref sig .tc := ⟨.hbm, 211, rfl⟩
abbrev main_call3_v0 : Ref sig .tc := ⟨.hbm, 212, rfl⟩
abbrev main_v120 : Ref sig .tc := ⟨.hbm, 213, rfl⟩
abbrev main_cst_25 : Ref sig .tc := ⟨.hbm, 214, rfl⟩
abbrev main_v121 : Ref sig .tc := ⟨.hbm, 215, rfl⟩
abbrev main_v122 : Ref sig .tc := ⟨.hbm, 216, rfl⟩
abbrev main_v123 : Ref sig .tc := ⟨.hbm, 217, rfl⟩
abbrev main_v124 : Ref sig .tc := ⟨.hbm, 218, rfl⟩
abbrev main_v125 : Ref sig .tc := ⟨.hbm, 219, rfl⟩
abbrev main_v126 : Ref sig .tc := ⟨.hbm, 220, rfl⟩
abbrev main_v127 : Ref sig .tc := ⟨.hbm, 221, rfl⟩
abbrev main_v128 : Ref sig .tc := ⟨.hbm, 222, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S100000_S100000x1_0 : S100000.BroadcastsInDim S100000x1 (![0] : Fin 1 → Fin S100000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S512x128 : S_.BroadcastsInDim S512x128 (![] : Fin 0 → Fin S512x128.rank)
  transposes_S10x128_S128x10_1_0 : S10x128.Transposes [1, 0] S128x10
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  gather_S64x128_S100000x1_S100000x128_1_0_n_n_0_1_1128_wf : GatherDims.WF S64x128 S100000x1 S100000x128 [1] [0] [] [0] [] 1 ![1, 128]
  gather_S32x128_S100000x1_S100000x128_1_0_n_n_0_1_1128_wf : GatherDims.WF S32x128 S100000x1 S100000x128 [1] [0] [] [0] [] 1 ![1, 128]
  gather_S513x128_S100000x1_S100000x128_1_0_n_n_0_1_1128_wf : GatherDims.WF S513x128 S100000x1 S100000x128 [1] [0] [] [0] [] 1 ![1, 128]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  dot_S512x128_S128x10_S512x10_1_0_0_1_n_n_wf : DotDims.WF S512x128 S128x10 S512x10 [1] [0] [0] [1] [] []

variable [Facts₀]

def gather_S64x128_S100000x1_S100000x128_1_0_n_n_0_1_1128 : GatherDims S64x128 S100000x1 S100000x128 where
  offsetDims := [1]
  collapsedSliceDims := [0]
  operandBatchingDims := []
  startIndicesBatchingDims := []
  startIndexMap := [0]
  indexVectorDim := 1
  sliceSizes := ![1, 128]
  wf := gather_S64x128_S100000x1_S100000x128_1_0_n_n_0_1_1128_wf
def gather_S32x128_S100000x1_S100000x128_1_0_n_n_0_1_1128 : GatherDims S32x128 S100000x1 S100000x128 where
  offsetDims := [1]
  collapsedSliceDims := [0]
  operandBatchingDims := []
  startIndicesBatchingDims := []
  startIndexMap := [0]
  indexVectorDim := 1
  sliceSizes := ![1, 128]
  wf := gather_S32x128_S100000x1_S100000x128_1_0_n_n_0_1_1128_wf
def gather_S513x128_S100000x1_S100000x128_1_0_n_n_0_1_1128 : GatherDims S513x128 S100000x1 S100000x128 where
  offsetDims := [1]
  collapsedSliceDims := [0]
  operandBatchingDims := []
  startIndicesBatchingDims := []
  startIndexMap := [0]
  indexVectorDim := 1
  sliceSizes := ![1, 128]
  wf := gather_S513x128_S100000x1_S100000x128_1_0_n_n_0_1_1128_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.Kernel.SegCommon.lean ====
import proofs.«424731_j88648124990764_2_alg».proof.Proof.Gen.Kernel.Regions
import Idealize.ShloMosaic.Lib.Pipeline.RegionsLoop
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
variable {F : FTy → Type} [FloatOps F]
local notation "𝕄" => MT nD τ sig Unit (Elt F) ℕ (UR sig nD τ) ℕ
abbrev Lv0 : GSem nD τ sig → Finset Unit := fun _ => ∅
abbrev lv0 : GSem nD τ sig → Unit → ℕ := fun _ _ => 0
abbrev Rides (c : Dev nD) : sProp 𝕄 := iprop((∃ r, prngReg c r) ∗ ∃ W, owes (c : Thread nD τ) (0 : CellTallies nD τ sig Unit) W)
variable (pd : (p : Fin 6) → (c : Dev nD) → Dat τ (Elt F) Unit ℕ (UR sig nD τ) ℕ (Pipeline.pin (pcfgs (F := F)) adm p) c)

/-- No region of this program reads a table. -/
theorem pref_none (p : Fin 6) (c : Dev nD) :
    (BI.emp : sProp 𝕄) ⊢ Pipeline.prefHeld (pcfgs (F := F) p).pre c (fun _ => fullShare) (adm p).1 := by
  fin_cases p <;> (unfold Pipeline.prefHeld; rw [show (Finset.univ : Finset (Fin 0)) = ∅ from rfl, BI.bigSep_empty])

/-- Region `p` as a segment of @main, entered at the valuation `Vin` and left at `Vout`, which differs from `Vin` only at
    `outRefs`, arrays of the region's output windows, where it holds what the region's points wrote. -/
def regOf (p : Fin 6) (Vin Vout : (c : Dev nD) → Valuation τ sig (Elt F)) (hL : Pipeline.LaunchFacts (nD := nD) (τ := τ) cfgs p)
    (hbody : ∀ c, BodyObligation (pd p c) (defs₀ (F := F)) Variants.none () Set.univ)
    (hq : ∀ c w, (pd p c).q w = fullShare)
    (hA : ∀ c w, (pd p c).A w = Vin c (Pipeline.arrRef (Pipeline.pin (pcfgs (F := F)) adm p).spec w))
    (howed : ∀ c t, (pd p c).owed t = 0) (hbound : ∀ c x, x ∈ (pd p c).bound () 0)
    (hin : ∀ c, iprop((∃ r, prngReg c r) ∗ Pipeline.prefHeld (pcfgs (F := F) p).pre c (fun _ => fullShare) (adm p).1
      ∗ Pipeline.scopedRest (Pipeline.pin (pcfgs (F := F)) adm p).spec c) ⊢ (pd p c).Φ 0)
    (hout : ∀ c, (pd p c).Φ (Fin.last (Pipeline.pin (pcfgs (F := F)) adm p).N) ⊢ iprop((∃ r, prngReg c r) ∗ BI.emp ∗ Pipeline.scopedRest (Pipeline.pin (pcfgs (F := F)) adm p).spec c))
    (outRefs : List (Ref sig .tc)) (hsub : ∀ r ∈ outRefs, ∃ w, Pipeline.arrRef (Pipeline.pin (pcfgs (F := F)) adm p).spec w = r)
    (hof : ∀ c r, r ∉ outRefs → Vout c r = Vin c r)
    (hapart : ∀ w, ((Pipeline.pin (pcfgs (F := F)) adm p).win w).isOut = false → Pipeline.arrRef (Pipeline.pin (pcfgs (F := F)) adm p).spec w ∉ outRefs)
    (hfold : ∀ c w, ((Pipeline.pin (pcfgs (F := F)) adm p).win w).isOut = true → (pd p c).arrAt w (Pipeline.pin (pcfgs (F := F)) adm p).N = Vout c (Pipeline.arrRef (Pipeline.pin (pcfgs (F := F)) adm p).spec w)) :
    RegionSeg (pcfgs (F := F)) adm pd () defs₀ Variants.none Lv0 lv0 p where
  win := hL.win.to₀
  block_pos := hL.block_pos
  stage_whole := hL.stage_whole
  K := PEmpty
  osem k := k.elim
  ho := Pipeline.OwnSemFacts.none _
  hbody c := (hbody c).loose
  hwaits := Pipeline.hwaits_of_owed_zero _ _ _ _ Lv0 lv0 p howed
  pre c := iprop(StableHlo.held (c : Thread nD τ) (Pipeline.ucRefs τ sig) (Vin c) ∗ Rides c)
  post c := iprop(StableHlo.held (c : Thread nD τ) (Pipeline.ucRefs τ sig) (Vout c) ∗ Rides c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => Vin c b)
  hentry c := by
    rw [Pipeline.ownSems0_none]
    have hsplit := Pipeline.arrays_of_unscopedBufs (p := p) (pcfgs (F := F)) adm pd hL.win hL.arr_whole c ((pd p c).share_full (hq c)) (fun b => Vin c b) (hA c)
    rw [Pipeline.unscopedBufs_held] at hsplit
    iintro ⟨⟨Hheld, Hreg, Hdue⟩, -, -⟩
    ihave Hs := hsplit $$ Hheld
    icases Hs with ⟨Harr, Hrest⟩
    imodintro
    isplitl [Harr]; · iexact Harr
    isplitr; · iapply (pref_none p c); iempintro
    isplitl [Hdue]
    · unfold Pipeline.Dat.owesAt Pipeline.owesWithin
      rw [howed c 0]
      icases Hdue with ⟨%W, Hdue⟩; iexists W
      isplitr; · ipureintro; exact fun x _ => hbound c x
      iexact Hdue
    isplitl [Hreg]; · iexact Hreg
    iexact Hrest
  hin := hin
  hout c := by rw [Pipeline.ownSems0_none]; exact hout c
  hexit c := by
    have hF : ∀ w, (pd p c).arrAt w (Pipeline.pin (pcfgs (F := F)) adm p).N = Vout c (Pipeline.arrRef (Pipeline.pin (pcfgs (F := F)) adm p).spec w) := fun w => by
      cases hw : ((Pipeline.pin (pcfgs (F := F)) adm p).win w).isOut
      · exact ((pd p c).arrAt_in w hw _).trans ((hA c w).trans (hof c _ (hapart w hw)).symm)
      · exact hfold c w hw
    have hjoin := Pipeline.unscopedBufs_of_arrays (p := p) (pcfgs (F := F)) adm (Ix := Unit) (Name := ℕ) (U := UR sig nD τ) (Lvl := ℕ)
      hL.win hL.arr_whole c pd ((pd p c).share_full (hq c)) (fun b => Vin c b) (fun b => Vout c b) ((pd p c).arrAt · (Pipeline.pin (pcfgs (F := F)) adm p).N) hF
      (fun b hb => hof c b fun hmem => let ⟨w, e⟩ := hsub b hmem; hb (Finset.mem_image.mpr ⟨w, Finset.mem_univ _, e⟩))
    rw [Pipeline.unscopedBufs_held] at hjoin
    iintro ⟨Harr, Hdue, Hreg, Hrest⟩
    imodintro
    isplitl [Harr Hrest]
    · iapply hjoin; isplitl [Harr]; · iexact Harr
      iexact Hrest
    isplitl [Hreg]; · iexact Hreg
    unfold Pipeline.Dat.owesAt Pipeline.owesWithin
    rw [howed c _]
    icases Hdue with ⟨%W, -, Hdue⟩; iexists W; iexact Hdue

/-- The same for a region whose invariant is the same at every point. -/
def regA (p : Fin 6) (Vin Vout : (c : Dev nD) → Valuation τ sig (Elt F)) (hL : Pipeline.LaunchFacts (nD := nD) (τ := τ) cfgs p)
    (hbody : ∀ c, BodyObligation (pd p c) (defs₀ (F := F)) Variants.none () Set.univ)
    (hq : ∀ c w, (pd p c).q w = fullShare)
    (hA : ∀ c w, (pd p c).A w = Vin c (Pipeline.arrRef (Pipeline.pin (pcfgs (F := F)) adm p).spec w))
    (howed : ∀ c t, (pd p c).owed t = 0) (hbound : ∀ c x, x ∈ (pd p c).bound () 0)
    (hΦ : ∀ c n, (pd p c).Φ n = Pipeline.ΦA (Pipeline.pin (pcfgs (F := F)) adm p).spec c) :=
  regOf pd p Vin Vout hL hbody hq hA howed hbound
    (fun c => by
      rw [hΦ c 0]; unfold Pipeline.ΦA
      iintro ⟨Hreg, -, Hrest⟩
      isplitl [Hrest]; · iexact Hrest
      iexact Hreg)
    (fun c => by
      rw [hΦ c (Fin.last _)]; unfold Pipeline.ΦA
      iintro ⟨Hrest, Hreg⟩
      isplitl [Hreg]; · iexact Hreg
      isplitr; · iempintro
      iexact Hrest)

end Cert.Kernel.Hand

end
-- ==== Proof.Kernel.Region0.lean ====
import proofs.«424731_j88648124990764_2_alg».proof.Proof.Gen.Kernel.Launch
import proofs.«424731_j88648124990764_2_alg».proof.Proof.Gen.Kernel.Skeleton
import proofs.«424731_j88648124990764_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rIds0 : Rect S10000x1 := Rect.unit (s := S10000x1) ![0, 0] S10000x1.size inb_S10000x1_S10000x1_0_0
abbrev rShapeTab0 : Rect S64x128 := Rect.unit (s := S64x128) ![0, 0] S64x128.size inb_S64x128_S64x128_0_0
abbrev rColourTab0 : Rect S32x128 := Rect.unit (s := S32x128) ![0, 0] S32x128.size inb_S32x128_S32x128_0_0
abbrev rPosTab0 : Rect S640x128 := Rect.unit (s := S640x128) ![0, 0] S640x128.size inb_S640x128_S640x128_0_0
abbrev rRows0 : Rect S10000x128 := Rect.unit (s := S10000x128) ![0, 0] S10000x128.size inb_S10000x128_S10000x128_0_0

def embedRows0 (s k p : Vec F S10000x1 .i32) (ts : Vec F S64x128 .f32) (tk : Vec F S32x128 .f32) (tp : Vec F S640x128 .f32) :
    Vec F S10000x128 .bf16 :=
  View.canon [⟨rRows0, k0_pay1 (View.ld s rIds0) (View.ld k rIds0) (View.ld p rIds0)
    (View.ld ts rShapeTab0) (View.ld tk rColourTab0) (View.ld tp rPosTab0)⟩]

set_option maxHeartbeats 1000000 in
/-- The six inputs are only read; the one store covers the output block, so it reads as the stored payload. -/
theorem sound_kernel0 (c : Dev nD) (E : Set ℕ) (i : grid0.Coords)
    (arg1 : Memref sig .tc .vmem S10000x1 .i32) (harg1 : arg1.IsWhole) (arg2 : Memref sig .tc .vmem S10000x1 .i32) (harg2 : arg2.IsWhole)
    (arg3 : Memref sig .tc .vmem S10000x1 .i32) (harg3 : arg3.IsWhole) (arg4 : Memref sig .tc .vmem S64x128 .f32) (harg4 : arg4.IsWhole)
    (arg5 : Memref sig .tc .vmem S32x128 .f32) (harg5 : arg5.IsWhole) (arg6 : Memref sig .tc .vmem S640x128 .f32) (harg6 : arg6.IsWhole)
    (arg7 : Memref sig .tc .vmem S10000x128 .bf16) (harg7 : arg7.IsWhole)
    (s k p : Vec F S10000x1 .i32) (ts : Vec F S64x128 .f32) (tk : Vec F S32x128 .f32) (tp : Vec F S640x128 .f32) (K : PUnit → sProp 𝕄) :
    iprop(owns (c : Thread nD τ) arg1 fullShare s ∗ owns (c : Thread nD τ) arg2 fullShare k ∗ owns (c : Thread nD τ) arg3 fullShare p
        ∗ owns (c : Thread nD τ) arg4 fullShare ts ∗ owns (c : Thread nD τ) arg5 fullShare tk ∗ owns (c : Thread nD τ) arg6 fullShare tp
        ∗ (∃ d, owns (c : Thread nD τ) arg7 fullShare d)
        ∗ (iprop(owns (c : Thread nD τ) arg1 fullShare s ∗ owns (c : Thread nD τ) arg2 fullShare k ∗ owns (c : Thread nD τ) arg3 fullShare p
            ∗ owns (c : Thread nD τ) arg4 fullShare ts ∗ owns (c : Thread nD τ) arg5 fullShare tk ∗ owns (c : Thread nD τ) arg6 fullShare tp
            ∗ owns (c : Thread nD τ) arg7 fullShare (embedRows0 s k p ts tk tp)) -∗ K ⟨⟩))
      ⊢ wp frame (wpE (defs₀ (F := F)) Variants.none c none) E
          (cc0__embed_kernel i arg1 harg1 arg2 harg2 arg3 harg3 arg4 harg4 arg5 harg5 arg6 harg6 arg7 harg7) K := by
  simp only [cc0__embed_kernel_eq_skeleton, owns_eq_rep]; unfold cc0__embed_kernel_skel
  iintro ⟨Hs, Hk, Hp, Hts, Htk, Htp, ⟨%d, Ho⟩, Hcont⟩
  sl_exec
  sl_step
  iapply Hcont
  iframe Hs Hk Hp Hts Htk Htp
  iapply (rep_of_owns _ _ _ _)
  unfold owns
  iexists _; isplitr
  swap; · iexact Ho
  ipureintro
  rw [View.read_writes_eq_canon _ _ _ (View.cover_of_tiled _ S10000x128.size (by rfl))]
  simp only [View.readAt_rep]
  rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => embedRows0 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem dat0_Φ (c : Dev nD) (n : Fin (cfg0.N + 1)) : (dat0 V c).Φ n = Pipeline.ΦA spec0 c := rfl

theorem dat0_after_rows (c : Dev nD) (t : Fin cfg0.N) :
    (dat0 V c).after 6 t
      = embedRows0 (iblk0 V c 0 t) (iblk0 V c 1 t) (iblk0 V c 2 t) (iblk0 V c 3 t) (iblk0 V c 4 t) (iblk0 V c 5 t) := by
  dsimp only [dat0]

theorem found0 (c : Dev nD) (t : Fin cfg0.N) : (∀ d, (dat0 V c).before 0 t d = iblk0 V c 0 t) ∧ (∀ d, (dat0 V c).before 1 t d = iblk0 V c 1 t)
    ∧ (∀ d, (dat0 V c).before 2 t d = iblk0 V c 2 t) ∧ (∀ d, (dat0 V c).before 3 t d = iblk0 V c 3 t)
    ∧ (∀ d, (dat0 V c).before 4 t d = iblk0 V c 4 t) ∧ ∀ d, (dat0 V c).before 5 t d = iblk0 V c 5 t := by
  refine ⟨fun _ => ?_, fun _ => ?_, fun _ => ?_, fun _ => ?_, fun _ => ?_, fun _ => ?_⟩ <;> apply Dat.before_in_eq_fetched <;> intros <;> rfl

theorem body_obligation0 (c : Dev nD) : BodyObligation (dat0 (F := F) V c) (defs₀ (F := F)) Variants.none () Set.univ := fun t => by
  rw [bigSep_W0, bigSep_W0]
  dsimp only
  obtain ⟨h0, h1, h2, h3, h4, h5⟩ := found0 V c t
  simp only [h0, h1, h2, h3, h4, h5]
  dsimp only [dat0]
  change _ ⊢ wp _ _ _ (bodyAt0 t) _
  iintro ⟨HΦ, Howe, ⟨%_, Hs⟩, ⟨%_, Hk⟩, ⟨%_, Hp⟩, ⟨%_, Hts⟩, ⟨%_, Htk⟩, ⟨%_, Htp⟩, ⟨%d, Hout⟩⟩
  iapply (sound_kernel0 c Set.univ (grid0.coords t) _ _ _ _ _ _ _ _ _ _ _ _ _ _
    (iblk0 V c 0 t) (iblk0 V c 1 t) (iblk0 V c 2 t) (iblk0 V c 3 t) (iblk0 V c 4 t) (iblk0 V c 5 t) _)
  iframe Hs Hk Hp Hts Htk Htp
  isplitl [Hout]; · iexists _; iexact Hout
  iintro ⟨Hs, Hk, Hp, Hts, Htk, Htp, Hrows⟩
  iframe HΦ Hs Hk Hp Hts Htk Htp Hrows
  iexact Howe

end Cert.Kernel.Hand

end
-- ==== Proof.Kernel.Region1.lean ====
import proofs.«424731_j88648124990764_2_alg».proof.Proof.Gen.Kernel.Launch
import proofs.«424731_j88648124990764_2_alg».proof.Proof.Gen.Kernel.Skeleton
import proofs.«424731_j88648124990764_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem first1_iff (i : grid1.Coords) :
    (Scalar.cmpi .ne (Scalar.extui (Scalar.cmpi .eq (BitVec.ofNat 32 (i 0).val) 0#32) : BitVec 32) 0#32 = 1#1) ↔ (i 0).val = 0 := by
  have h : ∀ k : Fin 10, (Scalar.cmpi .ne (Scalar.extui (Scalar.cmpi .eq (BitVec.ofNat 32 k.val) 0#32) : BitVec 32) 0#32 = 1#1) ↔ k.val = 0 := by decide
  exact h (i 0)

abbrev rBlk1 : Rect S10000x128 := Rect.unit (s := S10000x128) ![0, 0] S10000x128.size inb_S10000x128_S10000x128_0_0
abbrev rMat1 : Rect S128x128 := Rect.unit (s := S128x128) ![0, 0] S128x128.size inb_S128x128_S128x128_0_0
abbrev rRow1 : Rect S1x128 := Rect.unit (s := S1x128) ![0, 0] S1x128.size inb_S1x128_S1x128_0_0

def out1_5 (x0 : Vec F S10000x128 .f32) (x1 : Vec F S10000x128 .bf16) (x2 : Vec F S128x128 .f32) (x3 : Vec F S1x128 .f32)
    (x4 : Vec F S128x128 .f32) : Vec F S10000x128 .f32 :=
  View.canon [⟨rBlk1, k1_pay3 (View.ld x0 rBlk1) (View.ld x1 rBlk1) (View.ld x2 rMat1) (View.ld x3 rRow1) (View.ld x4 rMat1)⟩]

def out1_6 (x0 : Vec F S10000x128 .f32) (x1 : Vec F S10000x128 .bf16) (x2 : Vec F S128x128 .f32) (x3 : Vec F S1x128 .f32)
    (x4 : Vec F S128x128 .f32) (p : Vec F S1x128 .f32) : Vec F S1x128 .f32 :=
  View.canon [⟨rRow1, k1_pay4 (View.ld x0 rBlk1) (View.ld x1 rBlk1) (View.ld x2 rMat1) (View.ld x3 rRow1) (View.ld x4 rMat1) (View.ld p rRow1)⟩]

def out1_7 (x0 : Vec F S10000x128 .f32) (x1 : Vec F S10000x128 .bf16) (x2 : Vec F S128x128 .f32) (x3 : Vec F S1x128 .f32)
    (x4 : Vec F S128x128 .f32) (p : Vec F S1x128 .f32) : Vec F S1x128 .f32 :=
  View.canon [⟨rRow1, k1_pay5 (View.ld x0 rBlk1) (View.ld x1 rBlk1) (View.ld x2 rMat1) (View.ld x3 rRow1) (View.ld x4 rMat1) (View.ld p rRow1)⟩]

def reset1_6 : Vec F S1x128 .f32 := View.canon [⟨rRow1, k1_pay1 (F := F)⟩]
def reset1_7 : Vec F S1x128 .f32 := View.canon [⟨rRow1, k1_pay2 (F := F)⟩]

theorem cover1_5 (w : Vec F S10000x128 .f32) (y : S10000x128.Idx) :
    ∃ pc ∈ ([⟨rBlk1, w⟩] : List (View.Piece (Elt F) S10000x128 .f32)), y ∈ pc.1.set :=
  View.cover_of_tiled [⟨rBlk1, w⟩] S10000x128.size (by rfl) y

theorem mem_rRow1 (y : S1x128.Idx) : y ∈ (rRow1).set := by
  obtain ⟨pc, hpc, hy⟩ := View.cover_of_tiled ([⟨rRow1, fun _ => ()⟩] : List (View.Piece (fun _ => Unit) S1x128 .f32)) S1x128.size (by rfl) y
  rw [List.mem_singleton] at hpc; subst hpc; exact hy

/-- A store of the whole row hides what the row held and every earlier write. -/
theorem read_row1 {κ : Kind} {sp : Space} (v : View sig κ sp S1x128 .f32) (f : v.ty.Contents (Elt F)) (w : Vec F S1x128 .f32)
    (L : List (View.Piece (Elt F) S1x128 .f32)) :
    v.read (Elt F) (v.writes (Elt F) f (⟨rRow1, w⟩ :: L)) = View.canon [⟨rRow1, w⟩] := by
  funext y
  obtain ⟨x, rfl⟩ := (rRow1).exists_idx_of_mem (mem_rRow1 y)
  exact (View.read_writes_apply_eq_canon v f _ (⟨rRow1, w⟩ :: L) ⟨_, List.mem_cons_self, mem_rRow1 _⟩).trans
    ((View.canon_cons_emb rRow1 w L x).trans (View.canon_cons_emb rRow1 w [] x).symm)

theorem readBack_row1 {κ : Kind} {sp : Space} (v : View sig κ sp S1x128 .f32) (w : Vec F S1x128 .f32) :
    v.readCov [⟨rRow1, w⟩] (rRow1).toLoadRect = View.ld (View.canon [⟨rRow1, w⟩]) rRow1 :=
  View.readCov_eq_canon_ld v _ rRow1 fun y => ⟨_, List.mem_singleton.mpr rfl, mem_rRow1 y⟩

set_option maxHeartbeats 1000000 in
/-- The body on whole buffers: the inputs are kept, window 5 takes y, and the two rows take their sums over the zero
    rows at the first point and over what they held at the others. -/
theorem sound_kernel1 (c : Dev nD) (E : Set ℕ) (i : grid1.Coords)
    (arg1 : Memref sig .tc .vmem S10000x128 .f32) (harg1 : arg1.IsWhole) (arg2 : Memref sig .tc .vmem S10000x128 .bf16) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S10000x128 .f32) (harg6 : arg6.IsWhole)
    (arg7 : Memref sig .tc .vmem S1x128 .f32) (harg7 : arg7.IsWhole) (arg8 : Memref sig .tc .vmem S1x128 .f32) (harg8 : arg8.IsWhole)
    (x0 : Vec F S10000x128 .f32) (x1 : Vec F S10000x128 .bf16) (x2 : Vec F S128x128 .f32) (x3 : Vec F S1x128 .f32) (x4 : Vec F S128x128 .f32)
    (d5 : Vec F S10000x128 .f32) (p6 p7 : Vec F S1x128 .f32) (K : PUnit → sProp 𝕄) :
    iprop(owns c.tc arg1 fullShare x0 ∗ owns c.tc arg2 fullShare x1 ∗ owns c.tc arg3 fullShare x2
        ∗ owns c.tc arg4 fullShare x3 ∗ owns c.tc arg5 fullShare x4
        ∗ owns c.tc arg6 fullShare d5 ∗ owns c.tc arg7 fullShare p6 ∗ owns c.tc arg8 fullShare p7
        ∗ (iprop(owns c.tc arg1 fullShare x0 ∗ owns c.tc arg2 fullShare x1 ∗ owns c.tc arg3 fullShare x2
        ∗ owns c.tc arg4 fullShare x3 ∗ owns c.tc arg5 fullShare x4
            ∗ owns c.tc arg6 fullShare (out1_5 x0 x1 x2 x3 x4)
            ∗ owns c.tc arg7 fullShare (out1_6 x0 x1 x2 x3 x4 (if (i 0).val = 0 then reset1_6 else p6))
            ∗ owns c.tc arg8 fullShare (out1_7 x0 x1 x2 x3 x4 (if (i 0).val = 0 then reset1_7 else p7))) -∗ K ⟨⟩))
      ⊢ wp frame (wpE (defs₀ (F := F)) Variants.none c none) E (cc1__sage_dense_kernel i arg1 harg1 arg2 harg2 arg3 harg3 arg4 harg4 arg5 harg5 arg6 harg6 arg7 harg7 arg8 harg8) K := by
  simp only [cc1__sage_dense_kernel_eq_skeleton]; unfold cc1__sage_dense_kernel_skel
  simp only [k1_part1_eq_skeleton]; unfold k1_part1_skel
  simp only [first1_iff]
  unfold owns
  iintro ⟨⟨%f0, %hf0, H0⟩, ⟨%f1, %hf1, H1⟩, ⟨%f2, %hf2, H2⟩, ⟨%f3, %hf3, H3⟩, ⟨%f4, %hf4, H4⟩, ⟨%f5, -, H5⟩, ⟨%f6, %hf6, H6⟩, ⟨%f7, %hf7, H7⟩, Hk⟩
  subst hf0 hf1 hf2 hf3 hf4 hf6 hf7
  by_cases hi : (i 0).val = 0 <;> simp only [hi, ↓reduceDIte, ↓reduceIte]
  all_goals
    sl_exec
    sl_step
    iapply Hk
    isplitl [H0]; swap; isplitl [H1]; swap; isplitl [H2]; swap; isplitl [H3]; swap; isplitl [H4]; swap; isplitl [H5]; swap; isplitl [H6]
    all_goals
      iexists _; isplitr
      swap; · iassumption
      ipureintro
      first
        | with_reducible rfl
        | exact View.read_writes_eq_canon _ _ _ (cover1_5 _)
        | (sl_unfold_run_names; rw [read_row1]; (try rw [readBack_row1]); rfl)

theorem coord1_eq : ∀ t : Fin cfg1.N, ((cfg1.grid.coords t) 0).val = t.val :=
  (by decide +kernel : ∀ t : Fin grid1.N, ((grid1.coords t) 0).val = t.val)

/-- The running column sums of y: what window 6's buffer holds after the body at point `n`. -/
def sumAt1 (c : Dev nD) : (n : ℕ) → n < cfg1.N → Vec F S1x128 .f32
  | 0, hn => out1_6 (iblk1 V c 0 ⟨0, hn⟩) (iblk1 V c 1 ⟨0, hn⟩) (iblk1 V c 2 ⟨0, hn⟩) (iblk1 V c 3 ⟨0, hn⟩) (iblk1 V c 4 ⟨0, hn⟩) reset1_6
  | n + 1, hn => out1_6 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
      (sumAt1 c n (Nat.lt_of_succ_lt hn))

/-- The running column sums of y², in window 7's buffer. -/
def sqAt1 (c : Dev nD) : (n : ℕ) → n < cfg1.N → Vec F S1x128 .f32
  | 0, hn => out1_7 (iblk1 V c 0 ⟨0, hn⟩) (iblk1 V c 1 ⟨0, hn⟩) (iblk1 V c 2 ⟨0, hn⟩) (iblk1 V c 3 ⟨0, hn⟩) (iblk1 V c 4 ⟨0, hn⟩) reset1_7
  | n + 1, hn => out1_7 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
      (sqAt1 c n (Nat.lt_of_succ_lt hn))

theorem sumAt1_zero (c : Dev nD) (hn : 0 < cfg1.N) :
    sumAt1 V c 0 hn = out1_6 (iblk1 V c 0 ⟨0, hn⟩) (iblk1 V c 1 ⟨0, hn⟩) (iblk1 V c 2 ⟨0, hn⟩) (iblk1 V c 3 ⟨0, hn⟩) (iblk1 V c 4 ⟨0, hn⟩) reset1_6 := by
  rw [sumAt1]
theorem sumAt1_succ (c : Dev nD) (n : ℕ) (hn : n + 1 < cfg1.N) :
    sumAt1 V c (n + 1) hn = out1_6 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
      (sumAt1 V c n (Nat.lt_of_succ_lt hn)) := by
  rw [sumAt1]
theorem sqAt1_zero (c : Dev nD) (hn : 0 < cfg1.N) :
    sqAt1 V c 0 hn = out1_7 (iblk1 V c 0 ⟨0, hn⟩) (iblk1 V c 1 ⟨0, hn⟩) (iblk1 V c 2 ⟨0, hn⟩) (iblk1 V c 3 ⟨0, hn⟩) (iblk1 V c 4 ⟨0, hn⟩) reset1_7 := by
  rw [sqAt1]
theorem sqAt1_succ (c : Dev nD) (n : ℕ) (hn : n + 1 < cfg1.N) :
    sqAt1 V c (n + 1) hn = out1_7 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
      (sqAt1 V c n (Nat.lt_of_succ_lt hn)) := by
  rw [sqAt1]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => sumAt1 V c t.val t.isLt
    | ⟨7, _⟩ => sqAt1 V c t.val t.isLt
  Φ _ := Pipeline.ΦA spec1 c
  q _ := fullShare
  owed _ := 0

theorem dat1_after_out5 (c : Dev nD) (t : Fin cfg1.N) :
    (dat1 V c).after 5 t = out1_5 (iblk1 V c 0 t) (iblk1 V c 1 t) (iblk1 V c 2 t) (iblk1 V c 3 t) (iblk1 V c 4 t) := by dsimp only [dat1]
theorem dat1_after_out6 (c : Dev nD) (t : Fin cfg1.N) : (dat1 V c).after 6 t = sumAt1 V c t.val t.isLt := by dsimp only [dat1]
theorem dat1_after_out7 (c : Dev nD) (t : Fin cfg1.N) : (dat1 V c).after 7 t = sqAt1 V c t.val t.isLt := by dsimp only [dat1]
theorem dat1_Φ (c : Dev nD) (n : Fin (cfg1.N + 1)) : (dat1 V c).Φ n = Pipeline.ΦA spec1 c := by dsimp only [dat1]

/-- Each input's buffer holds the point's block at every point. -/
theorem found1 (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t)
      ∧ (∀ d, (dat1 V c).before 3 t d = iblk1 V c 3 t) ∧ (∀ d, (dat1 V c).before 4 t d = iblk1 V c 4 t) :=
  ⟨(dat1 V c).before_in_eq_fetched 0 rfl (fun _ => rfl) (fun _ _ _ => rfl) (fun _ => rfl) t,
   (dat1 V c).before_in_eq_fetched 1 rfl (fun _ => rfl) (fun _ _ _ => rfl) (fun _ => rfl) t,
   (dat1 V c).before_in_eq_fetched 2 rfl (fun _ => rfl) (fun _ _ _ => rfl) (fun _ => rfl) t,
   (dat1 V c).before_in_eq_fetched 3 rfl (fun _ => rfl) (fun _ _ _ => rfl) (fun _ => rfl) t,
   (dat1 V c).before_in_eq_fetched 4 rfl (fun _ => rfl) (fun _ _ _ => rfl) (fun _ => rfl) t⟩

/-- What a point leaves in the two rows is the body's sum over the zero row at the first point and over what the
    row held, which is what the point before left, at the others. -/
theorem carried1 (c : Dev nD) (t : Fin cfg1.N) (d6 d7) :
    (dat1 V c).after 6 t = out1_6 (iblk1 V c 0 t) (iblk1 V c 1 t) (iblk1 V c 2 t) (iblk1 V c 3 t) (iblk1 V c 4 t)
        (if ((grid1.coords t) 0).val = 0 then reset1_6 else (dat1 V c).before 6 t d6)
    ∧ (dat1 V c).after 7 t = out1_7 (iblk1 V c 0 t) (iblk1 V c 1 t) (iblk1 V c 2 t) (iblk1 V c 3 t) (iblk1 V c 4 t)
        (if ((grid1.coords t) 0).val = 0 then reset1_7 else (dat1 V c).before 7 t d7) := by
  rw [dat1_after_out6, dat1_after_out7, show ((grid1.coords t) 0).val = t.val from coord1_eq t]
  obtain ⟨_ | n, hn⟩ := t
  · rw [if_pos rfl, if_pos rfl]; exact ⟨sumAt1_zero V c hn, sqAt1_zero V c hn⟩
  · have hN : n + 1 < 10 := lt_of_lt_of_eq hn N_1
    rw [if_neg n.succ_ne_zero, if_neg n.succ_ne_zero,
      Dat.before_out_kept _ 6 rfl _ n.succ_ne_zero (Bool.eq_false_iff.mpr fun h => by have := (flush1_6 _).mp h; dsimp only at this; omega)
        (fun _ => rfl) (fun _ _ => rfl),
      Dat.before_out_kept _ 7 rfl _ n.succ_ne_zero (Bool.eq_false_iff.mpr fun h => by have := (flush1_7 _).mp h; dsimp only at this; omega)
        (fun _ => rfl) (fun _ _ => rfl)]
    exact ⟨sumAt1_succ V c n hn, sqAt1_succ V c n hn⟩

theorem body_obligation1 (c : Dev nD) : BodyObligation (dat1 (F := F) V c) (defs₀ (F := F)) Variants.none () Set.univ := fun t => by
  rw [bigSep_W1, bigSep_W1]
  dsimp only
  show iprop(_ ∗ _ ∗ _ ∗ _ ∗ _ ∗ _ ∗ _ ∗ _ ∗ _ ∗ _)
    ⊢ wp _ _ _ (bodyAt1 t) fun _ => iprop((dat1 V c).Φ t.castSucc ∗ (dat1 V c).owesAt () t.castSucc
      ∗ owns c.tc (st1_0 t) _ (iblk1 V c 0 t) ∗ owns c.tc (st1_1 t) _ (iblk1 V c 1 t) ∗ owns c.tc (st1_2 t) _ (iblk1 V c 2 t) ∗ owns c.tc (st1_3 t) _ (iblk1 V c 3 t)
      ∗ owns c.tc (st1_4 t) _ (iblk1 V c 4 t) ∗ owns c.tc (st1_5 t) _ _ ∗ owns c.tc (st1_6 t) _ _ ∗ owns c.tc (st1_7 t) _ _)
  obtain ⟨b0, b1, b2, b3, b4⟩ := found1 V c t
  simp only [b0, b1, b2, b3, b4]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [dat1_after_out5, (carried1 V c t d6 d7).1, (carried1 V c t d6 d7).2]
  iapply sound_kernel1 c Set.univ (grid1.coords t) (st1_0 t) _ (st1_1 t) _ (st1_2 t) _ (st1_3 t) _ (st1_4 t) _ (st1_5 t) _ (st1_6 t) _ (st1_7 t) _
    (iblk1 V c 0 t) (iblk1 V c 1 t) (iblk1 V c 2 t) (iblk1 V c 3 t) (iblk1 V c 4 t) ((dat1 V c).before 5 t d5) ((dat1 V c).before 6 t d6) ((dat1 V c).before 7 t d7) _
  iframe H0 H1 H2 H3 H4 H5 H6 H7
  iintro ⟨H0, H1, H2, H3, H4, H5, H6, H7⟩
  iframe

end Cert.Kernel.Hand

end
-- ==== Proof.Kernel.Region2.lean ====
import proofs.«424731_j88648124990764_2_alg».proof.Proof.Gen.Kernel.Launch
import proofs.«424731_j88648124990764_2_alg».proof.Proof.Gen.Kernel.Skeleton
import proofs.«424731_j88648124990764_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rAll2 : Rect S10000x128 := Rect.unit (s := S10000x128) ![0, 0] S10000x128.size inb_S10000x128_S10000x128_0_0
abbrev rRow2 : Rect S1x128 := Rect.unit (s := S1x128) ![0, 0] S1x128.size inb_S1x128_S1x128_0_0

def out2_3 (x0 : Vec F S10000x128 .f32) (x1 : Vec F S1x128 .f32) (x2 : Vec F S1x128 .f32) : Vec F S10000x128 .bf16 :=
  View.canon [⟨rAll2, k2_pay1 (View.ld x0 rAll2) (View.ld x1 rRow2) (View.ld x2 rRow2)⟩]

set_option maxHeartbeats 1000000 in
/-- The three inputs are only read; the one store covers the output block, so it reads as the stored payload. -/
theorem sound_kernel2 (c : Dev nD) (E : Set ℕ) (i : grid2.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S10000x128 .bf16) (harg4 : arg4.IsWhole)
    (x0 : Vec F S10000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__bn_relu_kernel i arg1 harg1 arg2 harg2 arg3 harg3 arg4 harg4) K := by
  simp only [cc2__bn_relu_kernel_eq_skeleton, owns_eq_rep]; unfold cc2__bn_relu_kernel_skel
  iintro ⟨H0, H1, H2, ⟨%d, H3⟩, Hk⟩
  sl_exec
  sl_step
  iapply Hk
  iframe H0 H1 H2
  iapply (rep_of_owns _ _ _ _)
  unfold owns
  iexists _; isplitr
  swap; · iexact H3
  ipureintro
  rw [View.read_writes_eq_canon _ _ _ (View.cover_of_tiled _ S10000x128.size (by rfl))]
  simp only [View.readAt_rep]
  rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem dat2_after_out (c : Dev nD) (t : Fin cfg2.N) :
    (dat2 V c).after 3 t = out2_3 (iblk2 V c 0 t) (iblk2 V c 1 t) (iblk2 V c 2 t) := by dsimp only [dat2]

theorem found2 (c : Dev nD) (t : Fin cfg2.N) : (∀ d, (dat2 V c).before 0 t d = iblk2 V c 0 t)
    ∧ (∀ d, (dat2 V c).before 1 t d = iblk2 V c 1 t) ∧ ∀ d, (dat2 V c).before 2 t d = iblk2 V c 2 t := by
  refine ⟨fun _ => ?_, fun _ => ?_, fun _ => ?_⟩ <;> apply Dat.before_in_eq_fetched <;> intros <;> rfl

theorem body_obligation2 (c : Dev nD) : BodyObligation (dat2 (F := F) V c) (defs₀ (F := F)) Variants.none () Set.univ := fun t => by
  rw [bigSep_W2, bigSep_W2]
  dsimp only
  simp only [(found2 V c t).1, (found2 V c t).2.1, (found2 V c t).2.2]
  dsimp only [dat2]
  change _ ⊢ wp _ _ _ (bodyAt2 t) _
  iintro ⟨HΦ, Ho, ⟨%_, H0⟩, ⟨%_, H1⟩, ⟨%_, H2⟩, ⟨%_, H3⟩⟩
  iapply (sound_kernel2 c Set.univ _ _ _ _ _ _ _ _ _ (iblk2 V c 0 t) (iblk2 V c 1 t) (iblk2 V c 2 t) _)
  iframe H0 H1 H2
  isplitl [H3]; · iexists _; iexact H3
  iintro ⟨H0, H1, H2, H3⟩
  iframe HΦ H0 H1 H2 H3
  iexact Ho

end Cert.Kernel.Hand

end
-- ==== Proof.Kernel.Region3.lean ====
import proofs.«424731_j88648124990764_2_alg».proof.Proof.Gen.Kernel.Launch
import proofs.«424731_j88648124990764_2_alg».proof.Proof.Gen.Kernel.Skeleton
import proofs.«424731_j88648124990764_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem first3_iff (i : grid3.Coords) :
    (Scalar.cmpi .ne (Scalar.extui (Scalar.cmpi .eq (BitVec.ofNat 32 (i 0).val) 0#32) : BitVec 32) 0#32 = 1#1) ↔ (i 0).val = 0 := by
  have h : ∀ k : Fin 10, (Scalar.cmpi .ne (Scalar.extui (Scalar.cmpi .eq (BitVec.ofNat 32 k.val) 0#32) : BitVec 32) 0#32 = 1#1) ↔ k.val = 0 := by decide
  exact h (i 0)

abbrev rBlk3 : Rect S10000x128 := Rect.unit (s := S10000x128) ![0, 0] S10000x128.size inb_S10000x128_S10000x128_0_0
abbrev rMat3 : Rect S128x128 := Rect.unit (s := S128x128) ![0, 0] S128x128.size inb_S128x128_S128x128_0_0
abbrev rRow3 : Rect S1x128 := Rect.unit (s := S1x128) ![0, 0] S1x128.size inb_S1x128_S1x128_0_0

def out3_5 (x0 : Vec F S10000x128 .f32) (x1 : Vec F S10000x128 .bf16) (x2 : Vec F S128x128 .f32) (x3 : Vec F S1x128 .f32)
    (x4 : Vec F S128x128 .f32) : Vec F S10000x128 .f32 :=
  View.canon [⟨rBlk3, k3_pay3 (View.ld x0 rBlk3) (View.ld x1 rBlk3) (View.ld x2 rMat3) (View.ld x3 rRow3) (View.ld x4 rMat3)⟩]

def out3_6 (x0 : Vec F S10000x128 .f32) (x1 : Vec F S10000x128 .bf16) (x2 : Vec F S128x128 .f32) (x3 : Vec F S1x128 .f32)
    (x4 : Vec F S128x128 .f32) (p : Vec F S1x128 .f32) : Vec F S1x128 .f32 :=
  View.canon [⟨rRow3, k3_pay4 (View.ld x0 rBlk3) (View.ld x1 rBlk3) (View.ld x2 rMat3) (View.ld x3 rRow3) (View.ld x4 rMat3) (View.ld p rRow3)⟩]

def out3_7 (x0 : Vec F S10000x128 .f32) (x1 : Vec F S10000x128 .bf16) (x2 : Vec F S128x128 .f32) (x3 : Vec F S1x128 .f32)
    (x4 : Vec F S128x128 .f32) (p : Vec F S1x128 .f32) : Vec F S1x128 .f32 :=
  View.canon [⟨rRow3, k3_pay5 (View.ld x0 rBlk3) (View.ld x1 rBlk3) (View.ld x2 rMat3) (View.ld x3 rRow3) (View.ld x4 rMat3) (View.ld p rRow3)⟩]

def reset3_6 : Vec F S1x128 .f32 := View.canon [⟨rRow3, k3_pay1 (F := F)⟩]
def reset3_7 : Vec F S1x128 .f32 := View.canon [⟨rRow3, k3_pay2 (F := F)⟩]

theorem cover3_5 (w : Vec F S10000x128 .f32) (y : S10000x128.Idx) :
    ∃ pc ∈ ([⟨rBlk3, w⟩] : List (View.Piece (Elt F) S10000x128 .f32)), y ∈ pc.1.set :=
  View.cover_of_tiled [⟨rBlk3, w⟩] S10000x128.size (by rfl) y

theorem mem_rRow3 (y : S1x128.Idx) : y ∈ (rRow3).set := by
  obtain ⟨pc, hpc, hy⟩ := View.cover_of_tiled ([⟨rRow3, fun _ => ()⟩] : List (View.Piece (fun _ => Unit) S1x128 .f32)) S1x128.size (by rfl) y
  rw [List.mem_singleton] at hpc; subst hpc; exact hy

/-- A store of the whole row hides what the row held and every earlier write. -/
theorem read_row3 {κ : Kind} {sp : Space} (v : View sig κ sp S1x128 .f32) (f : v.ty.Contents (Elt F)) (w : Vec F S1x128 .f32)
    (L : List (View.Piece (Elt F) S1x128 .f32)) :
    v.read (Elt F) (v.writes (Elt F) f (⟨rRow3, w⟩ :: L)) = View.canon [⟨rRow3, w⟩] := by
  funext y
  obtain ⟨x, rfl⟩ := (rRow3).exists_idx_of_mem (mem_rRow3 y)
  exact (View.read_writes_apply_eq_canon v f _ (⟨rRow3, w⟩ :: L) ⟨_, List.mem_cons_self, mem_rRow3 _⟩).trans
    ((View.canon_cons_emb rRow3 w L x).trans (View.canon_cons_emb rRow3 w [] x).symm)

theorem readBack_row3 {κ : Kind} {sp : Space} (v : View sig κ sp S1x128 .f32) (w : Vec F S1x128 .f32) :
    v.readCov [⟨rRow3, w⟩] (rRow3).toLoadRect = View.ld (View.canon [⟨rRow3, w⟩]) rRow3 :=
  View.readCov_eq_canon_ld v _ rRow3 fun y => ⟨_, List.mem_singleton.mpr rfl, mem_rRow3 y⟩

set_option maxHeartbeats 1000000 in
/-- The body on whole buffers: the inputs are kept, window 5 takes y, and the two rows take their sums over the zero
    rows at the first point and over what they held at the others. -/
theorem sound_kernel3 (c : Dev nD) (E : Set ℕ) (i : grid3.Coords)
    (arg1 : Memref sig .tc .vmem S10000x128 .f32) (harg1 : arg1.IsWhole) (arg2 : Memref sig .tc .vmem S10000x128 .bf16) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S10000x128 .f32) (harg6 : arg6.IsWhole)
    (arg7 : Memref sig .tc .vmem S1x128 .f32) (harg7 : arg7.IsWhole) (arg8 : Memref sig .tc .vmem S1x128 .f32) (harg8 : arg8.IsWhole)
    (x0 : Vec F S10000x128 .f32) (x1 : Vec F S10000x128 .bf16) (x2 : Vec F S128x128 .f32) (x3 : Vec F S1x128 .f32) (x4 : Vec F S128x128 .f32)
    (d5 : Vec F S10000x128 .f32) (p6 p7 : Vec F S1x128 .f32) (K : PUnit → sProp 𝕄) :
    iprop(owns c.tc arg1 fullShare x0 ∗ owns c.tc arg2 fullShare x1 ∗ owns c.tc arg3 fullShare x2
        ∗ owns c.tc arg4 fullShare x3 ∗ owns c.tc arg5 fullShare x4
        ∗ owns c.tc arg6 fullShare d5 ∗ owns c.tc arg7 fullShare p6 ∗ owns c.tc arg8 fullShare p7
        ∗ (iprop(owns c.tc arg1 fullShare x0 ∗ owns c.tc arg2 fullShare x1 ∗ owns c.tc arg3 fullShare x2
        ∗ owns c.tc arg4 fullShare x3 ∗ owns c.tc arg5 fullShare x4
            ∗ owns c.tc arg6 fullShare (out3_5 x0 x1 x2 x3 x4)
            ∗ owns c.tc arg7 fullShare (out3_6 x0 x1 x2 x3 x4 (if (i 0).val = 0 then reset3_6 else p6))
            ∗ owns c.tc arg8 fullShare (out3_7 x0 x1 x2 x3 x4 (if (i 0).val = 0 then reset3_7 else p7))) -∗ K ⟨⟩))
      ⊢ wp frame (wpE (defs₀ (F := F)) Variants.none c none) E (cc3__sage_dense_kernel i arg1 harg1 arg2 harg2 arg3 harg3 arg4 harg4 arg5 harg5 arg6 harg6 arg7 harg7 arg8 harg8) K := by
  simp only [cc3__sage_dense_kernel_eq_skeleton]; unfold cc3__sage_dense_kernel_skel
  simp only [k3_part1_eq_skeleton]; unfold k3_part1_skel
  simp only [first3_iff]
  unfold owns
  iintro ⟨⟨%f0, %hf0, H0⟩, ⟨%f1, %hf1, H1⟩, ⟨%f2, %hf2, H2⟩, ⟨%f3, %hf3, H3⟩, ⟨%f4, %hf4, H4⟩, ⟨%f5, -, H5⟩, ⟨%f6, %hf6, H6⟩, ⟨%f7, %hf7, H7⟩, Hk⟩
  subst hf0 hf1 hf2 hf3 hf4 hf6 hf7
  by_cases hi : (i 0).val = 0 <;> simp only [hi, ↓reduceDIte, ↓reduceIte]
  all_goals
    sl_exec
    sl_step
    iapply Hk
    isplitl [H0]; swap; isplitl [H1]; swap; isplitl [H2]; swap; isplitl [H3]; swap; isplitl [H4]; swap; isplitl [H5]; swap; isplitl [H6]
    all_goals
      iexists _; isplitr
      swap; · iassumption
      ipureintro
      first
        | with_reducible rfl
        | exact View.read_writes_eq_canon _ _ _ (cover3_5 _)
        | (sl_unfold_run_names; rw [read_row3]; (try rw [readBack_row3]); rfl)

theorem coord3_eq : ∀ t : Fin cfg3.N, ((cfg3.grid.coords t) 0).val = t.val :=
  (by decide +kernel : ∀ t : Fin grid3.N, ((grid3.coords t) 0).val = t.val)

/-- The running column sums of y: what window 6's buffer holds after the body at point `n`. -/
def sumAt3 (c : Dev nD) : (n : ℕ) → n < cfg3.N → Vec F S1x128 .f32
  | 0, hn => out3_6 (iblk3 V c 0 ⟨0, hn⟩) (iblk3 V c 1 ⟨0, hn⟩) (iblk3 V c 2 ⟨0, hn⟩) (iblk3 V c 3 ⟨0, hn⟩) (iblk3 V c 4 ⟨0, hn⟩) reset3_6
  | n + 1, hn => out3_6 (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩)
      (sumAt3 c n (Nat.lt_of_succ_lt hn))

/-- The running column sums of y², in window 7's buffer. -/
def sqAt3 (c : Dev nD) : (n : ℕ) → n < cfg3.N → Vec F S1x128 .f32
  | 0, hn => out3_7 (iblk3 V c 0 ⟨0, hn⟩) (iblk3 V c 1 ⟨0, hn⟩) (iblk3 V c 2 ⟨0, hn⟩) (iblk3 V c 3 ⟨0, hn⟩) (iblk3 V c 4 ⟨0, hn⟩) reset3_7
  | n + 1, hn => out3_7 (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩)
      (sqAt3 c n (Nat.lt_of_succ_lt hn))

theorem sumAt3_zero (c : Dev nD) (hn : 0 < cfg3.N) :
    sumAt3 V c 0 hn = out3_6 (iblk3 V c 0 ⟨0, hn⟩) (iblk3 V c 1 ⟨0, hn⟩) (iblk3 V c 2 ⟨0, hn⟩) (iblk3 V c 3 ⟨0, hn⟩) (iblk3 V c 4 ⟨0, hn⟩) reset3_6 := by
  rw [sumAt3]
theorem sumAt3_succ (c : Dev nD) (n : ℕ) (hn : n + 1 < cfg3.N) :
    sumAt3 V c (n + 1) hn = out3_6 (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩)
      (sumAt3 V c n (Nat.lt_of_succ_lt hn)) := by
  rw [sumAt3]
theorem sqAt3_zero (c : Dev nD) (hn : 0 < cfg3.N) :
    sqAt3 V c 0 hn = out3_7 (iblk3 V c 0 ⟨0, hn⟩) (iblk3 V c 1 ⟨0, hn⟩) (iblk3 V c 2 ⟨0, hn⟩) (iblk3 V c 3 ⟨0, hn⟩) (iblk3 V c 4 ⟨0, hn⟩) reset3_7 := by
  rw [sqAt3]
theorem sqAt3_succ (c : Dev nD) (n : ℕ) (hn : n + 1 < cfg3.N) :
    sqAt3 V c (n + 1) hn = out3_7 (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩)
      (sqAt3 V c n (Nat.lt_of_succ_lt hn)) := by
  rw [sqAt3]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
    | ⟨6, _⟩ => sumAt3 V c t.val t.isLt
    | ⟨7, _⟩ => sqAt3 V c t.val t.isLt
  Φ _ := Pipeline.ΦA spec3 c
  q _ := fullShare
  owed _ := 0

theorem dat3_after_out5 (c : Dev nD) (t : Fin cfg3.N) :
    (dat3 V c).after 5 t = out3_5 (iblk3 V c 0 t) (iblk3 V c 1 t) (iblk3 V c 2 t) (iblk3 V c 3 t) (iblk3 V c 4 t) := by dsimp only [dat3]
theorem dat3_after_out6 (c : Dev nD) (t : Fin cfg3.N) : (dat3 V c).after 6 t = sumAt3 V c t.val t.isLt := by dsimp only [dat3]
theorem dat3_after_out7 (c : Dev nD) (t : Fin cfg3.N) : (dat3 V c).after 7 t = sqAt3 V c t.val t.isLt := by dsimp only [dat3]
theorem dat3_Φ (c : Dev nD) (n : Fin (cfg3.N + 1)) : (dat3 V c).Φ n = Pipeline.ΦA spec3 c := by dsimp only [dat3]

/-- Each input's buffer holds the point's block at every point. -/
theorem found3 (c : Dev nD) (t : Fin cfg3.N) :
    (∀ d, (dat3 V c).before 0 t d = iblk3 V c 0 t) ∧ (∀ d, (dat3 V c).before 1 t d = iblk3 V c 1 t) ∧ (∀ d, (dat3 V c).before 2 t d = iblk3 V c 2 t)
      ∧ (∀ d, (dat3 V c).before 3 t d = iblk3 V c 3 t) ∧ (∀ d, (dat3 V c).before 4 t d = iblk3 V c 4 t) :=
  ⟨(dat3 V c).before_in_eq_fetched 0 rfl (fun _ => rfl) (fun _ _ _ => rfl) (fun _ => rfl) t,
   (dat3 V c).before_in_eq_fetched 1 rfl (fun _ => rfl) (fun _ _ _ => rfl) (fun _ => rfl) t,
   (dat3 V c).before_in_eq_fetched 2 rfl (fun _ => rfl) (fun _ _ _ => rfl) (fun _ => rfl) t,
   (dat3 V c).before_in_eq_fetched 3 rfl (fun _ => rfl) (fun _ _ _ => rfl) (fun _ => rfl) t,
   (dat3 V c).before_in_eq_fetched 4 rfl (fun _ => rfl) (fun _ _ _ => rfl) (fun _ => rfl) t⟩

/-- What a point leaves in the two rows is the body's sum over the zero row at the first point and over what the
    row held, which is what the point before left, at the others. -/
theorem carried3 (c : Dev nD) (t : Fin cfg3.N) (d6 d7) :
    (dat3 V c).after 6 t = out3_6 (iblk3 V c 0 t) (iblk3 V c 1 t) (iblk3 V c 2 t) (iblk3 V c 3 t) (iblk3 V c 4 t)
        (if ((grid3.coords t) 0).val = 0 then reset3_6 else (dat3 V c).before 6 t d6)
    ∧ (dat3 V c).after 7 t = out3_7 (iblk3 V c 0 t) (iblk3 V c 1 t) (iblk3 V c 2 t) (iblk3 V c 3 t) (iblk3 V c 4 t)
        (if ((grid3.coords t) 0).val = 0 then reset3_7 else (dat3 V c).before 7 t d7) := by
  rw [dat3_after_out6, dat3_after_out7, show ((grid3.coords t) 0).val = t.val from coord3_eq t]
  obtain ⟨_ | n, hn⟩ := t
  · rw [if_pos rfl, if_pos rfl]; exact ⟨sumAt3_zero V c hn, sqAt3_zero V c hn⟩
  · have hN : n + 1 < 10 := lt_of_lt_of_eq hn N_3
    rw [if_neg n.succ_ne_zero, if_neg n.succ_ne_zero,
      Dat.before_out_kept _ 6 rfl _ n.succ_ne_zero (Bool.eq_false_iff.mpr fun h => by have := (flush3_6 _).mp h; dsimp only at this; omega)
        (fun _ => rfl) (fun _ _ => rfl),
      Dat.before_out_kept _ 7 rfl _ n.succ_ne_zero (Bool.eq_false_iff.mpr fun h => by have := (flush3_7 _).mp h; dsimp only at this; omega)
        (fun _ => rfl) (fun _ _ => rfl)]
    exact ⟨sumAt3_succ V c n hn, sqAt3_succ V c n hn⟩

theorem body_obligation3 (c : Dev nD) : BodyObligation (dat3 (F := F) V c) (defs₀ (F := F)) Variants.none () Set.univ := fun t => by
  rw [bigSep_W3, bigSep_W3]
  dsimp only
  show iprop(_ ∗ _ ∗ _ ∗ _ ∗ _ ∗ _ ∗ _ ∗ _ ∗ _ ∗ _)
    ⊢ wp _ _ _ (bodyAt3 t) fun _ => iprop((dat3 V c).Φ t.castSucc ∗ (dat3 V c).owesAt () t.castSucc
      ∗ owns c.tc (st3_0 t) _ (iblk3 V c 0 t) ∗ owns c.tc (st3_1 t) _ (iblk3 V c 1 t) ∗ owns c.tc (st3_2 t) _ (iblk3 V c 2 t) ∗ owns c.tc (st3_3 t) _ (iblk3 V c 3 t)
      ∗ owns c.tc (st3_4 t) _ (iblk3 V c 4 t) ∗ owns c.tc (st3_5 t) _ _ ∗ owns c.tc (st3_6 t) _ _ ∗ owns c.tc (st3_7 t) _ _)
  obtain ⟨b0, b1, b2, b3, b4⟩ := found3 V c t
  simp only [b0, b1, b2, b3, b4]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [dat3_after_out5, (carried3 V c t d6 d7).1, (carried3 V c t d6 d7).2]
  iapply sound_kernel3 c Set.univ (grid3.coords t) (st3_0 t) _ (st3_1 t) _ (st3_2 t) _ (st3_3 t) _ (st3_4 t) _ (st3_5 t) _ (st3_6 t) _ (st3_7 t) _
    (iblk3 V c 0 t) (iblk3 V c 1 t) (iblk3 V c 2 t) (iblk3 V c 3 t) (iblk3 V c 4 t) ((dat3 V c).before 5 t d5) ((dat3 V c).before 6 t d6) ((dat3 V c).before 7 t d7) _
  iframe H0 H1 H2 H3 H4 H5 H6 H7
  iintro ⟨H0, H1, H2, H3, H4, H5, H6, H7⟩
  iframe

end Cert.Kernel.Hand

end
-- ==== Proof.Kernel.Region4.lean ====
import proofs.«424731_j88648124990764_2_alg».proof.Proof.Gen.Kernel.Launch
import proofs.«424731_j88648124990764_2_alg».proof.Proof.Gen.Kernel.Skeleton
import proofs.«424731_j88648124990764_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev rAll4 : Rect S10000x128 := Rect.unit (s := S10000x128) ![0, 0] S10000x128.size inb_S10000x128_S10000x128_0_0
abbrev rRow4 : Rect S1x128 := Rect.unit (s := S1x128) ![0, 0] S1x128.size inb_S1x128_S1x128_0_0

def out4_3 (x0 : Vec F S10000x128 .f32) (x1 : Vec F S1x128 .f32) (x2 : Vec F S1x128 .f32) : Vec F S10000x128 .bf16 :=
  View.canon [⟨rAll4, k4_pay1 (View.ld x0 rAll4) (View.ld x1 rRow4) (View.ld x2 rRow4)⟩]

set_option maxHeartbeats 1000000 in
/-- The three inputs are only read; the one store covers the output block, so it reads as the stored payload. -/
theorem sound_kernel4 (c : Dev nD) (E : Set ℕ) (i : grid4.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S10000x128 .bf16) (harg4 : arg4.IsWhole)
    (x0 : Vec F S10000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__bn_relu_kernel i arg1 harg1 arg2 harg2 arg3 harg3 arg4 harg4) K := by
  simp only [cc4__bn_relu_kernel_eq_skeleton, owns_eq_rep]; unfold cc4__bn_relu_kernel_skel
  iintro ⟨H0, H1, H2, ⟨%d, H3⟩, Hk⟩
  sl_exec
  sl_step
  iapply Hk
  iframe H0 H1 H2
  iapply (rep_of_owns _ _ _ _)
  unfold owns
  iexists _; isplitr
  swap; · iexact H3
  ipureintro
  rw [View.read_writes_eq_canon _ _ _ (View.cover_of_tiled _ S10000x128.size (by rfl))]
  simp only [View.readAt_rep]
  rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem dat4_after_out (c : Dev nD) (t : Fin cfg4.N) :
    (dat4 V c).after 3 t = out4_3 (iblk4 V c 0 t) (iblk4 V c 1 t) (iblk4 V c 2 t) := by dsimp only [dat4]

theorem found4 (c : Dev nD) (t : Fin cfg4.N) : (∀ d, (dat4 V c).before 0 t d = iblk4 V c 0 t)
    ∧ (∀ d, (dat4 V c).before 1 t d = iblk4 V c 1 t) ∧ ∀ d, (dat4 V c).before 2 t d = iblk4 V c 2 t := by
  refine ⟨fun _ => ?_, fun _ => ?_, fun _ => ?_⟩ <;> apply Dat.before_in_eq_fetched <;> intros <;> rfl

theorem body_obligation4 (c : Dev nD) : BodyObligation (dat4 (F := F) V c) (defs₀ (F := F)) Variants.none () Set.univ := fun t => by
  rw [bigSep_W4, bigSep_W4]
  dsimp only
  simp only [(found4 V c t).1, (found4 V c t).2.1, (found4 V c t).2.2]
  dsimp only [dat4]
  change _ ⊢ wp _ _ _ (bodyAt4 t) _
  iintro ⟨HΦ, Ho, ⟨%_, H0⟩, ⟨%_, H1⟩, ⟨%_, H2⟩, ⟨%_, H3⟩⟩
  iapply (sound_kernel4 c Set.univ _ _ _ _ _ _ _ _ _ (iblk4 V c 0 t) (iblk4 V c 1 t) (iblk4 V c 2 t) _)
  iframe H0 H1 H2
  isplitl [H3]; · iexists _; iexact H3
  iintro ⟨H0, H1, H2, H3⟩
  iframe HΦ H0 H1 H2 H3
  iexact Ho

end Cert.Kernel.Hand

end
-- ==== Proof.Kernel.Region5.lean ====
import proofs.«424731_j88648124990764_2_alg».proof.Proof.Gen.Kernel.Launch
import proofs.«424731_j88648124990764_2_alg».proof.Proof.Gen.Kernel.Skeleton
import proofs.«424731_j88648124990764_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev rX5 : Rect S10000x128 := Rect.unit (s := S10000x128) ![0, 0] S10000x128.size inb_S10000x128_S10000x128_0_0
abbrev rIds5 : Rect S10000x1 := Rect.unit (s := S10000x1) ![0, 0] S10000x1.size inb_S10000x1_S10000x1_0_0
abbrev rW5 : Rect S128x128 := Rect.unit (s := S128x128) ![0, 0] S128x128.size inb_S128x128_S128x128_0_0
abbrev rB5 : Rect S1x128 := Rect.unit (s := S1x128) ![0, 0] S1x128.size inb_S1x128_S1x128_0_0
abbrev rP5 : Rect S512x128 := Rect.unit (s := S512x128) ![0, 0] S512x128.size inb_S512x128_S512x128_0_0

abbrev first5 (i : grid5.Coords) : BitVec 1 :=
  Scalar.cmpi .ne (Scalar.extui (Scalar.cmpi .eq (BitVec.ofNat 32 (i 0).val) 0#32) : BitVec 32) 0#32

def zero5 : Vec F S512x128 .f32 := View.canon [⟨rP5, k5_pay1 (F := F)⟩]
def acc5 (x1 : Vec F S10000x1 .i32) (x0 : Vec F S10000x128 .bf16) (s : Vec F S512x128 .f32) : Vec F S512x128 .f32 :=
  View.canon [⟨rP5, k5_pay2 (View.ld x1 rIds5) (View.ld x0 rX5) (View.ld s rP5)⟩]
def out5_4 (s : Vec F S512x128 .f32) (x2 : Vec F S128x128 .f32) (x3 : Vec F S1x128 .f32) : Vec F S512x128 .f32 :=
  View.canon [⟨rP5, k5_pay3 (View.ld s rP5) (View.ld x2 rW5) (View.ld x3 rB5)⟩]

theorem hz5 : (![0, 0] : Fin 2 → ℕ) = fun _ => 0 := funext fun a => by fin_cases a <;> rfl

section
variable {κ : Kind} {sp : Space} (v : View sig κ sp S512x128 .f32) (p : Vec F S512x128 .f32) (L : List (View.Piece (Elt F) S512x128 .f32))

/-- A store of the whole block, last, covers it, -/
theorem cover5 (y : S512x128.Idx) : ∃ pc ∈ (⟨rP5, p⟩ :: L : List (View.Piece (Elt F) S512x128 .f32)), y ∈ pc.1.set :=
  ⟨_, List.mem_cons_self, View.mem_set_unit_zero (S := S512x128) hz5 inb_S512x128_S512x128_0_0 y⟩

/-- so the buffer then reads its payload, whatever was stored before, -/
theorem read_whole5 (f : v.ty.Contents (Elt F)) : v.read (Elt F) (v.writes (Elt F) f (⟨rP5, p⟩ :: L)) = View.canon [⟨rP5, p⟩] := by
  rw [View.read_writes_eq_canon _ _ _ (cover5 p L), View.canon_cons_unit_zero hz5, View.canon_unit_zero hz5]

/-- and so does a load of the whole block. -/
theorem ld_whole5 : v.readCov (⟨rP5, p⟩ :: L) rP5 = View.ld (View.canon [⟨rP5, p⟩]) rP5 := by
  rw [View.readCov_eq_canon_ld _ _ _ (cover5 p L), View.canon_cons_unit_zero hz5, View.canon_unit_zero hz5]

end

set_option maxHeartbeats 1000000 in
/-- The scratch is zeroed at the first point and gains the block's contraction at every point; the output block is stored from it at the last. -/
theorem sound_kernel5 (c : Dev nD) (E : Set ℕ) (i : grid5.Coords)
    (arg1 : Memref sig .tc .vmem S10000x128 .bf16) (harg1 : arg1.IsWhole) (arg2 : Memref sig .tc .vmem S10000x1 .i32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S512x128 .f32) (harg5 : arg5.IsWhole) (arg6 : Memref sig .tc .vmem S512x128 .f32) (harg6 : arg6.IsWhole)
    (x0 : Vec F S10000x128 .bf16) (x1 : Vec F S10000x1 .i32) (x2 : Vec F S128x128 .f32) (x3 : Vec F S1x128 .f32)
    (y s : Vec F S512x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare y ∗ owns (c : Thread nD τ) arg6 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (if k5_cond2 i = 1#1 then out5_4 (acc5 x1 x0 (if first5 i = 1#1 then zero5 else s)) x2 x3 else y)
            ∗ owns (c : Thread nD τ) arg6 fullShare (acc5 x1 x0 (if first5 i = 1#1 then zero5 else s))) -∗ K ⟨⟩))
      ⊢ wp frame (wpE (defs₀ (F := F)) Variants.none c none) E (cc5__pool_kernel i arg1 harg1 arg2 harg2 arg3 harg3 arg4 harg4 arg5 harg5 arg6 harg6) K := by
  simp only [cc5__pool_kernel_eq_skeleton, owns_eq_rep]; unfold cc5__pool_kernel_skel
  iintro ⟨H0, H1, H2, H3, H4, H5, Hk⟩
  by_cases h1 : first5 i = 1#1 <;> by_cases h2 : k5_cond2 i = 1#1
  all_goals
    first | rw [if_pos h1] | rw [if_neg h1]
    first | rw [if_pos h2] | rw [if_neg h2]
    sl_exec
    sl_step
    iapply Hk
    iframe H0 H1 H2 H3
    isplitl [H4] <;> first
      | (iapply (rep_of_owns _ _ _ _); unfold owns; iexists _; isplitr; rotate_left; iassumption; ipureintro
         sl_unfold_run_names; rw [read_whole5]; repeat rw [ld_whole5]
         simp only [View.readAt_rep]; rfl)
      | iexact H4

theorem first5_iff : ∀ t : Fin cfg5.N, first5 (grid5.coords t) = 1#1 ↔ t.val = 0 :=
  (by decide +kernel : ∀ t : Fin grid5.N, first5 (grid5.coords t) = 1#1 ↔ t.val = 0)
theorem last5_iff : ∀ t : Fin cfg5.N, k5_cond2 (grid5.coords t) = 1#1 ↔ t.val = 9 :=
  (by decide +kernel : ∀ t : Fin grid5.N, k5_cond2 (grid5.coords t) = 1#1 ↔ t.val = 9)

/-- The pooled sums after the points below `n`. -/
def pooledAt5 (c : Dev nD) : ℕ → Vec F S512x128 .f32
  | 0 => zero5
  | n + 1 => if h : n < cfg5.N then acc5 (iblk5 V c 1 ⟨n, h⟩) (iblk5 V c 0 ⟨n, h⟩) (pooledAt5 c n) else pooledAt5 c n

theorem pooledAt5_zero (c : Dev nD) : pooledAt5 V c 0 = zero5 := by rw [pooledAt5]
theorem pooledAt5_succ (c : Dev nD) (t : Fin cfg5.N) :
    pooledAt5 V c (t.val + 1) = acc5 (iblk5 V c 1 t) (iblk5 V c 0 t) (pooledAt5 V c t.val) := by
  rw [pooledAt5, dif_pos t.isLt]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (pooledAt5 V c (t.val + 1)) (iblk5 V c 2 t) (iblk5 V c 3 t)
  Φ n := iprop((∃ r, prngReg c r) ∗ Pipeline.scopedRestBut spec5 c [cc5_scratch0]
    ∗ ∃ s, ⌜n.val ≠ 0 → s = pooledAt5 V c n.val⌝ ∗ owns (c : Thread nD τ) (Memref.whole cc5_scratch0) fullShare s)
  q _ := fullShare
  owed _ := 0

theorem dat5_after_last (c : Dev nD) :
    (dat5 V c).after 4 t5_9 = out5_4 (pooledAt5 V c 10) (iblk5 V c 2 t5_9) (iblk5 V c 3 t5_9) := rfl

theorem Φ5_in (c : Dev nD) : iprop((∃ r, prngReg c r) ∗ Pipeline.scopedRest spec5 c) ⊢ ((dat5 V c).Φ 0 : sProp 𝕄) := by
  rw [scopedRest5_split]; dsimp only [dat5]
  iintro ⟨Hr, ⟨%f, Hs⟩, Hrest⟩
  iframe Hr Hrest
  iexists f; isplitr
  · ipureintro; exact fun h => absurd rfl h
  rw [owns_whole]; iexact Hs

theorem Φ5_out (c : Dev nD) : ((dat5 V c).Φ (Fin.last cfg5.N) : sProp 𝕄) ⊢ iprop((∃ r, prngReg c r) ∗ Pipeline.scopedRest spec5 c) := by
  rw [scopedRest5_split]; dsimp only [dat5]; simp only [owns_whole]
  iintro ⟨Hr, Hrest, ⟨%s, -, Hs⟩⟩
  iframe Hr Hrest
  iexists s; iexact Hs

theorem found5 (c : Dev nD) (t : Fin cfg5.N) : (∀ d, (dat5 V c).before 0 t d = iblk5 V c 0 t) ∧ (∀ d, (dat5 V c).before 1 t d = iblk5 V c 1 t)
    ∧ (∀ d, (dat5 V c).before 2 t d = iblk5 V c 2 t) ∧ ∀ d, (dat5 V c).before 3 t d = iblk5 V c 3 t := by
  refine ⟨fun _ => ?_, fun _ => ?_, fun _ => ?_, fun _ => ?_⟩ <;> apply Dat.before_in_eq_fetched <;> intros <;> rfl

/-- The output block is stored at the last point alone; at the others it is left as found. -/
theorem leaves5_4 (c : Dev nD) (t : Fin cfg5.N) (d : (cfg5.win 4).block.Idx → Elt F (cfg5.win 4).elt) :
    owns (c : Thread nD τ) (st5_4 t) fullShare
        (if k5_cond2 (grid5.coords t) = 1#1 then (dat5 V c).after 4 t else (dat5 V c).before 4 t d)
      ⊢ ((dat5 V c).leavesExact 4 t : sProp 𝕄) := by
  have hidle : cfg5.idle 4 (cfg5.grid.coords t) = !(k5_cond2 (grid5.coords t) == 1#1) := rfl
  by_cases h : k5_cond2 (grid5.coords t) = 1#1
  · rw [if_pos h]; unfold Dat.leavesExact; rw [hidle, h]; rfl
  · have hf : (cfg5.win 4).flush t = false := Bool.eq_false_iff.2 fun hfl => h ((last5_iff t).2 (by
      have := (flush5_4 t).1 hfl; have := Nat.lt_of_lt_of_eq t.isLt N_5; omega))
    rw [if_neg h, Dat.leavesExact_idle _ 4 t (by rw [hidle, beq_false_of_ne h]; rfl) hf]
    iintro H; iexists d; iexact H

theorem body_obligation5 (c : Dev nD) : BodyObligation (dat5 (F := F) V c) (defs₀ (F := F)) Variants.none () Set.univ := fun t => by
  rw [bigSep_W5, bigSep_W5]
  dsimp only
  simp only [(found5 V c t).1, (found5 V c t).2.1, (found5 V c t).2.2.1, (found5 V c t).2.2.2]
  change _ ⊢ wp _ _ _ (bodyAt5 t) fun _ => iprop(_ ∗ _ ∗ _ ∗ _ ∗ _ ∗ _ ∗ (dat5 V c).leavesExact 4 t)
  dsimp only [dat5]
  iintro ⟨⟨Hr, Hrest, ⟨%s, %hs, Hs⟩⟩, Ho, ⟨%_, H0⟩, ⟨%_, H1⟩, ⟨%_, H2⟩, ⟨%_, H3⟩, ⟨%d4, H4⟩⟩
  iapply (sound_kernel5 c Set.univ (grid5.coords t) _ _ _ _ _ _ _ _ _ _ _ _
    (iblk5 V c 0 t) (iblk5 V c 1 t) (iblk5 V c 2 t) (iblk5 V c 3 t) _ s _)
  iframe H0 H1 H2 H3 H4 Hs
  iintro ⟨H0, H1, H2, H3, H4, Hs⟩
  have hnext : acc5 (iblk5 V c 1 t) (iblk5 V c 0 t) (if first5 (grid5.coords t) = 1#1 then zero5 else s)
      = pooledAt5 V c (t.val + 1) := by
    have hs' : t.val ≠ 0 → s = pooledAt5 V c t.val := hs
    rw [pooledAt5_succ]
    by_cases hf : first5 (grid5.coords t) = 1#1
    · rw [if_pos hf, (first5_iff t).1 hf, pooledAt5_zero]
    · rw [if_neg hf, hs' fun h0 => hf ((first5_iff t).2 h0)]
  rw [hnext]
  isplitl [Hr Hrest Hs]
  · iframe Hr Hrest
    iexists _; isplitr
    swap; · iexact Hs
    ipureintro; intro _; rfl
  isplitl [Ho]; · iexact Ho
  iframe H0 H1 H2 H3
  iapply (leaves5_4 V c t d4)
  iexact H4

end Cert.Kernel.Hand

end
-- ==== Proof.Kernel.RunBase.lean ====
import proofs.«424731_j88648124990764_2_alg».proof.Proof.Kernel.SegCommon
import proofs.«424731_j88648124990764_2_alg».proof.Proof.Kernel.Region0
import proofs.«424731_j88648124990764_2_alg».proof.Proof.Kernel.Region1
import proofs.«424731_j88648124990764_2_alg».proof.Proof.Kernel.Region2
import proofs.«424731_j88648124990764_2_alg».proof.Proof.Kernel.Region3
import proofs.«424731_j88648124990764_2_alg».proof.Proof.Kernel.Region4
import proofs.«424731_j88648124990764_2_alg».proof.Proof.Kernel.Region5
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
variable {F : FTy → Type} [FloatOps F]
local notation "𝕄" => MT nD τ sig Unit (Elt F) ℕ (UR sig nD τ) ℕ
variable (m : (ℓ : Loc nD τ sig) → Buf (Elt F) ℓ) (outs : Outs (F := F))
abbrev outRefs0 : List (Ref sig .tc) := [main_v8]
abbrev E0 : (c : Dev nD) → (b : Ref sig .tc) → Buf (Elt F) ((c : Thread nD τ).loc b) := fun c b => V3 m c b
theorem Vout0_at6 (c : Dev nD) : V4 m outs c main_v8 = outs 4 main_v8 c := by
  show V4 m outs c main_v8 = _; unfold V4; rw [Function.update_self]
abbrev outRefs1 : List (Ref sig .tc) := [main_v33_0, main_v33_1, main_v33_2]
abbrev E1 : (c : Dev nD) → (b : Ref sig .tc) → Buf (Elt F) ((c : Thread nD τ).loc b) := fun c b => V5 m outs c b
theorem Vout1_at5 (c : Dev nD) : V6 m outs c main_v33_0 = outs 6 main_v33_0 c := by
  show V6 m outs c main_v33_0 = _; unfold V6; rw [Function.update_of_ne (StableHlo.devRef_ne_of_ne (show main_v33_0 ≠ main_v33_2 by decide)), Function.update_of_ne (StableHlo.devRef_ne_of_ne (show main_v33_0 ≠ main_v33_1 by decide)), Function.update_self]
theorem Vout1_at6 (c : Dev nD) : V6 m outs c main_v33_1 = outs 6 main_v33_1 c := by
  show V6 m outs c main_v33_1 = _; unfold V6; rw [Function.update_of_ne (StableHlo.devRef_ne_of_ne (show main_v33_1 ≠ main_v33_2 by decide)), Function.update_self]
theorem Vout1_at7 (c : Dev nD) : V6 m outs c main_v33_2 = outs 6 main_v33_2 c := by
  show V6 m outs c main_v33_2 = _; unfold V6; rw [Function.update_self]
abbrev outRefs2 : List (Ref sig .tc) := [main_v50]
abbrev E2 : (c : Dev nD) → (b : Ref sig .tc) → Buf (Elt F) ((c : Thread nD τ).loc b) := fun c b => V7 m outs c b
theorem Vout2_at3 (c : Dev nD) : V8 m outs c main_v50 = outs 8 main_v50 c := by
  show V8 m outs c main_v50 = _; unfold V8; rw [Function.update_self]
abbrev outRefs3 : List (Ref sig .tc) := [main_v65_0, main_v65_1, main_v65_2]
abbrev E3 : (c : Dev nD) → (b : Ref sig .tc) → Buf (Elt F) ((c : Thread nD τ).loc b) := fun c b => V9 m outs c b
theorem Vout3_at5 (c : Dev nD) : V10 m outs c main_v65_0 = outs 10 main_v65_0 c := by
  show V10 m outs c main_v65_0 = _; unfold V10; rw [Function.update_of_ne (StableHlo.devRef_ne_of_ne (show main_v65_0 ≠ main_v65_2 by decide)), Function.update_of_ne (StableHlo.devRef_ne_of_ne (show main_v65_0 ≠ main_v65_1 by decide)), Function.update_self]
theorem Vout3_at6 (c : Dev nD) : V10 m outs c main_v65_1 = outs 10 main_v65_1 c := by
  show V10 m outs c main_v65_1 = _; unfold V10; rw [Function.update_of_ne (StableHlo.devRef_ne_of_ne (show main_v65_1 ≠ main_v65_2 by decide)), Function.update_self]
theorem Vout3_at7 (c : Dev nD) : V10 m outs c main_v65_2 = outs 10 main_v65_2 c := by
  show V10 m outs c main_v65_2 = _; unfold V10; rw [Function.update_self]
abbrev outRefs4 : List (Ref sig .tc) := [main_v82]
abbrev E4 : (c : Dev nD) → (b : Ref sig .tc) → Buf (Elt F) ((c : Thread nD τ).loc b) := fun c b => V11 m outs c b
theorem Vout4_at3 (c : Dev nD) : V12 m outs c main_v82 = outs 12 main_v82 c := by
  show V12 m outs c main_v82 = _; unfold V12; rw [Function.update_self]
abbrev outRefs5 : List (Ref sig .tc) := [main_v88]
abbrev E5 : (c : Dev nD) → (b : Ref sig .tc) → Buf (Elt F) ((c : Thread nD τ).loc b) := fun c b => V17 m outs c b
theorem Vout5_at4 (c : Dev nD) : V18 m outs c main_v88 = outs 18 main_v88 c := by
  show V18 m outs c main_v88 = _; unfold V18; rw [Function.update_self]
structure OutsOk : Prop where
  o0 : ∀ c, outs 4 main_v8 c = (dat0 (E0 m) c).arrAt 6 cfg0.N
  o1_5 : ∀ c, outs 6 main_v33_0 c = (dat1 (E1 m outs) c).arrAt 5 cfg1.N
  o1_6 : ∀ c, outs 6 main_v33_1 c = (dat1 (E1 m outs) c).arrAt 6 cfg1.N
  o1_7 : ∀ c, outs 6 main_v33_2 c = (dat1 (E1 m outs) c).arrAt 7 cfg1.N
  o2 : ∀ c, outs 8 main_v50 c = (dat2 (E2 m outs) c).arrAt 3 cfg2.N
  o3_5 : ∀ c, outs 10 main_v65_0 c = (dat3 (E3 m outs) c).arrAt 5 cfg3.N
  o3_6 : ∀ c, outs 10 main_v65_1 c = (dat3 (E3 m outs) c).arrAt 6 cfg3.N
  o3_7 : ∀ c, outs 10 main_v65_2 c = (dat3 (E3 m outs) c).arrAt 7 cfg3.N
  o4 : ∀ c, outs 12 main_v82 c = (dat4 (E4 m outs) c).arrAt 3 cfg4.N
  o5 : ∀ c, outs 18 main_v88 c = (dat5 (E5 m outs) c).arrAt 4 cfg5.N
def pdats : (p : Fin 6) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m outs) c
  | ⟨2, _⟩ => fun c => dat2 (E2 m outs) c
  | ⟨3, _⟩ => fun c => dat3 (E3 m outs) c
  | ⟨4, _⟩ => fun c => dat4 (E4 m outs) c
  | ⟨5, _⟩ => fun c => dat5 (E5 m outs) c
end Cert.Kernel.Hand
end
-- ==== Proof.Kernel.Segs.lean ====
import proofs.«424731_j88648124990764_2_alg».proof.Proof.Kernel.RunBase
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
variable {F : FTy → Type} [FloatOps F]
local notation "𝕄" => MT nD τ sig Unit (Elt F) ℕ (UR sig nD τ) ℕ
variable (m : (ℓ : Loc nD τ sig) → Buf (Elt F) ℓ) (outs : Outs (F := F))

set_option backward.isDefEq.respectTransparency.types false in
def reg0 (h : OutsOk m outs) : RegionSeg (pcfgs (F := F)) adm (pdats m outs) () defs₀ Variants.none Lv0 lv0 0 :=
  regA (pdats m outs) 0 (V3 m) (V4 m outs) launch0 (body_obligation0 (E0 m)) (fun _ _ => rfl) (fun _ _ => rfl)
    (fun _ _ => rfl) (fun _ x => Set.mem_union_left _ (Set.mem_univ x)) (fun _ _ => rfl)
    outRefs0 (by decide : ∀ r ∈ outRefs0, ∃ w : Fin cfg0.W, Pipeline.arrRef spec0 w = r) (V4_of m outs)
    (by decide : ∀ w : Fin cfg0.W, (cfg0.win w).isOut = false → Pipeline.arrRef spec0 w ∉ outRefs0)
    (fun c w hw => by
      rcases (by decide : ∀ w : Fin cfg0.W, (cfg0.win w).isOut = true → w = 6) w hw with rfl
      exacts [(h.o0 c).symm.trans (Vout0_at6 m outs c).symm])
set_option backward.isDefEq.respectTransparency.types false in
def reg1 (h : OutsOk m outs) : RegionSeg (pcfgs (F := F)) adm (pdats m outs) () defs₀ Variants.none Lv0 lv0 1 :=
  regA (pdats m outs) 1 (V5 m outs) (V6 m outs) launch1 (body_obligation1 (E1 m outs)) (fun _ _ => rfl) (fun _ _ => rfl)
    (fun _ _ => rfl) (fun _ x => Set.mem_union_left _ (Set.mem_univ x)) (dat1_Φ (E1 m outs))
    outRefs1 (by decide : ∀ r ∈ outRefs1, ∃ w : Fin cfg1.W, Pipeline.arrRef spec1 w = r) (V6_of m outs)
    (by decide : ∀ w : Fin cfg1.W, (cfg1.win w).isOut = false → Pipeline.arrRef spec1 w ∉ outRefs1)
    (fun c w hw => by
      rcases (by decide : ∀ w : Fin cfg1.W, (cfg1.win w).isOut = true → w = 5 ∨ w = 6 ∨ w = 7) w hw with rfl | rfl | rfl
      exacts [(h.o1_5 c).symm.trans (Vout1_at5 m outs c).symm,
        (h.o1_6 c).symm.trans (Vout1_at6 m outs c).symm,
        (h.o1_7 c).symm.trans (Vout1_at7 m outs c).symm])
set_option backward.isDefEq.respectTransparency.types false in
def reg2 (h : OutsOk m outs) : RegionSeg (pcfgs (F := F)) adm (pdats m outs) () defs₀ Variants.none Lv0 lv0 2 :=
  regA (pdats m outs) 2 (V7 m outs) (V8 m outs) launch2 (body_obligation2 (E2 m outs)) (fun _ _ => rfl) (fun _ _ => rfl)
    (fun _ _ => rfl) (fun _ x => Set.mem_union_left _ (Set.mem_univ x)) (fun _ _ => rfl)
    outRefs2 (by decide : ∀ r ∈ outRefs2, ∃ w : Fin cfg2.W, Pipeline.arrRef spec2 w = r) (V8_of m outs)
    (by decide : ∀ w : Fin cfg2.W, (cfg2.win w).isOut = false → Pipeline.arrRef spec2 w ∉ outRefs2)
    (fun c w hw => by
      rcases (by decide : ∀ w : Fin cfg2.W, (cfg2.win w).isOut = true → w = 3) w hw with rfl
      exacts [(h.o2 c).symm.trans (Vout2_at3 m outs c).symm])
set_option backward.isDefEq.respectTransparency.types false in
def reg3 (h : OutsOk m outs) : RegionSeg (pcfgs (F := F)) adm (pdats m outs) () defs₀ Variants.none Lv0 lv0 3 :=
  regA (pdats m outs) 3 (V9 m outs) (V10 m outs) launch3 (body_obligation3 (E3 m outs)) (fun _ _ => rfl) (fun _ _ => rfl)
    (fun _ _ => rfl) (fun _ x => Set.mem_union_left _ (Set.mem_univ x)) (dat3_Φ (E3 m outs))
    outRefs3 (by decide : ∀ r ∈ outRefs3, ∃ w : Fin cfg3.W, Pipeline.arrRef spec3 w = r) (V10_of m outs)
    (by decide : ∀ w : Fin cfg3.W, (cfg3.win w).isOut = false → Pipeline.arrRef spec3 w ∉ outRefs3)
    (fun c w hw => by
      rcases (by decide : ∀ w : Fin cfg3.W, (cfg3.win w).isOut = true → w = 5 ∨ w = 6 ∨ w = 7) w hw with rfl | rfl | rfl
      exacts [(h.o3_5 c).symm.trans (Vout3_at5 m outs c).symm,
        (h.o3_6 c).symm.trans (Vout3_at6 m outs c).symm,
        (h.o3_7 c).symm.trans (Vout3_at7 m outs c).symm])
set_option backward.isDefEq.respectTransparency.types false in
def reg4 (h : OutsOk m outs) : RegionSeg (pcfgs (F := F)) adm (pdats m outs) () defs₀ Variants.none Lv0 lv0 4 :=
  regA (pdats m outs) 4 (V11 m outs) (V12 m outs) launch4 (body_obligation4 (E4 m outs)) (fun _ _ => rfl) (fun _ _ => rfl)
    (fun _ _ => rfl) (fun _ x => Set.mem_union_left _ (Set.mem_univ x)) (fun _ _ => rfl)
    outRefs4 (by decide : ∀ r ∈ outRefs4, ∃ w : Fin cfg4.W, Pipeline.arrRef spec4 w = r) (V12_of m outs)
    (by decide : ∀ w : Fin cfg4.W, (cfg4.win w).isOut = false → Pipeline.arrRef spec4 w ∉ outRefs4)
    (fun c w hw => by
      rcases (by decide : ∀ w : Fin cfg4.W, (cfg4.win w).isOut = true → w = 3) w hw with rfl
      exacts [(h.o4 c).symm.trans (Vout4_at3 m outs c).symm])
set_option backward.isDefEq.respectTransparency.types false in
def reg5 (h : OutsOk m outs) : RegionSeg (pcfgs (F := F)) adm (pdats m outs) () defs₀ Variants.none Lv0 lv0 5 :=
  regOf (pdats m outs) 5 (V17 m outs) (V18 m outs) launch5 (body_obligation5 (E5 m outs)) (fun _ _ => rfl) (fun _ _ => rfl)
    (fun _ _ => rfl) (fun _ x => Set.mem_union_left _ (Set.mem_univ x))
    (fun c => by
      rw [show (pdats m outs 5 c).Φ 0 = (dat5 (E5 m outs) c).Φ 0 from rfl]
      iintro ⟨Hreg, -, Hrest⟩
      iapply (Φ5_in (E5 m outs) c)
      isplitl [Hreg]; · iexact Hreg
      iexact Hrest)
    (fun c => by
      rw [show (pdats m outs 5 c).Φ (Fin.last _) = (dat5 (E5 m outs) c).Φ (Fin.last cfg5.N) from rfl]
      iintro HΦ
      ihave Hb := (Φ5_out (E5 m outs) c) $$ HΦ
      icases Hb with ⟨Hreg, Hrest⟩
      isplitl [Hreg]; · iexact Hreg
      isplitr; · iempintro
      iexact Hrest)
    outRefs5 (by decide : ∀ r ∈ outRefs5, ∃ w : Fin cfg5.W, Pipeline.arrRef spec5 w = r) (V18_of m outs)
    (by decide : ∀ w : Fin cfg5.W, (cfg5.win w).isOut = false → Pipeline.arrRef spec5 w ∉ outRefs5)
    (fun c w hw => by
      rcases (by decide : ∀ w : Fin cfg5.W, (cfg5.win w).isOut = true → w = 4) w hw with rfl
      exacts [(h.o5 c).symm.trans (Vout5_at4 m outs c).symm])
end Cert.Kernel.Hand
end
-- ==== Proof.Kernel.Run.lean ====
import proofs.«424731_j88648124990764_2_alg».proof.Proof.Kernel.Segs
import Idealize.ShloMosaic.Lib.Pipeline.Kit
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
variable {F : FTy → Type} [FloatOps F]
local notation "𝕄" => MT nD τ sig Unit (Elt F) ℕ (UR sig nD τ) ℕ
variable (m : (ℓ : Loc nD τ sig) → Buf (Elt F) ℓ) (outs : Outs (F := F))
abbrev rides : Fin 7 → Dev nD → sProp 𝕄 := fun _ c => Rides c
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev allSegs (h : OutsOk m outs) (c : Dev nD) : List (Seg (pcfgs (F := F)) adm (pdats m outs) () defs₀ Variants.none Lv0 lv0) :=
  segs m outs Variants.none Lv0 lv0 rides () (pdats m outs) (reg0 m outs h) (reg1 m outs h) (reg2 m outs h) (reg3 m outs h) (reg4 m outs h) (reg5 m outs h) c
set_option backward.isDefEq.respectTransparency.types false in
theorem run_all (ρ : Dev nD → PrngReg) (h : OutsOk m outs) :
    θ_run defs (onTc (τ := τ) (main (F := F))) ⟨m, fun _ => 0, ρ⟩ (fun r => ∀ c : Dev nD,
      ∀ b ∈ Pipeline.ucRefs τ sig, r.2.mem (((c : Thread nD τ)).1, b) = V19 m outs c b) := by
  refine Pipeline.θ_run_regions_kit_dev (pcfgs (F := F)) adm (pdats m outs) () cellOf_inj emb₁ defs₀ Variants.none Lv0 lv0 m ρ main
    (allSegs m outs h)
    (fun c Q => by
      rewrite [main_chain c, Seg.run_eq_chain,
        show (allSegs m outs h c).map Seg.prog = [
          StableHlo.seq hostOps0, StableHlo.seq hostOps0_1, StableHlo.seq hostOps0_2,
          Prog.lift (.customCall (Pipeline.entry 0) ()), StableHlo.seq hostOps1,
          Prog.lift (.customCall (Pipeline.entry 1) ()), StableHlo.seq hostOps2,
          Prog.lift (.customCall (Pipeline.entry 2) ()), StableHlo.seq hostOps3,
          Prog.lift (.customCall (Pipeline.entry 3) ()), StableHlo.seq hostOps4,
          Prog.lift (.customCall (Pipeline.entry 4) ()), StableHlo.seq hostOps5, StableHlo.seq hostOps5_1,
          StableHlo.seq hostOps5_2, StableHlo.seq hostOps5_3, StableHlo.seq hostOps5_4,
          Prog.lift (.customCall (Pipeline.entry 5) ()), StableHlo.seq hostOps6 ] from rfl]
      exact .rfl)
    (fun c => by simp only [allSegs, segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ Rides c))
    (Tₙ := fun c => iprop(StableHlo.held (c : Thread nD τ) (Pipeline.ucRefs τ sig) (V19 m outs c) ∗ ∃ r, prngReg c r))
    (hch := fun c => ⟨.rfl, .rfl, .rfl, .rfl, .rfl, .rfl, .rfl, .rfl, .rfl, .rfl, .rfl, .rfl, .rfl, .rfl, .rfl, .rfl, .rfl, .rfl, .rfl, ?_⟩)
    (hinit := ?_)
    (QY := fun c s => ∀ b ∈ Pipeline.ucRefs τ sig, s.mem (((c : Thread nD τ)).1, b) = V19 m outs c b)
    (hfin := fun c s' => ?_) (hQ := fun _ hall => hall)
  ·
    iintro Hu
    imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  ·
    show iprop(StableHlo.held (c : Thread nD τ) (Pipeline.ucRefs τ sig) (V19 m outs c) ∗ Rides c)
      ⊢ (iprop((StableHlo.held (c : Thread nD τ) (Pipeline.ucRefs τ sig) (V19 m outs c) ∗ ∃ r, prngReg c r) ∗ ∃ W, owes (c : Thread nD τ) (0 : CellTallies nD τ sig Unit) W) : sProp 𝕄)
    iintro ⟨Hheld, Hreg, Hdue⟩
    isplitl [Hheld Hreg]
    · isplitl [Hheld]; · iexact Hheld
      iexact Hreg
    iexact Hdue
  ·
    refine Pipeline.initEach Lv0 lv0 fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hheld, -, Hdue, -, Hreg, -⟩, -⟩
    imodintro
    isplitl [Hheld]; · iexact Hheld
    isplitl [Hreg]; · iexists _; iexact Hreg
    iexists ∅; iexact Hdue
  ·
    iintro ⟨⟨Hheld, -⟩, HSI⟩
    unfold StableHlo.held
    imodintro
    iapply (pointsTo_read_all (Pipeline.ucRefs τ sig) (fun b => (((c : Thread nD τ)).1, b)) (V19 m outs c) s')
    isplitl [Hheld] <;> iassumption
end Cert.Kernel.Hand
end
-- ==== Proof.Kernel.Outs.lean ====
import proofs.«424731_j88648124990764_2_alg».proof.Proof.Kernel.RunBase
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
variable {F : FTy → Type} [FloatOps F]
variable (m : (ℓ : Loc nD τ sig) → Buf (Elt F) ℓ)
def AgreeTo (s : ℕ) (o o' : Outs (F := F)) : Prop := ∀ J, J ≤ s → ∀ (r : Ref sig .tc) (c : Dev nD), o J r c = o' J r c
theorem AgreeTo.mono {s t : ℕ} {o o' : Outs (F := F)} (h : AgreeTo s o o') (hts : t ≤ s) : AgreeTo t o o' :=
  fun J hJ => h J (Nat.le_trans hJ hts)
theorem AgreeTo.trans {s : ℕ} {o o' o'' : Outs (F := F)} (h : AgreeTo s o o') (h' : AgreeTo s o' o'') : AgreeTo s o o'' :=
  fun J hJ r c => (h J hJ r c).trans (h' J hJ r c)
section Congruence
variable {o o' : Outs (F := F)}
theorem V4_agree (h : AgreeTo 4 o o') (c : Dev nD) : V4 m o c = V4 m o' c := by
  unfold V4; rw [h 4 (Nat.le_refl _) main_v8 c]
theorem V5_agree (h : AgreeTo 4 o o') (c : Dev nD) : V5 m o c = V5 m o' c :=
  congrArg (StableHlo.after (hostOps1 (F := F))) (V4_agree m h c)
theorem V6_agree (h : AgreeTo 6 o o') (c : Dev nD) : V6 m o c = V6 m o' c := by
  unfold V6
  rw [V5_agree m (h.mono (by omega)) c, h 6 (Nat.le_refl _) main_v33_0 c, h 6 (Nat.le_refl _) main_v33_1 c,
    h 6 (Nat.le_refl _) main_v33_2 c]
theorem V7_agree (h : AgreeTo 6 o o') (c : Dev nD) : V7 m o c = V7 m o' c :=
  congrArg (StableHlo.after (hostOps2 (F := F))) (V6_agree m h c)
theorem V8_agree (h : AgreeTo 8 o o') (c : Dev nD) : V8 m o c = V8 m o' c := by
  unfold V8; rw [V7_agree m (h.mono (by omega)) c, h 8 (Nat.le_refl _) main_v50 c]
theorem V9_agree (h : AgreeTo 8 o o') (c : Dev nD) : V9 m o c = V9 m o' c :=
  congrArg (StableHlo.after (hostOps3 (F := F))) (V8_agree m h c)
theorem V10_agree (h : AgreeTo 10 o o') (c : Dev nD) : V10 m o c = V10 m o' c := by
  unfold V10
  rw [V9_agree m (h.mono (by omega)) c, h 10 (Nat.le_refl _) main_v65_0 c, h 10 (Nat.le_refl _) main_v65_1 c,
    h 10 (Nat.le_refl _) main_v65_2 c]
theorem V11_agree (h : AgreeTo 10 o o') (c : Dev nD) : V11 m o c = V11 m o' c :=
  congrArg (StableHlo.after (hostOps4 (F := F))) (V10_agree m h c)
theorem V12_agree (h : AgreeTo 12 o o') (c : Dev nD) : V12 m o c = V12 m o' c := by
  unfold V12; rw [V11_agree m (h.mono (by omega)) c, h 12 (Nat.le_refl _) main_v82 c]
theorem V17_agree (h : AgreeTo 12 o o') (c : Dev nD) : V17 m o c = V17 m o' c :=
  congrArg (fun U => StableHlo.after (hostOps5_4 (F := F)) (StableHlo.after (hostOps5_3 (F := F))
    (StableHlo.after (hostOps5_2 (F := F)) (StableHlo.after (hostOps5_1 (F := F)) (StableHlo.after (hostOps5 (F := F)) U)))))
    (V12_agree m h c)
end Congruence
def setStage (prev : Outs (F := F)) (s : ℕ) (Vnew : (c : Dev nD) → Valuation τ sig (Elt F)) : Outs (F := F) :=
  fun J r c => if J = s then Vnew c r else prev J r c
theorem setStage_self (prev : Outs (F := F)) (s : ℕ) (Vnew : (c : Dev nD) → Valuation τ sig (Elt F)) (r : Ref sig .tc) (c : Dev nD) :
    setStage prev s Vnew s r c = Vnew c r := by unfold setStage; rw [if_pos rfl]
theorem setStage_agree (prev : Outs (F := F)) (s : ℕ) (Vnew : (c : Dev nD) → Valuation τ sig (Elt F)) {t : ℕ} (ht : t < s) :
    AgreeTo t (setStage prev s Vnew) prev := fun J hJ r c => by
  unfold setStage; rw [if_neg (by omega)]
def outsA : Outs (F := F) := fun _ r c => m ((c : Thread nD τ).loc r)
def outsB : Outs (F := F) := setStage (outsA m) 4 fun c =>
  Pipeline.withArrays spec0 c (V3 m c) fun w => (dat0 (E0 m) c).arrAt w cfg0.N
def outsC : Outs (F := F) := setStage (outsB m) 6 fun c =>
  Pipeline.withArrays spec1 c (V5 m (outsB m) c) fun w => (dat1 (E1 m (outsB m)) c).arrAt w cfg1.N
def outsD : Outs (F := F) := setStage (outsC m) 8 fun c =>
  Pipeline.withArrays spec2 c (V7 m (outsC m) c) fun w => (dat2 (E2 m (outsC m)) c).arrAt w cfg2.N
def outsE : Outs (F := F) := setStage (outsD m) 10 fun c =>
  Pipeline.withArrays spec3 c (V9 m (outsD m) c) fun w => (dat3 (E3 m (outsD m)) c).arrAt w cfg3.N
def outsF : Outs (F := F) := setStage (outsE m) 12 fun c =>
  Pipeline.withArrays spec4 c (V11 m (outsE m) c) fun w => (dat4 (E4 m (outsE m)) c).arrAt w cfg4.N
def outsG : Outs (F := F) := setStage (outsF m) 18 fun c =>
  Pipeline.withArrays spec5 c (V17 m (outsF m) c) fun w => (dat5 (E5 m (outsF m)) c).arrAt w cfg5.N
theorem agree_GF : AgreeTo 17 (outsG m) (outsF m) := setStage_agree _ _ _ (by omega)
theorem agree_FE : AgreeTo 11 (outsF m) (outsE m) := setStage_agree _ _ _ (by omega)
theorem agree_ED : AgreeTo 9 (outsE m) (outsD m) := setStage_agree _ _ _ (by omega)
theorem agree_DC : AgreeTo 7 (outsD m) (outsC m) := setStage_agree _ _ _ (by omega)
theorem agree_CB : AgreeTo 5 (outsC m) (outsB m) := setStage_agree _ _ _ (by omega)
theorem agree_GE : AgreeTo 11 (outsG m) (outsE m) := ((agree_GF m).mono (by omega)).trans (agree_FE m)
theorem agree_GD : AgreeTo 9 (outsG m) (outsD m) := ((agree_GE m).mono (by omega)).trans (agree_ED m)
theorem agree_GC : AgreeTo 7 (outsG m) (outsC m) := ((agree_GD m).mono (by omega)).trans (agree_DC m)
theorem agree_GB : AgreeTo 5 (outsG m) (outsB m) := ((agree_GC m).mono (by omega)).trans (agree_CB m)
theorem E1_eq : E1 m (outsG m) = E1 m (outsB m) :=
  funext fun c => funext fun b => congrFun (V5_agree m ((agree_GB m).mono (by omega)) c) b
theorem E2_eq : E2 m (outsG m) = E2 m (outsC m) :=
  funext fun c => funext fun b => congrFun (V7_agree m ((agree_GC m).mono (by omega)) c) b
theorem E3_eq : E3 m (outsG m) = E3 m (outsD m) :=
  funext fun c => funext fun b => congrFun (V9_agree m ((agree_GD m).mono (by omega)) c) b
theorem E4_eq : E4 m (outsG m) = E4 m (outsE m) :=
  funext fun c => funext fun b => congrFun (V11_agree m ((agree_GE m).mono (by omega)) c) b
theorem E5_eq : E5 m (outsG m) = E5 m (outsF m) :=
  funext fun c => funext fun b => congrFun (V17_agree m ((agree_GF m).mono (by omega)) c) b
theorem outsG_ok : OutsOk m (outsG m) where
  o0 c := ((agree_GB m) 4 (by omega) main_v8 c).trans
    ((setStage_self _ _ _ _ c).trans (Pipeline.withArrays_arr spec0 winFacts0.arr_inj c _ _ 6))
  o1_5 c := by
    rw [E1_eq]
    exact ((agree_GC m) 6 (by omega) main_v33_0 c).trans
      ((setStage_self _ _ _ _ c).trans (Pipeline.withArrays_arr spec1 winFacts1.arr_inj c _ _ 5))
  o1_6 c := by
    rw [E1_eq]
    exact ((agree_GC m) 6 (by omega) main_v33_1 c).trans
      ((setStage_self _ _ _ _ c).trans (Pipeline.withArrays_arr spec1 winFacts1.arr_inj c _ _ 6))
  o1_7 c := by
    rw [E1_eq]
    exact ((agree_GC m) 6 (by omega) main_v33_2 c).trans
      ((setStage_self _ _ _ _ c).trans (Pipeline.withArrays_arr spec1 winFacts1.arr_inj c _ _ 7))
  o2 c := by
    rw [E2_eq]
    exact ((agree_GD m) 8 (by omega) main_v50 c).trans
      ((setStage_self _ _ _ _ c).trans (Pipeline.withArrays_arr spec2 winFacts2.arr_inj c _ _ 3))
  o3_5 c := by
    rw [E3_eq]
    exact ((agree_GE m) 10 (by omega) main_v65_0 c).trans
      ((setStage_self _ _ _ _ c).trans (Pipeline.withArrays_arr spec3 winFacts3.arr_inj c _ _ 5))
  o3_6 c := by
    rw [E3_eq]
    exact ((agree_GE m) 10 (by omega) main_v65_1 c).trans
      ((setStage_self _ _ _ _ c).trans (Pipeline.withArrays_arr spec3 winFacts3.arr_inj c _ _ 6))
  o3_7 c := by
    rw [E3_eq]
    exact ((agree_GE m) 10 (by omega) main_v65_2 c).trans
      ((setStage_self _ _ _ _ c).trans (Pipeline.withArrays_arr spec3 winFacts3.arr_inj c _ _ 7))
  o4 c := by
    rw [E4_eq]
    exact ((agree_GF m) 12 (by omega) main_v82 c).trans
      ((setStage_self _ _ _ _ c).trans (Pipeline.withArrays_arr spec4 winFacts4.arr_inj c _ _ 3))
  o5 c := by
    rw [E5_eq]
    exact (setStage_self _ _ _ _ c).trans (Pipeline.withArrays_arr spec5 winFacts5.arr_inj c _ _ 4)
theorem exists_outs : ∃ outs : Outs (F := F), OutsOk m outs := ⟨outsG m, outsG_ok m⟩
end Cert.Kernel.Hand
end
-- ==== Proof.KernelIdeal.SegCommon.lean ====
import proofs.«424731_j88648124990764_2_alg».proof.Proof.Gen.KernelIdeal.Regions
import Idealize.ShloMosaic.Lib.Pipeline.RegionsLoop
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
variable {F : FTy → Type} [FloatOps F]
local notation "𝕄" => MT nD τ sig Unit (Elt F) ℕ (UR sig nD τ) ℕ
abbrev Lv0 : GSem nD τ sig → Finset Unit := fun _ => ∅
abbrev lv0 : GSem nD τ sig → Unit → ℕ := fun _ _ => 0
abbrev Rides (c : Dev nD) : sProp 𝕄 := iprop((∃ r, prngReg c r) ∗ ∃ W, owes (c : Thread nD τ) (0 : CellTallies nD τ sig Unit) W)
variable (pd : (p : Fin 6) → (c : Dev nD) → Dat τ (Elt F) Unit ℕ (UR sig nD τ) ℕ (Pipeline.pin (pcfgs (F := F)) adm p) c)

/-- No region of this program reads a table. -/
theorem pref_none (p : Fin 6) (c : Dev nD) :
    (BI.emp : sProp 𝕄) ⊢ Pipeline.prefHeld (pcfgs (F := F) p).pre c (fun _ => fullShare) (adm p).1 := by
  fin_cases p <;> (unfold Pipeline.prefHeld; rw [show (Finset.univ : Finset (Fin 0)) = ∅ from rfl, BI.bigSep_empty])

/-- Region `p` as a segment of @main, entered at the valuation `Vin` and left at `Vout`, which differs from `Vin` only at
    `outRefs`, arrays of the region's output windows, where it holds what the region's points wrote. -/
def regOf (p : Fin 6) (Vin Vout : (c : Dev nD) → Valuation τ sig (Elt F)) (hL : Pipeline.LaunchFacts (nD := nD) (τ := τ) cfgs p)
    (hbody : ∀ c, BodyObligation (pd p c) (defs₀ (F := F)) Variants.none () Set.univ)
    (hq : ∀ c w, (pd p c).q w = fullShare)
    (hA : ∀ c w, (pd p c).A w = Vin c (Pipeline.arrRef (Pipeline.pin (pcfgs (F := F)) adm p).spec w))
    (howed : ∀ c t, (pd p c).owed t = 0) (hbound : ∀ c x, x ∈ (pd p c).bound () 0)
    (hin : ∀ c, iprop((∃ r, prngReg c r) ∗ Pipeline.prefHeld (pcfgs (F := F) p).pre c (fun _ => fullShare) (adm p).1
      ∗ Pipeline.scopedRest (Pipeline.pin (pcfgs (F := F)) adm p).spec c) ⊢ (pd p c).Φ 0)
    (hout : ∀ c, (pd p c).Φ (Fin.last (Pipeline.pin (pcfgs (F := F)) adm p).N) ⊢ iprop((∃ r, prngReg c r) ∗ BI.emp ∗ Pipeline.scopedRest (Pipeline.pin (pcfgs (F := F)) adm p).spec c))
    (outRefs : List (Ref sig .tc)) (hsub : ∀ r ∈ outRefs, ∃ w, Pipeline.arrRef (Pipeline.pin (pcfgs (F := F)) adm p).spec w = r)
    (hof : ∀ c r, r ∉ outRefs → Vout c r = Vin c r)
    (hapart : ∀ w, ((Pipeline.pin (pcfgs (F := F)) adm p).win w).isOut = false → Pipeline.arrRef (Pipeline.pin (pcfgs (F := F)) adm p).spec w ∉ outRefs)
    (hfold : ∀ c w, ((Pipeline.pin (pcfgs (F := F)) adm p).win w).isOut = true → (pd p c).arrAt w (Pipeline.pin (pcfgs (F := F)) adm p).N = Vout c (Pipeline.arrRef (Pipeline.pin (pcfgs (F := F)) adm p).spec w)) :
    RegionSeg (pcfgs (F := F)) adm pd () defs₀ Variants.none Lv0 lv0 p where
  win := hL.win.to₀
  block_pos := hL.block_pos
  stage_whole := hL.stage_whole
  K := PEmpty
  osem k := k.elim
  ho := Pipeline.OwnSemFacts.none _
  hbody c := (hbody c).loose
  hwaits := Pipeline.hwaits_of_owed_zero _ _ _ _ Lv0 lv0 p howed
  pre c := iprop(StableHlo.held (c : Thread nD τ) (Pipeline.ucRefs τ sig) (Vin c) ∗ Rides c)
  post c := iprop(StableHlo.held (c : Thread nD τ) (Pipeline.ucRefs τ sig) (Vout c) ∗ Rides c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => Vin c b)
  hentry c := by
    rw [Pipeline.ownSems0_none]
    have hsplit := Pipeline.arrays_of_unscopedBufs (p := p) (pcfgs (F := F)) adm pd hL.win hL.arr_whole c ((pd p c).share_full (hq c)) (fun b => Vin c b) (hA c)
    rw [Pipeline.unscopedBufs_held] at hsplit
    iintro ⟨⟨Hheld, Hreg, Hdue⟩, -, -⟩
    ihave Hs := hsplit $$ Hheld
    icases Hs with ⟨Harr, Hrest⟩
    imodintro
    isplitl [Harr]; · iexact Harr
    isplitr; · iapply (pref_none p c); iempintro
    isplitl [Hdue]
    · unfold Pipeline.Dat.owesAt Pipeline.owesWithin
      rw [howed c 0]
      icases Hdue with ⟨%W, Hdue⟩; iexists W
      isplitr; · ipureintro; exact fun x _ => hbound c x
      iexact Hdue
    isplitl [Hreg]; · iexact Hreg
    iexact Hrest
  hin := hin
  hout c := by rw [Pipeline.ownSems0_none]; exact hout c
  hexit c := by
    have hF : ∀ w, (pd p c).arrAt w (Pipeline.pin (pcfgs (F := F)) adm p).N = Vout c (Pipeline.arrRef (Pipeline.pin (pcfgs (F := F)) adm p).spec w) := fun w => by
      cases hw : ((Pipeline.pin (pcfgs (F := F)) adm p).win w).isOut
      · exact ((pd p c).arrAt_in w hw _).trans ((hA c w).trans (hof c _ (hapart w hw)).symm)
      · exact hfold c w hw
    have hjoin := Pipeline.unscopedBufs_of_arrays (p := p) (pcfgs (F := F)) adm (Ix := Unit) (Name := ℕ) (U := UR sig nD τ) (Lvl := ℕ)
      hL.win hL.arr_whole c pd ((pd p c).share_full (hq c)) (fun b => Vin c b) (fun b => Vout c b) ((pd p c).arrAt · (Pipeline.pin (pcfgs (F := F)) adm p).N) hF
      (fun b hb => hof c b fun hmem => let ⟨w, e⟩ := hsub b hmem; hb (Finset.mem_image.mpr ⟨w, Finset.mem_univ _, e⟩))
    rw [Pipeline.unscopedBufs_held] at hjoin
    iintro ⟨Harr, Hdue, Hreg, Hrest⟩
    imodintro
    isplitl [Harr Hrest]
    · iapply hjoin; isplitl [Harr]; · iexact Harr
      iexact Hrest
    isplitl [Hreg]; · iexact Hreg
    unfold Pipeline.Dat.owesAt Pipeline.owesWithin
    rw [howed c _]
    icases Hdue with ⟨%W, -, Hdue⟩; iexists W; iexact Hdue

/-- The same for a region whose invariant is the same at every point. -/
def regA (p : Fin 6) (Vin Vout : (c : Dev nD) → Valuation τ sig (Elt F)) (hL : Pipeline.LaunchFacts (nD := nD) (τ := τ) cfgs p)
    (hbody : ∀ c, BodyObligation (pd p c) (defs₀ (F := F)) Variants.none () Set.univ)
    (hq : ∀ c w, (pd p c).q w = fullShare)
    (hA : ∀ c w, (pd p c).A w = Vin c (Pipeline.arrRef (Pipeline.pin (pcfgs (F := F)) adm p).spec w))
    (howed : ∀ c t, (pd p c).owed t = 0) (hbound : ∀ c x, x ∈ (pd p c).bound () 0)
    (hΦ : ∀ c n, (pd p c).Φ n = Pipeline.ΦA (Pipeline.pin (pcfgs (F := F)) adm p).spec c) :=
  regOf pd p Vin Vout hL hbody hq hA howed hbound
    (fun c => by
      rw [hΦ c 0]; unfold Pipeline.ΦA
      iintro ⟨Hreg, -, Hrest⟩
      isplitl [Hrest]; · iexact Hrest
      iexact Hreg)
    (fun c => by
      rw [hΦ c (Fin.last _)]; unfold Pipeline.ΦA
      iintro ⟨Hrest, Hreg⟩
      isplitl [Hreg]; · iexact Hreg
      isplitr; · iempintro
      iexact Hrest)

end Cert.KernelIdeal.Hand

end
-- ==== Proof.KernelIdeal.Region0.lean ====
import proofs.«424731_j88648124990764_2_alg».proof.Proof.Gen.KernelIdeal.Launch
import proofs.«424731_j88648124990764_2_alg».proof.Proof.Gen.KernelIdeal.Skeleton
import proofs.«424731_j88648124990764_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rIds0 : Rect S10000x1 := Rect.unit (s := S10000x1) ![0, 0] S10000x1.size inb_S10000x1_S10000x1_0_0
abbrev rShapeTab0 : Rect S64x128 := Rect.unit (s := S64x128) ![0, 0] S64x128.size inb_S64x128_S64x128_0_0
abbrev rColourTab0 : Rect S32x128 := Rect.unit (s := S32x128) ![0, 0] S32x128.size inb_S32x128_S32x128_0_0
abbrev rPosTab0 : Rect S640x128 := Rect.unit (s := S640x128) ![0, 0] S640x128.size inb_S640x128_S640x128_0_0
abbrev rRows0 : Rect S10000x128 := Rect.unit (s := S10000x128) ![0, 0] S10000x128.size inb_S10000x128_S10000x128_0_0

def embedRows0 (s k p : Vec F S10000x1 .i32) (ts : Vec F S64x128 .f32) (tk : Vec F S32x128 .f32) (tp : Vec F S640x128 .f32) :
    Vec F S10000x128 .bf16 :=
  View.canon [⟨rRows0, k0_pay1 (View.ld s rIds0) (View.ld k rIds0) (View.ld p rIds0)
    (View.ld ts rShapeTab0) (View.ld tk rColourTab0) (View.ld tp rPosTab0)⟩]

set_option maxHeartbeats 1000000 in
/-- The six inputs are only read; the one store covers the output block, so it reads as the stored payload. -/
theorem sound_kernel0 (c : Dev nD) (E : Set ℕ) (i : grid0.Coords)
    (arg1 : Memref sig .tc .vmem S10000x1 .i32) (harg1 : arg1.IsWhole) (arg2 : Memref sig .tc .vmem S10000x1 .i32) (harg2 : arg2.IsWhole)
    (arg3 : Memref sig .tc .vmem S10000x1 .i32) (harg3 : arg3.IsWhole) (arg4 : Memref sig .tc .vmem S64x128 .f32) (harg4 : arg4.IsWhole)
    (arg5 : Memref sig .tc .vmem S32x128 .f32) (harg5 : arg5.IsWhole) (arg6 : Memref sig .tc .vmem S640x128 .f32) (harg6 : arg6.IsWhole)
    (arg7 : Memref sig .tc .vmem S10000x128 .bf16) (harg7 : arg7.IsWhole)
    (s k p : Vec F S10000x1 .i32) (ts : Vec F S64x128 .f32) (tk : Vec F S32x128 .f32) (tp : Vec F S640x128 .f32) (K : PUnit → sProp 𝕄) :
    iprop(owns (c : Thread nD τ) arg1 fullShare s ∗ owns (c : Thread nD τ) arg2 fullShare k ∗ owns (c : Thread nD τ) arg3 fullShare p
        ∗ owns (c : Thread nD τ) arg4 fullShare ts ∗ owns (c : Thread nD τ) arg5 fullShare tk ∗ owns (c : Thread nD τ) arg6 fullShare tp
        ∗ (∃ d, owns (c : Thread nD τ) arg7 fullShare d)
        ∗ (iprop(owns (c : Thread nD τ) arg1 fullShare s ∗ owns (c : Thread nD τ) arg2 fullShare k ∗ owns (c : Thread nD τ) arg3 fullShare p
            ∗ owns (c : Thread nD τ) arg4 fullShare ts ∗ owns (c : Thread nD τ) arg5 fullShare tk ∗ owns (c : Thread nD τ) arg6 fullShare tp
            ∗ owns (c : Thread nD τ) arg7 fullShare (embedRows0 s k p ts tk tp)) -∗ K ⟨⟩))
      ⊢ wp frame (wpE (defs₀ (F := F)) Variants.none c none) E
          (cc0__embed_kernel i arg1 harg1 arg2 harg2 arg3 harg3 arg4 harg4 arg5 harg5 arg6 harg6 arg7 harg7) K := by
  simp only [cc0__embed_kernel_eq_skeleton, owns_eq_rep]; unfold cc0__embed_kernel_skel
  iintro ⟨Hs, Hk, Hp, Hts, Htk, Htp, ⟨%d, Ho⟩, Hcont⟩
  sl_exec
  sl_step
  iapply Hcont
  iframe Hs Hk Hp Hts Htk Htp
  iapply (rep_of_owns _ _ _ _)
  unfold owns
  iexists _; isplitr
  swap; · iexact Ho
  ipureintro
  rw [View.read_writes_eq_canon _ _ _ (View.cover_of_tiled _ S10000x128.size (by rfl))]
  simp only [View.readAt_rep]
  rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => embedRows0 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem dat0_Φ (c : Dev nD) (n : Fin (cfg0.N + 1)) : (dat0 V c).Φ n = Pipeline.ΦA spec0 c := rfl

theorem dat0_after_rows (c : Dev nD) (t : Fin cfg0.N) :
    (dat0 V c).after 6 t
      = embedRows0 (iblk0 V c 0 t) (iblk0 V c 1 t) (iblk0 V c 2 t) (iblk0 V c 3 t) (iblk0 V c 4 t) (iblk0 V c 5 t) := by
  dsimp only [dat0]

theorem found0 (c : Dev nD) (t : Fin cfg0.N) : (∀ d, (dat0 V c).before 0 t d = iblk0 V c 0 t) ∧ (∀ d, (dat0 V c).before 1 t d = iblk0 V c 1 t)
    ∧ (∀ d, (dat0 V c).before 2 t d = iblk0 V c 2 t) ∧ (∀ d, (dat0 V c).before 3 t d = iblk0 V c 3 t)
    ∧ (∀ d, (dat0 V c).before 4 t d = iblk0 V c 4 t) ∧ ∀ d, (dat0 V c).before 5 t d = iblk0 V c 5 t := by
  refine ⟨fun _ => ?_, fun _ => ?_, fun _ => ?_, fun _ => ?_, fun _ => ?_, fun _ => ?_⟩ <;> apply Dat.before_in_eq_fetched <;> intros <;> rfl

theorem body_obligation0 (c : Dev nD) : BodyObligation (dat0 (F := F) V c) (defs₀ (F := F)) Variants.none () Set.univ := fun t => by
  rw [bigSep_W0, bigSep_W0]
  dsimp only
  obtain ⟨h0, h1, h2, h3, h4, h5⟩ := found0 V c t
  simp only [h0, h1, h2, h3, h4, h5]
  dsimp only [dat0]
  change _ ⊢ wp _ _ _ (bodyAt0 t) _
  iintro ⟨HΦ, Howe, ⟨%_, Hs⟩, ⟨%_, Hk⟩, ⟨%_, Hp⟩, ⟨%_, Hts⟩, ⟨%_, Htk⟩, ⟨%_, Htp⟩, ⟨%d, Hout⟩⟩
  iapply (sound_kernel0 c Set.univ (grid0.coords t) _ _ _ _ _ _ _ _ _ _ _ _ _ _
    (iblk0 V c 0 t) (iblk0 V c 1 t) (iblk0 V c 2 t) (iblk0 V c 3 t) (iblk0 V c 4 t) (iblk0 V c 5 t) _)
  iframe Hs Hk Hp Hts Htk Htp
  isplitl [Hout]; · iexists _; iexact Hout
  iintro ⟨Hs, Hk, Hp, Hts, Htk, Htp, Hrows⟩
  iframe HΦ Hs Hk Hp Hts Htk Htp Hrows
  iexact Howe

end Cert.KernelIdeal.Hand

end
-- ==== Proof.KernelIdeal.Region1.lean ====
import proofs.«424731_j88648124990764_2_alg».proof.Proof.Gen.KernelIdeal.Launch
import proofs.«424731_j88648124990764_2_alg».proof.Proof.Gen.KernelIdeal.Skeleton
import proofs.«424731_j88648124990764_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem first1_iff (i : grid1.Coords) :
    (Scalar.cmpi .ne (Scalar.extui (Scalar.cmpi .eq (BitVec.ofNat 32 (i 0).val) 0#32) : BitVec 32) 0#32 = 1#1) ↔ (i 0).val = 0 := by
  have h : ∀ k : Fin 10, (Scalar.cmpi .ne (Scalar.extui (Scalar.cmpi .eq (BitVec.ofNat 32 k.val) 0#32) : BitVec 32) 0#32 = 1#1) ↔ k.val = 0 := by decide
  exact h (i 0)

abbrev rBlk1 : Rect S10000x128 := Rect.unit (s := S10000x128) ![0, 0] S10000x128.size inb_S10000x128_S10000x128_0_0
abbrev rMat1 : Rect S128x128 := Rect.unit (s := S128x128) ![0, 0] S128x128.size inb_S128x128_S128x128_0_0
abbrev rRow1 : Rect S1x128 := Rect.unit (s := S1x128) ![0, 0] S1x128.size inb_S1x128_S1x128_0_0

def out1_5 (x0 : Vec F S10000x128 .f32) (x1 : Vec F S10000x128 .bf16) (x2 : Vec F S128x128 .f32) (x3 : Vec F S1x128 .f32)
    (x4 : Vec F S128x128 .f32) : Vec F S10000x128 .f32 :=
  View.canon [⟨rBlk1, k1_pay3 (View.ld x0 rBlk1) (View.ld x1 rBlk1) (View.ld x2 rMat1) (View.ld x3 rRow1) (View.ld x4 rMat1)⟩]

def out1_6 (x0 : Vec F S10000x128 .f32) (x1 : Vec F S10000x128 .bf16) (x2 : Vec F S128x128 .f32) (x3 : Vec F S1x128 .f32)
    (x4 : Vec F S128x128 .f32) (p : Vec F S1x128 .f32) : Vec F S1x128 .f32 :=
  View.canon [⟨rRow1, k1_pay4 (View.ld x0 rBlk1) (View.ld x1 rBlk1) (View.ld x2 rMat1) (View.ld x3 rRow1) (View.ld x4 rMat1) (View.ld p rRow1)⟩]

def out1_7 (x0 : Vec F S10000x128 .f32) (x1 : Vec F S10000x128 .bf16) (x2 : Vec F S128x128 .f32) (x3 : Vec F S1x128 .f32)
    (x4 : Vec F S128x128 .f32) (p : Vec F S1x128 .f32) : Vec F S1x128 .f32 :=
  View.canon [⟨rRow1, k1_pay5 (View.ld x0 rBlk1) (View.ld x1 rBlk1) (View.ld x2 rMat1) (View.ld x3 rRow1) (View.ld x4 rMat1) (View.ld p rRow1)⟩]

def reset1_6 : Vec F S1x128 .f32 := View.canon [⟨rRow1, k1_pay1 (F := F)⟩]
def reset1_7 : Vec F S1x128 .f32 := View.canon [⟨rRow1, k1_pay2 (F := F)⟩]

theorem cover1_5 (w : Vec F S10000x128 .f32) (y : S10000x128.Idx) :
    ∃ pc ∈ ([⟨rBlk1, w⟩] : List (View.Piece (Elt F) S10000x128 .f32)), y ∈ pc.1.set :=
  View.cover_of_tiled [⟨rBlk1, w⟩] S10000x128.size (by rfl) y

theorem mem_rRow1 (y : S1x128.Idx) : y ∈ (rRow1).set := by
  obtain ⟨pc, hpc, hy⟩ := View.cover_of_tiled ([⟨rRow1, fun _ => ()⟩] : List (View.Piece (fun _ => Unit) S1x128 .f32)) S1x128.size (by rfl) y
  rw [List.mem_singleton] at hpc; subst hpc; exact hy

/-- A store of the whole row hides what the row held and every earlier write. -/
theorem read_row1 {κ : Kind} {sp : Space} (v : View sig κ sp S1x128 .f32) (f : v.ty.Contents (Elt F)) (w : Vec F S1x128 .f32)
    (L : List (View.Piece (Elt F) S1x128 .f32)) :
    v.read (Elt F) (v.writes (Elt F) f (⟨rRow1, w⟩ :: L)) = View.canon [⟨rRow1, w⟩] := by
  funext y
  obtain ⟨x, rfl⟩ := (rRow1).exists_idx_of_mem (mem_rRow1 y)
  exact (View.read_writes_apply_eq_canon v f _ (⟨rRow1, w⟩ :: L) ⟨_, List.mem_cons_self, mem_rRow1 _⟩).trans
    ((View.canon_cons_emb rRow1 w L x).trans (View.canon_cons_emb rRow1 w [] x).symm)

theorem readBack_row1 {κ : Kind} {sp : Space} (v : View sig κ sp S1x128 .f32) (w : Vec F S1x128 .f32) :
    v.readCov [⟨rRow1, w⟩] (rRow1).toLoadRect = View.ld (View.canon [⟨rRow1, w⟩]) rRow1 :=
  View.readCov_eq_canon_ld v _ rRow1 fun y => ⟨_, List.mem_singleton.mpr rfl, mem_rRow1 y⟩

set_option maxHeartbeats 1000000 in
/-- The body on whole buffers: the inputs are kept, window 5 takes y, and the two rows take their sums over the zero
    rows at the first point and over what they held at the others. -/
theorem sound_kernel1 (c : Dev nD) (E : Set ℕ) (i : grid1.Coords)
    (arg1 : Memref sig .tc .vmem S10000x128 .f32) (harg1 : arg1.IsWhole) (arg2 : Memref sig .tc .vmem S10000x128 .bf16) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S10000x128 .f32) (harg6 : arg6.IsWhole)
    (arg7 : Memref sig .tc .vmem S1x128 .f32) (harg7 : arg7.IsWhole) (arg8 : Memref sig .tc .vmem S1x128 .f32) (harg8 : arg8.IsWhole)
    (x0 : Vec F S10000x128 .f32) (x1 : Vec F S10000x128 .bf16) (x2 : Vec F S128x128 .f32) (x3 : Vec F S1x128 .f32) (x4 : Vec F S128x128 .f32)
    (d5 : Vec F S10000x128 .f32) (p6 p7 : Vec F S1x128 .f32) (K : PUnit → sProp 𝕄) :
    iprop(owns c.tc arg1 fullShare x0 ∗ owns c.tc arg2 fullShare x1 ∗ owns c.tc arg3 fullShare x2
        ∗ owns c.tc arg4 fullShare x3 ∗ owns c.tc arg5 fullShare x4
        ∗ owns c.tc arg6 fullShare d5 ∗ owns c.tc arg7 fullShare p6 ∗ owns c.tc arg8 fullShare p7
        ∗ (iprop(owns c.tc arg1 fullShare x0 ∗ owns c.tc arg2 fullShare x1 ∗ owns c.tc arg3 fullShare x2
        ∗ owns c.tc arg4 fullShare x3 ∗ owns c.tc arg5 fullShare x4
            ∗ owns c.tc arg6 fullShare (out1_5 x0 x1 x2 x3 x4)
            ∗ owns c.tc arg7 fullShare (out1_6 x0 x1 x2 x3 x4 (if (i 0).val = 0 then reset1_6 else p6))
            ∗ owns c.tc arg8 fullShare (out1_7 x0 x1 x2 x3 x4 (if (i 0).val = 0 then reset1_7 else p7))) -∗ K ⟨⟩))
      ⊢ wp frame (wpE (defs₀ (F := F)) Variants.none c none) E (cc1__sage_dense_kernel i arg1 harg1 arg2 harg2 arg3 harg3 arg4 harg4 arg5 harg5 arg6 harg6 arg7 harg7 arg8 harg8) K := by
  simp only [cc1__sage_dense_kernel_eq_skeleton]; unfold cc1__sage_dense_kernel_skel
  simp only [k1_part1_eq_skeleton]; unfold k1_part1_skel
  simp only [first1_iff]
  unfold owns
  iintro ⟨⟨%f0, %hf0, H0⟩, ⟨%f1, %hf1, H1⟩, ⟨%f2, %hf2, H2⟩, ⟨%f3, %hf3, H3⟩, ⟨%f4, %hf4, H4⟩, ⟨%f5, -, H5⟩, ⟨%f6, %hf6, H6⟩, ⟨%f7, %hf7, H7⟩, Hk⟩
  subst hf0 hf1 hf2 hf3 hf4 hf6 hf7
  by_cases hi : (i 0).val = 0 <;> simp only [hi, ↓reduceDIte, ↓reduceIte]
  all_goals
    sl_exec
    sl_step
    iapply Hk
    isplitl [H0]; swap; isplitl [H1]; swap; isplitl [H2]; swap; isplitl [H3]; swap; isplitl [H4]; swap; isplitl [H5]; swap; isplitl [H6]
    all_goals
      iexists _; isplitr
      swap; · iassumption
      ipureintro
      first
        | with_reducible rfl
        | exact View.read_writes_eq_canon _ _ _ (cover1_5 _)
        | (sl_unfold_run_names; rw [read_row1]; (try rw [readBack_row1]); rfl)

theorem coord1_eq : ∀ t : Fin cfg1.N, ((cfg1.grid.coords t) 0).val = t.val :=
  (by decide +kernel : ∀ t : Fin grid1.N, ((grid1.coords t) 0).val = t.val)

/-- The running column sums of y: what window 6's buffer holds after the body at point `n`. -/
def sumAt1 (c : Dev nD) : (n : ℕ) → n < cfg1.N → Vec F S1x128 .f32
  | 0, hn => out1_6 (iblk1 V c 0 ⟨0, hn⟩) (iblk1 V c 1 ⟨0, hn⟩) (iblk1 V c 2 ⟨0, hn⟩) (iblk1 V c 3 ⟨0, hn⟩) (iblk1 V c 4 ⟨0, hn⟩) reset1_6
  | n + 1, hn => out1_6 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
      (sumAt1 c n (Nat.lt_of_succ_lt hn))

/-- The running column sums of y², in window 7's buffer. -/
def sqAt1 (c : Dev nD) : (n : ℕ) → n < cfg1.N → Vec F S1x128 .f32
  | 0, hn => out1_7 (iblk1 V c 0 ⟨0, hn⟩) (iblk1 V c 1 ⟨0, hn⟩) (iblk1 V c 2 ⟨0, hn⟩) (iblk1 V c 3 ⟨0, hn⟩) (iblk1 V c 4 ⟨0, hn⟩) reset1_7
  | n + 1, hn => out1_7 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
      (sqAt1 c n (Nat.lt_of_succ_lt hn))

theorem sumAt1_zero (c : Dev nD) (hn : 0 < cfg1.N) :
    sumAt1 V c 0 hn = out1_6 (iblk1 V c 0 ⟨0, hn⟩) (iblk1 V c 1 ⟨0, hn⟩) (iblk1 V c 2 ⟨0, hn⟩) (iblk1 V c 3 ⟨0, hn⟩) (iblk1 V c 4 ⟨0, hn⟩) reset1_6 := by
  rw [sumAt1]
theorem sumAt1_succ (c : Dev nD) (n : ℕ) (hn : n + 1 < cfg1.N) :
    sumAt1 V c (n + 1) hn = out1_6 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
      (sumAt1 V c n (Nat.lt_of_succ_lt hn)) := by
  rw [sumAt1]
theorem sqAt1_zero (c : Dev nD) (hn : 0 < cfg1.N) :
    sqAt1 V c 0 hn = out1_7 (iblk1 V c 0 ⟨0, hn⟩) (iblk1 V c 1 ⟨0, hn⟩) (iblk1 V c 2 ⟨0, hn⟩) (iblk1 V c 3 ⟨0, hn⟩) (iblk1 V c 4 ⟨0, hn⟩) reset1_7 := by
  rw [sqAt1]
theorem sqAt1_succ (c : Dev nD) (n : ℕ) (hn : n + 1 < cfg1.N) :
    sqAt1 V c (n + 1) hn = out1_7 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
      (sqAt1 V c n (Nat.lt_of_succ_lt hn)) := by
  rw [sqAt1]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => sumAt1 V c t.val t.isLt
    | ⟨7, _⟩ => sqAt1 V c t.val t.isLt
  Φ _ := Pipeline.ΦA spec1 c
  q _ := fullShare
  owed _ := 0

theorem dat1_after_out5 (c : Dev nD) (t : Fin cfg1.N) :
    (dat1 V c).after 5 t = out1_5 (iblk1 V c 0 t) (iblk1 V c 1 t) (iblk1 V c 2 t) (iblk1 V c 3 t) (iblk1 V c 4 t) := by dsimp only [dat1]
theorem dat1_after_out6 (c : Dev nD) (t : Fin cfg1.N) : (dat1 V c).after 6 t = sumAt1 V c t.val t.isLt := by dsimp only [dat1]
theorem dat1_after_out7 (c : Dev nD) (t : Fin cfg1.N) : (dat1 V c).after 7 t = sqAt1 V c t.val t.isLt := by dsimp only [dat1]
theorem dat1_Φ (c : Dev nD) (n : Fin (cfg1.N + 1)) : (dat1 V c).Φ n = Pipeline.ΦA spec1 c := by dsimp only [dat1]

/-- Each input's buffer holds the point's block at every point. -/
theorem found1 (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t)
      ∧ (∀ d, (dat1 V c).before 3 t d = iblk1 V c 3 t) ∧ (∀ d, (dat1 V c).before 4 t d = iblk1 V c 4 t) :=
  ⟨(dat1 V c).before_in_eq_fetched 0 rfl (fun _ => rfl) (fun _ _ _ => rfl) (fun _ => rfl) t,
   (dat1 V c).before_in_eq_fetched 1 rfl (fun _ => rfl) (fun _ _ _ => rfl) (fun _ => rfl) t,
   (dat1 V c).before_in_eq_fetched 2 rfl (fun _ => rfl) (fun _ _ _ => rfl) (fun _ => rfl) t,
   (dat1 V c).before_in_eq_fetched 3 rfl (fun _ => rfl) (fun _ _ _ => rfl) (fun _ => rfl) t,
   (dat1 V c).before_in_eq_fetched 4 rfl (fun _ => rfl) (fun _ _ _ => rfl) (fun _ => rfl) t⟩

/-- What a point leaves in the two rows is the body's sum over the zero row at the first point and over what the
    row held, which is what the point before left, at the others. -/
theorem carried1 (c : Dev nD) (t : Fin cfg1.N) (d6 d7) :
    (dat1 V c).after 6 t = out1_6 (iblk1 V c 0 t) (iblk1 V c 1 t) (iblk1 V c 2 t) (iblk1 V c 3 t) (iblk1 V c 4 t)
        (if ((grid1.coords t) 0).val = 0 then reset1_6 else (dat1 V c).before 6 t d6)
    ∧ (dat1 V c).after 7 t = out1_7 (iblk1 V c 0 t) (iblk1 V c 1 t) (iblk1 V c 2 t) (iblk1 V c 3 t) (iblk1 V c 4 t)
        (if ((grid1.coords t) 0).val = 0 then reset1_7 else (dat1 V c).before 7 t d7) := by
  rw [dat1_after_out6, dat1_after_out7, show ((grid1.coords t) 0).val = t.val from coord1_eq t]
  obtain ⟨_ | n, hn⟩ := t
  · rw [if_pos rfl, if_pos rfl]; exact ⟨sumAt1_zero V c hn, sqAt1_zero V c hn⟩
  · have hN : n + 1 < 10 := lt_of_lt_of_eq hn N_1
    rw [if_neg n.succ_ne_zero, if_neg n.succ_ne_zero,
      Dat.before_out_kept _ 6 rfl _ n.succ_ne_zero (Bool.eq_false_iff.mpr fun h => by have := (flush1_6 _).mp h; dsimp only at this; omega)
        (fun _ => rfl) (fun _ _ => rfl),
      Dat.before_out_kept _ 7 rfl _ n.succ_ne_zero (Bool.eq_false_iff.mpr fun h => by have := (flush1_7 _).mp h; dsimp only at this; omega)
        (fun _ => rfl) (fun _ _ => rfl)]
    exact ⟨sumAt1_succ V c n hn, sqAt1_succ V c n hn⟩

theorem body_obligation1 (c : Dev nD) : BodyObligation (dat1 (F := F) V c) (defs₀ (F := F)) Variants.none () Set.univ := fun t => by
  rw [bigSep_W1, bigSep_W1]
  dsimp only
  show iprop(_ ∗ _ ∗ _ ∗ _ ∗ _ ∗ _ ∗ _ ∗ _ ∗ _ ∗ _)
    ⊢ wp _ _ _ (bodyAt1 t) fun _ => iprop((dat1 V c).Φ t.castSucc ∗ (dat1 V c).owesAt () t.castSucc
      ∗ owns c.tc (st1_0 t) _ (iblk1 V c 0 t) ∗ owns c.tc (st1_1 t) _ (iblk1 V c 1 t) ∗ owns c.tc (st1_2 t) _ (iblk1 V c 2 t) ∗ owns c.tc (st1_3 t) _ (iblk1 V c 3 t)
      ∗ owns c.tc (st1_4 t) _ (iblk1 V c 4 t) ∗ owns c.tc (st1_5 t) _ _ ∗ owns c.tc (st1_6 t) _ _ ∗ owns c.tc (st1_7 t) _ _)
  obtain ⟨b0, b1, b2, b3, b4⟩ := found1 V c t
  simp only [b0, b1, b2, b3, b4]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [dat1_after_out5, (carried1 V c t d6 d7).1, (carried1 V c t d6 d7).2]
  iapply sound_kernel1 c Set.univ (grid1.coords t) (st1_0 t) _ (st1_1 t) _ (st1_2 t) _ (st1_3 t) _ (st1_4 t) _ (st1_5 t) _ (st1_6 t) _ (st1_7 t) _
    (iblk1 V c 0 t) (iblk1 V c 1 t) (iblk1 V c 2 t) (iblk1 V c 3 t) (iblk1 V c 4 t) ((dat1 V c).before 5 t d5) ((dat1 V c).before 6 t d6) ((dat1 V c).before 7 t d7) _
  iframe H0 H1 H2 H3 H4 H5 H6 H7
  iintro ⟨H0, H1, H2, H3, H4, H5, H6, H7⟩
  iframe

end Cert.KernelIdeal.Hand

end
-- ==== Proof.KernelIdeal.Region2.lean ====
import proofs.«424731_j88648124990764_2_alg».proof.Proof.Gen.KernelIdeal.Launch
import proofs.«424731_j88648124990764_2_alg».proof.Proof.Gen.KernelIdeal.Skeleton
import proofs.«424731_j88648124990764_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rAll2 : Rect S10000x128 := Rect.unit (s := S10000x128) ![0, 0] S10000x128.size inb_S10000x128_S10000x128_0_0
abbrev rRow2 : Rect S1x128 := Rect.unit (s := S1x128) ![0, 0] S1x128.size inb_S1x128_S1x128_0_0

def out2_3 (x0 : Vec F S10000x128 .f32) (x1 : Vec F S1x128 .f32) (x2 : Vec F S1x128 .f32) : Vec F S10000x128 .bf16 :=
  View.canon [⟨rAll2, k2_pay1 (View.ld x0 rAll2) (View.ld x1 rRow2) (View.ld x2 rRow2)⟩]

set_option maxHeartbeats 1000000 in
/-- The three inputs are only read; the one store covers the output block, so it reads as the stored payload. -/
theorem sound_kernel2 (c : Dev nD) (E : Set ℕ) (i : grid2.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S10000x128 .bf16) (harg4 : arg4.IsWhole)
    (x0 : Vec F S10000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__bn_relu_kernel i arg1 harg1 arg2 harg2 arg3 harg3 arg4 harg4) K := by
  simp only [cc2__bn_relu_kernel_eq_skeleton, owns_eq_rep]; unfold cc2__bn_relu_kernel_skel
  iintro ⟨H0, H1, H2, ⟨%d, H3⟩, Hk⟩
  sl_exec
  sl_step
  iapply Hk
  iframe H0 H1 H2
  iapply (rep_of_owns _ _ _ _)
  unfold owns
  iexists _; isplitr
  swap; · iexact H3
  ipureintro
  rw [View.read_writes_eq_canon _ _ _ (View.cover_of_tiled _ S10000x128.size (by rfl))]
  simp only [View.readAt_rep]
  rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem dat2_after_out (c : Dev nD) (t : Fin cfg2.N) :
    (dat2 V c).after 3 t = out2_3 (iblk2 V c 0 t) (iblk2 V c 1 t) (iblk2 V c 2 t) := by dsimp only [dat2]

theorem found2 (c : Dev nD) (t : Fin cfg2.N) : (∀ d, (dat2 V c).before 0 t d = iblk2 V c 0 t)
    ∧ (∀ d, (dat2 V c).before 1 t d = iblk2 V c 1 t) ∧ ∀ d, (dat2 V c).before 2 t d = iblk2 V c 2 t := by
  refine ⟨fun _ => ?_, fun _ => ?_, fun _ => ?_⟩ <;> apply Dat.before_in_eq_fetched <;> intros <;> rfl

theorem body_obligation2 (c : Dev nD) : BodyObligation (dat2 (F := F) V c) (defs₀ (F := F)) Variants.none () Set.univ := fun t => by
  rw [bigSep_W2, bigSep_W2]
  dsimp only
  simp only [(found2 V c t).1, (found2 V c t).2.1, (found2 V c t).2.2]
  dsimp only [dat2]
  change _ ⊢ wp _ _ _ (bodyAt2 t) _
  iintro ⟨HΦ, Ho, ⟨%_, H0⟩, ⟨%_, H1⟩, ⟨%_, H2⟩, ⟨%_, H3⟩⟩
  iapply (sound_kernel2 c Set.univ _ _ _ _ _ _ _ _ _ (iblk2 V c 0 t) (iblk2 V c 1 t) (iblk2 V c 2 t) _)
  iframe H0 H1 H2
  isplitl [H3]; · iexists _; iexact H3
  iintro ⟨H0, H1, H2, H3⟩
  iframe HΦ H0 H1 H2 H3
  iexact Ho

end Cert.KernelIdeal.Hand

end
-- ==== Proof.KernelIdeal.Region3.lean ====
import proofs.«424731_j88648124990764_2_alg».proof.Proof.Gen.KernelIdeal.Launch
import proofs.«424731_j88648124990764_2_alg».proof.Proof.Gen.KernelIdeal.Skeleton
import proofs.«424731_j88648124990764_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem first3_iff (i : grid3.Coords) :
    (Scalar.cmpi .ne (Scalar.extui (Scalar.cmpi .eq (BitVec.ofNat 32 (i 0).val) 0#32) : BitVec 32) 0#32 = 1#1) ↔ (i 0).val = 0 := by
  have h : ∀ k : Fin 10, (Scalar.cmpi .ne (Scalar.extui (Scalar.cmpi .eq (BitVec.ofNat 32 k.val) 0#32) : BitVec 32) 0#32 = 1#1) ↔ k.val = 0 := by decide
  exact h (i 0)

abbrev rBlk3 : Rect S10000x128 := Rect.unit (s := S10000x128) ![0, 0] S10000x128.size inb_S10000x128_S10000x128_0_0
abbrev rMat3 : Rect S128x128 := Rect.unit (s := S128x128) ![0, 0] S128x128.size inb_S128x128_S128x128_0_0
abbrev rRow3 : Rect S1x128 := Rect.unit (s := S1x128) ![0, 0] S1x128.size inb_S1x128_S1x128_0_0

def out3_5 (x0 : Vec F S10000x128 .f32) (x1 : Vec F S10000x128 .bf16) (x2 : Vec F S128x128 .f32) (x3 : Vec F S1x128 .f32)
    (x4 : Vec F S128x128 .f32) : Vec F S10000x128 .f32 :=
  View.canon [⟨rBlk3, k3_pay3 (View.ld x0 rBlk3) (View.ld x1 rBlk3) (View.ld x2 rMat3) (View.ld x3 rRow3) (View.ld x4 rMat3)⟩]

def out3_6 (x0 : Vec F S10000x128 .f32) (x1 : Vec F S10000x128 .bf16) (x2 : Vec F S128x128 .f32) (x3 : Vec F S1x128 .f32)
    (x4 : Vec F S128x128 .f32) (p : Vec F S1x128 .f32) : Vec F S1x128 .f32 :=
  View.canon [⟨rRow3, k3_pay4 (View.ld x0 rBlk3) (View.ld x1 rBlk3) (View.ld x2 rMat3) (View.ld x3 rRow3) (View.ld x4 rMat3) (View.ld p rRow3)⟩]

def out3_7 (x0 : Vec F S10000x128 .f32) (x1 : Vec F S10000x128 .bf16) (x2 : Vec F S128x128 .f32) (x3 : Vec F S1x128 .f32)
    (x4 : Vec F S128x128 .f32) (p : Vec F S1x128 .f32) : Vec F S1x128 .f32 :=
  View.canon [⟨rRow3, k3_pay5 (View.ld x0 rBlk3) (View.ld x1 rBlk3) (View.ld x2 rMat3) (View.ld x3 rRow3) (View.ld x4 rMat3) (View.ld p rRow3)⟩]

def reset3_6 : Vec F S1x128 .f32 := View.canon [⟨rRow3, k3_pay1 (F := F)⟩]
def reset3_7 : Vec F S1x128 .f32 := View.canon [⟨rRow3, k3_pay2 (F := F)⟩]

theorem cover3_5 (w : Vec F S10000x128 .f32) (y : S10000x128.Idx) :
    ∃ pc ∈ ([⟨rBlk3, w⟩] : List (View.Piece (Elt F) S10000x128 .f32)), y ∈ pc.1.set :=
  View.cover_of_tiled [⟨rBlk3, w⟩] S10000x128.size (by rfl) y

theorem mem_rRow3 (y : S1x128.Idx) : y ∈ (rRow3).set := by
  obtain ⟨pc, hpc, hy⟩ := View.cover_of_tiled ([⟨rRow3, fun _ => ()⟩] : List (View.Piece (fun _ => Unit) S1x128 .f32)) S1x128.size (by rfl) y
  rw [List.mem_singleton] at hpc; subst hpc; exact hy

/-- A store of the whole row hides what the row held and every earlier write. -/
theorem read_row3 {κ : Kind} {sp : Space} (v : View sig κ sp S1x128 .f32) (f : v.ty.Contents (Elt F)) (w : Vec F S1x128 .f32)
    (L : List (View.Piece (Elt F) S1x128 .f32)) :
    v.read (Elt F) (v.writes (Elt F) f (⟨rRow3, w⟩ :: L)) = View.canon [⟨rRow3, w⟩] := by
  funext y
  obtain ⟨x, rfl⟩ := (rRow3).exists_idx_of_mem (mem_rRow3 y)
  exact (View.read_writes_apply_eq_canon v f _ (⟨rRow3, w⟩ :: L) ⟨_, List.mem_cons_self, mem_rRow3 _⟩).trans
    ((View.canon_cons_emb rRow3 w L x).trans (View.canon_cons_emb rRow3 w [] x).symm)

theorem readBack_row3 {κ : Kind} {sp : Space} (v : View sig κ sp S1x128 .f32) (w : Vec F S1x128 .f32) :
    v.readCov [⟨rRow3, w⟩] (rRow3).toLoadRect = View.ld (View.canon [⟨rRow3, w⟩]) rRow3 :=
  View.readCov_eq_canon_ld v _ rRow3 fun y => ⟨_, List.mem_singleton.mpr rfl, mem_rRow3 y⟩

set_option maxHeartbeats 1000000 in
/-- The body on whole buffers: the inputs are kept, window 5 takes y, and the two rows take their sums over the zero
    rows at the first point and over what they held at the others. -/
theorem sound_kernel3 (c : Dev nD) (E : Set ℕ) (i : grid3.Coords)
    (arg1 : Memref sig .tc .vmem S10000x128 .f32) (harg1 : arg1.IsWhole) (arg2 : Memref sig .tc .vmem S10000x128 .bf16) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S10000x128 .f32) (harg6 : arg6.IsWhole)
    (arg7 : Memref sig .tc .vmem S1x128 .f32) (harg7 : arg7.IsWhole) (arg8 : Memref sig .tc .vmem S1x128 .f32) (harg8 : arg8.IsWhole)
    (x0 : Vec F S10000x128 .f32) (x1 : Vec F S10000x128 .bf16) (x2 : Vec F S128x128 .f32) (x3 : Vec F S1x128 .f32) (x4 : Vec F S128x128 .f32)
    (d5 : Vec F S10000x128 .f32) (p6 p7 : Vec F S1x128 .f32) (K : PUnit → sProp 𝕄) :
    iprop(owns c.tc arg1 fullShare x0 ∗ owns c.tc arg2 fullShare x1 ∗ owns c.tc arg3 fullShare x2
        ∗ owns c.tc arg4 fullShare x3 ∗ owns c.tc arg5 fullShare x4
        ∗ owns c.tc arg6 fullShare d5 ∗ owns c.tc arg7 fullShare p6 ∗ owns c.tc arg8 fullShare p7
        ∗ (iprop(owns c.tc arg1 fullShare x0 ∗ owns c.tc arg2 fullShare x1 ∗ owns c.tc arg3 fullShare x2
        ∗ owns c.tc arg4 fullShare x3 ∗ owns c.tc arg5 fullShare x4
            ∗ owns c.tc arg6 fullShare (out3_5 x0 x1 x2 x3 x4)
            ∗ owns c.tc arg7 fullShare (out3_6 x0 x1 x2 x3 x4 (if (i 0).val = 0 then reset3_6 else p6))
            ∗ owns c.tc arg8 fullShare (out3_7 x0 x1 x2 x3 x4 (if (i 0).val = 0 then reset3_7 else p7))) -∗ K ⟨⟩))
      ⊢ wp frame (wpE (defs₀ (F := F)) Variants.none c none) E (cc3__sage_dense_kernel i arg1 harg1 arg2 harg2 arg3 harg3 arg4 harg4 arg5 harg5 arg6 harg6 arg7 harg7 arg8 harg8) K := by
  simp only [cc3__sage_dense_kernel_eq_skeleton]; unfold cc3__sage_dense_kernel_skel
  simp only [k3_part1_eq_skeleton]; unfold k3_part1_skel
  simp only [first3_iff]
  unfold owns
  iintro ⟨⟨%f0, %hf0, H0⟩, ⟨%f1, %hf1, H1⟩, ⟨%f2, %hf2, H2⟩, ⟨%f3, %hf3, H3⟩, ⟨%f4, %hf4, H4⟩, ⟨%f5, -, H5⟩, ⟨%f6, %hf6, H6⟩, ⟨%f7, %hf7, H7⟩, Hk⟩
  subst hf0 hf1 hf2 hf3 hf4 hf6 hf7
  by_cases hi : (i 0).val = 0 <;> simp only [hi, ↓reduceDIte, ↓reduceIte]
  all_goals
    sl_exec
    sl_step
    iapply Hk
    isplitl [H0]; swap; isplitl [H1]; swap; isplitl [H2]; swap; isplitl [H3]; swap; isplitl [H4]; swap; isplitl [H5]; swap; isplitl [H6]
    all_goals
      iexists _; isplitr
      swap; · iassumption
      ipureintro
      first
        | with_reducible rfl
        | exact View.read_writes_eq_canon _ _ _ (cover3_5 _)
        | (sl_unfold_run_names; rw [read_row3]; (try rw [readBack_row3]); rfl)

theorem coord3_eq : ∀ t : Fin cfg3.N, ((cfg3.grid.coords t) 0).val = t.val :=
  (by decide +kernel : ∀ t : Fin grid3.N, ((grid3.coords t) 0).val = t.val)

/-- The running column sums of y: what window 6's buffer holds after the body at point `n`. -/
def sumAt3 (c : Dev nD) : (n : ℕ) → n < cfg3.N → Vec F S1x128 .f32
  | 0, hn => out3_6 (iblk3 V c 0 ⟨0, hn⟩) (iblk3 V c 1 ⟨0, hn⟩) (iblk3 V c 2 ⟨0, hn⟩) (iblk3 V c 3 ⟨0, hn⟩) (iblk3 V c 4 ⟨0, hn⟩) reset3_6
  | n + 1, hn => out3_6 (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩)
      (sumAt3 c n (Nat.lt_of_succ_lt hn))

/-- The running column sums of y², in window 7's buffer. -/
def sqAt3 (c : Dev nD) : (n : ℕ) → n < cfg3.N → Vec F S1x128 .f32
  | 0, hn => out3_7 (iblk3 V c 0 ⟨0, hn⟩) (iblk3 V c 1 ⟨0, hn⟩) (iblk3 V c 2 ⟨0, hn⟩) (iblk3 V c 3 ⟨0, hn⟩) (iblk3 V c 4 ⟨0, hn⟩) reset3_7
  | n + 1, hn => out3_7 (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩)
      (sqAt3 c n (Nat.lt_of_succ_lt hn))

theorem sumAt3_zero (c : Dev nD) (hn : 0 < cfg3.N) :
    sumAt3 V c 0 hn = out3_6 (iblk3 V c 0 ⟨0, hn⟩) (iblk3 V c 1 ⟨0, hn⟩) (iblk3 V c 2 ⟨0, hn⟩) (iblk3 V c 3 ⟨0, hn⟩) (iblk3 V c 4 ⟨0, hn⟩) reset3_6 := by
  rw [sumAt3]
theorem sumAt3_succ (c : Dev nD) (n : ℕ) (hn : n + 1 < cfg3.N) :
    sumAt3 V c (n + 1) hn = out3_6 (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩)
      (sumAt3 V c n (Nat.lt_of_succ_lt hn)) := by
  rw [sumAt3]
theorem sqAt3_zero (c : Dev nD) (hn : 0 < cfg3.N) :
    sqAt3 V c 0 hn = out3_7 (iblk3 V c 0 ⟨0, hn⟩) (iblk3 V c 1 ⟨0, hn⟩) (iblk3 V c 2 ⟨0, hn⟩) (iblk3 V c 3 ⟨0, hn⟩) (iblk3 V c 4 ⟨0, hn⟩) reset3_7 := by
  rw [sqAt3]
theorem sqAt3_succ (c : Dev nD) (n : ℕ) (hn : n + 1 < cfg3.N) :
    sqAt3 V c (n + 1) hn = out3_7 (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩)
      (sqAt3 V c n (Nat.lt_of_succ_lt hn)) := by
  rw [sqAt3]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
    | ⟨6, _⟩ => sumAt3 V c t.val t.isLt
    | ⟨7, _⟩ => sqAt3 V c t.val t.isLt
  Φ _ := Pipeline.ΦA spec3 c
  q _ := fullShare
  owed _ := 0

theorem dat3_after_out5 (c : Dev nD) (t : Fin cfg3.N) :
    (dat3 V c).after 5 t = out3_5 (iblk3 V c 0 t) (iblk3 V c 1 t) (iblk3 V c 2 t) (iblk3 V c 3 t) (iblk3 V c 4 t) := by dsimp only [dat3]
theorem dat3_after_out6 (c : Dev nD) (t : Fin cfg3.N) : (dat3 V c).after 6 t = sumAt3 V c t.val t.isLt := by dsimp only [dat3]
theorem dat3_after_out7 (c : Dev nD) (t : Fin cfg3.N) : (dat3 V c).after 7 t = sqAt3 V c t.val t.isLt := by dsimp only [dat3]
theorem dat3_Φ (c : Dev nD) (n : Fin (cfg3.N + 1)) : (dat3 V c).Φ n = Pipeline.ΦA spec3 c := by dsimp only [dat3]

/-- Each input's buffer holds the point's block at every point. -/
theorem found3 (c : Dev nD) (t : Fin cfg3.N) :
    (∀ d, (dat3 V c).before 0 t d = iblk3 V c 0 t) ∧ (∀ d, (dat3 V c).before 1 t d = iblk3 V c 1 t) ∧ (∀ d, (dat3 V c).before 2 t d = iblk3 V c 2 t)
      ∧ (∀ d, (dat3 V c).before 3 t d = iblk3 V c 3 t) ∧ (∀ d, (dat3 V c).before 4 t d = iblk3 V c 4 t) :=
  ⟨(dat3 V c).before_in_eq_fetched 0 rfl (fun _ => rfl) (fun _ _ _ => rfl) (fun _ => rfl) t,
   (dat3 V c).before_in_eq_fetched 1 rfl (fun _ => rfl) (fun _ _ _ => rfl) (fun _ => rfl) t,
   (dat3 V c).before_in_eq_fetched 2 rfl (fun _ => rfl) (fun _ _ _ => rfl) (fun _ => rfl) t,
   (dat3 V c).before_in_eq_fetched 3 rfl (fun _ => rfl) (fun _ _ _ => rfl) (fun _ => rfl) t,
   (dat3 V c).before_in_eq_fetched 4 rfl (fun _ => rfl) (fun _ _ _ => rfl) (fun _ => rfl) t⟩

/-- What a point leaves in the two rows is the body's sum over the zero row at the first point and over what the
    row held, which is what the point before left, at the others. -/
theorem carried3 (c : Dev nD) (t : Fin cfg3.N) (d6 d7) :
    (dat3 V c).after 6 t = out3_6 (iblk3 V c 0 t) (iblk3 V c 1 t) (iblk3 V c 2 t) (iblk3 V c 3 t) (iblk3 V c 4 t)
        (if ((grid3.coords t) 0).val = 0 then reset3_6 else (dat3 V c).before 6 t d6)
    ∧ (dat3 V c).after 7 t = out3_7 (iblk3 V c 0 t) (iblk3 V c 1 t) (iblk3 V c 2 t) (iblk3 V c 3 t) (iblk3 V c 4 t)
        (if ((grid3.coords t) 0).val = 0 then reset3_7 else (dat3 V c).before 7 t d7) := by
  rw [dat3_after_out6, dat3_after_out7, show ((grid3.coords t) 0).val = t.val from coord3_eq t]
  obtain ⟨_ | n, hn⟩ := t
  · rw [if_pos rfl, if_pos rfl]; exact ⟨sumAt3_zero V c hn, sqAt3_zero V c hn⟩
  · have hN : n + 1 < 10 := lt_of_lt_of_eq hn N_3
    rw [if_neg n.succ_ne_zero, if_neg n.succ_ne_zero,
      Dat.before_out_kept _ 6 rfl _ n.succ_ne_zero (Bool.eq_false_iff.mpr fun h => by have := (flush3_6 _).mp h; dsimp only at this; omega)
        (fun _ => rfl) (fun _ _ => rfl),
      Dat.before_out_kept _ 7 rfl _ n.succ_ne_zero (Bool.eq_false_iff.mpr fun h => by have := (flush3_7 _).mp h; dsimp only at this; omega)
        (fun _ => rfl) (fun _ _ => rfl)]
    exact ⟨sumAt3_succ V c n hn, sqAt3_succ V c n hn⟩

theorem body_obligation3 (c : Dev nD) : BodyObligation (dat3 (F := F) V c) (defs₀ (F := F)) Variants.none () Set.univ := fun t => by
  rw [bigSep_W3, bigSep_W3]
  dsimp only
  show iprop(_ ∗ _ ∗ _ ∗ _ ∗ _ ∗ _ ∗ _ ∗ _ ∗ _ ∗ _)
    ⊢ wp _ _ _ (bodyAt3 t) fun _ => iprop((dat3 V c).Φ t.castSucc ∗ (dat3 V c).owesAt () t.castSucc
      ∗ owns c.tc (st3_0 t) _ (iblk3 V c 0 t) ∗ owns c.tc (st3_1 t) _ (iblk3 V c 1 t) ∗ owns c.tc (st3_2 t) _ (iblk3 V c 2 t) ∗ owns c.tc (st3_3 t) _ (iblk3 V c 3 t)
      ∗ owns c.tc (st3_4 t) _ (iblk3 V c 4 t) ∗ owns c.tc (st3_5 t) _ _ ∗ owns c.tc (st3_6 t) _ _ ∗ owns c.tc (st3_7 t) _ _)
  obtain ⟨b0, b1, b2, b3, b4⟩ := found3 V c t
  simp only [b0, b1, b2, b3, b4]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [dat3_after_out5, (carried3 V c t d6 d7).1, (carried3 V c t d6 d7).2]
  iapply sound_kernel3 c Set.univ (grid3.coords t) (st3_0 t) _ (st3_1 t) _ (st3_2 t) _ (st3_3 t) _ (st3_4 t) _ (st3_5 t) _ (st3_6 t) _ (st3_7 t) _
    (iblk3 V c 0 t) (iblk3 V c 1 t) (iblk3 V c 2 t) (iblk3 V c 3 t) (iblk3 V c 4 t) ((dat3 V c).before 5 t d5) ((dat3 V c).before 6 t d6) ((dat3 V c).before 7 t d7) _
  iframe H0 H1 H2 H3 H4 H5 H6 H7
  iintro ⟨H0, H1, H2, H3, H4, H5, H6, H7⟩
  iframe

end Cert.KernelIdeal.Hand

end
-- ==== Proof.KernelIdeal.Region4.lean ====
import proofs.«424731_j88648124990764_2_alg».proof.Proof.Gen.KernelIdeal.Launch
import proofs.«424731_j88648124990764_2_alg».proof.Proof.Gen.KernelIdeal.Skeleton
import proofs.«424731_j88648124990764_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev rAll4 : Rect S10000x128 := Rect.unit (s := S10000x128) ![0, 0] S10000x128.size inb_S10000x128_S10000x128_0_0
abbrev rRow4 : Rect S1x128 := Rect.unit (s := S1x128) ![0, 0] S1x128.size inb_S1x128_S1x128_0_0

def out4_3 (x0 : Vec F S10000x128 .f32) (x1 : Vec F S1x128 .f32) (x2 : Vec F S1x128 .f32) : Vec F S10000x128 .bf16 :=
  View.canon [⟨rAll4, k4_pay1 (View.ld x0 rAll4) (View.ld x1 rRow4) (View.ld x2 rRow4)⟩]

set_option maxHeartbeats 1000000 in
/-- The three inputs are only read; the one store covers the output block, so it reads as the stored payload. -/
theorem sound_kernel4 (c : Dev nD) (E : Set ℕ) (i : grid4.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S10000x128 .bf16) (harg4 : arg4.IsWhole)
    (x0 : Vec F S10000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__bn_relu_kernel i arg1 harg1 arg2 harg2 arg3 harg3 arg4 harg4) K := by
  simp only [cc4__bn_relu_kernel_eq_skeleton, owns_eq_rep]; unfold cc4__bn_relu_kernel_skel
  iintro ⟨H0, H1, H2, ⟨%d, H3⟩, Hk⟩
  sl_exec
  sl_step
  iapply Hk
  iframe H0 H1 H2
  iapply (rep_of_owns _ _ _ _)
  unfold owns
  iexists _; isplitr
  swap; · iexact H3
  ipureintro
  rw [View.read_writes_eq_canon _ _ _ (View.cover_of_tiled _ S10000x128.size (by rfl))]
  simp only [View.readAt_rep]
  rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem dat4_after_out (c : Dev nD) (t : Fin cfg4.N) :
    (dat4 V c).after 3 t = out4_3 (iblk4 V c 0 t) (iblk4 V c 1 t) (iblk4 V c 2 t) := by dsimp only [dat4]

theorem found4 (c : Dev nD) (t : Fin cfg4.N) : (∀ d, (dat4 V c).before 0 t d = iblk4 V c 0 t)
    ∧ (∀ d, (dat4 V c).before 1 t d = iblk4 V c 1 t) ∧ ∀ d, (dat4 V c).before 2 t d = iblk4 V c 2 t := by
  refine ⟨fun _ => ?_, fun _ => ?_, fun _ => ?_⟩ <;> apply Dat.before_in_eq_fetched <;> intros <;> rfl

theorem body_obligation4 (c : Dev nD) : BodyObligation (dat4 (F := F) V c) (defs₀ (F := F)) Variants.none () Set.univ := fun t => by
  rw [bigSep_W4, bigSep_W4]
  dsimp only
  simp only [(found4 V c t).1, (found4 V c t).2.1, (found4 V c t).2.2]
  dsimp only [dat4]
  change _ ⊢ wp _ _ _ (bodyAt4 t) _
  iintro ⟨HΦ, Ho, ⟨%_, H0⟩, ⟨%_, H1⟩, ⟨%_, H2⟩, ⟨%_, H3⟩⟩
  iapply (sound_kernel4 c Set.univ _ _ _ _ _ _ _ _ _ (iblk4 V c 0 t) (iblk4 V c 1 t) (iblk4 V c 2 t) _)
  iframe H0 H1 H2
  isplitl [H3]; · iexists _; iexact H3
  iintro ⟨H0, H1, H2, H3⟩
  iframe HΦ H0 H1 H2 H3
  iexact Ho

end Cert.KernelIdeal.Hand

end
-- ==== Proof.KernelIdeal.Region5.lean ====
import proofs.«424731_j88648124990764_2_alg».proof.Proof.Gen.KernelIdeal.Launch
import proofs.«424731_j88648124990764_2_alg».proof.Proof.Gen.KernelIdeal.Skeleton
import proofs.«424731_j88648124990764_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev rX5 : Rect S10000x128 := Rect.unit (s := S10000x128) ![0, 0] S10000x128.size inb_S10000x128_S10000x128_0_0
abbrev rIds5 : Rect S10000x1 := Rect.unit (s := S10000x1) ![0, 0] S10000x1.size inb_S10000x1_S10000x1_0_0
abbrev rW5 : Rect S128x128 := Rect.unit (s := S128x128) ![0, 0] S128x128.size inb_S128x128_S128x128_0_0
abbrev rB5 : Rect S1x128 := Rect.unit (s := S1x128) ![0, 0] S1x128.size inb_S1x128_S1x128_0_0
abbrev rP5 : Rect S512x128 := Rect.unit (s := S512x128) ![0, 0] S512x128.size inb_S512x128_S512x128_0_0

abbrev first5 (i : grid5.Coords) : BitVec 1 :=
  Scalar.cmpi .ne (Scalar.extui (Scalar.cmpi .eq (BitVec.ofNat 32 (i 0).val) 0#32) : BitVec 32) 0#32

def zero5 : Vec F S512x128 .f32 := View.canon [⟨rP5, k5_pay1 (F := F)⟩]
def acc5 (x1 : Vec F S10000x1 .i32) (x0 : Vec F S10000x128 .bf16) (s : Vec F S512x128 .f32) : Vec F S512x128 .f32 :=
  View.canon [⟨rP5, k5_pay2 (View.ld x1 rIds5) (View.ld x0 rX5) (View.ld s rP5)⟩]
def out5_4 (s : Vec F S512x128 .f32) (x2 : Vec F S128x128 .f32) (x3 : Vec F S1x128 .f32) : Vec F S512x128 .f32 :=
  View.canon [⟨rP5, k5_pay3 (View.ld s rP5) (View.ld x2 rW5) (View.ld x3 rB5)⟩]

theorem hz5 : (![0, 0] : Fin 2 → ℕ) = fun _ => 0 := funext fun a => by fin_cases a <;> rfl

section
variable {κ : Kind} {sp : Space} (v : View sig κ sp S512x128 .f32) (p : Vec F S512x128 .f32) (L : List (View.Piece (Elt F) S512x128 .f32))

/-- A store of the whole block, last, covers it, -/
theorem cover5 (y : S512x128.Idx) : ∃ pc ∈ (⟨rP5, p⟩ :: L : List (View.Piece (Elt F) S512x128 .f32)), y ∈ pc.1.set :=
  ⟨_, List.mem_cons_self, View.mem_set_unit_zero (S := S512x128) hz5 inb_S512x128_S512x128_0_0 y⟩

/-- so the buffer then reads its payload, whatever was stored before, -/
theorem read_whole5 (f : v.ty.Contents (Elt F)) : v.read (Elt F) (v.writes (Elt F) f (⟨rP5, p⟩ :: L)) = View.canon [⟨rP5, p⟩] := by
  rw [View.read_writes_eq_canon _ _ _ (cover5 p L), View.canon_cons_unit_zero hz5, View.canon_unit_zero hz5]

/-- and so does a load of the whole block. -/
theorem ld_whole5 : v.readCov (⟨rP5, p⟩ :: L) rP5 = View.ld (View.canon [⟨rP5, p⟩]) rP5 := by
  rw [View.readCov_eq_canon_ld _ _ _ (cover5 p L), View.canon_cons_unit_zero hz5, View.canon_unit_zero hz5]

end

set_option maxHeartbeats 1000000 in
/-- The scratch is zeroed at the first point and gains the block's contraction at every point; the output block is stored from it at the last. -/
theorem sound_kernel5 (c : Dev nD) (E : Set ℕ) (i : grid5.Coords)
    (arg1 : Memref sig .tc .vmem S10000x128 .bf16) (harg1 : arg1.IsWhole) (arg2 : Memref sig .tc .vmem S10000x1 .i32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S512x128 .f32) (harg5 : arg5.IsWhole) (arg6 : Memref sig .tc .vmem S512x128 .f32) (harg6 : arg6.IsWhole)
    (x0 : Vec F S10000x128 .bf16) (x1 : Vec F S10000x1 .i32) (x2 : Vec F S128x128 .f32) (x3 : Vec F S1x128 .f32)
    (y s : Vec F S512x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare y ∗ owns (c : Thread nD τ) arg6 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (if k5_cond2 i = 1#1 then out5_4 (acc5 x1 x0 (if first5 i = 1#1 then zero5 else s)) x2 x3 else y)
            ∗ owns (c : Thread nD τ) arg6 fullShare (acc5 x1 x0 (if first5 i = 1#1 then zero5 else s))) -∗ K ⟨⟩))
      ⊢ wp frame (wpE (defs₀ (F := F)) Variants.none c none) E (cc5__pool_kernel i arg1 harg1 arg2 harg2 arg3 harg3 arg4 harg4 arg5 harg5 arg6 harg6) K := by
  simp only [cc5__pool_kernel_eq_skeleton, owns_eq_rep]; unfold cc5__pool_kernel_skel
  iintro ⟨H0, H1, H2, H3, H4, H5, Hk⟩
  by_cases h1 : first5 i = 1#1 <;> by_cases h2 : k5_cond2 i = 1#1
  all_goals
    first | rw [if_pos h1] | rw [if_neg h1]
    first | rw [if_pos h2] | rw [if_neg h2]
    sl_exec
    sl_step
    iapply Hk
    iframe H0 H1 H2 H3
    isplitl [H4] <;> first
      | (iapply (rep_of_owns _ _ _ _); unfold owns; iexists _; isplitr; rotate_left; iassumption; ipureintro
         sl_unfold_run_names; rw [read_whole5]; repeat rw [ld_whole5]
         simp only [View.readAt_rep]; rfl)
      | iexact H4

theorem first5_iff : ∀ t : Fin cfg5.N, first5 (grid5.coords t) = 1#1 ↔ t.val = 0 :=
  (by decide +kernel : ∀ t : Fin grid5.N, first5 (grid5.coords t) = 1#1 ↔ t.val = 0)
theorem last5_iff : ∀ t : Fin cfg5.N, k5_cond2 (grid5.coords t) = 1#1 ↔ t.val = 9 :=
  (by decide +kernel : ∀ t : Fin grid5.N, k5_cond2 (grid5.coords t) = 1#1 ↔ t.val = 9)

/-- The pooled sums after the points below `n`. -/
def pooledAt5 (c : Dev nD) : ℕ → Vec F S512x128 .f32
  | 0 => zero5
  | n + 1 => if h : n < cfg5.N then acc5 (iblk5 V c 1 ⟨n, h⟩) (iblk5 V c 0 ⟨n, h⟩) (pooledAt5 c n) else pooledAt5 c n

theorem pooledAt5_zero (c : Dev nD) : pooledAt5 V c 0 = zero5 := by rw [pooledAt5]
theorem pooledAt5_succ (c : Dev nD) (t : Fin cfg5.N) :
    pooledAt5 V c (t.val + 1) = acc5 (iblk5 V c 1 t) (iblk5 V c 0 t) (pooledAt5 V c t.val) := by
  rw [pooledAt5, dif_pos t.isLt]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (pooledAt5 V c (t.val + 1)) (iblk5 V c 2 t) (iblk5 V c 3 t)
  Φ n := iprop((∃ r, prngReg c r) ∗ Pipeline.scopedRestBut spec5 c [cc5_scratch0]
    ∗ ∃ s, ⌜n.val ≠ 0 → s = pooledAt5 V c n.val⌝ ∗ owns (c : Thread nD τ) (Memref.whole cc5_scratch0) fullShare s)
  q _ := fullShare
  owed _ := 0

theorem dat5_after_last (c : Dev nD) :
    (dat5 V c).after 4 t5_9 = out5_4 (pooledAt5 V c 10) (iblk5 V c 2 t5_9) (iblk5 V c 3 t5_9) := rfl

theorem Φ5_in (c : Dev nD) : iprop((∃ r, prngReg c r) ∗ Pipeline.scopedRest spec5 c) ⊢ ((dat5 V c).Φ 0 : sProp 𝕄) := by
  rw [scopedRest5_split]; dsimp only [dat5]
  iintro ⟨Hr, ⟨%f, Hs⟩, Hrest⟩
  iframe Hr Hrest
  iexists f; isplitr
  · ipureintro; exact fun h => absurd rfl h
  rw [owns_whole]; iexact Hs

theorem Φ5_out (c : Dev nD) : ((dat5 V c).Φ (Fin.last cfg5.N) : sProp 𝕄) ⊢ iprop((∃ r, prngReg c r) ∗ Pipeline.scopedRest spec5 c) := by
  rw [scopedRest5_split]; dsimp only [dat5]; simp only [owns_whole]
  iintro ⟨Hr, Hrest, ⟨%s, -, Hs⟩⟩
  iframe Hr Hrest
  iexists s; iexact Hs

theorem found5 (c : Dev nD) (t : Fin cfg5.N) : (∀ d, (dat5 V c).before 0 t d = iblk5 V c 0 t) ∧ (∀ d, (dat5 V c).before 1 t d = iblk5 V c 1 t)
    ∧ (∀ d, (dat5 V c).before 2 t d = iblk5 V c 2 t) ∧ ∀ d, (dat5 V c).before 3 t d = iblk5 V c 3 t := by
  refine ⟨fun _ => ?_, fun _ => ?_, fun _ => ?_, fun _ => ?_⟩ <;> apply Dat.before_in_eq_fetched <;> intros <;> rfl

/-- The output block is stored at the last point alone; at the others it is left as found. -/
theorem leaves5_4 (c : Dev nD) (t : Fin cfg5.N) (d : (cfg5.win 4).block.Idx → Elt F (cfg5.win 4).elt) :
    owns (c : Thread nD τ) (st5_4 t) fullShare
        (if k5_cond2 (grid5.coords t) = 1#1 then (dat5 V c).after 4 t else (dat5 V c).before 4 t d)
      ⊢ ((dat5 V c).leavesExact 4 t : sProp 𝕄) := by
  have hidle : cfg5.idle 4 (cfg5.grid.coords t) = !(k5_cond2 (grid5.coords t) == 1#1) := rfl
  by_cases h : k5_cond2 (grid5.coords t) = 1#1
  · rw [if_pos h]; unfold Dat.leavesExact; rw [hidle, h]; rfl
  · have hf : (cfg5.win 4).flush t = false := Bool.eq_false_iff.2 fun hfl => h ((last5_iff t).2 (by
      have := (flush5_4 t).1 hfl; have := Nat.lt_of_lt_of_eq t.isLt N_5; omega))
    rw [if_neg h, Dat.leavesExact_idle _ 4 t (by rw [hidle, beq_false_of_ne h]; rfl) hf]
    iintro H; iexists d; iexact H

theorem body_obligation5 (c : Dev nD) : BodyObligation (dat5 (F := F) V c) (defs₀ (F := F)) Variants.none () Set.univ := fun t => by
  rw [bigSep_W5, bigSep_W5]
  dsimp only
  simp only [(found5 V c t).1, (found5 V c t).2.1, (found5 V c t).2.2.1, (found5 V c t).2.2.2]
  change _ ⊢ wp _ _ _ (bodyAt5 t) fun _ => iprop(_ ∗ _ ∗ _ ∗ _ ∗ _ ∗ _ ∗ (dat5 V c).leavesExact 4 t)
  dsimp only [dat5]
  iintro ⟨⟨Hr, Hrest, ⟨%s, %hs, Hs⟩⟩, Ho, ⟨%_, H0⟩, ⟨%_, H1⟩, ⟨%_, H2⟩, ⟨%_, H3⟩, ⟨%d4, H4⟩⟩
  iapply (sound_kernel5 c Set.univ (grid5.coords t) _ _ _ _ _ _ _ _ _ _ _ _
    (iblk5 V c 0 t) (iblk5 V c 1 t) (iblk5 V c 2 t) (iblk5 V c 3 t) _ s _)
  iframe H0 H1 H2 H3 H4 Hs
  iintro ⟨H0, H1, H2, H3, H4, Hs⟩
  have hnext : acc5 (iblk5 V c 1 t) (iblk5 V c 0 t) (if first5 (grid5.coords t) = 1#1 then zero5 else s)
      = pooledAt5 V c (t.val + 1) := by
    have hs' : t.val ≠ 0 → s = pooledAt5 V c t.val := hs
    rw [pooledAt5_succ]
    by_cases hf : first5 (grid5.coords t) = 1#1
    · rw [if_pos hf, (first5_iff t).1 hf, pooledAt5_zero]
    · rw [if_neg hf, hs' fun h0 => hf ((first5_iff t).2 h0)]
  rw [hnext]
  isplitl [Hr Hrest Hs]
  · iframe Hr Hrest
    iexists _; isplitr
    swap; · iexact Hs
    ipureintro; intro _; rfl
  isplitl [Ho]; · iexact Ho
  iframe H0 H1 H2 H3
  iapply (leaves5_4 V c t d4)
  iexact H4

end Cert.KernelIdeal.Hand

end
-- ==== Proof.KernelIdeal.RunBase.lean ====
import proofs.«424731_j88648124990764_2_alg».proof.Proof.KernelIdeal.SegCommon
import proofs.«424731_j88648124990764_2_alg».proof.Proof.KernelIdeal.Region0
import proofs.«424731_j88648124990764_2_alg».proof.Proof.KernelIdeal.Region1
import proofs.«424731_j88648124990764_2_alg».proof.Proof.KernelIdeal.Region2
import proofs.«424731_j88648124990764_2_alg».proof.Proof.KernelIdeal.Region3
import proofs.«424731_j88648124990764_2_alg».proof.Proof.KernelIdeal.Region4
import proofs.«424731_j88648124990764_2_alg».proof.Proof.KernelIdeal.Region5
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
variable {F : FTy → Type} [FloatOps F]
local notation "𝕄" => MT nD τ sig Unit (Elt F) ℕ (UR sig nD τ) ℕ
variable (m : (ℓ : Loc nD τ sig) → Buf (Elt F) ℓ) (outs : Outs (F := F))
abbrev outRefs0 : List (Ref sig .tc) := [main_v8]
abbrev E0 : (c : Dev nD) → (b : Ref sig .tc) → Buf (Elt F) ((c : Thread nD τ).loc b) := fun c b => V3 m c b
theorem Vout0_at6 (c : Dev nD) : V4 m outs c main_v8 = outs 4 main_v8 c := by
  show V4 m outs c main_v8 = _; unfold V4; rw [Function.update_self]
abbrev outRefs1 : List (Ref sig .tc) := [main_v33_0, main_v33_1, main_v33_2]
abbrev E1 : (c : Dev nD) → (b : Ref sig .tc) → Buf (Elt F) ((c : Thread nD τ).loc b) := fun c b => V5 m outs c b
theorem Vout1_at5 (c : Dev nD) : V6 m outs c main_v33_0 = outs 6 main_v33_0 c := by
  show V6 m outs c main_v33_0 = _; unfold V6; rw [Function.update_of_ne (StableHlo.devRef_ne_of_ne (show main_v33_0 ≠ main_v33_2 by decide)), Function.update_of_ne (StableHlo.devRef_ne_of_ne (show main_v33_0 ≠ main_v33_1 by decide)), Function.update_self]
theorem Vout1_at6 (c : Dev nD) : V6 m outs c main_v33_1 = outs 6 main_v33_1 c := by
  show V6 m outs c main_v33_1 = _; unfold V6; rw [Function.update_of_ne (StableHlo.devRef_ne_of_ne (show main_v33_1 ≠ main_v33_2 by decide)), Function.update_self]
theorem Vout1_at7 (c : Dev nD) : V6 m outs c main_v33_2 = outs 6 main_v33_2 c := by
  show V6 m outs c main_v33_2 = _; unfold V6; rw [Function.update_self]
abbrev outRefs2 : List (Ref sig .tc) := [main_v50]
abbrev E2 : (c : Dev nD) → (b : Ref sig .tc) → Buf (Elt F) ((c : Thread nD τ).loc b) := fun c b => V7 m outs c b
theorem Vout2_at3 (c : Dev nD) : V8 m outs c main_v50 = outs 8 main_v50 c := by
  show V8 m outs c main_v50 = _; unfold V8; rw [Function.update_self]
abbrev outRefs3 : List (Ref sig .tc) := [main_v65_0, main_v65_1, main_v65_2]
abbrev E3 : (c : Dev nD) → (b : Ref sig .tc) → Buf (Elt F) ((c : Thread nD τ).loc b) := fun c b => V9 m outs c b
theorem Vout3_at5 (c : Dev nD) : V10 m outs c main_v65_0 = outs 10 main_v65_0 c := by
  show V10 m outs c main_v65_0 = _; unfold V10; rw [Function.update_of_ne (StableHlo.devRef_ne_of_ne (show main_v65_0 ≠ main_v65_2 by decide)), Function.update_of_ne (StableHlo.devRef_ne_of_ne (show main_v65_0 ≠ main_v65_1 by decide)), Function.update_self]
theorem Vout3_at6 (c : Dev nD) : V10 m outs c main_v65_1 = outs 10 main_v65_1 c := by
  show V10 m outs c main_v65_1 = _; unfold V10; rw [Function.update_of_ne (StableHlo.devRef_ne_of_ne (show main_v65_1 ≠ main_v65_2 by decide)), Function.update_self]
theorem Vout3_at7 (c : Dev nD) : V10 m outs c main_v65_2 = outs 10 main_v65_2 c := by
  show V10 m outs c main_v65_2 = _; unfold V10; rw [Function.update_self]
abbrev outRefs4 : List (Ref sig .tc) := [main_v82]
abbrev E4 : (c : Dev nD) → (b : Ref sig .tc) → Buf (Elt F) ((c : Thread nD τ).loc b) := fun c b => V11 m outs c b
theorem Vout4_at3 (c : Dev nD) : V12 m outs c main_v82 = outs 12 main_v82 c := by
  show V12 m outs c main_v82 = _; unfold V12; rw [Function.update_self]
abbrev outRefs5 : List (Ref sig .tc) := [main_v88]
abbrev E5 : (c : Dev nD) → (b : Ref sig .tc) → Buf (Elt F) ((c : Thread nD τ).loc b) := fun c b => V17 m outs c b
theorem Vout5_at4 (c : Dev nD) : V18 m outs c main_v88 = outs 18 main_v88 c := by
  show V18 m outs c main_v88 = _; unfold V18; rw [Function.update_self]
structure OutsOk : Prop where
  o0 : ∀ c, outs 4 main_v8 c = (dat0 (E0 m) c).arrAt 6 cfg0.N
  o1_5 : ∀ c, outs 6 main_v33_0 c = (dat1 (E1 m outs) c).arrAt 5 cfg1.N
  o1_6 : ∀ c, outs 6 main_v33_1 c = (dat1 (E1 m outs) c).arrAt 6 cfg1.N
  o1_7 : ∀ c, outs 6 main_v33_2 c = (dat1 (E1 m outs) c).arrAt 7 cfg1.N
  o2 : ∀ c, outs 8 main_v50 c = (dat2 (E2 m outs) c).arrAt 3 cfg2.N
  o3_5 : ∀ c, outs 10 main_v65_0 c = (dat3 (E3 m outs) c).arrAt 5 cfg3.N
  o3_6 : ∀ c, outs 10 main_v65_1 c = (dat3 (E3 m outs) c).arrAt 6 cfg3.N
  o3_7 : ∀ c, outs 10 main_v65_2 c = (dat3 (E3 m outs) c).arrAt 7 cfg3.N
  o4 : ∀ c, outs 12 main_v82 c = (dat4 (E4 m outs) c).arrAt 3 cfg4.N
  o5 : ∀ c, outs 18 main_v88 c = (dat5 (E5 m outs) c).arrAt 4 cfg5.N
def pdats : (p : Fin 6) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m outs) c
  | ⟨2, _⟩ => fun c => dat2 (E2 m outs) c
  | ⟨3, _⟩ => fun c => dat3 (E3 m outs) c
  | ⟨4, _⟩ => fun c => dat4 (E4 m outs) c
  | ⟨5, _⟩ => fun c => dat5 (E5 m outs) c
end Cert.KernelIdeal.Hand
end
-- ==== Proof.KernelIdeal.Segs.lean ====
import proofs.«424731_j88648124990764_2_alg».proof.Proof.KernelIdeal.RunBase
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
variable {F : FTy → Type} [FloatOps F]
local notation "𝕄" => MT nD τ sig Unit (Elt F) ℕ (UR sig nD τ) ℕ
variable (m : (ℓ : Loc nD τ sig) → Buf (Elt F) ℓ) (outs : Outs (F := F))

set_option backward.isDefEq.respectTransparency.types false in
def reg0 (h : OutsOk m outs) : RegionSeg (pcfgs (F := F)) adm (pdats m outs) () defs₀ Variants.none Lv0 lv0 0 :=
  regA (pdats m outs) 0 (V3 m) (V4 m outs) launch0 (body_obligation0 (E0 m)) (fun _ _ => rfl) (fun _ _ => rfl)
    (fun _ _ => rfl) (fun _ x => Set.mem_union_left _ (Set.mem_univ x)) (fun _ _ => rfl)
    outRefs0 (by decide : ∀ r ∈ outRefs0, ∃ w : Fin cfg0.W, Pipeline.arrRef spec0 w = r) (V4_of m outs)
    (by decide : ∀ w : Fin cfg0.W, (cfg0.win w).isOut = false → Pipeline.arrRef spec0 w ∉ outRefs0)
    (fun c w hw => by
      rcases (by decide : ∀ w : Fin cfg0.W, (cfg0.win w).isOut = true → w = 6) w hw with rfl
      exacts [(h.o0 c).symm.trans (Vout0_at6 m outs c).symm])
set_option backward.isDefEq.respectTransparency.types false in
def reg1 (h : OutsOk m outs) : RegionSeg (pcfgs (F := F)) adm (pdats m outs) () defs₀ Variants.none Lv0 lv0 1 :=
  regA (pdats m outs) 1 (V5 m outs) (V6 m outs) launch1 (body_obligation1 (E1 m outs)) (fun _ _ => rfl) (fun _ _ => rfl)
    (fun _ _ => rfl) (fun _ x => Set.mem_union_left _ (Set.mem_univ x)) (dat1_Φ (E1 m outs))
    outRefs1 (by decide : ∀ r ∈ outRefs1, ∃ w : Fin cfg1.W, Pipeline.arrRef spec1 w = r) (V6_of m outs)
    (by decide : ∀ w : Fin cfg1.W, (cfg1.win w).isOut = false → Pipeline.arrRef spec1 w ∉ outRefs1)
    (fun c w hw => by
      rcases (by decide : ∀ w : Fin cfg1.W, (cfg1.win w).isOut = true → w = 5 ∨ w = 6 ∨ w = 7) w hw with rfl | rfl | rfl
      exacts [(h.o1_5 c).symm.trans (Vout1_at5 m outs c).symm,
        (h.o1_6 c).symm.trans (Vout1_at6 m outs c).symm,
        (h.o1_7 c).symm.trans (Vout1_at7 m outs c).symm])
set_option backward.isDefEq.respectTransparency.types false in
def reg2 (h : OutsOk m outs) : RegionSeg (pcfgs (F := F)) adm (pdats m outs) () defs₀ Variants.none Lv0 lv0 2 :=
  regA (pdats m outs) 2 (V7 m outs) (V8 m outs) launch2 (body_obligation2 (E2 m outs)) (fun _ _ => rfl) (fun _ _ => rfl)
    (fun _ _ => rfl) (fun _ x => Set.mem_union_left _ (Set.mem_univ x)) (fun _ _ => rfl)
    outRefs2 (by decide : ∀ r ∈ outRefs2, ∃ w : Fin cfg2.W, Pipeline.arrRef spec2 w = r) (V8_of m outs)
    (by decide : ∀ w : Fin cfg2.W, (cfg2.win w).isOut = false → Pipeline.arrRef spec2 w ∉ outRefs2)
    (fun c w hw => by
      rcases (by decide : ∀ w : Fin cfg2.W, (cfg2.win w).isOut = true → w = 3) w hw with rfl
      exacts [(h.o2 c).symm.trans (Vout2_at3 m outs c).symm])
set_option backward.isDefEq.respectTransparency.types false in
def reg3 (h : OutsOk m outs) : RegionSeg (pcfgs (F := F)) adm (pdats m outs) () defs₀ Variants.none Lv0 lv0 3 :=
  regA (pdats m outs) 3 (V9 m outs) (V10 m outs) launch3 (body_obligation3 (E3 m outs)) (fun _ _ => rfl) (fun _ _ => rfl)
    (fun _ _ => rfl) (fun _ x => Set.mem_union_left _ (Set.mem_univ x)) (dat3_Φ (E3 m outs))
    outRefs3 (by decide : ∀ r ∈ outRefs3, ∃ w : Fin cfg3.W, Pipeline.arrRef spec3 w = r) (V10_of m outs)
    (by decide : ∀ w : Fin cfg3.W, (cfg3.win w).isOut = false → Pipeline.arrRef spec3 w ∉ outRefs3)
    (fun c w hw => by
      rcases (by decide : ∀ w : Fin cfg3.W, (cfg3.win w).isOut = true → w = 5 ∨ w = 6 ∨ w = 7) w hw with rfl | rfl | rfl
      exacts [(h.o3_5 c).symm.trans (Vout3_at5 m outs c).symm,
        (h.o3_6 c).symm.trans (Vout3_at6 m outs c).symm,
        (h.o3_7 c).symm.trans (Vout3_at7 m outs c).symm])
set_option backward.isDefEq.respectTransparency.types false in
def reg4 (h : OutsOk m outs) : RegionSeg (pcfgs (F := F)) adm (pdats m outs) () defs₀ Variants.none Lv0 lv0 4 :=
  regA (pdats m outs) 4 (V11 m outs) (V12 m outs) launch4 (body_obligation4 (E4 m outs)) (fun _ _ => rfl) (fun _ _ => rfl)
    (fun _ _ => rfl) (fun _ x => Set.mem_union_left _ (Set.mem_univ x)) (fun _ _ => rfl)
    outRefs4 (by decide : ∀ r ∈ outRefs4, ∃ w : Fin cfg4.W, Pipeline.arrRef spec4 w = r) (V12_of m outs)
    (by decide : ∀ w : Fin cfg4.W, (cfg4.win w).isOut = false → Pipeline.arrRef spec4 w ∉ outRefs4)
    (fun c w hw => by
      rcases (by decide : ∀ w : Fin cfg4.W, (cfg4.win w).isOut = true → w = 3) w hw with rfl
      exacts [(h.o4 c).symm.trans (Vout4_at3 m outs c).symm])
set_option backward.isDefEq.respectTransparency.types false in
def reg5 (h : OutsOk m outs) : RegionSeg (pcfgs (F := F)) adm (pdats m outs) () defs₀ Variants.none Lv0 lv0 5 :=
  regOf (pdats m outs) 5 (V17 m outs) (V18 m outs) launch5 (body_obligation5 (E5 m outs)) (fun _ _ => rfl) (fun _ _ => rfl)
    (fun _ _ => rfl) (fun _ x => Set.mem_union_left _ (Set.mem_univ x))
    (fun c => by
      rw [show (pdats m outs 5 c).Φ 0 = (dat5 (E5 m outs) c).Φ 0 from rfl]
      iintro ⟨Hreg, -, Hrest⟩
      iapply (Φ5_in (E5 m outs) c)
      isplitl [Hreg]; · iexact Hreg
      iexact Hrest)
    (fun c => by
      rw [show (pdats m outs 5 c).Φ (Fin.last _) = (dat5 (E5 m outs) c).Φ (Fin.last cfg5.N) from rfl]
      iintro HΦ
      ihave Hb := (Φ5_out (E5 m outs) c) $$ HΦ
      icases Hb with ⟨Hreg, Hrest⟩
      isplitl [Hreg]; · iexact Hreg
      isplitr; · iempintro
      iexact Hrest)
    outRefs5 (by decide : ∀ r ∈ outRefs5, ∃ w : Fin cfg5.W, Pipeline.arrRef spec5 w = r) (V18_of m outs)
    (by decide : ∀ w : Fin cfg5.W, (cfg5.win w).isOut = false → Pipeline.arrRef spec5 w ∉ outRefs5)
    (fun c w hw => by
      rcases (by decide : ∀ w : Fin cfg5.W, (cfg5.win w).isOut = true → w = 4) w hw with rfl
      exacts [(h.o5 c).symm.trans (Vout5_at4 m outs c).symm])
end Cert.KernelIdeal.Hand
end
-- ==== Proof.KernelIdeal.Run.lean ====
import proofs.«424731_j88648124990764_2_alg».proof.Proof.KernelIdeal.Segs
import Idealize.ShloMosaic.Lib.Pipeline.Kit
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
variable {F : FTy → Type} [FloatOps F]
local notation "𝕄" => MT nD τ sig Unit (Elt F) ℕ (UR sig nD τ) ℕ
variable (m : (ℓ : Loc nD τ sig) → Buf (Elt F) ℓ) (outs : Outs (F := F))
abbrev rides : Fin 7 → Dev nD → sProp 𝕄 := fun _ c => Rides c
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev allSegs (h : OutsOk m outs) (c : Dev nD) : List (Seg (pcfgs (F := F)) adm (pdats m outs) () defs₀ Variants.none Lv0 lv0) :=
  segs m outs Variants.none Lv0 lv0 rides () (pdats m outs) (reg0 m outs h) (reg1 m outs h) (reg2 m outs h) (reg3 m outs h) (reg4 m outs h) (reg5 m outs h) c
set_option backward.isDefEq.respectTransparency.types false in
theorem run_all (ρ : Dev nD → PrngReg) (h : OutsOk m outs) :
    θ_run defs (onTc (τ := τ) (main (F := F))) ⟨m, fun _ => 0, ρ⟩ (fun r => ∀ c : Dev nD,
      ∀ b ∈ Pipeline.ucRefs τ sig, r.2.mem (((c : Thread nD τ)).1, b) = V19 m outs c b) := by
  refine Pipeline.θ_run_regions_kit_dev (pcfgs (F := F)) adm (pdats m outs) () cellOf_inj emb₁ defs₀ Variants.none Lv0 lv0 m ρ main
    (allSegs m outs h)
    (fun c Q => by
      rewrite [main_chain c, Seg.run_eq_chain,
        show (allSegs m outs h c).map Seg.prog = [
          StableHlo.seq hostOps0, StableHlo.seq hostOps0_1, StableHlo.seq hostOps0_2,
          Prog.lift (.customCall (Pipeline.entry 0) ()), StableHlo.seq hostOps1,
          Prog.lift (.customCall (Pipeline.entry 1) ()), StableHlo.seq hostOps2,
          Prog.lift (.customCall (Pipeline.entry 2) ()), StableHlo.seq hostOps3,
          Prog.lift (.customCall (Pipeline.entry 3) ()), StableHlo.seq hostOps4,
          Prog.lift (.customCall (Pipeline.entry 4) ()), StableHlo.seq hostOps5, StableHlo.seq hostOps5_1,
          StableHlo.seq hostOps5_2, StableHlo.seq hostOps5_3, StableHlo.seq hostOps5_4,
          Prog.lift (.customCall (Pipeline.entry 5) ()), StableHlo.seq hostOps6 ] from rfl]
      exact .rfl)
    (fun c => by simp only [allSegs, segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ Rides c))
    (Tₙ := fun c => iprop(StableHlo.held (c : Thread nD τ) (Pipeline.ucRefs τ sig) (V19 m outs c) ∗ ∃ r, prngReg c r))
    (hch := fun c => ⟨.rfl, .rfl, .rfl, .rfl, .rfl, .rfl, .rfl, .rfl, .rfl, .rfl, .rfl, .rfl, .rfl, .rfl, .rfl, .rfl, .rfl, .rfl, .rfl, ?_⟩)
    (hinit := ?_)
    (QY := fun c s => ∀ b ∈ Pipeline.ucRefs τ sig, s.mem (((c : Thread nD τ)).1, b) = V19 m outs c b)
    (hfin := fun c s' => ?_) (hQ := fun _ hall => hall)
  ·
    iintro Hu
    imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  ·
    show iprop(StableHlo.held (c : Thread nD τ) (Pipeline.ucRefs τ sig) (V19 m outs c) ∗ Rides c)
      ⊢ (iprop((StableHlo.held (c : Thread nD τ) (Pipeline.ucRefs τ sig) (V19 m outs c) ∗ ∃ r, prngReg c r) ∗ ∃ W, owes (c : Thread nD τ) (0 : CellTallies nD τ sig Unit) W) : sProp 𝕄)
    iintro ⟨Hheld, Hreg, Hdue⟩
    isplitl [Hheld Hreg]
    · isplitl [Hheld]; · iexact Hheld
      iexact Hreg
    iexact Hdue
  ·
    refine Pipeline.initEach Lv0 lv0 fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hheld, -, Hdue, -, Hreg, -⟩, -⟩
    imodintro
    isplitl [Hheld]; · iexact Hheld
    isplitl [Hreg]; · iexists _; iexact Hreg
    iexists ∅; iexact Hdue
  ·
    iintro ⟨⟨Hheld, -⟩, HSI⟩
    unfold StableHlo.held
    imodintro
    iapply (pointsTo_read_all (Pipeline.ucRefs τ sig) (fun b => (((c : Thread nD τ)).1, b)) (V19 m outs c) s')
    isplitl [Hheld] <;> iassumption
end Cert.KernelIdeal.Hand
end
-- ==== Proof.KernelIdeal.Outs.lean ====
import proofs.«424731_j88648124990764_2_alg».proof.Proof.KernelIdeal.RunBase
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
variable {F : FTy → Type} [FloatOps F]
variable (m : (ℓ : Loc nD τ sig) → Buf (Elt F) ℓ)
def AgreeTo (s : ℕ) (o o' : Outs (F := F)) : Prop := ∀ J, J ≤ s → ∀ (r : Ref sig .tc) (c : Dev nD), o J r c = o' J r c
theorem AgreeTo.mono {s t : ℕ} {o o' : Outs (F := F)} (h : AgreeTo s o o') (hts : t ≤ s) : AgreeTo t o o' :=
  fun J hJ => h J (Nat.le_trans hJ hts)
theorem AgreeTo.trans {s : ℕ} {o o' o'' : Outs (F := F)} (h : AgreeTo s o o') (h' : AgreeTo s o' o'') : AgreeTo s o o'' :=
  fun J hJ r c => (h J hJ r c).trans (h' J hJ r c)
section Congruence
variable {o o' : Outs (F := F)}
theorem V4_agree (h : AgreeTo 4 o o') (c : Dev nD) : V4 m o c = V4 m o' c := by
  unfold V4; rw [h 4 (Nat.le_refl _) main_v8 c]
theorem V5_agree (h : AgreeTo 4 o o') (c : Dev nD) : V5 m o c = V5 m o' c :=
  congrArg (StableHlo.after (hostOps1 (F := F))) (V4_agree m h c)
theorem V6_agree (h : AgreeTo 6 o o') (c : Dev nD) : V6 m o c = V6 m o' c := by
  unfold V6
  rw [V5_agree m (h.mono (by omega)) c, h 6 (Nat.le_refl _) main_v33_0 c, h 6 (Nat.le_refl _) main_v33_1 c,
    h 6 (Nat.le_refl _) main_v33_2 c]
theorem V7_agree (h : AgreeTo 6 o o') (c : Dev nD) : V7 m o c = V7 m o' c :=
  congrArg (StableHlo.after (hostOps2 (F := F))) (V6_agree m h c)
theorem V8_agree (h : AgreeTo 8 o o') (c : Dev nD) : V8 m o c = V8 m o' c := by
  unfold V8; rw [V7_agree m (h.mono (by omega)) c, h 8 (Nat.le_refl _) main_v50 c]
theorem V9_agree (h : AgreeTo 8 o o') (c : Dev nD) : V9 m o c = V9 m o' c :=
  congrArg (StableHlo.after (hostOps3 (F := F))) (V8_agree m h c)
theorem V10_agree (h : AgreeTo 10 o o') (c : Dev nD) : V10 m o c = V10 m o' c := by
  unfold V10
  rw [V9_agree m (h.mono (by omega)) c, h 10 (Nat.le_refl _) main_v65_0 c, h 10 (Nat.le_refl _) main_v65_1 c,
    h 10 (Nat.le_refl _) main_v65_2 c]
theorem V11_agree (h : AgreeTo 10 o o') (c : Dev nD) : V11 m o c = V11 m o' c :=
  congrArg (StableHlo.after (hostOps4 (F := F))) (V10_agree m h c)
theorem V12_agree (h : AgreeTo 12 o o') (c : Dev nD) : V12 m o c = V12 m o' c := by
  unfold V12; rw [V11_agree m (h.mono (by omega)) c, h 12 (Nat.le_refl _) main_v82 c]
theorem V17_agree (h : AgreeTo 12 o o') (c : Dev nD) : V17 m o c = V17 m o' c :=
  congrArg (fun U => StableHlo.after (hostOps5_4 (F := F)) (StableHlo.after (hostOps5_3 (F := F))
    (StableHlo.after (hostOps5_2 (F := F)) (StableHlo.after (hostOps5_1 (F := F)) (StableHlo.after (hostOps5 (F := F)) U)))))
    (V12_agree m h c)
end Congruence
def setStage (prev : Outs (F := F)) (s : ℕ) (Vnew : (c : Dev nD) → Valuation τ sig (Elt F)) : Outs (F := F) :=
  fun J r c => if J = s then Vnew c r else prev J r c
theorem setStage_self (prev : Outs (F := F)) (s : ℕ) (Vnew : (c : Dev nD) → Valuation τ sig (Elt F)) (r : Ref sig .tc) (c : Dev nD) :
    setStage prev s Vnew s r c = Vnew c r := by unfold setStage; rw [if_pos rfl]
theorem setStage_agree (prev : Outs (F := F)) (s : ℕ) (Vnew : (c : Dev nD) → Valuation τ sig (Elt F)) {t : ℕ} (ht : t < s) :
    AgreeTo t (setStage prev s Vnew) prev := fun J hJ r c => by
  unfold setStage; rw [if_neg (by omega)]
def outsA : Outs (F := F) := fun _ r c => m ((c : Thread nD τ).loc r)
def outsB : Outs (F := F) := setStage (outsA m) 4 fun c =>
  Pipeline.withArrays spec0 c (V3 m c) fun w => (dat0 (E0 m) c).arrAt w cfg0.N
def outsC : Outs (F := F) := setStage (outsB m) 6 fun c =>
  Pipeline.withArrays spec1 c (V5 m (outsB m) c) fun w => (dat1 (E1 m (outsB m)) c).arrAt w cfg1.N
def outsD : Outs (F := F) := setStage (outsC m) 8 fun c =>
  Pipeline.withArrays spec2 c (V7 m (outsC m) c) fun w => (dat2 (E2 m (outsC m)) c).arrAt w cfg2.N
def outsE : Outs (F := F) := setStage (outsD m) 10 fun c =>
  Pipeline.withArrays spec3 c (V9 m (outsD m) c) fun w => (dat3 (E3 m (outsD m)) c).arrAt w cfg3.N
def outsF : Outs (F := F) := setStage (outsE m) 12 fun c =>
  Pipeline.withArrays spec4 c (V11 m (outsE m) c) fun w => (dat4 (E4 m (outsE m)) c).arrAt w cfg4.N
def outsG : Outs (F := F) := setStage (outsF m) 18 fun c =>
  Pipeline.withArrays spec5 c (V17 m (outsF m) c) fun w => (dat5 (E5 m (outsF m)) c).arrAt w cfg5.N
theorem agree_GF : AgreeTo 17 (outsG m) (outsF m) := setStage_agree _ _ _ (by omega)
theorem agree_FE : AgreeTo 11 (outsF m) (outsE m) := setStage_agree _ _ _ (by omega)
theorem agree_ED : AgreeTo 9 (outsE m) (outsD m) := setStage_agree _ _ _ (by omega)
theorem agree_DC : AgreeTo 7 (outsD m) (outsC m) := setStage_agree _ _ _ (by omega)
theorem agree_CB : AgreeTo 5 (outsC m) (outsB m) := setStage_agree _ _ _ (by omega)
theorem agree_GE : AgreeTo 11 (outsG m) (outsE m) := ((agree_GF m).mono (by omega)).trans (agree_FE m)
theorem agree_GD : AgreeTo 9 (outsG m) (outsD m) := ((agree_GE m).mono (by omega)).trans (agree_ED m)
theorem agree_GC : AgreeTo 7 (outsG m) (outsC m) := ((agree_GD m).mono (by omega)).trans (agree_DC m)
theorem agree_GB : AgreeTo 5 (outsG m) (outsB m) := ((agree_GC m).mono (by omega)).trans (agree_CB m)
theorem E1_eq : E1 m (outsG m) = E1 m (outsB m) :=
  funext fun c => funext fun b => congrFun (V5_agree m ((agree_GB m).mono (by omega)) c) b
theorem E2_eq : E2 m (outsG m) = E2 m (outsC m) :=
  funext fun c => funext fun b => congrFun (V7_agree m ((agree_GC m).mono (by omega)) c) b
theorem E3_eq : E3 m (outsG m) = E3 m (outsD m) :=
  funext fun c => funext fun b => congrFun (V9_agree m ((agree_GD m).mono (by omega)) c) b
theorem E4_eq : E4 m (outsG m) = E4 m (outsE m) :=
  funext fun c => funext fun b => congrFun (V11_agree m ((agree_GE m).mono (by omega)) c) b
theorem E5_eq : E5 m (outsG m) = E5 m (outsF m) :=
  funext fun c => funext fun b => congrFun (V17_agree m ((agree_GF m).mono (by omega)) c) b
theorem outsG_ok : OutsOk m (outsG m) where
  o0 c := ((agree_GB m) 4 (by omega) main_v8 c).trans
    ((setStage_self _ _ _ _ c).trans (Pipeline.withArrays_arr spec0 winFacts0.arr_inj c _ _ 6))
  o1_5 c := by
    rw [E1_eq]
    exact ((agree_GC m) 6 (by omega) main_v33_0 c).trans
      ((setStage_self _ _ _ _ c).trans (Pipeline.withArrays_arr spec1 winFacts1.arr_inj c _ _ 5))
  o1_6 c := by
    rw [E1_eq]
    exact ((agree_GC m) 6 (by omega) main_v33_1 c).trans
      ((setStage_self _ _ _ _ c).trans (Pipeline.withArrays_arr spec1 winFacts1.arr_inj c _ _ 6))
  o1_7 c := by
    rw [E1_eq]
    exact ((agree_GC m) 6 (by omega) main_v33_2 c).trans
      ((setStage_self _ _ _ _ c).trans (Pipeline.withArrays_arr spec1 winFacts1.arr_inj c _ _ 7))
  o2 c := by
    rw [E2_eq]
    exact ((agree_GD m) 8 (by omega) main_v50 c).trans
      ((setStage_self _ _ _ _ c).trans (Pipeline.withArrays_arr spec2 winFacts2.arr_inj c _ _ 3))
  o3_5 c := by
    rw [E3_eq]
    exact ((agree_GE m) 10 (by omega) main_v65_0 c).trans
      ((setStage_self _ _ _ _ c).trans (Pipeline.withArrays_arr spec3 winFacts3.arr_inj c _ _ 5))
  o3_6 c := by
    rw [E3_eq]
    exact ((agree_GE m) 10 (by omega) main_v65_1 c).trans
      ((setStage_self _ _ _ _ c).trans (Pipeline.withArrays_arr spec3 winFacts3.arr_inj c _ _ 6))
  o3_7 c := by
    rw [E3_eq]
    exact ((agree_GE m) 10 (by omega) main_v65_2 c).trans
      ((setStage_self _ _ _ _ c).trans (Pipeline.withArrays_arr spec3 winFacts3.arr_inj c _ _ 7))
  o4 c := by
    rw [E4_eq]
    exact ((agree_GF m) 12 (by omega) main_v82 c).trans
      ((setStage_self _ _ _ _ c).trans (Pipeline.withArrays_arr spec4 winFacts4.arr_inj c _ _ 3))
  o5 c := by
    rw [E5_eq]
    exact (setStage_self _ _ _ _ c).trans (Pipeline.withArrays_arr spec5 winFacts5.arr_inj c _ _ 4)
theorem exists_outs : ∃ outs : Outs (F := F), OutsOk m outs := ⟨outsG m, outsG_ok m⟩
end Cert.KernelIdeal.Hand
end
-- ==== Proof.Value.Args.lean ====
import proofs.«424731_j88648124990764_2_alg».proof.Proof.Gen.KernelIdeal.Regions
import Idealize.ShloMosaic.PureOps.Ideal
noncomputable section
namespace Cert.KernelIdeal.Value
open Cert.KernelIdeal Cert.KernelIdeal.Gen Idealize.ShloMosaic Idealize.ShloMosaic.TcCoe Idealize.SL.Sem
variable (m : (ℓ : Loc nD τ sig) → Buf (Elt Ideal) ℓ)
abbrev arg (c : Dev nD) (r : Ref sig .tc) : Buf (Elt Ideal) ((c : Thread nD τ).loc r) := m ((c : Thread nD τ).loc r)
structure FiniteArgs (c : Dev nD) : Prop where
  a5 : ∀ i, ∃ r : ℝ, (arg m c main_arg5 : FVec Ideal S64x128 .f32) i = (r : EReal)
  a6 : ∀ i, ∃ r : ℝ, (arg m c main_arg6 : FVec Ideal S32x128 .f32) i = (r : EReal)
  a7 : ∀ i, ∃ r : ℝ, (arg m c main_arg7 : FVec Ideal S513x128 .f32) i = (r : EReal)
  a8 : ∀ i, ∃ r : ℝ, (arg m c main_arg8 : FVec Ideal S128x128 .f32) i = (r : EReal)
  a9 : ∀ i, ∃ r : ℝ, (arg m c main_arg9 : FVec Ideal S128 .f32) i = (r : EReal)
  a10 : ∀ i, ∃ r : ℝ, (arg m c main_arg10 : FVec Ideal S128x128 .f32) i = (r : EReal)
  a11 : ∀ i, ∃ r : ℝ, (arg m c main_arg11 : FVec Ideal S128 .f32) i = (r : EReal)
  a12 : ∀ i, ∃ r : ℝ, (arg m c main_arg12 : FVec Ideal S128 .f32) i = (r : EReal)
  a13 : ∀ i, ∃ r : ℝ, (arg m c main_arg13 : FVec Ideal S128x128 .f32) i = (r : EReal)
  a14 : ∀ i, ∃ r : ℝ, (arg m c main_arg14 : FVec Ideal S128 .f32) i = (r : EReal)
  a15 : ∀ i, ∃ r : ℝ, (arg m c main_arg15 : FVec Ideal S128x128 .f32) i = (r : EReal)
  a16 : ∀ i, ∃ r : ℝ, (arg m c main_arg16 : FVec Ideal S128 .f32) i = (r : EReal)
  a17 : ∀ i, ∃ r : ℝ, (arg m c main_arg17 : FVec Ideal S128 .f32) i = (r : EReal)
  a18 : ∀ i, ∃ r : ℝ, (arg m c main_arg18 : FVec Ideal S10x128 .f32) i = (r : EReal)
  a19 : ∀ i, ∃ r : ℝ, (arg m c main_arg19 : FVec Ideal S10 .f32) i = (r : EReal)
end Cert.KernelIdeal.Value
end
-- ==== Proof.Value.Finite.lean ====
import proofs.«424731_j88648124990764_2_alg».proof.Defs
import proofs.«424731_j88648124990764_2_alg».proof.Proof.Gen.Pre_finite_inputs
import Idealize.ShloMosaic.Lib.ReduceAll
import Idealize.ShloMosaic.Lib.ValueIdx
import Idealize.ShloMosaic.PureOps.Ideal
set_option maxRecDepth 16384
noncomputable section
namespace Cert.KernelIdeal.Value
open Idealize.ShloMosaic Idealize.ShloMosaic.ValueIdx
section Precondition
open Cert.Pre_finite_inputs Cert.Pre_finite_inputs.Gen
instance preScalarIdx_subsingleton : Subsingleton Cert.Pre_finite_inputs.S_.Idx := ⟨fun a b => funext fun d => d.elim0⟩
theorem ofBits_inf : Ideal.ofBits .f32 0x7F800000#32 = ⊤ := by simp [Ideal.ofBits, Ideal.ieee]
theorem real_of_abs_lt_inf (x : EReal) (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | top => simp [Ideal.cmp] at h
  | coe r => exact ⟨r, rfl⟩
theorem real_of_all_abs_lt_inf {s : Shape} {axes : List (Fin s.rank)} {x : FVec Ideal s .f32}
    {hb : S_.BroadcastsInDim s (![] : Fin 0 → Fin s.rank)} {hr : s.ReducesTo axes S_} {hu : 0 < S_.numel}
    (h : Host.reduce IntOp.andi (cmpf .olt (Host.absf x) (broadcastInDim s ![] hb (constant (F := Ideal) S_ .f32 0x7F800000#32)))
      (constantI S_ 1 1#1) hr hu ix0 = 1#1) (i : s.Idx) : ∃ r : ℝ, x i = (r : EReal) :=
  real_of_abs_lt_inf (x i) (Host.reduce_andi_all _ _ hr hu ix0 h i)
theorem and_split {s : Shape} (A B : IVec s 1) (i : s.Idx) (h : andi A B i = 1#1) : A i = 1#1 ∧ B i = 1#1 :=
  IntOp.andi_eq_one.1 h
variable (x0 x1 x2 : IVec S100000 32) (x3 : IVec S2x1600000 32) (x4 : IVec S100000 32) (x5 : FVec Ideal S64x128 .f32)
    (x6 : FVec Ideal S32x128 .f32) (x7 : FVec Ideal S513x128 .f32) (x8 : FVec Ideal S128x128 .f32) (x9 : FVec Ideal S128 .f32)
    (x10 : FVec Ideal S128x128 .f32) (x11 x12 : FVec Ideal S128 .f32) (x13 : FVec Ideal S128x128 .f32) (x14 : FVec Ideal S128 .f32)
    (x15 : FVec Ideal S128x128 .f32) (x16 x17 : FVec Ideal S128 .f32) (x18 : FVec Ideal S10x128 .f32) (x19 : FVec Ideal S10 .f32)
structure PreFacts : Prop where
  a5 : ∀ i, ∃ r : ℝ, x5 i = (r : EReal)
  a6 : ∀ i, ∃ r : ℝ, x6 i = (r : EReal)
  a7 : ∀ i, ∃ r : ℝ, x7 i = (r : EReal)
  a8 : ∀ i, ∃ r : ℝ, x8 i = (r : EReal)
  a9 : ∀ i, ∃ r : ℝ, x9 i = (r : EReal)
  a10 : ∀ i, ∃ r : ℝ, x10 i = (r : EReal)
  a11 : ∀ i, ∃ r : ℝ, x11 i = (r : EReal)
  a12 : ∀ i, ∃ r : ℝ, x12 i = (r : EReal)
  a13 : ∀ i, ∃ r : ℝ, x13 i = (r : EReal)
  a14 : ∀ i, ∃ r : ℝ, x14 i = (r : EReal)
  a15 : ∀ i, ∃ r : ℝ, x15 i = (r : EReal)
  a16 : ∀ i, ∃ r : ℝ, x16 i = (r : EReal)
  a17 : ∀ i, ∃ r : ℝ, x17 i = (r : EReal)
  a18 : ∀ i, ∃ r : ℝ, x18 i = (r : EReal)
  a19 : ∀ i, ∃ r : ℝ, x19 i = (r : EReal)
  sid_ge : ∀ i, IntOp.cmpi .sge (x0 i) 0#32 = 1#1
  sid_lt : ∀ i, IntOp.cmpi .slt (x0 i) 64#32 = 1#1
  cid_ge : ∀ i, IntOp.cmpi .sge (x1 i) 0#32 = 1#1
  cid_lt : ∀ i, IntOp.cmpi .slt (x1 i) 32#32 = 1#1
  pid_ge : ∀ i, IntOp.cmpi .sge (x2 i) 0#32 = 1#1
theorem facts_of_fn
    (h : Cert.Pre_finite_inputs.fn (F := Ideal) x0 x1 x2 x3 x4 x5 x6 x7 x8 x9 x10 x11 x12 x13 x14 x15 x16 x17 x18 x19 = fun _ => 1#1) :
    PreFacts x0 x1 x2 x5 x6 x7 x8 x9 x10 x11 x12 x13 x14 x15 x16 x17 x18 x19 := by
  have h0 := congrFun h ix0
  dsimp only [Cert.Pre_finite_inputs.fn, fn_part1, fn_part2, fn_part3, fn_part4, fn_part5] at h0
  obtain ⟨h0, p2ge⟩ := and_split _ _ _ h0
  obtain ⟨h0, p1lt⟩ := and_split _ _ _ h0
  obtain ⟨h0, p1ge⟩ := and_split _ _ _ h0
  obtain ⟨h0, p0lt⟩ := and_split _ _ _ h0
  obtain ⟨h0, p0ge⟩ := and_split _ _ _ h0
  obtain ⟨h0, f19⟩ := and_split _ _ _ h0
  obtain ⟨h0, f18⟩ := and_split _ _ _ h0
  obtain ⟨h0, f17⟩ := and_split _ _ _ h0
  obtain ⟨h0, f16⟩ := and_split _ _ _ h0
  obtain ⟨h0, f15⟩ := and_split _ _ _ h0
  obtain ⟨h0, f14⟩ := and_split _ _ _ h0
  obtain ⟨h0, f13⟩ := and_split _ _ _ h0
  obtain ⟨h0, f12⟩ := and_split _ _ _ h0
  obtain ⟨h0, f11⟩ := and_split _ _ _ h0
  obtain ⟨h0, f10⟩ := and_split _ _ _ h0
  obtain ⟨h0, f9⟩ := and_split _ _ _ h0
  obtain ⟨h0, f8⟩ := and_split _ _ _ h0
  obtain ⟨h0, f7⟩ := and_split _ _ _ h0
  obtain ⟨f5, f6⟩ := and_split _ _ _ h0
  exact ⟨real_of_all_abs_lt_inf f5, real_of_all_abs_lt_inf f6, real_of_all_abs_lt_inf f7, real_of_all_abs_lt_inf f8,
    real_of_all_abs_lt_inf f9, real_of_all_abs_lt_inf f10, real_of_all_abs_lt_inf f11, real_of_all_abs_lt_inf f12,
    real_of_all_abs_lt_inf f13, real_of_all_abs_lt_inf f14, real_of_all_abs_lt_inf f15, real_of_all_abs_lt_inf f16,
    real_of_all_abs_lt_inf f17, real_of_all_abs_lt_inf f18, real_of_all_abs_lt_inf f19,
    Host.reduce_andi_all _ _ reducesTo_S100000_S_d0 h_S_ ix0 p0ge, Host.reduce_andi_all _ _ reducesTo_S100000_S_d0 h_S_ ix0 p0lt,
    Host.reduce_andi_all _ _ reducesTo_S100000_S_d0 h_S_ ix0 p1ge, Host.reduce_andi_all _ _ reducesTo_S100000_S_d0 h_S_ ix0 p1lt,
    Host.reduce_andi_all _ _ reducesTo_S100000_S_d0 h_S_ ix0 p2ge⟩
end Precondition
section AtKernel
open Cert.KernelIdeal
theorem floats_of_pre (m : (ℓ : Loc nD τ sig) → Buf (Elt Ideal) ℓ) (hpre : Cert.Pre_KernelIdeal m) (c : Dev nD) :
    PreFacts (m ((c.tc : Thread nD τ).loc main_arg0)) (m ((c.tc : Thread nD τ).loc main_arg1)) (m ((c.tc : Thread nD τ).loc main_arg2))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12)) (m ((c.tc : Thread nD τ).loc main_arg13))
      (m ((c.tc : Thread nD τ).loc main_arg14)) (m ((c.tc : Thread nD τ).loc main_arg15)) (m ((c.tc : Thread nD τ).loc main_arg16))
      (m ((c.tc : Thread nD τ).loc main_arg17)) (m ((c.tc : Thread nD τ).loc main_arg18)) (m ((c.tc : Thread nD τ).loc main_arg19)) :=
  facts_of_fn _ _ _ _ _ _ _ _ _ _ _ _ _ _ _ _ _ _ _ _ (hpre c)
end AtKernel
end Cert.KernelIdeal.Value
end
-- ==== Proof.Value.PreBridge.lean ====
import proofs.«424731_j88648124990764_2_alg».proof.Proof.Value.Args
import proofs.«424731_j88648124990764_2_alg».proof.Proof.Value.Finite
import Idealize.ShloMosaic.Lib.Affine
import Idealize.ShloMosaic.Lib.ValueIdx
set_option maxRecDepth 16384
noncomputable section
namespace Cert.KernelIdeal.Value
open Idealize.ShloMosaic Idealize.ShloMosaic.ValueIdx
section Bridge
open Cert.KernelIdeal Cert.KernelIdeal.Gen Idealize.ShloMosaic.TcCoe Idealize.SL.Sem
theorem finiteArgs_of_pre (m : (ℓ : Loc nD τ sig) → Buf (Elt Ideal) ℓ) (hpre : Cert.Pre_KernelIdeal m) (c : Dev nD) :
    FiniteArgs m c :=
  have h := floats_of_pre m hpre c
  ⟨h.a5, h.a6, h.a7, h.a8, h.a9, h.a10, h.a11, h.a12, h.a13, h.a14, h.a15, h.a16, h.a17, h.a18, h.a19⟩
theorem ranges_of_pre' (m : (ℓ : Loc nD τ sig) → Buf (Elt Ideal) ℓ) (hpre : Cert.Pre_KernelIdeal m) (c : Dev nD) :
    (∀ n : Fin 100000, 0 ≤ ((arg m c main_arg0 : IVec S100000 32) (ix1 n)).toInt
        ∧ ((arg m c main_arg0 : IVec S100000 32) (ix1 n)).toInt < 64)
    ∧ (∀ n : Fin 100000, 0 ≤ ((arg m c main_arg1 : IVec S100000 32) (ix1 n)).toInt
        ∧ ((arg m c main_arg1 : IVec S100000 32) (ix1 n)).toInt < 32)
    ∧ (∀ n : Fin 100000, 0 ≤ ((arg m c main_arg2 : IVec S100000 32) (ix1 n)).toInt) := by
  have h := floats_of_pre m hpre c
  have w0 : (0#32 : BitVec 32).toInt = 0 := by decide
  have w64 : (64#32 : BitVec 32).toInt = 64 := by decide
  have w32 : (32#32 : BitVec 32).toInt = 32 := by decide
  refine ⟨fun n => ⟨?_, ?_⟩, fun n => ⟨?_, ?_⟩, fun n => ?_⟩
  · exact w0 ▸ IntOp.cmpi_sge.mp (h.sid_ge (ix1 n))
  · exact w64 ▸ IntOp.cmpi_slt.mp (h.sid_lt (ix1 n))
  · exact w0 ▸ IntOp.cmpi_sge.mp (h.cid_ge (ix1 n))
  · exact w32 ▸ IntOp.cmpi_slt.mp (h.cid_lt (ix1 n))
  · exact w0 ▸ IntOp.cmpi_sge.mp (h.pid_ge (ix1 n))
end Bridge
end Cert.KernelIdeal.Value
end
-- ==== Proof.Spec.Stages.lean ====
import proofs.«424731_j88648124990764_2_alg».proof.ReferenceIdeal
import proofs.«424731_j88648124990764_2_alg».proof.Proof.Gen.ReferenceIdeal
import Idealize.ShloMosaic.PureOps
import Idealize.ShloMosaic.PureOps.Ideal
import Idealize.ShloMosaic.Lib.ValueIdx

noncomputable section

namespace Cert.Spec

open Cert.ReferenceIdeal Cert.ReferenceIdeal.Gen Idealize.ShloMosaic

variable {F : FTy → Type} [FloatOps F]

def startIdx (n : BitVec 32) (ids : IVec S100000 32) : IVec S100000x1 32 :=
  broadcastInDim S100000x1 ![0] bcast_S100000_S100000x1_0
    (select (cmpi .slt ids (broadcastInDim S100000 ![] bcast_S_S100000 (constantI S_ 32 0#32)))
      (addi ids (broadcastInDim S100000 ![] bcast_S_S100000 (constantI S_ 32 n))) ids)

def capPos (pid : IVec S100000 32) : IVec S100000 32 :=
  minsi pid (broadcastInDim S100000 ![] bcast_S_S100000 (constantI S_ 32 512#32))

def embed (sid cid pid : IVec S100000 32) (stab : FVec F S64x128 .f32) (ctab : FVec F S32x128 .f32) (ptab : FVec F S513x128 .f32) :
    FVec F S100000x128 .f32 :=
  addf
    (addf (Host.gather gather_S64x128_S100000x1_S100000x128_1_0_n_n_0_1_1128 stab (startIdx 64#32 sid))
      (Host.gather gather_S32x128_S100000x1_S100000x128_1_0_n_n_0_1_1128 ctab (startIdx 32#32 cid)))
    (Host.gather gather_S513x128_S100000x1_S100000x128_1_0_n_n_0_1_1128 ptab (startIdx 513#32 (capPos pid)))

def srcIds (ei : IVec S2x1600000 32) : IVec S1600000 32 :=
  shapeCast S1600000 (extractStridedSlice S1x1600000 ![0, 0] ei slices_S2x1600000_S1x1600000_0_0) shapeCasts_S1x1600000_S1600000

def dstIds (ei : IVec S2x1600000 32) : IVec S1600000 32 :=
  shapeCast S1600000 (extractStridedSlice S1x1600000 ![1, 0] ei slices_S2x1600000_S1x1600000_1_0) shapeCasts_S1x1600000_S1600000

def dstCol (ei : IVec S2x1600000 32) : IVec S1600000x1 32 :=
  broadcastInDim S1600000x1 ![0] bcast_S1600000_S1600000x1_0 (dstIds ei)

def srcCol (ei : IVec S2x1600000 32) : IVec S1600000x1 32 :=
  broadcastInDim S1600000x1 ![0] bcast_S1600000_S1600000x1_0
    (select (cmpi .slt (srcIds ei) (broadcastInDim S1600000 ![] bcast_S_S1600000 (constantI S_ 32 0#32)))
      (addi (srcIds ei) (broadcastInDim S1600000 ![] bcast_S_S1600000 (constantI S_ 32 100000#32))) (srcIds ei))

def neighbourSum (x : FVec F S100000x128 .f32) (ei : IVec S2x1600000 32) : FVec F S100000x128 .f32 :=
  Host.scatterAdd scatter_S100000x128_S1600000x1_S1600000x128_1_0_0_1
    (broadcastInDim S100000x128 ![] bcast_S_S100000x128 (constant S_ .f32 0x00000000#32)) (dstCol ei)
    (Host.gather gather_S100000x128_S1600000x1_S1600000x128_1_0_n_n_0_1_1128 x (srcCol ei))

def inDegree (ei : IVec S2x1600000 32) : FVec F S100000x1 .f32 :=
  Host.scatterAdd scatter_S100000x1_S1600000x1_S1600000x1_1_0_0_1
    (broadcastInDim S100000x1 ![] bcast_S_S100000x1 (constant S_ .f32 0x00000000#32)) (dstCol ei)
    (broadcastInDim S1600000x1 ![] bcast_S_S1600000x1 (constant S_ .f32 0x3F800000#32))

def aggregate (x : FVec F S100000x128 .f32) (ei : IVec S2x1600000 32) : FVec F S100000x128 .f32 :=
  Host.divf (neighbourSum x ei)
    (broadcastInDim S100000x128 ![0, 1] bcast_S100000x1_S100000x128_0_1
      (maximumf (inDegree (F := F) ei) (broadcastInDim S100000x1 ![] bcast_S_S100000x1 (constant S_ .f32 0x3F800000#32))))

def rows (v : FVec F S128 .f32) : FVec F S100000x128 .f32 :=
  broadcastInDim S100000x128 ![0, 1] bcast_S1x128_S100000x128_0_1 (broadcastInDim S1x128 ![1] bcast_S128_S1x128_1 v)

def sageLin (mean x : FVec F S100000x128 .f32) (wl : FVec F S128x128 .f32) (bl : FVec F S128 .f32) (wr : FVec F S128x128 .f32) :
    FVec F S100000x128 .f32 :=
  addf
    (addf (Host.dotGeneral dot_S100000x128_S128x128_S100000x128_1_0_0_1_n_n none mean
        (transpose S128x128 [1, 0] wl transposes_S128x128_S128x128_1_0)) (rows bl))
    (Host.dotGeneral dot_S100000x128_S128x128_S100000x128_1_0_0_1_n_n none x
      (transpose S128x128 [1, 0] wr transposes_S128x128_S128x128_1_0))

def colSum (y : FVec F S100000x128 .f32) : FVec F S128 .f32 :=
  Host.reduceAdd y (constant S_ .f32 0x00000000#32) reducesTo_S100000x128_S128_d0 h_S_

def colMean (y : FVec F S100000x128 .f32) : FVec F S128 .f32 :=
  Host.divf (colSum y) (broadcastInDim S128 ![] bcast_S_S128 (constant S_ .f32 0x47C35000#32))

def varDev (y : FVec F S100000x128 .f32) : FVec F S100000x128 .f32 :=
  subf y (broadcastInDim S100000x128 ![0, 1] bcast_S1x128_S100000x128_0_1
    (Host.divf (broadcastInDim S1x128 ![1] bcast_S128_S1x128_1 (colSum y))
      (broadcastInDim S1x128 ![] bcast_S_S1x128 (constant S_ .f32 0x47C35000#32))))

def varDof : FVec F S_ .f32 :=
  subf (constant S_ .f32 0x47C35000#32) (sitofp .f32 (constantI S_ 32 0#32))

def colVar (y : FVec F S100000x128 .f32) : FVec F S128 .f32 :=
  select (broadcastInDim S128 ![] bcast_S_S128 (cmpf .ogt (varDof (F := F)) (constant S_ .f32 0x00000000#32)))
    (Host.divf (Host.reduceAdd (mulf (varDev y) (varDev y)) (constant S_ .f32 0x00000000#32) reducesTo_S100000x128_S128_d0 h_S_)
      (broadcastInDim S128 ![] bcast_S_S128 (varDof (F := F))))
    (broadcastInDim S128 ![] bcast_S_S128 (constant S_ .f32 0x7FC00000#32))

def bnRelu (y : FVec F S100000x128 .f32) (g be : FVec F S128 .f32) : FVec F S100000x128 .f32 :=
  maximumf
    (addf
      (mulf
        (mulf (subf y (rows (colMean y)))
          (rows (Host.rsqrt (addf (colVar y) (broadcastInDim S128 ![] bcast_S_S128 (constant S_ .f32 0x3727C5AC#32))))))
        (rows g))
      (rows be))
    (broadcastInDim S100000x128 ![] bcast_S_S100000x128 (constant S_ .f32 0x00000000#32))

def poolHead (x : FVec F S100000x128 .f32) (batch : IVec S100000 32) (wout : FVec F S10x128 .f32) (bout : FVec F S10 .f32) :
    FVec F S512x10 .f32 :=
  addf
    (Host.dotGeneral dot_S512x128_S128x10_S512x10_1_0_0_1_n_n none
      (Host.scatterAdd scatter_S512x128_S100000x1_S100000x128_1_0_0_1
        (broadcastInDim S512x128 ![] bcast_S_S512x128 (constant S_ .f32 0x00000000#32))
        (broadcastInDim S100000x1 ![0] bcast_S100000_S100000x1_0 batch) x)
      (transpose S128x10 [1, 0] wout transposes_S10x128_S128x10_1_0))
    (broadcastInDim S512x10 ![0, 1] bcast_S1x10_S512x10_0_1 (broadcastInDim S1x10 ![1] bcast_S10_S1x10_1 bout))

def layer (x : FVec F S100000x128 .f32) (ei : IVec S2x1600000 32) (wl : FVec F S128x128 .f32) (bl : FVec F S128 .f32)
    (wr : FVec F S128x128 .f32) (g be : FVec F S128 .f32) : FVec F S100000x128 .f32 :=
  bnRelu (sageLin (aggregate x ei) x wl bl wr) g be

def out (sid cid pid : IVec S100000 32) (ei : IVec S2x1600000 32) (batch : IVec S100000 32)
    (stab : FVec F S64x128 .f32) (ctab : FVec F S32x128 .f32) (ptab : FVec F S513x128 .f32)
    (w1l : FVec F S128x128 .f32) (b1l : FVec F S128 .f32) (w1r : FVec F S128x128 .f32) (g1 be1 : FVec F S128 .f32)
    (w2l : FVec F S128x128 .f32) (b2l : FVec F S128 .f32) (w2r : FVec F S128x128 .f32) (g2 be2 : FVec F S128 .f32)
    (wout : FVec F S10x128 .f32) (bout : FVec F S10 .f32) : FVec F S512x10 .f32 :=
  poolHead (layer (layer (embed sid cid pid stab ctab ptab) ei w1l b1l w1r g1 be1) ei w2l b2l w2r g2 be2) batch wout bout

end Cert.Spec

end
-- ==== Proof.Value.Norm.lean ====
import Idealize.ShloMosaic.PureOps
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import proofs.«424731_j88648124990764_2_alg».proof.Proof.Spec.Stages

noncomputable section

namespace Cert.KernelIdeal.Value

open Cert.ReferenceIdeal Cert.ReferenceIdeal.Gen
open Idealize.ShloMosaic Idealize.ShloMosaic.ValueIdx
open scoped BigOperators

section Reals

variable {ι : Type*}

abbrev RealV (x : ι → EReal) : Prop := ∀ i, ∃ r : ℝ, x i = (r : EReal)

theorem coe_sum (s : Finset ι) (f : ι → ℝ) : ∑ i ∈ s, (f i : EReal) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

theorem real_sum (s : Finset ι) (x : ι → EReal) (hx : ∀ i ∈ s, ∃ r : ℝ, x i = (r : EReal)) :
    ∃ r : ℝ, ∑ i ∈ s, x i = (r : EReal) := by
  refine Finset.sum_induction x (fun z => ∃ r : ℝ, z = (r : EReal)) ?_ ⟨0, EReal.coe_zero.symm⟩ hx
  rintro _ _ ⟨a, rfl⟩ ⟨b, rfl⟩
  exact ⟨a + b, (EReal.coe_add a b).symm⟩

theorem real_add {x y : EReal} (hx : ∃ r : ℝ, x = (r : EReal)) (hy : ∃ r : ℝ, y = (r : EReal)) : ∃ r : ℝ, x + y = (r : EReal) := by
  obtain ⟨a, rfl⟩ := hx; obtain ⟨b, rfl⟩ := hy; exact ⟨a + b, (EReal.coe_add a b).symm⟩

theorem real_sub {x y : EReal} (hx : ∃ r : ℝ, x = (r : EReal)) (hy : ∃ r : ℝ, y = (r : EReal)) : ∃ r : ℝ, x - y = (r : EReal) := by
  obtain ⟨a, rfl⟩ := hx; obtain ⟨b, rfl⟩ := hy; exact ⟨a - b, (EReal.coe_sub a b).symm⟩

theorem real_mul {x y : EReal} (hx : ∃ r : ℝ, x = (r : EReal)) (hy : ∃ r : ℝ, y = (r : EReal)) : ∃ r : ℝ, x * y = (r : EReal) := by
  obtain ⟨a, rfl⟩ := hx; obtain ⟨b, rfl⟩ := hy; exact ⟨a * b, (EReal.coe_mul a b).symm⟩

theorem real_max {x y : EReal} (hx : ∃ r : ℝ, x = (r : EReal)) (hy : ∃ r : ℝ, y = (r : EReal)) : ∃ r : ℝ, max x y = (r : EReal) := by
  obtain ⟨a, rfl⟩ := hx; obtain ⟨b, rfl⟩ := hy
  rcases le_total a b with h | h
  · exact ⟨b, max_eq_right (EReal.coe_le_coe_iff.mpr h)⟩
  · exact ⟨a, max_eq_left (EReal.coe_le_coe_iff.mpr h)⟩

theorem div_real (a : ℝ) {d : ℝ} (hd : d ≠ 0) : Ideal.div (a : EReal) (d : EReal) = ((a / d : ℝ) : EReal) := by
  rw [Ideal.div_coe hd, ← EReal.coe_mul, one_div, div_eq_mul_inv]

theorem real_div_of_one_le {x y : EReal} (hx : ∃ r : ℝ, x = (r : EReal)) (hy : ∃ r : ℝ, 1 ≤ r ∧ y = (r : EReal)) :
    ∃ r : ℝ, Ideal.div x y = (r : EReal) := by
  obtain ⟨a, rfl⟩ := hx; obtain ⟨d, hd, rfl⟩ := hy
  exact ⟨a / d, div_real a (one_pos.trans_le hd).ne'⟩

theorem rsqrt_real {v : ℝ} (hv : 0 < v) : Ideal.rsqrt (v : EReal) = (((Real.sqrt v)⁻¹ : ℝ) : EReal) := by
  rw [Ideal.rsqrt_coe, if_neg (not_lt.mpr hv.le), if_neg hv.ne']

end Reals

section Variance

variable {ι : Type*} [Fintype ι]

theorem meanSqDev_eq (f : ι → ℝ) (N : ℝ) (hN : (Fintype.card ι : ℝ) = N) (hN0 : N ≠ 0) :
    (∑ i, (f i - (∑ i, f i) / N) * (f i - (∑ i, f i) / N)) / N
      = (∑ i, f i * f i) / N - (∑ i, f i) / N * ((∑ i, f i) / N) := by
  have hexp : ∀ i, (f i - (∑ i, f i) / N) * (f i - (∑ i, f i) / N)
      = f i * f i - 2 * ((∑ i, f i) / N) * f i + (∑ i, f i) / N * ((∑ i, f i) / N) := fun i => by ring
  rw [Finset.sum_congr rfl fun i _ => hexp i, Finset.sum_add_distrib, Finset.sum_sub_distrib, ← Finset.mul_sum,
    Finset.sum_const, Finset.card_univ, nsmul_eq_mul, hN]
  field_simp
  ring

theorem meanSq_nonneg (d : ι → ℝ) {N : ℝ} (hN : 0 < N) : 0 ≤ (∑ i, d i * d i) / N :=
  div_nonneg (Finset.sum_nonneg fun i _ => mul_self_nonneg (d i)) hN.le

end Variance

theorem ofBits_1e5 : Ideal.ofBits .f32 0x47C35000#32 = ((100000 : ℝ) : EReal) := by
  simp [Ideal.ofBits, Ideal.ieee, -EReal.coe_mul]; norm_num

theorem ofBits_eps : ∃ e : ℝ, 0 < e ∧ Ideal.ofBits .f32 0x3727C5AC#32 = (e : EReal) := by
  simp [Ideal.ofBits, Ideal.ieee, -EReal.coe_mul]

theorem hostRsqrt_apply {s : Shape} {φ : FTy} (a : FVec Ideal s φ) (i : s.Idx) : Host.rsqrt a i = Ideal.rsqrt (a i) := rfl

theorem splat_apply {t : Shape} (h : S_.BroadcastsInDim t (![] : Fin 0 → Fin t.rank)) (b : BitVec 32) (i : t.Idx) :
    broadcastInDim t ![] h (constant (F := Ideal) S_ .f32 b) i = Ideal.ofBits .f32 b := rfl

theorem asRow_apply (v : FVec Ideal S128 .f32) (j : Fin 128) :
    broadcastInDim S1x128 ![1] bcast_S128_S1x128_1 v (ix2 (0 : Fin 1) j) = v (ix1 j) :=
  broadcastInDim_apply ![1] bcast_S128_S1x128_1 v (ix2 (0 : Fin 1) j) (ix1 j) (fun a => by match a with | ⟨0, _⟩ => rfl)

theorem overRows_apply (v : FVec Ideal S1x128 .f32) (r : Fin 100000) (j : Fin 128) :
    broadcastInDim S100000x128 ![0, 1] bcast_S1x128_S100000x128_0_1 v (ix2 r j) = v (ix2 (0 : Fin 1) j) :=
  broadcastInDim_apply ![0, 1] bcast_S1x128_S100000x128_0_1 v (ix2 r j) (ix2 (0 : Fin 1) j)
    (fun a => by match a with | ⟨0, _⟩ => rfl | ⟨1, _⟩ => rfl)

theorem rows_apply (v : FVec Ideal S128 .f32) (r : Fin 100000) (j : Fin 128) :
    Cert.Spec.rows v (ix2 r j) = v (ix1 j) := by
  unfold Cert.Spec.rows
  rw [overRows_apply, asRow_apply]

theorem reduces_rows : S100000x128.Reduces [0] S128 := by decide

theorem colSum_apply (y : FVec Ideal S100000x128 .f32) (j : Fin 128) :
    Cert.Spec.colSum y (ix1 j) = ∑ n : Fin 100000, y (ix2 n j) := by
  unfold Cert.Spec.colSum Host.reduceAdd
  rw [Ideal.hostReduceAdd_def, Ideal.hostReduceAdd_single reducesTo_S100000x128_S128_d0 reduces_rows]
  show Ideal.ofBits .f32 0x00000000#32 + _ = _
  rw [Ideal.ofBits_zero_f32, zero_add]
  refine Finset.sum_congr rfl fun n _ => congrArg y ?_
  funext a
  match a with
  | ⟨0, _⟩ => rfl
  | ⟨1, _⟩ => rfl

theorem colMean_apply (y : FVec Ideal S100000x128 .f32) (j : Fin 128) :
    Cert.Spec.colMean y (ix1 j) = Ideal.div (∑ n : Fin 100000, y (ix2 n j)) ((100000 : ℝ) : EReal) := by
  unfold Cert.Spec.colMean
  rw [hostDivf_apply, colSum_apply, splat_apply, ofBits_1e5]

theorem varDev_apply (y : FVec Ideal S100000x128 .f32) (r : Fin 100000) (j : Fin 128) :
    Cert.Spec.varDev y (ix2 r j) = y (ix2 r j) - Ideal.div (∑ n : Fin 100000, y (ix2 n j)) ((100000 : ℝ) : EReal) := by
  unfold Cert.Spec.varDev
  rw [subf_apply, overRows_apply, hostDivf_apply, asRow_apply, colSum_apply, splat_apply, ofBits_1e5]

theorem varDof_apply (k : S_.Idx) : Cert.Spec.varDof (F := Ideal) k = ((100000 : ℝ) : EReal) := by
  show Ideal.ofBits .f32 0x47C35000#32 - (((0#32 : BitVec 32).toInt : ℝ) : EReal) = _
  rw [ofBits_1e5]
  simp

theorem colVar_apply (y : FVec Ideal S100000x128 .f32) (j : Fin 128) :
    Cert.Spec.colVar y (ix1 j)
      = Ideal.div (∑ n : Fin 100000, Cert.Spec.varDev y (ix2 n j) * Cert.Spec.varDev y (ix2 n j)) ((100000 : ℝ) : EReal) := by
  have hc : broadcastInDim S128 ![] bcast_S_S128 (cmpf .ogt (Cert.Spec.varDof (F := Ideal)) (constant S_ .f32 0x00000000#32)) (ix1 j) = 1#1 := by
    show Ideal.cmp .ogt (Cert.Spec.varDof (F := Ideal) _) (Ideal.ofBits .f32 0x00000000#32) = 1#1
    rw [varDof_apply, Ideal.ofBits_zero_f32]
    simp [Ideal.cmp]
  unfold Cert.Spec.colVar
  rw [select_apply, hc, select_one]
  show Ideal.div (Cert.Spec.colSum (mulf (Cert.Spec.varDev y) (Cert.Spec.varDev y)) (ix1 j)) (Cert.Spec.varDof (F := Ideal) _) = _
  rw [colSum_apply, varDof_apply]
  rfl

theorem bnRelu_apply (y : FVec Ideal S100000x128 .f32) (g be : FVec Ideal S128 .f32) (r : Fin 100000) (j : Fin 128) :
    Cert.Spec.bnRelu y g be (ix2 r j)
      = max ((y (ix2 r j) - Cert.Spec.colMean y (ix1 j))
            * Ideal.rsqrt (Cert.Spec.colVar y (ix1 j) + Ideal.ofBits .f32 0x3727C5AC#32) * g (ix1 j) + be (ix1 j))
          (Ideal.ofBits .f32 0x00000000#32) := by
  unfold Cert.Spec.bnRelu
  rw [maximumf_apply, addf_apply, mulf_apply, mulf_apply, subf_apply, rows_apply, rows_apply, rows_apply, rows_apply,
    hostRsqrt_apply, addf_apply, splat_apply, splat_apply]

theorem shapeCasts_S128_S1x128 : S128.ShapeCasts S1x128 := by decide

def kMean (s : FVec Ideal S1x128 .f32) : FVec Ideal S1x128 .f32 :=
  Host.divf s (broadcastInDim S1x128 ![] bcast_S_S1x128 (constant S_ .f32 0x47C35000#32))

def kScale (s q : FVec Ideal S1x128 .f32) (g : FVec Ideal S128 .f32) : FVec Ideal S1x128 .f32 :=
  mulf (shapeCast S1x128 g shapeCasts_S128_S1x128)
    (Host.rsqrt (addf
      (maximumf (subf (Host.divf q (broadcastInDim S1x128 ![] bcast_S_S1x128 (constant S_ .f32 0x47C35000#32))) (mulf (kMean s) (kMean s)))
        (broadcastInDim S1x128 ![] bcast_S_S1x128 (constant S_ .f32 0x00000000#32)))
      (broadcastInDim S1x128 ![] bcast_S_S1x128 (constant S_ .f32 0x3727C5AC#32))))

def kShift (s q : FVec Ideal S1x128 .f32) (g be : FVec Ideal S128 .f32) : FVec Ideal S1x128 .f32 :=
  subf (shapeCast S1x128 be shapeCasts_S128_S1x128) (mulf (kMean s) (kScale s q g))

theorem kMean_apply (s : FVec Ideal S1x128 .f32) (j : Fin 128) :
    kMean s (ix2 (0 : Fin 1) j) = Ideal.div (s (ix2 (0 : Fin 1) j)) ((100000 : ℝ) : EReal) := by
  unfold kMean
  rw [hostDivf_apply, splat_apply, ofBits_1e5]

theorem kScale_apply (s q : FVec Ideal S1x128 .f32) (g : FVec Ideal S128 .f32) (j : Fin 128) :
    kScale s q g (ix2 (0 : Fin 1) j)
      = g (ix1 j) * Ideal.rsqrt (max (Ideal.div (q (ix2 (0 : Fin 1) j)) ((100000 : ℝ) : EReal)
            - kMean s (ix2 (0 : Fin 1) j) * kMean s (ix2 (0 : Fin 1) j)) (Ideal.ofBits .f32 0x00000000#32)
          + Ideal.ofBits .f32 0x3727C5AC#32) := by
  unfold kScale
  rw [mulf_apply, shapeCast_a_1a_apply, hostRsqrt_apply, addf_apply, maximumf_apply, subf_apply, hostDivf_apply, mulf_apply,
    splat_apply, splat_apply, splat_apply, ofBits_1e5]

theorem kShift_apply (s q : FVec Ideal S1x128 .f32) (g be : FVec Ideal S128 .f32) (j : Fin 128) :
    kShift s q g be (ix2 (0 : Fin 1) j) = be (ix1 j) - kMean s (ix2 (0 : Fin 1) j) * kScale s q g (ix2 (0 : Fin 1) j) := by
  unfold kShift
  rw [subf_apply, shapeCast_a_1a_apply, mulf_apply]

section Main

variable {y : FVec Ideal S100000x128 .f32} {g be : FVec Ideal S128 .f32}

theorem column_stats (hy : RealV y) (j : Fin 128) :
    ∃ f : Fin 100000 → ℝ, (∀ n, y (ix2 n j) = (f n : EReal))
      ∧ ∑ n : Fin 100000, y (ix2 n j) = ((∑ n, f n : ℝ) : EReal)
      ∧ ∑ n : Fin 100000, y (ix2 n j) * y (ix2 n j) = ((∑ n, f n * f n : ℝ) : EReal)
      ∧ Cert.Spec.colMean y (ix1 j) = (((∑ n, f n) / 100000 : ℝ) : EReal)
      ∧ Cert.Spec.colVar y (ix1 j)
          = (((∑ n, (f n - (∑ n, f n) / 100000) * (f n - (∑ n, f n) / 100000)) / 100000 : ℝ) : EReal) := by
  choose f hf using fun n => hy (ix2 n j)
  have h0 : (100000 : ℝ) ≠ 0 := by norm_num
  have hS : ∑ n : Fin 100000, y (ix2 n j) = ((∑ n, f n : ℝ) : EReal) := by
    rw [← coe_sum]; exact Finset.sum_congr rfl fun n _ => hf n
  have hQ : ∑ n : Fin 100000, y (ix2 n j) * y (ix2 n j) = ((∑ n, f n * f n : ℝ) : EReal) := by
    rw [← coe_sum]; exact Finset.sum_congr rfl fun n _ => by rw [hf n, EReal.coe_mul]
  refine ⟨f, hf, hS, hQ, ?_, ?_⟩
  · rw [colMean_apply, hS, div_real _ h0]
  · have hdev : ∀ n, Cert.Spec.varDev y (ix2 n j) * Cert.Spec.varDev y (ix2 n j)
        = (((f n - (∑ n, f n) / 100000) * (f n - (∑ n, f n) / 100000) : ℝ) : EReal) := fun n => by
      rw [varDev_apply, hS, div_real _ h0, hf n, ← EReal.coe_sub, ← EReal.coe_mul]
    rw [colVar_apply, Finset.sum_congr rfl fun n _ => hdev n, coe_sum, div_real _ h0]

theorem norm_eq {s q : FVec Ideal S1x128 .f32} (hy : RealV y) (hg : RealV g) (hbe : RealV be)
    (hs : ∀ j : Fin 128, s (ix2 (0 : Fin 1) j) = ∑ n : Fin 100000, y (ix2 n j))
    (hq : ∀ j : Fin 128, q (ix2 (0 : Fin 1) j) = ∑ n : Fin 100000, y (ix2 n j) * y (ix2 n j))
    (r : Fin 100000) (j : Fin 128) :
    max (y (ix2 r j) * kScale s q g (ix2 (0 : Fin 1) j) + kShift s q g be (ix2 (0 : Fin 1) j)) (Ideal.ofBits .f32 0x00000000#32)
      = Cert.Spec.bnRelu y g be (ix2 r j) := by
  obtain ⟨f, hf, hS, hQ, hmean, hvar⟩ := column_stats hy j
  obtain ⟨gj, hgj⟩ := hg (ix1 j)
  obtain ⟨bj, hbj⟩ := hbe (ix1 j)
  obtain ⟨e, he, hE⟩ := ofBits_eps
  have h0 : (100000 : ℝ) ≠ 0 := by norm_num
  have hN : ((Fintype.card (Fin 100000) : ℕ) : ℝ) = 100000 := by rw [Fintype.card_fin]; norm_num
  have hV := meanSqDev_eq f 100000 hN h0
  have hnn : 0 ≤ (∑ n, (f n - (∑ n, f n) / 100000) * (f n - (∑ n, f n) / 100000)) / 100000 :=
    meanSq_nonneg _ (by norm_num)
  have hpos := add_pos_of_nonneg_of_pos hnn he
  have hkm : kMean s (ix2 (0 : Fin 1) j) = (((∑ n, f n) / 100000 : ℝ) : EReal) := by
    rw [kMean_apply, hs, hS, div_real _ h0]
  have hks : kScale s q g (ix2 (0 : Fin 1) j)
      = ((gj * (Real.sqrt ((∑ n, (f n - (∑ n, f n) / 100000) * (f n - (∑ n, f n) / 100000)) / 100000 + e))⁻¹ : ℝ) : EReal) := by
    rw [kScale_apply, hkm, hq, hQ, div_real _ h0, ← EReal.coe_mul, ← EReal.coe_sub, ← hV, Ideal.ofBits_zero_f32,
      max_eq_left (EReal.coe_nonneg.mpr hnn), hE, ← EReal.coe_add, rsqrt_real hpos, hgj, ← EReal.coe_mul]
  rw [bnRelu_apply, hmean, hvar, hE, ← EReal.coe_add, rsqrt_real hpos, kShift_apply, hkm, hks, hf r, hgj, hbj]
  simp only [← EReal.coe_mul, ← EReal.coe_sub, ← EReal.coe_add]
  refine congrArg (fun t : ℝ => max (t : EReal) (Ideal.ofBits .f32 0x00000000#32)) ?_
  ring

theorem norm_finite (hy : RealV y) (hg : RealV g) (hbe : RealV be) : RealV (Cert.Spec.bnRelu y g be) := by
  intro i
  obtain ⟨r, j, rfl⟩ : ∃ (r : Fin 100000) (j : Fin 128), i = ix2 r j := ⟨i 0, i 1, eq_ix2 i⟩
  obtain ⟨f, hf, hS, hQ, hmean, hvar⟩ := column_stats hy j
  obtain ⟨e, he, hE⟩ := ofBits_eps
  have hnn : 0 ≤ (∑ n, (f n - (∑ n, f n) / 100000) * (f n - (∑ n, f n) / 100000)) / 100000 :=
    meanSq_nonneg _ (by norm_num)
  rw [bnRelu_apply, hmean, hvar, hE, ← EReal.coe_add, rsqrt_real (add_pos_of_nonneg_of_pos hnn he), Ideal.ofBits_zero_f32]
  exact real_max (real_add (real_mul (real_mul (real_sub (hy _) ⟨_, rfl⟩) ⟨_, rfl⟩) (hg _)) (hbe _)) ⟨0, EReal.coe_zero.symm⟩

end Main

end Cert.KernelIdeal.Value

end
-- ==== Proof.Value.Host.lean ====
import proofs.«424731_j88648124990764_2_alg».proof.Proof.Gen.KernelIdeal.Regions
import proofs.«424731_j88648124990764_2_alg».proof.Proof.Spec.Stages
import proofs.«424731_j88648124990764_2_alg».proof.Proof.Value.Norm
import Idealize.ShloMosaic.Lib.StableHlo.Run

noncomputable section

namespace Cert.KernelIdeal.Value

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (outs : Outs (F := Ideal)) (c : Dev nD)

theorem not_written {r : Ref sig .tc} (hr : r.idx.val < 20) {W : List (Ref sig .tc)} (hW : ∀ x ∈ W, 20 ≤ x.idx.val := by decide) :
    r ∉ W := fun hm => absurd (hW r hm) (Nat.not_le.mpr hr)

section Args
variable (r : Ref sig .tc) (hr : r.idx.val < 20)
include hr

theorem V4_arg : V4 m outs c r = V0 m c r := by
  rw [V4_of m outs c r (not_written hr), V3_of m c r (not_written hr), V2_of m c r (not_written hr), V1_of m c r (not_written hr)]

theorem V6_arg : V6 m outs c r = V0 m c r := by
  rw [V6_of m outs c r (not_written hr), V5_of m outs c r (not_written hr), V4_arg m outs c r hr]

theorem V8_arg : V8 m outs c r = V0 m c r := by
  rw [V8_of m outs c r (not_written hr), V7_of m outs c r (not_written hr), V6_arg m outs c r hr]

theorem V10_arg : V10 m outs c r = V0 m c r := by
  rw [V10_of m outs c r (not_written hr), V9_of m outs c r (not_written hr), V8_arg m outs c r hr]

theorem V12_arg : V12 m outs c r = V0 m c r := by
  rw [V12_of m outs c r (not_written hr), V11_of m outs c r (not_written hr), V10_arg m outs c r hr]

end Args

set_option maxRecDepth 8192 in
theorem V4_ids : V4 m outs c main_v1 = Cert.Spec.srcIds (V0 m c main_arg3) ∧ V4 m outs c main_v3 = Cert.Spec.dstIds (V0 m c main_arg3) := by
  rw [V4_of m outs c main_v1 (by decide), V3_of m c main_v1 (by decide), V2_of m c main_v1 (by decide),
    V4_of m outs c main_v3 (by decide), V3_of m c main_v3 (by decide), V2_of m c main_v3 (by decide)]
  constructor <;> (after_results; rfl)

set_option maxRecDepth 16384 in
set_option maxHeartbeats 2000000 in
theorem entry1 :
    V5 m outs c main_v31 = Cert.Spec.aggregate (F := Ideal) (V4 m outs c main_v8) (V0 m c main_arg3)
    ∧ V5 m outs c main_v15 = transpose S128x128 [1, 0] (V0 m c main_arg8) transposes_S128x128_S128x128_1_0
    ∧ V5 m outs c main_v16 = transpose S128x128 [1, 0] (V0 m c main_arg10) transposes_S128x128_S128x128_1_0
    ∧ V5 m outs c main_v32 = shapeCast S1x128 (V0 m c main_arg9) shapeCasts_S128_S1x128
    ∧ V5 m outs c main_v8 = V4 m outs c main_v8 := by
  obtain ⟨hsrc, hdst⟩ := V4_ids m outs c
  refine ⟨?_, ?_, ?_, ?_, V5_of m outs c main_v8 (by decide)⟩ <;> after_results_simp
  · rw [hsrc, hdst]; rfl
  · rw [V4_arg m outs c main_arg8 (by decide)]
  · rw [V4_arg m outs c main_arg10 (by decide)]
  · rw [V4_arg m outs c main_arg9 (by decide)]; rfl

set_option maxRecDepth 16384 in
set_option maxHeartbeats 1000000 in
theorem late1 :
    V5 m outs c main_v17 = transpose S128x128 [1, 0] (V0 m c main_arg13) transposes_S128x128_S128x128_1_0
    ∧ V5 m outs c main_v18 = transpose S128x128 [1, 0] (V0 m c main_arg15) transposes_S128x128_S128x128_1_0
    ∧ V5 m outs c main_v14 = maximumf (Cert.Spec.inDegree (F := Ideal) (V0 m c main_arg3))
        (broadcastInDim S100000x1 ![] bcast_S_S100000x1 (constant S_ .f32 0x3F800000#32)) := by
  refine ⟨?_, ?_, ?_⟩ <;> after_results_simp
  · rw [V4_arg m outs c main_arg13 (by decide)]
  · rw [V4_arg m outs c main_arg15 (by decide)]
  · rw [(V4_ids m outs c).2]; rfl

set_option maxRecDepth 16384 in
set_option maxHeartbeats 1000000 in
theorem entry2 :
    V7 m outs c main_v46 = kScale (V6 m outs c main_v33_1) (V6 m outs c main_v33_2) (V0 m c main_arg11)
    ∧ V7 m outs c main_v49 = kShift (V6 m outs c main_v33_1) (V6 m outs c main_v33_2) (V0 m c main_arg11) (V0 m c main_arg12)
    ∧ V7 m outs c main_v33_0 = V6 m outs c main_v33_0 := by
  refine ⟨?_, ?_, V7_of m outs c main_v33_0 (by decide)⟩ <;> after_results_simp <;> rw [V6_arg m outs c main_arg11 (by decide)]
  · rfl
  · rw [V6_arg m outs c main_arg12 (by decide)]; rfl

set_option maxRecDepth 16384 in
set_option maxHeartbeats 2000000 in
theorem entry3 :
    V9 m outs c main_v63 = Cert.Spec.aggregate (F := Ideal) (V8 m outs c main_v50) (V0 m c main_arg3)
    ∧ V9 m outs c main_v17 = transpose S128x128 [1, 0] (V0 m c main_arg13) transposes_S128x128_S128x128_1_0
    ∧ V9 m outs c main_v18 = transpose S128x128 [1, 0] (V0 m c main_arg15) transposes_S128x128_S128x128_1_0
    ∧ V9 m outs c main_v64 = shapeCast S1x128 (V0 m c main_arg14) shapeCasts_S128_S1x128
    ∧ V9 m outs c main_v50 = V8 m outs c main_v50 := by
  obtain ⟨h17, h18, h14⟩ := late1 m outs c
  obtain ⟨hsrc, hdst⟩ := V4_ids m outs c
  have k (r : Ref sig .tc) (h6 : r ∉ ([main_v33_0, main_v33_1, main_v33_2] : List (Ref sig .tc))) (h7 : r ∉ hostOps2_W)
      (h8 : r ∉ ([main_v50] : List (Ref sig .tc))) : V8 m outs c r = V5 m outs c r := by
    rw [V8_of m outs c r h8, V7_of m outs c r h7, V6_of m outs c r h6]
  refine ⟨?_, ?_, ?_, ?_, V9_of m outs c main_v50 (by decide)⟩
  · after_results_simp
    rw [k main_v1 (by decide) (by decide) (by decide), V5_of m outs c main_v1 (by decide), hsrc,
      k main_v3 (by decide) (by decide) (by decide), V5_of m outs c main_v3 (by decide), hdst,
      k main_v14 (by decide) (by decide) (by decide), h14]
    rfl
  · rw [V9_of m outs c main_v17 (by decide), k main_v17 (by decide) (by decide) (by decide), h17]
  · rw [V9_of m outs c main_v18 (by decide), k main_v18 (by decide) (by decide) (by decide), h18]
  · after_results_simp
    rw [V8_arg m outs c main_arg14 (by decide)]
    rfl

set_option maxRecDepth 16384 in
set_option maxHeartbeats 1000000 in
theorem entry4 :
    V11 m outs c main_v78 = kScale (V10 m outs c main_v65_1) (V10 m outs c main_v65_2) (V0 m c main_arg16)
    ∧ V11 m outs c main_v81 = kShift (V10 m outs c main_v65_1) (V10 m outs c main_v65_2) (V0 m c main_arg16) (V0 m c main_arg17)
    ∧ V11 m outs c main_v65_0 = V10 m outs c main_v65_0 := by
  refine ⟨?_, ?_, V11_of m outs c main_v65_0 (by decide)⟩ <;> after_results_simp <;> rw [V10_arg m outs c main_arg16 (by decide)]
  · rfl
  · rw [V10_arg m outs c main_arg17 (by decide)]; rfl

end Cert.KernelIdeal.Value

end
-- ==== Proof.Value.Embed.lean ====
import proofs.«424731_j88648124990764_2_alg».proof.Proof.KernelIdeal.Region0
import proofs.«424731_j88648124990764_2_alg».proof.Proof.Spec.Stages
import proofs.«424731_j88648124990764_2_alg».proof.Proof.Gen.KernelIdeal.Regions
import proofs.«424731_j88648124990764_2_alg».proof.Pre_finite_inputs
import Idealize.ShloMosaic.Lib.StableHlo.Run
import Idealize.ShloMosaic.Lib.Affine
import Idealize.ShloMosaic.Lib.ReduceAll
import Idealize.ShloMosaic.PureOps.Ideal.Laws
import Idealize.ShloMosaic.Lib.ValueIdx
import Idealize.ShloMosaic.Lib.Pipeline.Value
import Idealize.ShloMosaic.Lib.KernelVsHost

set_option maxRecDepth 16384

noncomputable section

open scoped BigOperators

namespace Cert.KernelIdeal.Value

open Cert.KernelIdeal Cert.KernelIdeal.Gen
open Idealize.ShloMosaic Idealize.ShloMosaic.TcCoe Idealize.ShloMosaic.ValueIdx
open Idealize.ShloMosaic.Pipeline (Dat)

-- An id in [0, K) compared with column q, widened and converted: 1 at the id's column, 0 elsewhere.
theorem onehot_entry (x : BitVec 32) {K : ℕ} (hK : K ≤ 2147483648) (a : Fin K) (ha : x.toInt = a.val) (q : Fin K) :
    FloatOps.sitofp (F := Ideal) .f32 ((IntOp.cmpi .eq x (BitVec.ofNat 32 q.val)).setWidth 32) = if q = a then 1 else 0 := by
  have hxn : x.toNat = a.val := by
    have e := BitVec.toInt_eq_toNat_cond x; have := x.isLt; have := a.isLt; omega
  have hmod : q.val % 2 ^ 32 = q.val := Nat.mod_eq_of_lt (by have := q.isLt; omega)
  have hiff : x = BitVec.ofNat 32 q.val ↔ q = a := by
    rw [← BitVec.toNat_inj, BitVec.toNat_ofNat, hxn, hmod]
    exact ⟨fun h => Fin.ext h.symm, fun h => h ▸ rfl⟩
  show ((((IntOp.cmpi .eq x (BitVec.ofNat 32 q.val)).setWidth 32).toInt : ℝ) : EReal) = _
  rw [toInt_setWidth_bit]
  unfold IntOp.cmpi
  by_cases hq : q = a
  · rw [if_pos hq, hiff.mpr hq]; simp
  · rw [if_neg hq, beq_eq_false_iff_ne.mpr (mt hiff.mp hq)]; simp

-- A one-hot row times a table is the table's row: every other term is 0 · x = 0.
theorem onehot_matmul {n K C : ℕ} (A : FVec Ideal ⟨2, ![n, K]⟩ .f32) (T : FVec Ideal ⟨2, ![K, C]⟩ .f32) (r : Fin n) (c : Fin C)
    (a : Fin K) (hA : ∀ q : Fin K, A (ix2 r q) = if q = a then 1 else 0) :
    FloatOps.matmul (DotDims.plain n K C) none A T (constant (F := Ideal) ⟨2, ![n, C]⟩ .f32 0x00000000#32) (ix2 r c) = T (ix2 a c) := by
  rw [Ideal.matmul_constant_zero_apply, ← Equiv.sum_comp (contrEquiv1 (DotDims.plain n K C) K rfl rfl).symm]
  have hl : ∀ q : Fin K, (DotDims.plain n K C).lhsIdx (ix2 r c) ((contrEquiv1 (DotDims.plain n K C) K rfl rfl).symm q) = ix2 r q :=
    fun q => Shape.idx_ext₂ rfl (contrEquiv1_symm_val (DotDims.plain n K C) K rfl rfl q)
  have hr : ∀ q : Fin K, (DotDims.plain n K C).rhsIdx (ix2 r c) ((contrEquiv1 (DotDims.plain n K C) K rfl rfl).symm q) = ix2 q c :=
    fun q => Shape.idx_ext₂ (contrEquiv1_symm_val (DotDims.plain n K C) K rfl rfl q) rfl
  simp only [hl, hr, hA]
  rw [Finset.sum_eq_single a (fun q _ hq => by rw [if_neg hq, zero_mul]) (fun h => absurd (Finset.mem_univ a) h), if_pos rfl, one_mul]

-- Row r of the comparison matrix built from an id column is the one-hot row of that row's id.
theorem onehot_row {n K : ℕ} (col : IVec ⟨2, ![n, 1]⟩ 32) (hbc : (⟨2, ![n, 1]⟩ : Shape).Broadcasts ⟨2, ![n, K]⟩)
    (hio : (⟨2, ![n, K]⟩ : Shape).Iotas .tc 32 [1]) (hK : K ≤ 2147483648) (r : Fin n) (a : Fin K)
    (ha : (col (ix2 r (0 : Fin 1))).toInt = a.val) (q : Fin K) :
    (sitofp .f32 (extui 32 (cmpi .eq (broadcastTo ⟨2, ![n, K]⟩ col hbc) (iota .tc ⟨2, ![n, K]⟩ 32 [1] hio)) (by decide))
      : FVec Ideal ⟨2, ![n, K]⟩ .f32) (ix2 r q) = if q = a then 1 else 0 := by
  show FloatOps.sitofp (F := Ideal) .f32 ((IntOp.cmpi .eq (broadcastTo ⟨2, ![n, K]⟩ col hbc (ix2 r q))
    (iota .tc ⟨2, ![n, K]⟩ 32 [1] hio (ix2 r q))).setWidth 32) = _
  rw [broadcastTo_apply col hbc (ix2 r q) (ix2 r (0 : Fin 1)) (fun b => by
      match b with
      | ⟨0, _⟩ =>
        show r.val = if n = 1 then 0 else r.val
        have := r.isLt
        split <;> omega
      | ⟨1, _⟩ => rfl),
    iota_single_apply]
  exact onehot_entry _ hK a ha q

-- The capped position id, read signed, is the smaller of the id and 512.
theorem toInt_minsi_512 (x : BitVec 32) : (IntOp.minsi x 512#32).toInt = min x.toInt 512 := by
  unfold IntOp.minsi
  rw [BitVec.slt_eq_decide]
  have h512 : (512#32 : BitVec 32).toInt = 512 := by decide
  by_cases h : x.toInt < (512#32 : BitVec 32).toInt
  · rw [decide_eq_true h, if_pos rfl]; rw [h512] at h; omega
  · rw [decide_eq_false h, if_neg (by simp), h512]; rw [h512] at h; omega

theorem zero_offsets : (![0, 0] : Fin 2 → ℕ) = fun _ => 0 := by
  funext a; match a with | ⟨0, _⟩ => rfl | ⟨1, _⟩ => rfl

-- Entry (r, j) of a point's block: the three table rows its ids name, added.
theorem embed_rows (s k p : Vec Ideal S10000x1 .i32) (ts : Vec Ideal S64x128 .f32) (tk : Vec Ideal S32x128 .f32)
    (tp : Vec Ideal S640x128 .f32) (r : Fin 10000) (j : Fin 128) (a : Fin 64) (b : Fin 32) (e : Fin 640)
    (ha : (s (ix2 r (0 : Fin 1))).toInt = a.val) (hb : (k (ix2 r (0 : Fin 1))).toInt = b.val)
    (he : min (p (ix2 r (0 : Fin 1))).toInt 512 = e.val) :
    Hand.embedRows0 (F := Ideal) s k p ts tk tp (ix2 r j) = ts (ix2 a j) + tk (ix2 b j) + tp (ix2 e j) := by
  unfold Hand.embedRows0
  rw [View.canon_unit_zero zero_offsets]
  simp only [View.ld_unit_zero (S := S10000x1) zero_offsets, View.ld_unit_zero (S := S64x128) zero_offsets,
    View.ld_unit_zero (S := S32x128) zero_offsets, View.ld_unit_zero (S := S640x128) zero_offsets]
  have h1 := onehot_matmul (n := 10000) (K := 64) (C := 128) _ ts r j a
    (onehot_row (shapeCast S10000x1 s shapeCasts_S10000x1_S10000x1) broadcasts_S10000x1_S10000x64 iota_S10000x64_d1_w32 (by decide) r a
      ((congrArg BitVec.toInt (congrFun (shapeCast_self s shapeCasts_S10000x1_S10000x1) _)).trans ha))
  have h2 := onehot_matmul (n := 10000) (K := 32) (C := 128) _ tk r j b
    (onehot_row (shapeCast S10000x1 k shapeCasts_S10000x1_S10000x1) broadcasts_S10000x1_S10000x32 iota_S10000x32_d1_w32 (by decide) r b
      ((congrArg BitVec.toInt (congrFun (shapeCast_self k shapeCasts_S10000x1_S10000x1) _)).trans hb))
  have h3 := onehot_matmul (n := 10000) (K := 640) (C := 128) _ (shapeCast S640x128 tp shapeCasts_S640x128_S640x128) r j e
    (onehot_row (minsi (shapeCast S10000x1 p shapeCasts_S10000x1_S10000x1) (broadcast S10000x1 512#32))
      broadcasts_S10000x1_S10000x640 iota_S10000x640_d1_w32 (by decide) r e
      ((congrArg (fun x => (IntOp.minsi x 512#32).toInt) (congrFun (shapeCast_self p shapeCasts_S10000x1_S10000x1) _)).trans ((toInt_minsi_512 _).trans he)))
  rw [congrFun (shapeCast_self tp shapeCasts_S640x128_S640x128) (ix2 e j)] at h3
  exact congrArg₂ (· + ·) (congrArg₂ (· + ·) h1 h2) h3

-- The dimension numbers of a row lookup table[ids].
abbrev rowDims (N n C : ℕ) (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

-- A row lookup at (p, q): column q of the row the p-th index names, clamped into the table.
theorem gather_rows_apply {α : Type} {N n C w : ℕ} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (p : Fin n) (q : Fin C) :
    Host.gather (rowDims N n C wf) x idx (ix2 p q)
      = x (ix2 ⟨min (idx (ix2 p (0 : Fin 1))).toInt.toNat (N - 1), by omega⟩ q) := by
  unfold Host.gather
  refine congrArg x (funext fun a => Fin.ext ?_)
  match a with
  | ⟨0, _⟩ =>
    show (rowDims N n C wf).start (ix2 p q) idx 0 + (rowDims N n C wf).batchCoord (ix2 p q) 0
      + (rowDims N n C wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N n C wf).startIndexMap from List.mem_singleton.mpr rfl)]
    exact congrArg (fun i => min (idx i).toInt.toNat (N - 1)) (Shape.idx_ext₂ rfl rfl)
  | ⟨1, _⟩ =>
    show (rowDims N n C wf).start (ix2 p q) idx 1 + (rowDims N n C wf).batchCoord (ix2 p q) 1
      + (rowDims N n C wf).offCoord (ix2 p q) 1 = q.val
    rw [GatherDims.batchCoord_eq_zero _ _ _ List.not_mem_nil]
    unfold GatherDims.start
    rw [dif_neg (show (1 : Fin 2) ∉ (rowDims N n C wf).startIndexMap from (by decide : (1 : Fin 2) ∉ ([0] : List (Fin 2))))]
    simp only [Nat.add_zero, Nat.zero_add]
    rfl

-- A non-negative id is its own start index.
theorem startIdx_apply (h : BitVec 32) (ids : IVec S100000 32) (n : Fin 100000) (hx : 0 ≤ (ids (ix1 n)).toInt) :
    Cert.Spec.startIdx h ids (ix2 n (0 : Fin 1)) = ids (ix1 n) := by
  unfold Cert.Spec.startIdx
  rw [broadcastInDim_apply _ _ _ (ix2 n (0 : Fin 1)) (ix1 n) (fun a => by match a with | ⟨0, _⟩ => rfl)]
  rw [select_apply]
  have hb : IntOp.cmpi .slt (ids (ix1 n)) 0#32 = 0#1 := by
    unfold IntOp.cmpi
    rw [BitVec.slt_eq_decide, decide_eq_false (by rw [show (0#32 : BitVec 32).toInt = 0 by decide]; omega)]
    rfl
  show Scalar.select (IntOp.cmpi .slt (ids (ix1 n)) 0#32) _ _ = _
  rw [hb, select_zero]

-- A lookup whose id is a row number of the table reads that row.
theorem lookup_entry {N : ℕ} (hN : 0 < N)
    (wf : GatherDims.WF ⟨2, ![N, 128]⟩ ⟨2, ![100000, 1]⟩ ⟨2, ![100000, 128]⟩ [1] [0] [] [0] [] 1 ![1, 128])
    (tab : FVec Ideal ⟨2, ![N, 128]⟩ .f32) (h : BitVec 32) (ids : IVec S100000 32) (n : Fin 100000) (j : Fin 128) (a : Fin N)
    (ha : (ids (ix1 n)).toInt = a.val) :
    Host.gather (rowDims N 100000 128 wf) tab (Cert.Spec.startIdx h ids) (ix2 n j) = tab (ix2 a j) := by
  rw [gather_rows_apply hN]
  refine congrArg (fun row => tab (ix2 row j)) (Fin.ext ?_)
  show min (Cert.Spec.startIdx h ids (ix2 n (0 : Fin 1))).toInt.toNat (N - 1) = a.val
  rw [startIdx_apply h ids n (by rw [ha]; omega), ha, Int.toNat_natCast]
  have := a.isLt
  omega

-- Entry (n, j) of the reference's stage: the three table rows, added.
theorem spec_embed_entry (sid cid pid : IVec S100000 32) (stab : FVec Ideal S64x128 .f32) (ctab : FVec Ideal S32x128 .f32)
    (ptab : FVec Ideal S513x128 .f32) (n : Fin 100000) (j : Fin 128) (a : Fin 64) (b : Fin 32) (e : Fin 513)
    (ha : (sid (ix1 n)).toInt = a.val) (hb : (cid (ix1 n)).toInt = b.val) (he : min (pid (ix1 n)).toInt 512 = e.val) :
    Cert.Spec.embed (F := Ideal) sid cid pid stab ctab ptab (ix2 n j) = stab (ix2 a j) + ctab (ix2 b j) + ptab (ix2 e j) :=
  congrArg₂ (· + ·)
    (congrArg₂ (· + ·)
      (lookup_entry (by decide) Cert.ReferenceIdeal.Gen.gather_S64x128_S100000x1_S100000x128_1_0_n_n_0_1_1128_wf stab 64#32 sid n j a ha)
      (lookup_entry (by decide) Cert.ReferenceIdeal.Gen.gather_S32x128_S100000x1_S100000x128_1_0_n_n_0_1_1128_wf ctab 32#32 cid n j b hb))
    (lookup_entry (by decide) Cert.ReferenceIdeal.Gen.gather_S513x128_S100000x1_S100000x128_1_0_n_n_0_1_1128_wf ptab 513#32
      (Cert.Spec.capPos pid) n j e ((toInt_minsi_512 _).trans he))

-- Where each window's block sits at point t.
theorem block_index : ∀ t : Fin grid0.N,
    (win0_0.index t (0 : Fin 2) = t.val ∧ win0_0.index t (1 : Fin 2) = 0) ∧ (win0_1.index t (0 : Fin 2) = t.val ∧ win0_1.index t (1 : Fin 2) = 0)
    ∧ (win0_2.index t (0 : Fin 2) = t.val ∧ win0_2.index t (1 : Fin 2) = 0) ∧ (win0_3.index t (0 : Fin 2) = 0 ∧ win0_3.index t (1 : Fin 2) = 0)
    ∧ (win0_4.index t (0 : Fin 2) = 0 ∧ win0_4.index t (1 : Fin 2) = 0) ∧ (win0_5.index t (0 : Fin 2) = 0 ∧ win0_5.index t (1 : Fin 2) = 0)
    ∧ (win0_6.index t (0 : Fin 2) = t.val ∧ win0_6.index t (1 : Fin 2) = 0) := by decide +kernel

variable (V : (c : Dev nD) → (b : Ref sig .tc) → Buf (Elt Ideal) ((c : Thread nD τ).loc b))

-- Row r of point t's id blocks is row 10000·t + r of the id columns.
theorem id_blocks (c : Dev nD) (t : Fin cfg0.N) (r : Fin 10000) (n : Fin 100000) (hn : n.val = 10000 * t.val + r.val) :
    (Hand.iblk0 V c 0 t : S10000x1.Idx → BitVec 32) (ix2 r (0 : Fin 1)) = (V c main_v5 : S100000x1.Idx → BitVec 32) (ix2 n (0 : Fin 1))
    ∧ (Hand.iblk0 V c 1 t : S10000x1.Idx → BitVec 32) (ix2 r (0 : Fin 1)) = (V c main_v6 : S100000x1.Idx → BitVec 32) (ix2 n (0 : Fin 1))
    ∧ (Hand.iblk0 V c 2 t : S10000x1.Idx → BitVec 32) (ix2 r (0 : Fin 1)) = (V c main_v7 : S100000x1.Idx → BitVec 32) (ix2 n (0 : Fin 1)) := by
  obtain ⟨⟨h00, h01⟩, ⟨h10, h11⟩, ⟨h20, h21⟩, -⟩ := block_index t
  refine ⟨?_, ?_, ?_⟩ <;> unfold Hand.iblk0 <;> rw [View.read_apply]
  · exact congrArg (V c main_v5 : S100000x1.Idx → BitVec 32) (Shape.idx_ext₂
      (show win0_0.index t (0 : Fin 2) * 10000 + 1 * r.val = n.val by rw [h00, hn]; omega)
      (show win0_0.index t (1 : Fin 2) * 1 + 1 * 0 = 0 by rw [h01]))
  · exact congrArg (V c main_v6 : S100000x1.Idx → BitVec 32) (Shape.idx_ext₂
      (show win0_1.index t (0 : Fin 2) * 10000 + 1 * r.val = n.val by rw [h10, hn]; omega)
      (show win0_1.index t (1 : Fin 2) * 1 + 1 * 0 = 0 by rw [h11]))
  · exact congrArg (V c main_v7 : S100000x1.Idx → BitVec 32) (Shape.idx_ext₂
      (show win0_2.index t (0 : Fin 2) * 10000 + 1 * r.val = n.val by rw [h20, hn]; omega)
      (show win0_2.index t (1 : Fin 2) * 1 + 1 * 0 = 0 by rw [h21]))

-- Each table's one block is the table.
theorem table_blocks (c : Dev nD) (t : Fin cfg0.N) (a : Fin 64) (b : Fin 32) (e : Fin 640) (j : Fin 128) :
    (Hand.iblk0 V c 3 t : S64x128.Idx → EReal) (ix2 a j) = (V c main_arg5 : S64x128.Idx → EReal) (ix2 a j)
    ∧ (Hand.iblk0 V c 4 t : S32x128.Idx → EReal) (ix2 b j) = (V c main_arg6 : S32x128.Idx → EReal) (ix2 b j)
    ∧ (Hand.iblk0 V c 5 t : S640x128.Idx → EReal) (ix2 e j) = (V c main_v4 : S640x128.Idx → EReal) (ix2 e j) := by
  obtain ⟨-, -, -, ⟨h30, h31⟩, ⟨h40, h41⟩, ⟨h50, h51⟩, -⟩ := block_index t
  refine ⟨?_, ?_, ?_⟩ <;> unfold Hand.iblk0 <;> rw [View.read_apply]
  · exact congrArg (V c main_arg5 : S64x128.Idx → EReal) (Shape.idx_ext₂
      (show win0_3.index t (0 : Fin 2) * 64 + 1 * a.val = a.val by rw [h30]; omega)
      (show win0_3.index t (1 : Fin 2) * 128 + 1 * j.val = j.val by rw [h31]; omega))
  · exact congrArg (V c main_arg6 : S32x128.Idx → EReal) (Shape.idx_ext₂
      (show win0_4.index t (0 : Fin 2) * 32 + 1 * b.val = b.val by rw [h40]; omega)
      (show win0_4.index t (1 : Fin 2) * 128 + 1 * j.val = j.val by rw [h41]; omega))
  · exact congrArg (V c main_v4 : S640x128.Idx → EReal) (Shape.idx_ext₂
      (show win0_5.index t (0 : Fin 2) * 640 + 1 * e.val = e.val by rw [h50]; omega)
      (show win0_5.index t (1 : Fin 2) * 128 + 1 * j.val = j.val by rw [h51]; omega))

-- A vector reshaped to a column reads its entry n in row n.
theorem column_apply (ids : IVec S100000 32) (n : Fin 100000) :
    shapeCast S100000x1 ids shapeCasts_S100000_S100000x1 (ix2 n (0 : Fin 1)) = ids (ix1 n) :=
  shapeCast_apply ids shapeCasts_S100000_S100000x1 (ix2 n (0 : Fin 1)) (ix1 n) (by
    rw [Shape.rowMajor_val_one, Shape.rowMajor_val_two]
    show n.val = n.val * 1 + 0
    omega)

-- The padded position table agrees with the table on its 513 rows.
theorem padded_apply {u : Shape} (ptab : FVec Ideal S513x128 .f32) (v : u.Idx → EReal) (hu : 0 < u.numel) (e : Fin 513) (e' : Fin 640)
    (he : e'.val = e.val) (j : Fin 128) :
    pad S640x128 ![0, 0] ![127, 0] ![0, 0] ptab v pads_S513x128_S640x128_01270_000 hu (ix2 e' j) = ptab (ix2 e j) :=
  pad_apply_of_inside _ _ _ ptab v pads_S513x128_S640x128_01270_000 hu (ix2 e' j) (ix2 e j) (fun a => by
    match a with
    | ⟨0, _⟩ => show e'.val = 0 + e.val * (0 + 1); omega
    | ⟨1, _⟩ => show j.val = 0 + j.val * (0 + 1); omega)

-- Every entry of the array lies in the block of one point.
theorem rows_cover (c : Dev nD) (i : ((cfg0.win 6).arr.view.loc (c.tc : Thread nD τ)).2.ty.Idx) :
    ∃ t : Fin cfg0.N, (cfg0.win 6).flush t = true ∧ i ∈ ((cfg0.win 6).blk t).view.set := by
  have h0 : (i 0 : ℕ) < 100000 := (i 0).isLt
  have h1 : (i 1 : ℕ) < 128 := (i 1).isLt
  have hlt : (i 0 : ℕ) / 10000 < cfg0.N := lt_of_lt_of_eq (show (i 0 : ℕ) / 10000 < 10 by omega) N_0.symm
  refine ⟨⟨(i 0 : ℕ) / 10000, hlt⟩, flush0_6 _, ?_⟩
  show i ∈ ((View.whole main_v8).slice (win0_6.rect ⟨(i 0 : ℕ) / 10000, hlt⟩)).set
  rw [View.set_slice_whole, Rect.mem_set_unit]
  intro a
  obtain ⟨-, -, -, -, -, -, h60, h61⟩ := block_index ⟨(i 0 : ℕ) / 10000, hlt⟩
  match a with
  | ⟨0, _⟩ =>
    show win0_6.index _ (0 : Fin 2) * 10000 ≤ (i 0 : ℕ) ∧ (i 0 : ℕ) < win0_6.index _ (0 : Fin 2) * 10000 + 10000
    rw [h60]; show (i 0 : ℕ) / 10000 * 10000 ≤ (i 0 : ℕ) ∧ (i 0 : ℕ) < (i 0 : ℕ) / 10000 * 10000 + 10000
    omega
  | ⟨1, _⟩ =>
    show win0_6.index _ (1 : Fin 2) * 128 ≤ (i 1 : ℕ) ∧ (i 1 : ℕ) < win0_6.index _ (1 : Fin 2) * 128 + 128
    rw [h61]; omega

-- What the ten points leave in the output array is the reference's embedding stage.
theorem embed_array (c : Dev nD) (sid cid pid : IVec S100000 32) (stab : FVec Ideal S64x128 .f32) (ctab : FVec Ideal S32x128 .f32)
    (ptab : FVec Ideal S513x128 .f32) {u : Shape} (v : u.Idx → EReal) (hu : 0 < u.numel)
    (hv5 : V c main_v5 = (shapeCast S100000x1 sid shapeCasts_S100000_S100000x1 : S100000x1.Idx → BitVec 32))
    (hv6 : V c main_v6 = (shapeCast S100000x1 cid shapeCasts_S100000_S100000x1 : S100000x1.Idx → BitVec 32))
    (hv7 : V c main_v7 = (shapeCast S100000x1 pid shapeCasts_S100000_S100000x1 : S100000x1.Idx → BitVec 32))
    (ht3 : V c main_arg5 = stab) (ht4 : V c main_arg6 = ctab)
    (ht5 : V c main_v4 = pad S640x128 ![0, 0] ![127, 0] ![0, 0] ptab v pads_S513x128_S640x128_01270_000 hu)
    (hs : ∀ n : Fin 100000, 0 ≤ (sid (ix1 n)).toInt ∧ (sid (ix1 n)).toInt < 64)
    (hk : ∀ n : Fin 100000, 0 ≤ (cid (ix1 n)).toInt ∧ (cid (ix1 n)).toInt < 32)
    (hp : ∀ n : Fin 100000, 0 ≤ (pid (ix1 n)).toInt) :
    (Hand.dat0 V c).arrAt 6 cfg0.N = (Cert.Spec.embed (F := Ideal) sid cid pid stab ctab ptab : S100000x128.Idx → EReal) := by
  refine (Hand.dat0 V c).arrAt_eq_of_cover 6 _ (fun t _ => ?_) (rows_cover c)

  show (cfg0.win 6).cut (grid0.coords t) ((Hand.dat0 V c).after 6 t) = _
  rw [Hand.dat0_after_rows]
  show (Hand.embedRows0 (F := Ideal) (Hand.iblk0 V c 0 t) (Hand.iblk0 V c 1 t) (Hand.iblk0 V c 2 t) (Hand.iblk0 V c 3 t)
    (Hand.iblk0 V c 4 t) (Hand.iblk0 V c 5 t) : S10000x128.Idx → EReal) = _
  funext y
  obtain ⟨r, j, rfl⟩ : ∃ (r : Fin 10000) (j : Fin 128), y = ix2 r j := ⟨y 0, y 1, eq_ix2 y⟩
  have ht : t.val < 10 := lt_of_lt_of_eq t.isLt N_0

  let n : Fin 100000 := ⟨10000 * t.val + r.val, by have := r.isLt; omega⟩
  obtain ⟨hs0, hs1⟩ := hs n
  obtain ⟨hk0, hk1⟩ := hk n
  have hp0 := hp n
  let a : Fin 64 := ⟨(sid (ix1 n)).toInt.toNat, by omega⟩
  let b : Fin 32 := ⟨(cid (ix1 n)).toInt.toNat, by omega⟩
  let e : Fin 513 := ⟨(min (pid (ix1 n)).toInt 512).toNat, by omega⟩
  have ha : (sid (ix1 n)).toInt = a.val := by show _ = ((sid (ix1 n)).toInt.toNat : ℤ); omega
  have hb : (cid (ix1 n)).toInt = b.val := by show _ = ((cid (ix1 n)).toInt.toNat : ℤ); omega
  have he : min (pid (ix1 n)).toInt 512 = e.val := by show _ = ((min (pid (ix1 n)).toInt 512).toNat : ℤ); omega
  obtain ⟨i0, i1, i2⟩ := id_blocks V c t r n rfl
  obtain ⟨i3, i4, i5⟩ := table_blocks V c t a b (Fin.castLE (by decide) e) j
  refine (embed_rows (Hand.iblk0 V c 0 t) (Hand.iblk0 V c 1 t) (Hand.iblk0 V c 2 t) (Hand.iblk0 V c 3 t) (Hand.iblk0 V c 4 t)
    (Hand.iblk0 V c 5 t) r j a b (Fin.castLE (by decide) e) ?_ ?_ ?_).trans ?_
  · rw [i0, hv5, column_apply]; exact ha
  · rw [i1, hv6, column_apply]; exact hb
  · rw [i2, hv7, column_apply]; exact he
  · rw [i3, i4, i5, ht3, ht4, ht5, padded_apply ptab v hu e (Fin.castLE (by decide) e) rfl j]
    rw [View.read_apply]
    show _ = (Cert.Spec.embed (F := Ideal) sid cid pid stab ctab ptab : S100000x128.Idx → EReal) (((cfg0.win 6).blk t).view.emb (ix2 r j))
    obtain ⟨-, -, -, -, -, -, h60, h61⟩ := block_index t
    rw [show ((cfg0.win 6).blk t).view.emb (ix2 r j) = (ix2 n j : S100000x128.Idx) from Shape.idx_ext₂
      (show win0_6.index t (0 : Fin 2) * 10000 + 1 * r.val = 10000 * t.val + r.val by rw [h60]; omega)
      (show win0_6.index t (1 : Fin 2) * 128 + 1 * j.val = j.val by rw [h61]; omega)]
    exact (spec_embed_entry sid cid pid stab ctab ptab n j a b e ha hb he).symm

section Entry

open Idealize.ShloMosaic.StableHlo

variable {F : FTy → Type} [FloatOps F] (m : (ℓ : Loc nD τ sig) → Buf (Elt F) ℓ)

-- The arrays the region starts from: the ids as columns, the two tables, the position table padded to 640 rows.
theorem entry0 (c : Dev nD) :
    (V3 m c main_v5 : S100000x1.Idx → BitVec 32)
        = shapeCast S100000x1 (m ((c : Thread nD τ).loc main_arg0) : S100000.Idx → BitVec 32) shapeCasts_S100000_S100000x1
    ∧ (V3 m c main_v6 : S100000x1.Idx → BitVec 32)
        = shapeCast S100000x1 (m ((c : Thread nD τ).loc main_arg1) : S100000.Idx → BitVec 32) shapeCasts_S100000_S100000x1
    ∧ (V3 m c main_v7 : S100000x1.Idx → BitVec 32)
        = shapeCast S100000x1 (m ((c : Thread nD τ).loc main_arg2) : S100000.Idx → BitVec 32) shapeCasts_S100000_S100000x1
    ∧ (V3 m c main_arg5 : S64x128.Idx → Elt F .f32) = m ((c : Thread nD τ).loc main_arg5)
    ∧ (V3 m c main_arg6 : S32x128.Idx → Elt F .f32) = m ((c : Thread nD τ).loc main_arg6)
    ∧ (V3 m c main_v4 : S640x128.Idx → Elt F .f32)
        = pad S640x128 ![0, 0] ![127, 0] ![0, 0] (m ((c : Thread nD τ).loc main_arg7) : S513x128.Idx → Elt F .f32)
            (V2 m c main_call0_v0 : S_.Idx → Elt F .f32) pads_S513x128_S640x128_01270_000 h_S_ := by
  refine ⟨?_, ?_, ?_, ?_, ?_, ?_⟩
  · show StableHlo.after hostOps0_2 (V2 m c) (Proc.devRef .tc main_v5) = _
    after_results
    rfl
  · show StableHlo.after hostOps0_2 (V2 m c) (Proc.devRef .tc main_v6) = _
    after_results
    rfl
  · show StableHlo.after hostOps0_2 (V2 m c) (Proc.devRef .tc main_v7) = _
    after_results
    rfl
  · exact (V3_of m c main_arg5 (by decide)).trans ((V2_of m c main_arg5 (by decide)).trans (V1_of m c main_arg5 (by decide)))
  · exact (V3_of m c main_arg6 (by decide)).trans ((V2_of m c main_arg6 (by decide)).trans (V1_of m c main_arg6 (by decide)))
  · rw [V3_of m c main_v4 (by decide)]
    show StableHlo.after hostOps0_1 (V1 m c) (Proc.devRef .tc main_v4) = _
    after_results
    rfl

end Entry

instance scalarIdx_subsingleton : Subsingleton (⟨0, ![]⟩ : Shape).Idx := ⟨fun a b => funext fun d => d.elim0⟩

end Cert.KernelIdeal.Value

end
-- ==== Proof.Value.Bn.lean ====
import proofs.«424731_j88648124990764_2_alg».proof.Proof.KernelIdeal.Region2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Value.R2
open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

theorem zeroOffsets2 : (![0, 0] : Fin 2 → Nat) = fun _ => 0 := funext fun a => by fin_cases a <;> rfl

-- Entry (r, j) of the output block is max(y[r, j] · scale[0, j] + shift[0, j], 0): narrowing to bf16 is the identity on the extended reals.
theorem bn_rows (x0 : Vec Ideal S10000x128 .f32) (x1 x2 : Vec Ideal S1x128 .f32) (r : Fin 10000) (j : Fin 128) :
    Hand.out2_3 (F := Ideal) x0 x1 x2 (ix2 r j)
      = max (x0 (ix2 r j) * x1 (ix2 (0 : Fin 1) j) + x2 (ix2 (0 : Fin 1) j)) (Ideal.ofBits .f32 0x00000000#32) := by
  unfold Hand.out2_3 k2_pay1
  rw [View.canon_unit_zero zeroOffsets2]
  simp only [View.ld_unit_zero (S := S10000x128) zeroOffsets2, View.ld_unit_zero (S := S1x128) zeroOffsets2, shapeCast_self]
  rw [truncf_apply, maximumf_apply, addf_apply, mulf_apply, broadcastTo_1b_ab_apply, broadcastTo_1b_ab_apply]
  rfl

-- The clamped affine image of the whole array, the scale and shift rows read at the entry's column.
abbrev affineClamp (y : S100000x128.Idx → Ideal .f32) (sc sh : S1x128.Idx → Ideal .f32) : S100000x128.Idx → Ideal .bf16 :=
  fun i => max (y i * sc (ix2 (0 : Fin 1) (⟨(i 1).val, idx2_lt1 i⟩ : Fin 128)) + sh (ix2 (0 : Fin 1) (⟨(i 1).val, idx2_lt1 i⟩ : Fin 128)))
    (Ideal.ofBits .f32 0x00000000#32)

variable (V : (c : Dev nD) → (b : Ref sig .tc) → Buf (Elt Ideal) ((c : Thread nD τ).loc b))

-- Point t reads row block t of y and writes row block t of the output; the scale and shift rows are block (0, 0) throughout.
theorem blockIndex2 : ∀ t : Fin cfg2.N,
    win2_0.index t (0 : Fin 2) = t.val ∧ win2_0.index t (1 : Fin 2) = 0 ∧ win2_1.index t (0 : Fin 2) = 0 ∧ win2_1.index t (1 : Fin 2) = 0
    ∧ win2_2.index t (0 : Fin 2) = 0 ∧ win2_2.index t (1 : Fin 2) = 0 ∧ win2_3.index t (0 : Fin 2) = t.val ∧ win2_3.index t (1 : Fin 2) = 0 :=
  (by decide +kernel : ∀ t : Fin grid2.N, _)

-- What point t writes back is block t of the clamped affine image of the three arrays.
theorem flushed_eq2 (c : Dev nD) (t : Fin cfg2.N) :
    (dat2 V c).flushed 3 t = ((cfg2.win 3).blk t).view.read (Elt Ideal)
      (affineClamp (V c (Pipeline.arrRef spec2 0)) (V c (Pipeline.arrRef spec2 1)) (V c (Pipeline.arrRef spec2 2))) := by
  show (cfg2.win 3).cut (grid2.coords t) ((dat2 V c).after 3 t) = _
  rw [dat2_after_out]
  funext y
  obtain ⟨r, j, rfl⟩ : ∃ (r : Fin 10000) (j : Fin 128), y = ix2 r j := ⟨y 0, y 1, eq_ix2 y⟩
  obtain ⟨e00, e01, e10, e11, e20, e21, e30, e31⟩ := blockIndex2 t
  refine (bn_rows (iblk2 V c 0 t) (iblk2 V c 1 t) (iblk2 V c 2 t) r j).trans (congrArg₂ max (congrArg₂ (· + ·) (congrArg₂ (· * ·)
    (congrArg (V c (Pipeline.arrRef spec2 0)) (Shape.idx_ext₂ ?_ ?_)) (congrArg (V c (Pipeline.arrRef spec2 1)) (Shape.idx_ext₂ ?_ ?_)))
    (congrArg (V c (Pipeline.arrRef spec2 2)) (Shape.idx_ext₂ ?_ ?_))) rfl)
  · show win2_0.index t (0 : Fin 2) * 10000 + 1 * r.val = win2_3.index t (0 : Fin 2) * 10000 + 1 * r.val; omega
  · show win2_0.index t (1 : Fin 2) * 128 + 1 * j.val = win2_3.index t (1 : Fin 2) * 128 + 1 * j.val; omega
  · show win2_1.index t (0 : Fin 2) * 1 + 1 * 0 = 0; omega
  · show win2_1.index t (1 : Fin 2) * 128 + 1 * j.val = win2_3.index t (1 : Fin 2) * 128 + 1 * j.val; omega
  · show win2_2.index t (0 : Fin 2) * 1 + 1 * 0 = 0; omega
  · show win2_2.index t (1 : Fin 2) * 128 + 1 * j.val = win2_3.index t (1 : Fin 2) * 128 + 1 * j.val; omega

-- The ten row blocks tile the array, so after the region the output is that image entry by entry.
theorem bn_array (c : Dev nD) (y : FVec Ideal S100000x128 .f32) (sc sh : FVec Ideal S1x128 .f32)
    (h0 : V c (Pipeline.arrRef spec2 0) = y) (h1 : V c (Pipeline.arrRef spec2 1) = sc) (h2 : V c (Pipeline.arrRef spec2 2) = sh)
    (n : Fin 100000) (j : Fin 128) :
    (dat2 V c).arrAt 3 cfg2.N (ix2 n j)
      = max (y (ix2 n j) * sc (ix2 (0 : Fin 1) j) + sh (ix2 (0 : Fin 1) j)) (Ideal.ofBits .f32 0x00000000#32) := by
  subst h0 h1 h2
  refine congrFun ((dat2 V c).arrAt_eq_of_cover 3 _ (fun t _ => flushed_eq2 V c t) fun i => ?_) (ix2 n j)
  have hi0 : (i 0).val < 100000 := (i 0).isLt
  have hi1 : (i 1).val < 128 := (i 1).isLt
  have hlt : (i 0).val / 10000 < grid2.N := by rw [N_2]; omega
  obtain ⟨-, -, -, -, -, -, e30, e31⟩ := blockIndex2 ⟨(i 0).val / 10000, hlt⟩
  dsimp only at e30
  refine ⟨⟨(i 0).val / 10000, hlt⟩, flush2_3 _, ?_⟩
  show i ∈ ((View.whole (Pipeline.arrRef spec2 3)).slice (win2_3.rect ⟨(i 0).val / 10000, hlt⟩)).set
  rw [View.set_slice_whole, Rect.mem_set_unit]
  intro a
  match a with
  | ⟨0, _⟩ =>
    show win2_3.index ⟨(i 0).val / 10000, hlt⟩ (0 : Fin 2) * 10000 ≤ (i 0).val ∧ (i 0).val < win2_3.index ⟨(i 0).val / 10000, hlt⟩ (0 : Fin 2) * 10000 + 10000
    omega
  | ⟨1, _⟩ =>
    show win2_3.index ⟨(i 0).val / 10000, hlt⟩ (1 : Fin 2) * 128 ≤ (i 1).val ∧ (i 1).val < win2_3.index ⟨(i 0).val / 10000, hlt⟩ (1 : Fin 2) * 128 + 128
    omega

end Cert.KernelIdeal.Value.R2
end
-- ==== Proof.Value.Bn4.lean ====
import proofs.«424731_j88648124990764_2_alg».proof.Proof.KernelIdeal.Region4
import proofs.«424731_j88648124990764_2_alg».proof.Proof.Value.Bn

set_option maxRecDepth 16384

noncomputable section

namespace Cert.KernelIdeal.Value.R4
open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.KernelIdeal.Value.R2 (bn_rows affineClamp)

variable (V : (c : Dev nD) → (b : Ref sig .tc) → Buf (Elt Ideal) ((c : Thread nD τ).loc b))

-- Point t reads row block t of y and writes row block t of the output; the scale and shift rows are block (0, 0) throughout.
theorem blockIndex4 : ∀ t : Fin cfg4.N,
    win4_0.index t (0 : Fin 2) = t.val ∧ win4_0.index t (1 : Fin 2) = 0 ∧ win4_1.index t (0 : Fin 2) = 0 ∧ win4_1.index t (1 : Fin 2) = 0
    ∧ win4_2.index t (0 : Fin 2) = 0 ∧ win4_2.index t (1 : Fin 2) = 0 ∧ win4_3.index t (0 : Fin 2) = t.val ∧ win4_3.index t (1 : Fin 2) = 0 :=
  (by decide +kernel : ∀ t : Fin grid4.N, _)

-- What point t writes back is block t of the clamped affine image of the three arrays.
theorem flushed_eq4 (c : Dev nD) (t : Fin cfg4.N) :
    (dat4 V c).flushed 3 t = ((cfg4.win 3).blk t).view.read (Elt Ideal)
      (affineClamp (V c (Pipeline.arrRef spec4 0)) (V c (Pipeline.arrRef spec4 1)) (V c (Pipeline.arrRef spec4 2))) := by
  show (cfg4.win 3).cut (grid4.coords t) ((dat4 V c).after 3 t) = _
  rw [dat4_after_out]
  funext y
  obtain ⟨r, j, rfl⟩ : ∃ (r : Fin 10000) (j : Fin 128), y = ix2 r j := ⟨y 0, y 1, eq_ix2 y⟩
  obtain ⟨e00, e01, e10, e11, e20, e21, e30, e31⟩ := blockIndex4 t
  refine (bn_rows (iblk4 V c 0 t) (iblk4 V c 1 t) (iblk4 V c 2 t) r j).trans (congrArg₂ max (congrArg₂ (· + ·) (congrArg₂ (· * ·)
    (congrArg (V c (Pipeline.arrRef spec4 0)) (Shape.idx_ext₂ ?_ ?_)) (congrArg (V c (Pipeline.arrRef spec4 1)) (Shape.idx_ext₂ ?_ ?_)))
    (congrArg (V c (Pipeline.arrRef spec4 2)) (Shape.idx_ext₂ ?_ ?_))) rfl)
  · show win4_0.index t (0 : Fin 2) * 10000 + 1 * r.val = win4_3.index t (0 : Fin 2) * 10000 + 1 * r.val; omega
  · show win4_0.index t (1 : Fin 2) * 128 + 1 * j.val = win4_3.index t (1 : Fin 2) * 128 + 1 * j.val; omega
  · show win4_1.index t (0 : Fin 2) * 1 + 1 * 0 = 0; omega
  · show win4_1.index t (1 : Fin 2) * 128 + 1 * j.val = win4_3.index t (1 : Fin 2) * 128 + 1 * j.val; omega
  · show win4_2.index t (0 : Fin 2) * 1 + 1 * 0 = 0; omega
  · show win4_2.index t (1 : Fin 2) * 128 + 1 * j.val = win4_3.index t (1 : Fin 2) * 128 + 1 * j.val; omega

-- The ten row blocks tile the array, so after the region the output is that image entry by entry.
theorem bn_array (c : Dev nD) (y : FVec Ideal S100000x128 .f32) (sc sh : FVec Ideal S1x128 .f32)
    (h0 : V c (Pipeline.arrRef spec4 0) = y) (h1 : V c (Pipeline.arrRef spec4 1) = sc) (h2 : V c (Pipeline.arrRef spec4 2) = sh)
    (n : Fin 100000) (j : Fin 128) :
    (dat4 V c).arrAt 3 cfg4.N (ix2 n j)
      = max (y (ix2 n j) * sc (ix2 (0 : Fin 1) j) + sh (ix2 (0 : Fin 1) j)) (Ideal.ofBits .f32 0x00000000#32) := by
  subst h0 h1 h2
  refine congrFun ((dat4 V c).arrAt_eq_of_cover 3 _ (fun t _ => flushed_eq4 V c t) fun i => ?_) (ix2 n j)
  have hi0 : (i 0).val < 100000 := (i 0).isLt
  have hi1 : (i 1).val < 128 := (i 1).isLt
  have hlt : (i 0).val / 10000 < grid4.N := by rw [N_4]; omega
  obtain ⟨-, -, -, -, -, -, e30, e31⟩ := blockIndex4 ⟨(i 0).val / 10000, hlt⟩
  dsimp only at e30
  refine ⟨⟨(i 0).val / 10000, hlt⟩, flush4_3 _, ?_⟩
  show i ∈ ((View.whole (Pipeline.arrRef spec4 3)).slice (win4_3.rect ⟨(i 0).val / 10000, hlt⟩)).set
  rw [View.set_slice_whole, Rect.mem_set_unit]
  intro a
  match a with
  | ⟨0, _⟩ =>
    show win4_3.index ⟨(i 0).val / 10000, hlt⟩ (0 : Fin 2) * 10000 ≤ (i 0).val ∧ (i 0).val < win4_3.index ⟨(i 0).val / 10000, hlt⟩ (0 : Fin 2) * 10000 + 10000
    omega
  | ⟨1, _⟩ =>
    show win4_3.index ⟨(i 0).val / 10000, hlt⟩ (1 : Fin 2) * 128 ≤ (i 1).val ∧ (i 1).val < win4_3.index ⟨(i 0).val / 10000, hlt⟩ (1 : Fin 2) * 128 + 128
    omega

end Cert.KernelIdeal.Value.R4
end
-- ==== Proof.Value.Pool.lean ====
import proofs.«424731_j88648124990764_2_alg».proof.Proof.Gen.KernelIdeal.Skeleton
import proofs.«424731_j88648124990764_2_alg».proof.Proof.Gen.KernelIdeal.Regions
import proofs.«424731_j88648124990764_2_alg».proof.Proof.KernelIdeal.Region5
import proofs.«424731_j88648124990764_2_alg».proof.Proof.Spec.Stages
import Idealize.ShloMosaic.PureOps.Ideal.Laws
import Idealize.ShloMosaic.Lib.ValueIdx
import Idealize.ShloMosaic.Lib.Pipeline.Value
import Idealize.ShloMosaic.Lib.ValueLayout
import Idealize.ShloMosaic.Lib.FinSumWindow
import Idealize.ShloMosaic.Lib.IdealHost
import Idealize.ShloMosaic.Lib.KernelVsHost
import Idealize.ShloMosaic.Lib.StableHlo.Run
import Idealize.ShloMosaic.Lib.StableHlo.Predicate

set_option maxRecDepth 16384

noncomputable section

namespace Cert.KernelIdeal.Value

open Cert.KernelIdeal Cert.KernelIdeal.Gen Cert.KernelIdeal.Hand
open Idealize.ShloMosaic Idealize.ShloMosaic.ValueIdx Idealize.ShloMosaic.TcCoe
open scoped BigOperators

-- A one-bit word, widened and converted, is the number 1 or 0.
theorem indicator_word (b : BitVec 1) :
    (FloatOps.sitofp (F := Ideal) .f32 (b.setWidth 32) : EReal) = if b = 1#1 then 1 else 0 := by
  show (((b.setWidth 32).toInt : ℝ) : EReal) = _
  rw [toInt_setWidth_bit]
  rcases BitVec.eq_zero_or_eq_one b with rfl | rfl <;> simp

theorem hz2 : (![0, 0] : Fin 2 → ℕ) = fun _ => 0 := by funext a; fin_cases a <;> rfl

abbrev poolRows : dot_S10000x512_S10000x128_S512x128_0_0_1_1_n_n.contr.Idx ≃ Fin 10000 :=
  contrEquiv1 dot_S10000x512_S10000x128_S512x128_0_0_1_1_n_n 10000 rfl rfl

theorem lhsIdx_pool (g : Fin 512) (h : Fin 128) (r : Fin 10000) :
    dot_S10000x512_S10000x128_S512x128_0_0_1_1_n_n.lhsIdx (ix2 g h) (poolRows.symm r) = ix2 r g :=
  Shape.idx_ext₂ ((dot_S10000x512_S10000x128_S512x128_0_0_1_1_n_n.lhsIdx_val_of_single rfl _ _).trans (contrEquiv1_symm_val _ _ _ _ r))
    (by simp [DotDims.lhsIdx, dot_S10000x512_S10000x128_S512x128_0_0_1_1_n_n]; rfl)

theorem rhsIdx_pool (g : Fin 512) (h : Fin 128) (r : Fin 10000) :
    dot_S10000x512_S10000x128_S512x128_0_0_1_1_n_n.rhsIdx (ix2 g h) (poolRows.symm r) = ix2 r h :=
  Shape.idx_ext₂ ((dot_S10000x512_S10000x128_S512x128_0_0_1_1_n_n.rhsIdx_val_of_single rfl _ _).trans (contrEquiv1_symm_val _ _ _ _ r))
    (by simp [DotDims.rhsIdx, dot_S10000x512_S10000x128_S512x128_0_0_1_1_n_n]; rfl)

-- A word is the word of a number below 512 exactly when it reads, signed, as that number.
theorem word_eq_ofNat_iff (w : BitVec 32) (g : ℕ) (hg : g < 512) : w = BitVec.ofNat 32 g ↔ w.toInt = (g : ℤ) := by
  rw [← BitVec.toNat_inj, BitVec.toNat_ofNat, Nat.mod_eq_of_lt (by omega : g < 2 ^ 32), BitVec.toInt_eq_toNat_cond]
  have := w.isLt
  split <;> omega

-- The one-hot operand at (r, g): 1 where row r's id is g, else 0.
theorem onehot_apply (ids : IVec S10000x1 32) (r : Fin 10000) (g : Fin 512) :
    (truncf .bf16 (sitofp (F := Ideal) .f32
        (extui 32 (cmpi .eq (broadcastTo S10000x512 (shapeCast S10000x1 ids shapeCasts_S10000x1_S10000x1) broadcasts_S10000x1_S10000x512)
          (iota .tc S10000x512 32 [1] iota_S10000x512_d1_w32)) natLt_1_32)) bitsLt_bf16_f32) (ix2 r g)
      = if (ids (ix2 r (0 : Fin 1))).toInt = (g.val : ℤ) then (1 : EReal) else 0 := by
  show FloatOps.sitofp (F := Ideal) .f32 ((IntOp.cmpi .eq
      (broadcastTo S10000x512 (shapeCast S10000x1 ids shapeCasts_S10000x1_S10000x1) broadcasts_S10000x1_S10000x512 (ix2 r g))
      (iota .tc S10000x512 32 [1] iota_S10000x512_d1_w32 (ix2 r g))).setWidth 32) = _
  rw [indicator_word, iota_single_apply, shapeCast_self,
    broadcastTo_apply ids broadcasts_S10000x1_S10000x512 (ix2 r g) (ix2 r (0 : Fin 1))
      (fun a => match a with | ⟨0, _⟩ => rfl | ⟨1, _⟩ => rfl)]
  exact if_congr (StableHlo.Predicate.cmpi_eq_iff.trans (word_eq_ofNat_iff _ _ g.isLt)) rfl rfl

-- One point adds to entry (g, h) the feature h of the block's rows whose id is g.
theorem pool_step (x1 : Vec Ideal S10000x1 .i32) (x0 : Vec Ideal S10000x128 .bf16) (s : Vec Ideal S512x128 .f32)
    (g : Fin 512) (h : Fin 128) :
    acc5 (F := Ideal) x1 x0 s (ix2 g h)
      = s (ix2 g h) + ∑ r : Fin 10000, if (x1 (ix2 r (0 : Fin 1))).toInt = (g.val : ℤ) then x0 (ix2 r h) else 0 := by
  unfold acc5
  rw [View.canon_unit_zero hz2]
  simp only [View.ld_unit_zero (S := S10000x1) hz2, View.ld_unit_zero (S := S10000x128) hz2, View.ld_unit_zero (S := S512x128) hz2]
  unfold k5_pay2
  rw [shapeCast_self]
  refine congrArg (s (ix2 g h) + ·) ?_
  refine (Ideal.matmul_constant_zero_apply dot_S10000x512_S10000x128_S512x128_0_0_1_1_n_n none _ _ (ix2 g h)).trans ?_
  rw [← Equiv.sum_comp poolRows.symm]
  refine Finset.sum_congr rfl fun r _ => ?_
  rw [lhsIdx_pool, rhsIdx_pool, onehot_apply, shapeCast_self, ite_mul, one_mul, zero_mul]

variable (V : (c : Dev nD) → (b : Ref sig .tc) → Buf (Elt Ideal) ((c : Thread nD τ).loc b))

-- Where each input block sits at point t.
theorem idx5 : ∀ t : Fin grid5.N, (win5_0.index t 0 = t.val ∧ win5_0.index t 1 = 0) ∧ (win5_1.index t 0 = t.val ∧ win5_1.index t 1 = 0)
    ∧ (win5_2.index t 0 = 0 ∧ win5_2.index t 1 = 0) ∧ win5_3.index t 0 = 0 ∧ win5_3.index t 1 = 0 := by decide +kernel

theorem xblk_apply (c : Dev nD) (x : FVec Ideal S100000x128 .f32) (h0 : V c (Pipeline.arrRef spec5 0) = x)
    (t : Fin cfg5.N) (r : Fin 10000) (h : Fin 128) (R : Fin 100000) (hR : R.val = 10000 * t.val + r.val) :
    (iblk5 V c 0 t : Vec Ideal S10000x128 .bf16) (ix2 r h) = x (ix2 R h) := by
  obtain ⟨⟨i0, i1⟩, -⟩ := idx5 t
  unfold iblk5
  rw [View.read_apply, h0]
  exact congrArg x (Shape.idx_ext₂ (show win5_0.index t 0 * 10000 + 1 * r.val = R.val by rw [i0, hR]; omega)
    (show win5_0.index t 1 * 128 + 1 * h.val = h.val by rw [i1]; omega))

theorem idblk_apply (c : Dev nD) (bcol : IVec S100000x1 32) (h1 : V c (Pipeline.arrRef spec5 1) = bcol)
    (t : Fin cfg5.N) (r : Fin 10000) (R : Fin 100000) (hR : R.val = 10000 * t.val + r.val) :
    (iblk5 V c 1 t : Vec Ideal S10000x1 .i32) (ix2 r (0 : Fin 1)) = bcol (ix2 R (0 : Fin 1)) := by
  obtain ⟨-, ⟨i0, i1⟩, -⟩ := idx5 t
  unfold iblk5
  rw [View.read_apply, h1]
  exact congrArg bcol (Shape.idx_ext₂ (show win5_1.index t 0 * 10000 + 1 * r.val = R.val by rw [i0, hR]; omega)
    (show win5_1.index t 1 * 1 + 1 * 0 = 0 by rw [i1]))

-- The block the first point starts from is zero.
theorem zero5_apply (i : S512x128.Idx) : zero5 (F := Ideal) i = 0 := by
  unfold zero5
  rw [View.canon_unit_zero hz2]
  unfold k5_pay1
  rw [shapeCast_self]
  exact Ideal.ofBits_zero_f32

-- A quantity that gains one window of 10000 terms per step is, after ten steps, the whole sum.
theorem sum5_windows (f : Fin 100000 → EReal) (P : ℕ → EReal) (h0 : P 0 = 0)
    (hs : ∀ n (hn : n < 10), P (n + 1) = P n + ∑ r : Fin 10000, f ⟨10000 * n + r.val, by omega⟩) :
    P 10 = ∑ R, f R := by
  have key : ∀ n, n ≤ 10 → P n = ∑ R : Fin 100000, if R.val < 10000 * n then f R else 0 := by
    intro n
    induction n with
    | zero => intro _; rw [h0]; exact (Finset.sum_eq_zero fun R _ => if_neg (by omega)).symm
    | succ n ih =>
      intro hn
      have hw : ∑ r : Fin 10000, f ⟨10000 * n + r.val, by omega⟩
          = ∑ R : Fin 100000, if 10000 * n ≤ R.val ∧ R.val < 10000 * n + 10000 then f R else 0 := by
        rw [FinSumWindow.sum_window (10000 * n) (by omega) _ (fun P hP => if_neg hP)]
        exact Finset.sum_congr rfl fun r _ => (if_pos (show 10000 * n ≤ 10000 * n + r.val ∧ 10000 * n + r.val < 10000 * n + 10000 from
          ⟨Nat.le_add_right _ _, by omega⟩)).symm
      rw [hs n (by omega), ih (by omega), hw, ← Finset.sum_add_distrib]
      refine Finset.sum_congr rfl fun R _ => Eq.symm ?_
      by_cases c1 : R.val < 10000 * n
      · rw [if_pos c1, if_pos (by omega), if_neg (by omega), add_zero]
      · by_cases c2 : R.val < 10000 * (n + 1)
        · rw [if_neg c1, if_pos c2, if_pos (by omega), zero_add]
        · rw [if_neg c1, if_neg c2, if_neg (by omega), add_zero]
  rw [key 10 (Nat.le_refl _)]
  exact Finset.sum_congr rfl fun R _ => if_pos R.isLt

abbrev poolScatter := Cert.ReferenceIdeal.scatter_S512x128_S100000x1_S100000x128_1_0_0_1

theorem pool5_coords {w : Nat} (R : Fin 100000) (h' : Fin 128) (idx : IVec S100000x1 w) :
    poolScatter.start (ix2 R h') idx 0 = (idx (ix2 R (0 : Fin 1))).toInt ∧ poolScatter.start (ix2 R h') idx 1 = 0
      ∧ poolScatter.window (ix2 R h') 0 = 0 ∧ poolScatter.window (ix2 R h') 1 = h'.val := by
  refine ⟨?_, ?_, ?_, ?_⟩
  · unfold ScatterDims.start
    rw [dif_pos (show (0 : Fin 2) ∈ poolScatter.scatterDimsToOperandDims from List.mem_singleton.mpr rfl)]
    exact congrArg (fun i => (idx i).toInt) (Shape.idx_ext₂ rfl rfl)
  · simp [ScatterDims.start, poolScatter, Cert.ReferenceIdeal.scatter_S512x128_S100000x1_S100000x128_1_0_0_1]
  · simp [ScatterDims.window, poolScatter, Cert.ReferenceIdeal.scatter_S512x128_S100000x1_S100000x128_1_0_0_1, Shape.kept]
  · simp [ScatterDims.window, poolScatter, Cert.ReferenceIdeal.scatter_S512x128_S100000x1_S100000x128_1_0_0_1, Shape.kept]
    rfl

-- An update lands on index i exactly when start plus window coordinate is i on every axis.
theorem resultIdx5_iff {s si su : Shape} (d : ScatterDims s si su) {w : Nat} (j : su.Idx) (idx : IVec si w) (i : s.Idx) :
    d.resultIdx? j idx = some i ↔ ∀ a, d.start j idx a + (d.window j a : ℤ) = ((i a).val : ℤ) := by
  unfold ScatterDims.resultIdx?
  split
  · rename_i h
    rw [Option.some.injEq]
    constructor
    · intro e a
      subst e
      have := (h a).1
      show _ = (((d.start j idx a + (d.window j a : ℤ)).toNat : ℕ) : ℤ)
      omega
    · intro e
      funext a
      apply Fin.ext
      show (d.start j idx a + (d.window j a : ℤ)).toNat = (i a).val
      rw [e a]
      exact Int.toNat_natCast _
  · rename_i h
    exact ⟨fun e => absurd e (by simp), fun e => absurd (fun a => by rw [e a]; have := (i a).isLt; omega) h⟩

-- Update (R, h') lands on (g, h) exactly when row R's id, read signed, is g and h' = h.
theorem pool_resultIdx (bcol : IVec S100000x1 32) (R : Fin 100000) (h' : Fin 128) (g : Fin 512) (h : Fin 128) :
    poolScatter.resultIdx? (ix2 R h') bcol = some (ix2 g h) ↔ (bcol (ix2 R (0 : Fin 1))).toInt = (g.val : ℤ) ∧ h' = h := by
  obtain ⟨s0, s1, w0, w1⟩ := pool5_coords R h' bcol
  rw [resultIdx5_iff]
  constructor
  · intro e
    have e0 : _ = (g.val : ℤ) := e 0
    have e1 : _ = (h.val : ℤ) := e 1
    rw [s0, w0] at e0
    rw [s1, w1] at e1
    exact ⟨by omega, Fin.ext (by omega)⟩
  · rintro ⟨eg, rfl⟩ a
    match a with
    | ⟨0, _⟩ =>
      show poolScatter.start (ix2 R h') bcol 0 + (poolScatter.window (ix2 R h') 0 : ℤ) = (g.val : ℤ)
      rw [s0, w0]; omega
    | ⟨1, _⟩ =>
      show poolScatter.start (ix2 R h') bcol 1 + (poolScatter.window (ix2 R h') 1 : ℤ) = (h'.val : ℤ)
      rw [s1, w1]; omega

-- The scatter-add at (g, h): what was there plus the feature h of the rows whose id is g.
theorem scatter_rows_apply (z : FVec Ideal S512x128 .f32) (bcol : IVec S100000x1 32) (x : FVec Ideal S100000x128 .f32)
    (g : Fin 512) (h : Fin 128) :
    Host.scatterAdd (F := Ideal) poolScatter z bcol x (ix2 g h)
      = z (ix2 g h) + ∑ R : Fin 100000, if (bcol (ix2 R (0 : Fin 1))).toInt = (g.val : ℤ) then x (ix2 R h) else 0 := by
  show Ideal.hostScatterAdd poolScatter z bcol x (ix2 g h) = _
  unfold Ideal.hostScatterAdd
  refine congrArg (z (ix2 g h) + ·) ?_
  rw [Finset.sum_filter, sum_idx2]
  refine Finset.sum_congr rfl fun R _ => ?_
  simp only [pool_resultIdx]
  by_cases hg : (bcol (ix2 R (0 : Fin 1))).toInt = (g.val : ℤ)
  · simp only [hg, true_and, if_true]
    rw [Finset.sum_ite_eq' Finset.univ h (fun h' => x (ix2 R h')), if_pos (Finset.mem_univ h)]
  · simp only [hg, false_and, if_false]
    exact Finset.sum_const_zero

-- After the ten points the sums are the reference's scatter-add of the rows at their ids.
theorem pooled_total (c : Dev nD) (x : FVec Ideal S100000x128 .f32) (bcol : IVec S100000x1 32)
    (h0 : V c (Pipeline.arrRef spec5 0) = x) (h1 : V c (Pipeline.arrRef spec5 1) = bcol) :
    pooledAt5 V c 10
      = Host.scatterAdd (F := Ideal) poolScatter
          (broadcastInDim S512x128 ![] Cert.ReferenceIdeal.Gen.bcast_S_S512x128 (constant (F := Ideal) Cert.ReferenceIdeal.S_ .f32 0x00000000#32))
          bcol x := by
  funext i
  obtain ⟨g, h, rfl⟩ : ∃ (g : Fin 512) (h : Fin 128), i = ix2 g h := ⟨i 0, i 1, eq_ix2 i⟩
  rw [scatter_rows_apply, show broadcastInDim S512x128 ![] Cert.ReferenceIdeal.Gen.bcast_S_S512x128
      (constant (F := Ideal) Cert.ReferenceIdeal.S_ .f32 0x00000000#32) (ix2 g h) = 0 from Ideal.ofBits_zero_f32, zero_add]
  refine sum5_windows _ (fun n => pooledAt5 V c n (ix2 g h)) (by rw [pooledAt5_zero, zero5_apply]) fun n hn => ?_
  have hlt : n < cfg5.N := Nat.lt_of_lt_of_eq hn N_5.symm
  beta_reduce
  rw [show pooledAt5 V c (n + 1) = _ from pooledAt5_succ V c ⟨n, hlt⟩, pool_step]
  refine congrArg (_ + ·) (Finset.sum_congr rfl fun r _ => ?_)
  have := r.isLt
  rw [xblk_apply V c x h0 ⟨n, hlt⟩ r h ⟨10000 * n + r.val, by omega⟩ rfl,
    idblk_apply V c bcol h1 ⟨n, hlt⟩ r ⟨10000 * n + r.val, by omega⟩ rfl]

-- A plain matrix product's contraction, re-indexed by the shared coordinate.
theorem plain5_sum {n K C : ℕ} (f : (⟨2, ![n, K]⟩ : Shape).Idx → EReal) (g : (⟨2, ![K, C]⟩ : Shape).Idx → EReal) (r : Fin n) (c : Fin C) :
    ∑ k : (DotDims.plain n K C).contr.Idx, f ((DotDims.plain n K C).lhsIdx (ix2 r c) k) * g ((DotDims.plain n K C).rhsIdx (ix2 r c) k)
      = ∑ q : Fin K, f (ix2 r q) * g (ix2 q c) := by
  rw [← Equiv.sum_comp (contrEquiv1 (DotDims.plain n K C) K rfl rfl).symm]
  exact Finset.sum_congr rfl fun q _ => congrArg₂ (f · * g ·)
    (Shape.idx_ext₂ rfl (contrEquiv1_symm_val (DotDims.plain n K C) K rfl rfl q))
    (Shape.idx_ext₂ (contrEquiv1_symm_val (DotDims.plain n K C) K rfl rfl q) rfl)

-- The stored block at (g, j): row g of the sums against column j of the matrix, plus entry j of the row.
theorem out5_4_apply (s : Vec Ideal S512x128 .f32) (W : Vec Ideal S128x128 .f32) (B : Vec Ideal S1x128 .f32)
    (g : Fin 512) (j : Fin 128) :
    out5_4 (F := Ideal) s W B (ix2 g j) = (∑ k : Fin 128, s (ix2 g k) * W (ix2 k j)) + B (ix2 (0 : Fin 1) j) := by
  unfold out5_4
  rw [View.canon_unit_zero hz2]
  simp only [View.ld_unit_zero (S := S512x128) hz2, View.ld_unit_zero (S := S128x128) hz2, View.ld_unit_zero (S := S1x128) hz2]
  unfold k5_pay3
  rw [addf_apply, broadcastTo_1b_ab_apply, shapeCast_self, shapeCast_self]
  refine congrArg (· + B (ix2 (0 : Fin 1) j)) ?_
  exact (Ideal.matmul_constant_zero_apply dot_S512x128_S128x128_S512x128_1_0_0_1_n_n none _ _ (ix2 g j)).trans (plain5_sum s W g j)

theorem wblk_eq (c : Dev nD) (W : FVec Ideal S128x128 .f32) (h2 : V c (Pipeline.arrRef spec5 2) = W) (t : Fin cfg5.N) :
    (iblk5 V c 2 t : Vec Ideal S128x128 .f32) = W := by
  obtain ⟨-, -, ⟨i0, i1⟩, -⟩ := idx5 t
  funext i
  unfold iblk5
  rw [View.read_apply, h2]
  exact congrArg W (Shape.idx_ext₂ (show win5_2.index t 0 * 128 + 1 * (i 0).val = (i 0).val by rw [i0]; omega)
    (show win5_2.index t 1 * 128 + 1 * (i 1).val = (i 1).val by rw [i1]; omega))

theorem bblk_eq (c : Dev nD) (B : FVec Ideal S1x128 .f32) (h3 : V c (Pipeline.arrRef spec5 3) = B) (t : Fin cfg5.N) :
    (iblk5 V c 3 t : Vec Ideal S1x128 .f32) = B := by
  obtain ⟨-, -, -, i0, i1⟩ := idx5 t
  funext i
  unfold iblk5
  rw [View.read_apply, h3]
  exact congrArg B (Shape.idx_ext₂ (show win5_3.index t 0 * 1 + 1 * (i 0).val = (i 0).val by rw [i0]; omega)
    (show win5_3.index t 1 * 128 + 1 * (i 1).val = (i 1).val by rw [i1]; omega))

-- The output array is the one block the last point writes.
theorem out_array (c : Dev nD) :
    (dat5 (F := Ideal) V c).arrAt 4 cfg5.N = out5_4 (pooledAt5 V c 10) (iblk5 V c 2 t5_9) (iblk5 V c 3 t5_9) := by
  refine (dat5 (F := Ideal) V c).arrAt_eq_of_cover 4 (out5_4 (pooledAt5 V c 10) (iblk5 V c 2 t5_9) (iblk5 V c 3 t5_9)) ?_ ?_
  · intro t hf
    have h9 : t.val = 9 := by
      have := (flush5_4 t).mp hf
      have hlt : t.val < 10 := Nat.lt_of_lt_of_eq t.isLt N_5
      omega
    obtain rfl : t = t5_9 := Fin.ext h9
    show (cfg5.win 4).cut (grid5.coords t5_9) ((dat5 (F := Ideal) V c).after 4 t5_9) = _
    rw [dat5_after_last]
    have hz' : (fun a => win5_4.index t5_9 a * main_v88.ty.shape.size a) = fun _ => 0 := funext fun a => by fin_cases a <;> decide
    exact (Memref.read_access_unit_zero (Elt Ideal) main_v88 hz' (fun a => by rw [congrFun hz' a]; simp)
      (out5_4 (pooledAt5 V c 10) (iblk5 V c 2 t5_9) (iblk5 V c 3 t5_9))).symm
  · intro i
    refine ⟨t5_9, (flush5_4 t5_9).mpr rfl, ?_⟩
    show i ∈ ((View.whole main_v88).slice (win5_4.rect t5_9)).set
    rw [View.set_slice_whole, Rect.mem_set_unit]
    intro a
    have h0 : (i 0 : Nat) < 512 := (i 0).isLt
    have h1 : (i 1 : Nat) < 128 := (i 1).isLt
    match a with
    | ⟨0, _⟩ =>
      show win5_4.index t5_9 0 * win5_4.size 0 ≤ (i 0 : Nat) ∧ (i 0 : Nat) < win5_4.index t5_9 0 * win5_4.size 0 + win5_4.xsize (grid5.coords t5_9) 0
      rw [show win5_4.index t5_9 0 * win5_4.size 0 = 0 from by decide +kernel, show win5_4.xsize (grid5.coords t5_9) 0 = 512 from by decide +kernel]; omega
    | ⟨1, _⟩ =>
      show win5_4.index t5_9 1 * win5_4.size 1 ≤ (i 1 : Nat) ∧ (i 1 : Nat) < win5_4.index t5_9 1 * win5_4.size 1 + win5_4.xsize (grid5.coords t5_9) 1
      rw [show win5_4.index t5_9 1 * win5_4.size 1 = 0 from by decide +kernel, show win5_4.xsize (grid5.coords t5_9) 1 = 128 from by decide +kernel]; omega

abbrev refPooled (x : FVec Ideal S100000x128 .f32) (batch : IVec Cert.ReferenceIdeal.S100000 32) : FVec Ideal S512x128 .f32 :=
  Host.scatterAdd (F := Ideal) poolScatter
    (broadcastInDim S512x128 ![] Cert.ReferenceIdeal.Gen.bcast_S_S512x128 (constant (F := Ideal) Cert.ReferenceIdeal.S_ .f32 0x00000000#32))
    (broadcastInDim S100000x1 ![0] Cert.ReferenceIdeal.Gen.bcast_S100000_S100000x1_0 batch) x

-- The reference's head at (g, j): row g of the pooled sums against row j of the classifier matrix, plus bias j.
theorem poolHead_apply (x : FVec Ideal S100000x128 .f32) (batch : IVec Cert.ReferenceIdeal.S100000 32)
    (wout : FVec Ideal Cert.ReferenceIdeal.S10x128 .f32) (bout : FVec Ideal Cert.ReferenceIdeal.S10 .f32) (g : Fin 512) (j : Fin 10) :
    Cert.Spec.poolHead (F := Ideal) x batch wout bout (ix2 g j)
      = (∑ k : Fin 128, refPooled x batch (ix2 g k) * wout (ix2 j k)) + bout (ix1 j) := by
  unfold Cert.Spec.poolHead
  rw [addf_apply]
  have hb : broadcastInDim Cert.ReferenceIdeal.S512x10 ![0, 1] Cert.ReferenceIdeal.Gen.bcast_S1x10_S512x10_0_1
      (broadcastInDim Cert.ReferenceIdeal.S1x10 ![1] Cert.ReferenceIdeal.Gen.bcast_S10_S1x10_1 bout) (ix2 g j) = bout (ix1 j) := by
    rw [broadcastInDim_apply _ _ _ (ix2 g j) (ix2 (0 : Fin 1) j) (fun a => match a with | ⟨0, _⟩ => rfl | ⟨1, _⟩ => rfl),
      broadcastInDim_apply _ _ _ (ix2 (0 : Fin 1) j) (ix1 j) (fun a => match a with | ⟨0, _⟩ => rfl)]
  rw [hb]
  refine congrArg (· + bout (ix1 j)) ?_
  refine ((Ideal.dotGeneral_apply Cert.ReferenceIdeal.dot_S512x128_S128x10_S512x10_1_0_0_1_n_n none _ _ _ (ix2 g j)).trans (plain5_sum _ _ g j)).trans ?_
  refine Finset.sum_congr rfl fun k _ => ?_
  rw [transpose_apply [1, 0] wout Cert.ReferenceIdeal.Gen.transposes_S10x128_S128x10_1_0 (ix2 k j) (ix2 j k)
      (fun b => match b with | ⟨0, _⟩ => rfl | ⟨1, _⟩ => rfl)]

-- The first ten columns of the output array are the reference's head.
theorem head_array (c : Dev nD) (x : FVec Ideal S100000x128 .f32) (batch : IVec Cert.ReferenceIdeal.S100000 32)
    (wout : FVec Ideal Cert.ReferenceIdeal.S10x128 .f32) (bout : FVec Ideal Cert.ReferenceIdeal.S10 .f32)
    (bcol : IVec S100000x1 32) (W : FVec Ideal S128x128 .f32) (B : FVec Ideal S1x128 .f32)
    (h0 : V c (Pipeline.arrRef spec5 0) = x) (h1 : V c (Pipeline.arrRef spec5 1) = bcol)
    (h2 : V c (Pipeline.arrRef spec5 2) = W) (h3 : V c (Pipeline.arrRef spec5 3) = B)
    (hcol : ∀ R : Fin 100000, bcol (ix2 R (0 : Fin 1)) = batch (ix1 R))
    (hW : ∀ (k : Fin 128) (j : Fin 10), W (ix2 k (Fin.castLE (by decide) j)) = wout (ix2 j k))
    (hB : ∀ j : Fin 10, B (ix2 (0 : Fin 1) (Fin.castLE (by decide) j)) = bout (ix1 j)) :
    extractStridedSlice S512x10 ![0, 0] ((dat5 (F := Ideal) V c).arrAt 4 cfg5.N) slices_S512x128_S512x10_0_0
      = Cert.Spec.poolHead (F := Ideal) x batch wout bout := by
  have hbc : bcol = broadcastInDim S100000x1 ![0] Cert.ReferenceIdeal.Gen.bcast_S100000_S100000x1_0 batch := by
    funext i
    obtain ⟨R, u, rfl⟩ : ∃ (R : Fin 100000) (u : Fin 1), i = ix2 R u := ⟨i 0, i 1, eq_ix2 i⟩
    obtain rfl : u = 0 := Subsingleton.elim _ _
    rw [hcol, broadcastInDim_apply _ _ _ (ix2 R (0 : Fin 1)) (ix1 R) (fun a => match a with | ⟨0, _⟩ => rfl)]
  funext i
  obtain ⟨g, j, rfl⟩ : ∃ (g : Fin 512) (j : Fin 10), i = ix2 g j := ⟨i 0, i 1, eq_ix2 i⟩
  rw [extractStridedSlice_apply ![0, 0] _ slices_S512x128_S512x10_0_0 (ix2 g j) (ix2 g (Fin.castLE (by decide) j))
      (fun a => match a with | ⟨0, _⟩ => (Nat.zero_add _).symm | ⟨1, _⟩ => (Nat.zero_add _).symm),
    out_array, out5_4_apply, wblk_eq V c W h2, bblk_eq V c B h3, pooled_total V c x bcol h0 h1, hbc, hB, poolHead_apply]
  refine congrArg (· + bout (ix1 j)) ?_
  exact Finset.sum_congr rfl fun k _ => by rw [hW]

section Entry

variable {F : FTy → Type} [FloatOps F]

-- The classifier matrix padded with zero rows and transposed.
def woutPadT (wout : FVec F S10x128 .f32) : FVec F S128x128 .f32 :=
  transpose S128x128 [1, 0]
    (pad S128x128 ![0, 0] ![118, 0] ![0, 0] wout (sitofp (F := F) .f32 (constantI S_ 32 0#32)) pads_S10x128_S128x128_01180_000 h_S_)
    transposes_S128x128_S128x128_1_0

-- The bias padded with zeros, as a row.
def boutPadRow (bout : FVec F S10 .f32) : FVec F S1x128 .f32 :=
  shapeCast S1x128 (pad S128 ![0] ![118] ![0] bout (sitofp (F := F) .f32 (constantI S_ 32 0#32)) pads_S10_S128_01180 h_S_)
    shapeCasts_S128_S1x128

-- The graph ids as a column.
def idCol (batch : IVec S100000 32) : IVec S100000x1 32 := shapeCast S100000x1 batch shapeCasts_S100000_S100000x1

theorem entry5_W_of (U : Valuation τ sig (Elt F)) :
    StableHlo.after hostOps5_4 (StableHlo.after hostOps5_3 (StableHlo.after hostOps5_2 (StableHlo.after hostOps5_1
      (StableHlo.after hostOps5 U)))) (Proc.devRef .tc main_v84) = woutPadT (U (Proc.devRef .tc main_arg18)) := by
  after_results
  rfl
theorem entry5_B_of (U : Valuation τ sig (Elt F)) :
    StableHlo.after hostOps5_4 (StableHlo.after hostOps5_3 (StableHlo.after hostOps5_2 (StableHlo.after hostOps5_1
      (StableHlo.after hostOps5 U)))) (Proc.devRef .tc main_v86) = boutPadRow (U (Proc.devRef .tc main_arg19)) := by
  after_results
  rfl
theorem entry5_ids_of (U : Valuation τ sig (Elt F)) :
    StableHlo.after hostOps5_4 (StableHlo.after hostOps5_3 (StableHlo.after hostOps5_2 (StableHlo.after hostOps5_1
      (StableHlo.after hostOps5 U)))) (Proc.devRef .tc main_v87) = idCol (U (Proc.devRef .tc main_arg4)) := by
  after_results
  rfl
theorem entry5_x_of (U : Valuation τ sig (Elt F)) :
    StableHlo.after hostOps5_4 (StableHlo.after hostOps5_3 (StableHlo.after hostOps5_2 (StableHlo.after hostOps5_1
      (StableHlo.after hostOps5 U)))) (Proc.devRef .tc main_v82) = U (Proc.devRef .tc main_v82) := by
  after_results

theorem woutPadT_apply (wout : FVec F S10x128 .f32) (k : Fin 128) (j : Fin 10) :
    woutPadT wout (ix2 k (Fin.castLE (by decide) j)) = wout (ix2 j k) := by
  unfold woutPadT
  rw [transpose_apply [1, 0] _ transposes_S128x128_S128x128_1_0 (ix2 k (Fin.castLE (by decide) j)) (ix2 (Fin.castLE (by decide) j) k)
      (fun b => match b with | ⟨0, _⟩ => rfl | ⟨1, _⟩ => rfl)]
  exact pad_apply_of_inside ![0, 0] ![118, 0] ![0, 0] wout _ pads_S10x128_S128x128_01180_000 h_S_ _ (ix2 j k)
    (fun a => match a with
      | ⟨0, _⟩ => by show j.val = 0 + j.val * (0 + 1); omega
      | ⟨1, _⟩ => by show k.val = 0 + k.val * (0 + 1); omega)

theorem boutPadRow_apply (bout : FVec F S10 .f32) (j : Fin 10) :
    boutPadRow bout (ix2 (0 : Fin 1) (Fin.castLE (by decide) j)) = bout (ix1 j) := by
  unfold boutPadRow
  rw [shapeCast_a_1a_apply]
  exact pad_apply_of_inside ![0] ![118] ![0] bout _ pads_S10_S128_01180 h_S_ _ (ix1 j)
    (fun a => match a with | ⟨0, _⟩ => by show j.val = 0 + j.val * (0 + 1); omega)

theorem idCol_apply (batch : IVec S100000 32) (R : Fin 100000) : idCol batch (ix2 R (0 : Fin 1)) = batch (ix1 R) := by
  unfold idCol
  refine shapeCast_apply batch shapeCasts_S100000_S100000x1 _ _ ?_
  rw [Shape.rowMajor_val_two, Shape.rowMajor_val_one]
  show R.val = R.val * 1 + 0
  omega

variable (m : (ℓ : Loc nD τ sig) → Buf (Elt F) ℓ) (outs : Outs (F := F))

theorem result_slice (c : Dev nD) :
    V19 m outs c main_v89 = extractStridedSlice S512x10 ![0, 0] (V18 m outs c main_v88) slices_S512x128_S512x10_0_0 := by
  show StableHlo.after hostOps6 (V18 m outs c) (Proc.devRef .tc main_v89) = _
  after_results

end Entry

-- The closing slice of the output array is the reference's head of the inputs.
theorem head_result (U : Valuation τ sig (Elt Ideal)) (c : Dev nD)
    (hV : ∀ b : Ref sig .tc, V c b = StableHlo.after hostOps5_4 (StableHlo.after hostOps5_3 (StableHlo.after hostOps5_2
      (StableHlo.after hostOps5_1 (StableHlo.after hostOps5 U)))) (Proc.devRef .tc b)) :
    extractStridedSlice S512x10 ![0, 0] ((dat5 (F := Ideal) V c).arrAt 4 cfg5.N) slices_S512x128_S512x10_0_0
      = Cert.Spec.poolHead (F := Ideal) (U (Proc.devRef .tc main_v82)) (U (Proc.devRef .tc main_arg4))
          (U (Proc.devRef .tc main_arg18)) (U (Proc.devRef .tc main_arg19)) :=
  head_array V c _ _ _ _ _ _ _
    ((hV main_v82).trans (entry5_x_of U)) ((hV main_v87).trans (entry5_ids_of U))
    ((hV main_v84).trans (entry5_W_of U)) ((hV main_v86).trans (entry5_B_of U))
    (idCol_apply _) (woutPadT_apply _) (boutPadRow_apply _)

end Cert.KernelIdeal.Value

end
-- ==== Proof.Value.FiniteStages.lean ====
import Idealize.ShloMosaic.PureOps
import Idealize.ShloMosaic.PureOps.Ideal
import Idealize.ShloMosaic.PureOps.Ideal.Laws
import Idealize.ShloMosaic.Lib.ValueIdx
import Idealize.ShloMosaic.Lib.IdealHost
import proofs.«424731_j88648124990764_2_alg».proof.Proof.Spec.Stages
import proofs.«424731_j88648124990764_2_alg».proof.Proof.Value.Norm

noncomputable section

namespace Cert.KernelIdeal.Value

open Cert.ReferenceIdeal Cert.ReferenceIdeal.Gen
open Idealize.ShloMosaic Idealize.ShloMosaic.ValueIdx
open scoped BigOperators

section General
variable {s si u sl sr so : Shape}

-- A scatter-add is the old entry plus a finite sum of updates: it stays in any set that holds 0 and is closed under +.
theorem scatterAdd_mem {P : EReal → Prop} (h0 : P 0) (hadd : ∀ a b, P a → P b → P (a + b)) {w : Nat} (d : ScatterDims s si u)
    {z : FVec Ideal s .f32} (idx : IVec si w) {upd : FVec Ideal u .f32} (hz : ∀ i, P (z i)) (hupd : ∀ j, P (upd j)) (i : s.Idx) :
    P (Host.scatterAdd (F := Ideal) d z idx upd i) :=
  hadd _ _ (hz i) (Finset.sum_induction _ P hadd h0 fun j _ => hupd j)

theorem nonneg_add (a b : EReal) (ha : ∃ r : ℝ, 0 ≤ r ∧ a = (r : EReal)) (hb : ∃ r : ℝ, 0 ≤ r ∧ b = (r : EReal)) :
    ∃ r : ℝ, 0 ≤ r ∧ a + b = (r : EReal) := by
  obtain ⟨x, hx, rfl⟩ := ha; obtain ⟨y, hy, rfl⟩ := hb
  exact ⟨x + y, add_nonneg hx hy, (EReal.coe_add x y).symm⟩

theorem dotGeneral_real (d : DotDims sl sr so) {lhs : FVec Ideal sl .f32} {rhs : FVec Ideal sr .f32} (hl : RealV lhs) (hr : RealV rhs) :
    RealV (Host.dotGeneral (F := Ideal) d none lhs rhs) := by
  intro j
  show ∃ r : ℝ, FloatOps.dotGeneral d none HostSchedule.single lhs rhs j = (r : EReal)
  rw [Ideal.dotGeneral_apply d none HostSchedule.single lhs rhs j]
  exact real_sum _ _ fun k _ => real_mul (hl _) (hr _)

end General

theorem zeros_real {t : Shape} (h : S_.BroadcastsInDim t (![] : Fin 0 → Fin t.rank)) (i : t.Idx) :
    ∃ r : ℝ, 0 ≤ r ∧ broadcastInDim t ![] h (constant (F := Ideal) S_ .f32 0x00000000#32) i = (r : EReal) :=
  ⟨0, le_refl _, (splat_apply h _ i).trans (Ideal.ofBits_zero_f32.trans EReal.coe_zero.symm)⟩

theorem ones_real {t : Shape} (h : S_.BroadcastsInDim t (![] : Fin 0 → Fin t.rank)) (i : t.Idx) :
    broadcastInDim t ![] h (constant (F := Ideal) S_ .f32 0x3F800000#32) i = ((1 : ℝ) : EReal) :=
  (splat_apply h _ i).trans (Ideal.ofBits_one_f32.trans EReal.coe_one.symm)

theorem embed_finite {sid cid pid : IVec S100000 32} {stab : FVec Ideal S64x128 .f32} {ctab : FVec Ideal S32x128 .f32}
    {ptab : FVec Ideal S513x128 .f32} (hs : RealV stab) (hc : RealV ctab) (hp : RealV ptab) :
    RealV (Cert.Spec.embed (F := Ideal) sid cid pid stab ctab ptab) := fun i => real_add (real_add (hs _) (hc _)) (hp _)

theorem inDegree_nonneg (ei : IVec S2x1600000 32) (k : S100000x1.Idx) :
    ∃ r : ℝ, 0 ≤ r ∧ Cert.Spec.inDegree (F := Ideal) ei k = (r : EReal) :=
  scatterAdd_mem (P := fun z => ∃ r : ℝ, 0 ≤ r ∧ z = (r : EReal)) ⟨0, le_refl _, EReal.coe_zero.symm⟩ nonneg_add _ _ (zeros_real _)
    (fun j => ⟨1, zero_le_one, ones_real _ j⟩) k

theorem neighbourSum_finite {x : FVec Ideal S100000x128 .f32} (ei : IVec S2x1600000 32) (hx : RealV x) :
    RealV (Cert.Spec.neighbourSum (F := Ideal) x ei) := by
  intro i
  unfold Cert.Spec.neighbourSum
  exact scatterAdd_mem (P := fun z => ∃ r : ℝ, z = (r : EReal)) ⟨0, EReal.coe_zero.symm⟩ (fun _ _ => real_add) _ _
    (fun k => (zeros_real _ k).imp fun _ h => h.2) (fun j => hx _) i

theorem aggregate_finite {x : FVec Ideal S100000x128 .f32} (ei : IVec S2x1600000 32) (hx : RealV x) :
    RealV (Cert.Spec.aggregate (F := Ideal) x ei) := by
  intro i
  unfold Cert.Spec.aggregate
  rw [hostDivf_apply]
  refine real_div_of_one_le (neighbourSum_finite ei hx i) ?_
  have hmax : ∀ k, ∃ r : ℝ, 1 ≤ r ∧ maximumf (Cert.Spec.inDegree (F := Ideal) ei)
      (broadcastInDim S100000x1 ![] bcast_S_S100000x1 (constant (F := Ideal) S_ .f32 0x3F800000#32)) k = (r : EReal) := by
    intro k
    obtain ⟨a, _, ha⟩ := inDegree_nonneg ei k
    rw [maximumf_apply, ha, ones_real]
    rcases le_total a 1 with h | h
    · exact ⟨1, le_refl _, max_eq_right (EReal.coe_le_coe_iff.mpr h)⟩
    · exact ⟨a, h, max_eq_left (EReal.coe_le_coe_iff.mpr h)⟩
  exact hmax _

theorem sageLin_finite {mean x : FVec Ideal S100000x128 .f32} {wl : FVec Ideal S128x128 .f32} {bl : FVec Ideal S128 .f32}
    {wr : FVec Ideal S128x128 .f32} (hmean : RealV mean) (hx : RealV x) (hwl : RealV wl) (hbl : RealV bl) (hwr : RealV wr) :
    RealV (Cert.Spec.sageLin (F := Ideal) mean x wl bl wr) := fun i =>
  real_add (real_add (dotGeneral_real _ hmean (fun _ => hwl _) i) (hbl _)) (dotGeneral_real _ hx (fun _ => hwr _) i)

end Cert.KernelIdeal.Value

end
-- ==== Proof.Value.Sage.lean ====
import proofs.«424731_j88648124990764_2_alg».proof.Proof.KernelIdeal.Region1
import proofs.«424731_j88648124990764_2_alg».proof.Proof.Spec.Stages
import Idealize.ShloMosaic.PureOps.Ideal.Laws
import Idealize.ShloMosaic.Lib.ValueIdx
import Idealize.ShloMosaic.Lib.ValueLayout
import Idealize.ShloMosaic.Lib.Pipeline.Value
import Mathlib.Algebra.BigOperators.Fin

set_option maxRecDepth 16384

noncomputable section

namespace Cert.KernelIdeal.Value.R1

open Idealize.ShloMosaic Idealize.ShloMosaic.ValueIdx Idealize.ShloMosaic.TcCoe
open Idealize.ShloMosaic.Pipeline (Dat)
open Cert.KernelIdeal Cert.KernelIdeal.Gen Cert.KernelIdeal.Hand

-- A rows × contraction by contraction × columns product sums, at (r, j), L[r, k] · R[k, j] over the K contraction positions.
theorem dot2_sum {M K N : ℕ} (d : DotDims (⟨2, ![M, K]⟩ : Shape) (⟨2, ![K, N]⟩ : Shape) (⟨2, ![M, N]⟩ : Shape)) (hd : d = .plain M K N)
    (L : (⟨2, ![M, K]⟩ : Shape).Idx → EReal) (R : (⟨2, ![K, N]⟩ : Shape).Idx → EReal) (r : Fin M) (j : Fin N) :
    ∑ k : d.contr.Idx, L (d.lhsIdx (ix2 r j) k) * R (d.rhsIdx (ix2 r j) k) = ∑ k : Fin K, L (ix2 r k) * R (ix2 k j) := by
  subst hd
  rw [← Equiv.sum_comp (contrEquiv1 (.plain M K N) K rfl rfl).symm]
  refine Finset.sum_congr rfl fun k _ => ?_
  have hk := contrEquiv1_symm_val (.plain M K N) K rfl rfl k
  rw [show (DotDims.plain M K N).lhsIdx (ix2 r j) ((contrEquiv1 (.plain M K N) K rfl rfl).symm k) = ix2 r k from Shape.idx_ext₂ rfl hk,
    show (DotDims.plain M K N).rhsIdx (ix2 r j) ((contrEquiv1 (.plain M K N) K rfl rfl).symm k) = ix2 k j from Shape.idx_ext₂ hk rfl]

theorem hz2 : (![0, 0] : Fin 2 → Nat) = fun _ => 0 := funext fun a => by fin_cases a <;> rfl

variable (x0 : FVec Ideal S10000x128 .f32) (x1 : FVec Ideal S10000x128 .bf16) (x2 : FVec Ideal S128x128 .f32)
    (x3 : FVec Ideal S1x128 .f32) (x4 : FVec Ideal S128x128 .f32) (p : FVec Ideal S1x128 .f32)

-- The three closed forms are the payloads of their arguments.
theorem outs_eq :
    out1_5 (F := Ideal) x0 x1 x2 x3 x4 = k1_pay3 (F := Ideal) x0 x1 x2 x3 x4 ∧ out1_6 (F := Ideal) x0 x1 x2 x3 x4 p = k1_pay4 (F := Ideal) x0 x1 x2 x3 x4 p
      ∧ out1_7 (F := Ideal) x0 x1 x2 x3 x4 p = k1_pay5 (F := Ideal) x0 x1 x2 x3 x4 p := by
  unfold out1_5 out1_6 out1_7
  rw [View.canon_unit_zero (S := S10000x128) hz2, View.canon_unit_zero (S := S1x128) hz2, View.canon_unit_zero (S := S1x128) hz2]
  simp only [View.ld_unit_zero (S := S10000x128) hz2, View.ld_unit_zero (S := S128x128) hz2, View.ld_unit_zero (S := S1x128) hz2, and_self]

-- Entry (r, j) of y: the two products accumulate into zero and the bias row is laid on every row.
theorem sage_rows (r : Fin 10000) (j : Fin 128) :
    out1_5 (F := Ideal) x0 x1 x2 x3 x4 (ix2 r j)
      = (∑ k : Fin 128, x0 (ix2 r k) * x2 (ix2 k j)) + x3 (ix2 (0 : Fin 1) j) + ∑ k : Fin 128, x1 (ix2 r k) * x4 (ix2 k j) := by
  rw [(outs_eq x0 x1 x2 x3 x4 x3).1]
  unfold k1_pay3
  simp only [shapeCast_self, addf_apply, matmul, Ideal.matmul_constant_zero_apply]
  rw [dot2_sum dot_S10000x128_S128x128_S10000x128_1_0_0_1_n_n rfl, dot2_sum dot_S10000x128_S128x128_S10000x128_1_0_0_1_n_n rfl, broadcastTo_1b_ab_apply]
  rfl

-- A column reduction of a block from the zero word is the sum down the column.
theorem colSum1_apply (src : FVec Ideal S10000x128 .f32) (h : S10000x128.Reduces [0] S128) (hφ : FKind.Formats .f32)
    (hacc : (0x00000000#32 : BitVec 32) = 0x00000000#32) (j : Fin 128) :
    multiReduction .add [0] S128 src 0x00000000#32 h hφ hacc (ix1 j) = ∑ r : Fin 10000, src (ix2 r j) :=
  (Ideal.multiReduction_add_single src 0x00000000#32 h hφ hacc (ix1 j)).trans
    (Finset.sum_congr rfl fun r _ => congrArg src (Shape.idx_ext₂ rfl rfl))

-- The row of sums gains the column sums of y,
theorem sum_rows (j : Fin 128) :
    out1_6 (F := Ideal) x0 x1 x2 x3 x4 p (ix2 (0 : Fin 1) j)
      = p (ix2 (0 : Fin 1) j) + ∑ r : Fin 10000, out1_5 (F := Ideal) x0 x1 x2 x3 x4 (ix2 r j) := by
  rw [(outs_eq x0 x1 x2 x3 x4 p).2.1, (outs_eq x0 x1 x2 x3 x4 p).1]
  unfold k1_pay4
  simp only [shapeCast_self, addf_apply]
  rw [shapeCast_a_1a_apply]
  exact congrArg (p (ix2 (0 : Fin 1) j) + ·) (colSum1_apply _ _ _ _ j)

-- the row of squares the column sums of y².
theorem sq_rows (j : Fin 128) :
    out1_7 (F := Ideal) x0 x1 x2 x3 x4 p (ix2 (0 : Fin 1) j)
      = p (ix2 (0 : Fin 1) j)
        + ∑ r : Fin 10000, out1_5 (F := Ideal) x0 x1 x2 x3 x4 (ix2 r j) * out1_5 (F := Ideal) x0 x1 x2 x3 x4 (ix2 r j) := by
  rw [(outs_eq x0 x1 x2 x3 x4 p).2.2, (outs_eq x0 x1 x2 x3 x4 p).1]
  unfold k1_pay5
  simp only [shapeCast_self, addf_apply]
  rw [shapeCast_a_1a_apply]
  exact congrArg (p (ix2 (0 : Fin 1) j) + ·) (colSum1_apply _ _ _ _ j)

-- The two starting rows are zero.
theorem reset_rows (i : S1x128.Idx) : reset1_6 (F := Ideal) i = 0 ∧ reset1_7 (F := Ideal) i = 0 := by
  unfold reset1_6 reset1_7 k1_pay1 k1_pay2
  rw [View.canon_unit_zero (S := S1x128) hz2]
  exact ⟨Ideal.ofBits_zero_f32, Ideal.ofBits_zero_f32⟩

-- A 128-vector laid on every row, read at (n, j).
theorem rows_apply (v : FVec Ideal S128 .f32) (n : Fin 100000) (j : Fin 128) : Cert.Spec.rows (F := Ideal) v (ix2 n j) = v (ix1 j) := by
  unfold Cert.Spec.rows
  exact (broadcastInDim_apply _ _ _ (ix2 n j) (ix2 (0 : Fin 1) j) (fun a => match a with | ⟨0, _⟩ => rfl | ⟨1, _⟩ => rfl)).trans
    (broadcastInDim_apply _ _ _ (ix2 (0 : Fin 1) j) (ix1 j) (fun a => match a with | ⟨0, _⟩ => rfl))

-- The stage at (n, j): the host's two products are exact sums over the 128 features, against the weights' rows.
theorem sageLin_apply (mean x : FVec Ideal S100000x128 .f32) (wl : FVec Ideal S128x128 .f32) (bl : FVec Ideal S128 .f32)
    (wr : FVec Ideal S128x128 .f32) (n : Fin 100000) (j : Fin 128) :
    Cert.Spec.sageLin (F := Ideal) mean x wl bl wr (ix2 n j)
      = (∑ k : Fin 128, mean (ix2 n k) * wl (ix2 j k)) + bl (ix1 j) + ∑ k : Fin 128, x (ix2 n k) * wr (ix2 j k) := by
  unfold Cert.Spec.sageLin
  simp only [addf_apply, Host.dotGeneral, Ideal.dotGeneral_apply]
  rw [dot2_sum Cert.ReferenceIdeal.dot_S100000x128_S128x128_S100000x128_1_0_0_1_n_n rfl,
    dot2_sum Cert.ReferenceIdeal.dot_S100000x128_S128x128_S100000x128_1_0_0_1_n_n rfl, rows_apply]
  simp only [show ∀ (w : FVec Ideal S128x128 .f32) k, transpose S128x128 [1, 0] w transposes_S128x128_S128x128_1_0 (ix2 k j) = w (ix2 j k) from
    fun w k => transpose_ix2_apply w _ k j]

-- So y's entry (r, j) is the stage's entry (n, j) once the blocks hold row n of the two arrays, the transposed weights and the bias row.
theorem sage_stage (mean x : FVec Ideal S100000x128 .f32) (wl wr : FVec Ideal S128x128 .f32)
    (bl : FVec Ideal S128 .f32) (r : Fin 10000) (j : Fin 128) (n : Fin 100000)
    (e0 : ∀ k, x0 (ix2 r k) = mean (ix2 n k)) (e1 : ∀ k, x1 (ix2 r k) = x (ix2 n k)) (e2 : ∀ k, x2 (ix2 k j) = wl (ix2 j k))
    (e3 : x3 (ix2 (0 : Fin 1) j) = bl (ix1 j)) (e4 : ∀ k, x4 (ix2 k j) = wr (ix2 j k)) :
    out1_5 (F := Ideal) x0 x1 x2 x3 x4 (ix2 r j) = Cert.Spec.sageLin (F := Ideal) mean x wl bl wr (ix2 n j) := by
  rw [sage_rows, sageLin_apply]
  simp only [e0, e1, e2, e3, e4]

-- A quantity that starts at M 0 and gains M (n + 1) at point n + 1 is, at point n, the sum of M over the points up to n.
theorem run_sum {β : Type*} [AddCommMonoid β] {N : ℕ} (f : (n : ℕ) → n < N → β) (M : ℕ → β) (h0 : ∀ h, f 0 h = M 0)
    (hs : ∀ n h, f (n + 1) h = f n (Nat.lt_of_succ_lt h) + M (n + 1)) : ∀ n h, f n h = ∑ t ∈ Finset.range (n + 1), M t
  | 0, h => by rw [h0, Finset.sum_range_one]
  | n + 1, h => by rw [hs, run_sum f M h0 hs n, Finset.sum_range_succ _ (n + 1)]

-- A sum over T·B indices, block by block.
theorem sum_blocks {β : Type*} [AddCommMonoid β] (T B : ℕ) (g : Fin (T * B) → β) :
    ∑ n, g n = ∑ t : Fin T, ∑ r : Fin B, g (finProdFinEquiv (t, r)) := by
  rw [← Equiv.sum_comp finProdFinEquiv g, Fintype.sum_prod_type]

-- A window written back at one point only, under whose block there every index of the array lies, ends holding what that point wrote.
theorem arrAt_last {cfg : Pipeline.Cfg sig Λ₀} {c : Dev nD} (dat : Dat τ (Elt Ideal) Unit ℕ (UR sig nD τ) ℕ cfg c) (w : Fin cfg.W) (tE : Fin cfg.N)
    (G : Buf (Elt Ideal) ((cfg.win w).arr.view.loc (c.tc : Thread nD τ))) (hfl : ∀ t, (cfg.win w).flush t = true ↔ t = tE)
    (hG : dat.flushed w tE = ((cfg.win w).blk tE).view.read (Elt Ideal) G) (hcov : ∀ i, i ∈ ((cfg.win w).blk tE).view.set) :
    dat.arrAt w cfg.N = G :=
  dat.arrAt_eq_of_cover w G (fun t hf => by obtain rfl := (hfl t).mp hf; exact hG) fun i => ⟨tE, (hfl tE).mpr rfl, hcov i⟩

-- Ten blocks one under another: row n of the array is row n mod 10000 of block n div 10000.
def stack {N : ℕ} (hN : N = 10) (Y : Fin N → FVec Ideal S10000x128 .f32) : FVec Ideal S100000x128 .f32 := fun i =>
  Y ⟨(i 0).val / 10000, by have := idx2_lt0 i; omega⟩
    (ix2 (⟨(i 0).val % 10000, Nat.mod_lt _ (by decide)⟩ : Fin 10000) (⟨(i 1).val, idx2_lt1 i⟩ : Fin 128))

theorem stack_apply {N : ℕ} (hN : N = 10) (Y : Fin N → FVec Ideal S10000x128 .f32) (t : Fin N) (r : Fin 10000) (j : Fin 128)
    (i : S100000x128.Idx) (h0 : (i 0).val = 10000 * t.val + r.val) (h1 : (i 1).val = j.val) : stack hN Y i = Y t (ix2 r j) := by
  have key : ∀ (A A' : Fin N) (B B' : Fin 10000) (J J' : Fin 128), A = A' → B = B' → J = J' → Y A (ix2 B J) = Y A' (ix2 B' J') := by
    rintro _ _ _ _ _ _ rfl rfl rfl; rfl
  unfold stack
  exact key _ _ _ _ _ _ (Fin.ext (by show (i 0).val / 10000 = t.val; omega)) (Fin.ext (by show (i 0).val % 10000 = r.val; omega)) (Fin.ext h1)

-- A row that starts at the first block's column sums of g and gains each later block's ends at the sum of g down the stacked array's whole column.
theorem total {N : ℕ} (hN : N = 10) (Y : Fin N → FVec Ideal S10000x128 .f32) (j : Fin 128) (g : EReal → EReal) (f : (n : ℕ) → n < N → EReal)
    (h0 : ∀ h, f 0 h = ∑ r : Fin 10000, g (Y ⟨0, h⟩ (ix2 r j)))
    (hs : ∀ n h, f (n + 1) h = f n (Nat.lt_of_succ_lt h) + ∑ r : Fin 10000, g (Y ⟨n + 1, h⟩ (ix2 r j))) :
    f 9 (by omega) = ∑ n : Fin 100000, g (stack hN Y (ix2 n j)) := by
  let M : ℕ → EReal := fun t => if h : t < N then ∑ r : Fin 10000, g (Y ⟨t, h⟩ (ix2 r j)) else 0
  have hM : ∀ t (h : t < N), M t = ∑ r : Fin 10000, g (Y ⟨t, h⟩ (ix2 r j)) := fun t h => dif_pos h
  rw [run_sum f M (fun h => (h0 h).trans (hM 0 h).symm) (fun n h => (hs n h).trans (congrArg (_ + ·) (hM (n + 1) h).symm)) 9 (by omega), Finset.sum_range]
  refine ((sum_blocks 10 10000 fun n : Fin (10 * 10000) => g (stack hN Y (ix2 n j))).trans (Finset.sum_congr rfl fun t _ => ?_)).symm
  exact (Finset.sum_congr rfl fun r _ => congrArg g (stack_apply hN Y ⟨t.val, by omega⟩ r j (ix2 (finProdFinEquiv (t, r)) j)
    (by show r.val + 10000 * t.val = 10000 * t.val + r.val; omega) rfl)).trans (hM t.val (by omega)).symm

attribute [irreducible] stack

variable (V : (c : Dev nD) → (b : Ref sig .tc) → Buf (Elt Ideal) ((c : Thread nD τ).loc b)) (c : Dev nD)

abbrev arr1_0 : FVec Ideal S100000x128 .f32 := V c (Pipeline.arrRef spec1 0)
abbrev arr1_1 : FVec Ideal S100000x128 .bf16 := V c (Pipeline.arrRef spec1 1)
abbrev arr1_2 : FVec Ideal S128x128 .f32 := V c (Pipeline.arrRef spec1 2)
abbrev arr1_3 : FVec Ideal S1x128 .f32 := V c (Pipeline.arrRef spec1 3)
abbrev arr1_4 : FVec Ideal S128x128 .f32 := V c (Pipeline.arrRef spec1 4)

-- The block indices over the ten points: the means, the features and y are at block (t, 0), the others at (0, 0).
theorem idx1 : ∀ t : Fin cfg1.N, (win1_0.index t 0 = t.val ∧ win1_0.index t 1 = 0) ∧ (win1_1.index t 0 = t.val ∧ win1_1.index t 1 = 0)
    ∧ (win1_2.index t 0 = 0 ∧ win1_2.index t 1 = 0) ∧ (win1_3.index t 0 = 0 ∧ win1_3.index t 1 = 0) ∧ (win1_4.index t 0 = 0 ∧ win1_4.index t 1 = 0)
    ∧ (win1_5.index t 0 = t.val ∧ win1_5.index t 1 = 0) ∧ (win1_6.index t 0 = 0 ∧ win1_6.index t 1 = 0) ∧ (win1_7.index t 0 = 0 ∧ win1_7.index t 1 = 0) :=
  (by decide +kernel : ∀ t : Fin grid1.N, _)

-- Point t's input blocks are rows 10000·t … of the two row-blocked arrays and the three small arrays whole.
theorem blk1_apply (t : Fin cfg1.N) (r : Fin 10000) (n : Fin 100000) (hn : n.val = 10000 * t.val + r.val) (j k : Fin 128) :
    iblk1 V c 0 t (ix2 r k) = arr1_0 V c (ix2 n k) ∧ iblk1 V c 1 t (ix2 r k) = arr1_1 V c (ix2 n k) ∧ iblk1 V c 2 t (ix2 k j) = arr1_2 V c (ix2 k j)
      ∧ iblk1 V c 3 t (ix2 (0 : Fin 1) j) = arr1_3 V c (ix2 (0 : Fin 1) j) ∧ iblk1 V c 4 t (ix2 k j) = arr1_4 V c (ix2 k j) := by
  obtain ⟨⟨a0, a1⟩, ⟨b0, b1⟩, ⟨c0, c1⟩, ⟨d0, d1⟩, ⟨e0, e1⟩, -⟩ := idx1 t
  refine ⟨congrArg (arr1_0 V c) (Shape.idx_ext₂ ?_ ?_), congrArg (arr1_1 V c) (Shape.idx_ext₂ ?_ ?_), congrArg (arr1_2 V c) (Shape.idx_ext₂ ?_ ?_),
    congrArg (arr1_3 V c) (Shape.idx_ext₂ ?_ ?_), congrArg (arr1_4 V c) (Shape.idx_ext₂ ?_ ?_)⟩
  · show win1_0.index t 0 * 10000 + 1 * r.val = n.val; omega
  · show win1_0.index t 1 * 128 + 1 * k.val = k.val; omega
  · show win1_1.index t 0 * 10000 + 1 * r.val = n.val; omega
  · show win1_1.index t 1 * 128 + 1 * k.val = k.val; omega
  · show win1_2.index t 0 * 128 + 1 * k.val = k.val; omega
  · show win1_2.index t 1 * 128 + 1 * j.val = j.val; omega
  · show win1_3.index t 0 * 1 + 1 * 0 = 0; omega
  · show win1_3.index t 1 * 128 + 1 * j.val = j.val; omega
  · show win1_4.index t 0 * 128 + 1 * k.val = k.val; omega
  · show win1_4.index t 1 * 128 + 1 * j.val = j.val; omega

-- y's block at point t,
abbrev yBlk1 (t : Fin cfg1.N) : FVec Ideal S10000x128 .f32 :=
  out1_5 (F := Ideal) (iblk1 V c 0 t) (iblk1 V c 1 t) (iblk1 V c 2 t) (iblk1 V c 3 t) (iblk1 V c 4 t)

-- and the array of the ten blocks.
abbrev yArr1 : FVec Ideal S100000x128 .f32 := stack N_1 (yBlk1 V c)

-- What every point writes back of window 5 is its block of y.
theorem y_flushed (t : Fin cfg1.N) (hf : (cfg1.win 5).flush t = true) :
    (dat1 V c).flushed 5 t = ((cfg1.win 5).blk t).view.read (Elt Ideal) (yArr1 V c) := by
  show (cfg1.win 5).cut (grid1.coords t) ((dat1 V c).after 5 t) = _
  rw [dat1_after_out5]
  funext y
  obtain ⟨r, j, rfl⟩ : ∃ (r : Fin 10000) (j : Fin 128), y = ix2 r j := ⟨y 0, y 1, eq_ix2 y⟩
  obtain ⟨-, -, -, -, -, ⟨e0, e1⟩, -⟩ := idx1 t
  exact (stack_apply N_1 (yBlk1 V c) t r j (((cfg1.win 5).blk t).view.emb (ix2 r j)) (by show win1_5.index t 0 * 10000 + 1 * r.val = _; omega)
    (by show win1_5.index t 1 * 128 + 1 * j.val = _; omega)).symm

-- The ten blocks tile the array, so after the last point window 5's array is y.
theorem y_array : (dat1 V c).arrAt 5 cfg1.N = yArr1 V c :=
  (dat1 V c).arrAt_eq_of_cover 5 (yArr1 V c) (y_flushed V c) fun i => by
    have h0 : (i 0).val < 100000 := (i 0).isLt
    have h1 : (i 1).val < 128 := (i 1).isLt
    have ht : (i 0).val / 10000 < cfg1.N := by rw [show cfg1.N = 10 from N_1]; omega
    obtain ⟨-, -, -, -, -, ⟨e0, e1⟩, -⟩ := idx1 ⟨(i 0).val / 10000, ht⟩
    dsimp only at e0
    refine ⟨⟨(i 0).val / 10000, ht⟩, flush1_5 _, ?_⟩
    rw [View.set_slice_whole, Rect.mem_set_unit]
    intro a
    match a with
    | ⟨0, _⟩ =>
      show win1_5.index ⟨(i 0).val / 10000, ht⟩ 0 * 10000 ≤ (i 0).val ∧ (i 0).val < win1_5.index ⟨(i 0).val / 10000, ht⟩ 0 * 10000 + 10000
      omega
    | ⟨1, _⟩ =>
      show win1_5.index ⟨(i 0).val / 10000, ht⟩ 1 * 128 ≤ (i 1).val ∧ (i 1).val < win1_5.index ⟨(i 0).val / 10000, ht⟩ 1 * 128 + 128
      omega

-- With the region's inputs the stage's, window 5's array is the stage.
theorem sage_array (mean x : FVec Ideal S100000x128 .f32) (wl wr : FVec Ideal S128x128 .f32) (bl : FVec Ideal S128 .f32)
    (h0 : arr1_0 V c = mean) (h1 : arr1_1 V c = x)
    (h2 : arr1_2 V c = transpose S128x128 [1, 0] wl transposes_S128x128_S128x128_1_0)
    (h3 : arr1_3 V c = shapeCast S1x128 bl shapeCasts_S128_S1x128)
    (h4 : arr1_4 V c = transpose S128x128 [1, 0] wr transposes_S128x128_S128x128_1_0) :
    (dat1 V c).arrAt 5 cfg1.N = Cert.Spec.sageLin (F := Ideal) mean x wl bl wr := by
  refine (y_array V c).trans (funext fun i => ?_)
  obtain ⟨n, j, rfl⟩ : ∃ (n : Fin 100000) (j : Fin 128), i = ix2 n j := ⟨i 0, i 1, eq_ix2 i⟩
  have ht : n.val / 10000 < cfg1.N := by rw [show cfg1.N = 10 from N_1]; have := n.isLt; omega
  have hn : n.val = 10000 * (n.val / 10000) + n.val % 10000 := (Nat.div_add_mod n.val 10000).symm
  have e := blk1_apply V c ⟨n.val / 10000, ht⟩ ⟨n.val % 10000, Nat.mod_lt _ (by decide)⟩ n hn j
  refine (stack_apply N_1 (yBlk1 V c) ⟨n.val / 10000, ht⟩ ⟨n.val % 10000, Nat.mod_lt _ (by decide)⟩ j (ix2 n j) hn rfl).trans
    (sage_stage _ _ _ _ _ mean x wl wr bl _ j n (fun k => (e k).1.trans (congrFun h0 _)) (fun k => (e k).2.1.trans (congrFun h1 _))
      (fun k => (e k).2.2.1.trans ((congrFun h2 _).trans (transpose_ix2_apply wl _ k j)))
      ((e j).2.2.2.1.trans ((congrFun h3 _).trans (shapeCast_a_1a_apply bl _ 0 j)))
      (fun k => (e k).2.2.2.2.trans ((congrFun h4 _).trans (transpose_ix2_apply wr _ k j))))

-- The last point.
abbrev tEnd1 : Fin cfg1.N := ⟨9, by rw [show cfg1.N = 10 from N_1]; decide⟩

theorem last1 (t : Fin cfg1.N) : t.val % 10 = 9 ↔ t = tEnd1 :=
  ⟨fun h => Fin.ext (by have := lt_of_lt_of_eq t.isLt (show cfg1.N = 10 from N_1); show t.val = 9; omega), fun h => by subst h; rfl⟩

-- Windows 6 and 7's one block is their whole array: an index is its own image.
theorem emb1_67 (y : S1x128.Idx) : ((cfg1.win 6).blk tEnd1).view.emb y = y ∧ ((cfg1.win 7).blk tEnd1).view.emb y = y := by
  obtain ⟨-, -, -, -, -, -, ⟨a0, a1⟩, ⟨b0, b1⟩⟩ := idx1 tEnd1
  exact ⟨Shape.idx_ext₂ (by show win1_6.index tEnd1 0 * 1 + 1 * (y 0).val = (y 0).val; omega) (by show win1_6.index tEnd1 1 * 128 + 1 * (y 1).val = (y 1).val; omega),
    Shape.idx_ext₂ (by show win1_7.index tEnd1 0 * 1 + 1 * (y 0).val = (y 0).val; omega) (by show win1_7.index tEnd1 1 * 128 + 1 * (y 1).val = (y 1).val; omega)⟩

-- So after the last point they hold the rows that point leaves.
theorem array1_6 (G : FVec Ideal S1x128 .f32) (hG : (dat1 V c).after 6 tEnd1 = G) : (dat1 V c).arrAt 6 cfg1.N = G :=
  arrAt_last (dat1 V c) 6 tEnd1 G (fun t => (flush1_6 t).trans (last1 t))
    (by show (cfg1.win 6).cut (grid1.coords tEnd1) ((dat1 V c).after 6 tEnd1) = _; rw [hG]; exact funext fun y => (congrArg G (emb1_67 y).1).symm)
    fun i => by have := ((cfg1.win 6).blk tEnd1).view.emb_mem_set i; rwa [(emb1_67 i).1] at this

theorem array1_7 (G : FVec Ideal S1x128 .f32) (hG : (dat1 V c).after 7 tEnd1 = G) : (dat1 V c).arrAt 7 cfg1.N = G :=
  arrAt_last (dat1 V c) 7 tEnd1 G (fun t => (flush1_7 t).trans (last1 t))
    (by show (cfg1.win 7).cut (grid1.coords tEnd1) ((dat1 V c).after 7 tEnd1) = _; rw [hG]; exact funext fun y => (congrArg G (emb1_67 y).2).symm)
    fun i => by have := ((cfg1.win 7).blk tEnd1).view.emb_mem_set i; rwa [(emb1_67 i).2] at this

abbrev outArr1_5 : FVec Ideal S100000x128 .f32 := (dat1 V c).arrAt 5 cfg1.N
abbrev outArr1_6 : FVec Ideal S1x128 .f32 := (dat1 V c).arrAt 6 cfg1.N
abbrev outArr1_7 : FVec Ideal S1x128 .f32 := (dat1 V c).arrAt 7 cfg1.N

-- Windows 6 and 7's arrays are the column sums of window 5's array and of its squares, whatever the inputs hold.
theorem sums_array :
    (∀ j : Fin 128, outArr1_6 V c (ix2 (0 : Fin 1) j) = ∑ n : Fin 100000, outArr1_5 V c (ix2 n j))
    ∧ (∀ j : Fin 128, outArr1_7 V c (ix2 (0 : Fin 1) j) = ∑ n : Fin 100000, outArr1_5 V c (ix2 n j) * outArr1_5 V c (ix2 n j)) := by
  rw [show outArr1_5 V c = yArr1 V c from y_array V c, show outArr1_6 V c = _ from array1_6 V c _ (dat1_after_out6 V c tEnd1),
    show outArr1_7 V c = _ from array1_7 V c _ (dat1_after_out7 V c tEnd1)]
  exact ⟨fun j => total N_1 (yBlk1 V c) j (fun y => y) (fun n h => sumAt1 V c n h (ix2 (0 : Fin 1) j))
      (fun h => by rw [sumAt1_zero]; exact (sum_rows _ _ _ _ _ _ j).trans ((congrArg (· + _) (reset_rows _).1).trans (zero_add _)))
      (fun n h => by rw [sumAt1_succ]; exact sum_rows _ _ _ _ _ _ j),
    fun j => total N_1 (yBlk1 V c) j (fun y => y * y) (fun n h => sqAt1 V c n h (ix2 (0 : Fin 1) j))
      (fun h => by rw [sqAt1_zero]; exact (sq_rows _ _ _ _ _ _ j).trans ((congrArg (· + _) (reset_rows _).2).trans (zero_add _)))
      (fun n h => by rw [sqAt1_succ]; exact sq_rows _ _ _ _ _ _ j)⟩

end Cert.KernelIdeal.Value.R1

end
-- ==== Proof.Value.Sage3.lean ====
import proofs.«424731_j88648124990764_2_alg».proof.Proof.KernelIdeal.Region3
import proofs.«424731_j88648124990764_2_alg».proof.Proof.Value.Sage

set_option maxRecDepth 16384

noncomputable section

namespace Cert.KernelIdeal.Value.R3

open Idealize.ShloMosaic Idealize.ShloMosaic.ValueIdx Idealize.ShloMosaic.TcCoe
open Idealize.ShloMosaic.Pipeline (Dat)
open Cert.KernelIdeal Cert.KernelIdeal.Gen Cert.KernelIdeal.Hand
open Cert.KernelIdeal.Value.R1 (sum_rows sq_rows reset_rows sage_stage stack stack_apply total arrAt_last)

variable (V : (c : Dev nD) → (b : Ref sig .tc) → Buf (Elt Ideal) ((c : Thread nD τ).loc b)) (c : Dev nD)

abbrev arr3_0 : FVec Ideal S100000x128 .f32 := V c (Pipeline.arrRef spec3 0)
abbrev arr3_1 : FVec Ideal S100000x128 .bf16 := V c (Pipeline.arrRef spec3 1)
abbrev arr3_2 : FVec Ideal S128x128 .f32 := V c (Pipeline.arrRef spec3 2)
abbrev arr3_3 : FVec Ideal S1x128 .f32 := V c (Pipeline.arrRef spec3 3)
abbrev arr3_4 : FVec Ideal S128x128 .f32 := V c (Pipeline.arrRef spec3 4)

-- The block indices over the ten points: the means, the features and y are at block (t, 0), the others at (0, 0).
theorem idx3 : ∀ t : Fin cfg3.N, (win3_0.index t 0 = t.val ∧ win3_0.index t 1 = 0) ∧ (win3_1.index t 0 = t.val ∧ win3_1.index t 1 = 0)
    ∧ (win3_2.index t 0 = 0 ∧ win3_2.index t 1 = 0) ∧ (win3_3.index t 0 = 0 ∧ win3_3.index t 1 = 0) ∧ (win3_4.index t 0 = 0 ∧ win3_4.index t 1 = 0)
    ∧ (win3_5.index t 0 = t.val ∧ win3_5.index t 1 = 0) ∧ (win3_6.index t 0 = 0 ∧ win3_6.index t 1 = 0) ∧ (win3_7.index t 0 = 0 ∧ win3_7.index t 1 = 0) :=
  (by decide +kernel : ∀ t : Fin grid3.N, _)

-- Point t's input blocks are rows 10000·t … of the two row-blocked arrays and the three small arrays whole.
theorem blk3_apply (t : Fin cfg3.N) (r : Fin 10000) (n : Fin 100000) (hn : n.val = 10000 * t.val + r.val) (j k : Fin 128) :
    iblk3 V c 0 t (ix2 r k) = arr3_0 V c (ix2 n k) ∧ iblk3 V c 1 t (ix2 r k) = arr3_1 V c (ix2 n k) ∧ iblk3 V c 2 t (ix2 k j) = arr3_2 V c (ix2 k j)
      ∧ iblk3 V c 3 t (ix2 (0 : Fin 1) j) = arr3_3 V c (ix2 (0 : Fin 1) j) ∧ iblk3 V c 4 t (ix2 k j) = arr3_4 V c (ix2 k j) := by
  obtain ⟨⟨a0, a1⟩, ⟨b0, b1⟩, ⟨c0, c1⟩, ⟨d0, d1⟩, ⟨e0, e1⟩, -⟩ := idx3 t
  refine ⟨congrArg (arr3_0 V c) (Shape.idx_ext₂ ?_ ?_), congrArg (arr3_1 V c) (Shape.idx_ext₂ ?_ ?_), congrArg (arr3_2 V c) (Shape.idx_ext₂ ?_ ?_),
    congrArg (arr3_3 V c) (Shape.idx_ext₂ ?_ ?_), congrArg (arr3_4 V c) (Shape.idx_ext₂ ?_ ?_)⟩
  · show win3_0.index t 0 * 10000 + 1 * r.val = n.val; omega
  · show win3_0.index t 1 * 128 + 1 * k.val = k.val; omega
  · show win3_1.index t 0 * 10000 + 1 * r.val = n.val; omega
  · show win3_1.index t 1 * 128 + 1 * k.val = k.val; omega
  · show win3_2.index t 0 * 128 + 1 * k.val = k.val; omega
  · show win3_2.index t 1 * 128 + 1 * j.val = j.val; omega
  · show win3_3.index t 0 * 1 + 1 * 0 = 0; omega
  · show win3_3.index t 1 * 128 + 1 * j.val = j.val; omega
  · show win3_4.index t 0 * 128 + 1 * k.val = k.val; omega
  · show win3_4.index t 1 * 128 + 1 * j.val = j.val; omega

-- y's block at point t,
abbrev yBlk3 (t : Fin cfg3.N) : FVec Ideal S10000x128 .f32 :=
  out3_5 (F := Ideal) (iblk3 V c 0 t) (iblk3 V c 1 t) (iblk3 V c 2 t) (iblk3 V c 3 t) (iblk3 V c 4 t)

-- and the array of the ten blocks.
abbrev yArr3 : FVec Ideal S100000x128 .f32 := stack N_3 (yBlk3 V c)

-- What every point writes back of window 5 is its block of y.
theorem y_flushed (t : Fin cfg3.N) (hf : (cfg3.win 5).flush t = true) :
    (dat3 V c).flushed 5 t = ((cfg3.win 5).blk t).view.read (Elt Ideal) (yArr3 V c) := by
  show (cfg3.win 5).cut (grid3.coords t) ((dat3 V c).after 5 t) = _
  rw [dat3_after_out5]
  funext y
  obtain ⟨r, j, rfl⟩ : ∃ (r : Fin 10000) (j : Fin 128), y = ix2 r j := ⟨y 0, y 1, eq_ix2 y⟩
  obtain ⟨-, -, -, -, -, ⟨e0, e1⟩, -⟩ := idx3 t
  exact (stack_apply N_3 (yBlk3 V c) t r j (((cfg3.win 5).blk t).view.emb (ix2 r j)) (by show win3_5.index t 0 * 10000 + 1 * r.val = _; omega)
    (by show win3_5.index t 1 * 128 + 1 * j.val = _; omega)).symm

-- The ten blocks tile the array, so after the last point window 5's array is y.
theorem y_array : (dat3 V c).arrAt 5 cfg3.N = yArr3 V c :=
  (dat3 V c).arrAt_eq_of_cover 5 (yArr3 V c) (y_flushed V c) fun i => by
    have h0 : (i 0).val < 100000 := (i 0).isLt
    have h1 : (i 1).val < 128 := (i 1).isLt
    have ht : (i 0).val / 10000 < cfg3.N := by rw [show cfg3.N = 10 from N_3]; omega
    obtain ⟨-, -, -, -, -, ⟨e0, e1⟩, -⟩ := idx3 ⟨(i 0).val / 10000, ht⟩
    dsimp only at e0
    refine ⟨⟨(i 0).val / 10000, ht⟩, flush3_5 _, ?_⟩
    rw [View.set_slice_whole, Rect.mem_set_unit]
    intro a
    match a with
    | ⟨0, _⟩ =>
      show win3_5.index ⟨(i 0).val / 10000, ht⟩ 0 * 10000 ≤ (i 0).val ∧ (i 0).val < win3_5.index ⟨(i 0).val / 10000, ht⟩ 0 * 10000 + 10000
      omega
    | ⟨1, _⟩ =>
      show win3_5.index ⟨(i 0).val / 10000, ht⟩ 1 * 128 ≤ (i 1).val ∧ (i 1).val < win3_5.index ⟨(i 0).val / 10000, ht⟩ 1 * 128 + 128
      omega

-- With the region's inputs the stage's, window 5's array is the stage.
theorem sage_array (mean x : FVec Ideal S100000x128 .f32) (wl wr : FVec Ideal S128x128 .f32) (bl : FVec Ideal S128 .f32)
    (h0 : arr3_0 V c = mean) (h1 : arr3_1 V c = x)
    (h2 : arr3_2 V c = transpose S128x128 [1, 0] wl transposes_S128x128_S128x128_1_0)
    (h3 : arr3_3 V c = shapeCast S1x128 bl shapeCasts_S128_S1x128)
    (h4 : arr3_4 V c = transpose S128x128 [1, 0] wr transposes_S128x128_S128x128_1_0) :
    (dat3 V c).arrAt 5 cfg3.N = Cert.Spec.sageLin (F := Ideal) mean x wl bl wr := by
  refine (y_array V c).trans (funext fun i => ?_)
  obtain ⟨n, j, rfl⟩ : ∃ (n : Fin 100000) (j : Fin 128), i = ix2 n j := ⟨i 0, i 1, eq_ix2 i⟩
  have ht : n.val / 10000 < cfg3.N := by rw [show cfg3.N = 10 from N_3]; have := n.isLt; omega
  have hn : n.val = 10000 * (n.val / 10000) + n.val % 10000 := (Nat.div_add_mod n.val 10000).symm
  have e := blk3_apply V c ⟨n.val / 10000, ht⟩ ⟨n.val % 10000, Nat.mod_lt _ (by decide)⟩ n hn j
  refine (stack_apply N_3 (yBlk3 V c) ⟨n.val / 10000, ht⟩ ⟨n.val % 10000, Nat.mod_lt _ (by decide)⟩ j (ix2 n j) hn rfl).trans
    (sage_stage _ _ _ _ _ mean x wl wr bl _ j n (fun k => (e k).1.trans (congrFun h0 _)) (fun k => (e k).2.1.trans (congrFun h1 _))
      (fun k => (e k).2.2.1.trans ((congrFun h2 _).trans (transpose_ix2_apply wl _ k j)))
      ((e j).2.2.2.1.trans ((congrFun h3 _).trans (shapeCast_a_1a_apply bl _ 0 j)))
      (fun k => (e k).2.2.2.2.trans ((congrFun h4 _).trans (transpose_ix2_apply wr _ k j))))

-- The last point.
abbrev tEnd3 : Fin cfg3.N := ⟨9, by rw [show cfg3.N = 10 from N_3]; decide⟩

theorem last3 (t : Fin cfg3.N) : t.val % 10 = 9 ↔ t = tEnd3 :=
  ⟨fun h => Fin.ext (by have := lt_of_lt_of_eq t.isLt (show cfg3.N = 10 from N_3); show t.val = 9; omega), fun h => by subst h; rfl⟩

-- Windows 6 and 7's one block is their whole array: an index is its own image.
theorem emb3_67 (y : S1x128.Idx) : ((cfg3.win 6).blk tEnd3).view.emb y = y ∧ ((cfg3.win 7).blk tEnd3).view.emb y = y := by
  obtain ⟨-, -, -, -, -, -, ⟨a0, a1⟩, ⟨b0, b1⟩⟩ := idx3 tEnd3
  exact ⟨Shape.idx_ext₂ (by show win3_6.index tEnd3 0 * 1 + 1 * (y 0).val = (y 0).val; omega) (by show win3_6.index tEnd3 1 * 128 + 1 * (y 1).val = (y 1).val; omega),
    Shape.idx_ext₂ (by show win3_7.index tEnd3 0 * 1 + 1 * (y 0).val = (y 0).val; omega) (by show win3_7.index tEnd3 1 * 128 + 1 * (y 1).val = (y 1).val; omega)⟩

-- So after the last point they hold the rows that point leaves.
theorem array3_6 (G : FVec Ideal S1x128 .f32) (hG : (dat3 V c).after 6 tEnd3 = G) : (dat3 V c).arrAt 6 cfg3.N = G :=
  arrAt_last (dat3 V c) 6 tEnd3 G (fun t => (flush3_6 t).trans (last3 t))
    (by show (cfg3.win 6).cut (grid3.coords tEnd3) ((dat3 V c).after 6 tEnd3) = _; rw [hG]; exact funext fun y => (congrArg G (emb3_67 y).1).symm)
    fun i => by have := ((cfg3.win 6).blk tEnd3).view.emb_mem_set i; rwa [(emb3_67 i).1] at this

theorem array3_7 (G : FVec Ideal S1x128 .f32) (hG : (dat3 V c).after 7 tEnd3 = G) : (dat3 V c).arrAt 7 cfg3.N = G :=
  arrAt_last (dat3 V c) 7 tEnd3 G (fun t => (flush3_7 t).trans (last3 t))
    (by show (cfg3.win 7).cut (grid3.coords tEnd3) ((dat3 V c).after 7 tEnd3) = _; rw [hG]; exact funext fun y => (congrArg G (emb3_67 y).2).symm)
    fun i => by have := ((cfg3.win 7).blk tEnd3).view.emb_mem_set i; rwa [(emb3_67 i).2] at this

abbrev outArr3_5 : FVec Ideal S100000x128 .f32 := (dat3 V c).arrAt 5 cfg3.N
abbrev outArr3_6 : FVec Ideal S1x128 .f32 := (dat3 V c).arrAt 6 cfg3.N
abbrev outArr3_7 : FVec Ideal S1x128 .f32 := (dat3 V c).arrAt 7 cfg3.N

-- Windows 6 and 7's arrays are the column sums of window 5's array and of its squares, whatever the inputs hold.
theorem sums_array :
    (∀ j : Fin 128, outArr3_6 V c (ix2 (0 : Fin 1) j) = ∑ n : Fin 100000, outArr3_5 V c (ix2 n j))
    ∧ (∀ j : Fin 128, outArr3_7 V c (ix2 (0 : Fin 1) j) = ∑ n : Fin 100000, outArr3_5 V c (ix2 n j) * outArr3_5 V c (ix2 n j)) := by
  rw [show outArr3_5 V c = yArr3 V c from y_array V c, show outArr3_6 V c = _ from array3_6 V c _ (dat3_after_out6 V c tEnd3),
    show outArr3_7 V c = _ from array3_7 V c _ (dat3_after_out7 V c tEnd3)]
  exact ⟨fun j => total N_3 (yBlk3 V c) j (fun y => y) (fun n h => sumAt3 V c n h (ix2 (0 : Fin 1) j))
      (fun h => by rw [sumAt3_zero]; exact (sum_rows _ _ _ _ _ _ j).trans ((congrArg (· + _) (reset_rows _).1).trans (zero_add _)))
      (fun n h => by rw [sumAt3_succ]; exact sum_rows _ _ _ _ _ _ j),
    fun j => total N_3 (yBlk3 V c) j (fun y => y * y) (fun n h => sqAt3 V c n h (ix2 (0 : Fin 1) j))
      (fun h => by rw [sqAt3_zero]; exact (sq_rows _ _ _ _ _ _ j).trans ((congrArg (· + _) (reset_rows _).2).trans (zero_add _)))
      (fun n h => by rw [sqAt3_succ]; exact sq_rows _ _ _ _ _ _ j)⟩

end Cert.KernelIdeal.Value.R3

end
-- ==== Proof.Value.Chain.lean ====
import proofs.«424731_j88648124990764_2_alg».proof.Proof.KernelIdeal.RunBase
import proofs.«424731_j88648124990764_2_alg».proof.Proof.Spec.Stages
import proofs.«424731_j88648124990764_2_alg».proof.Proof.Value.Args
import proofs.«424731_j88648124990764_2_alg».proof.Proof.Value.Norm
import proofs.«424731_j88648124990764_2_alg».proof.Proof.Value.Host
import proofs.«424731_j88648124990764_2_alg».proof.Proof.Value.Embed
import proofs.«424731_j88648124990764_2_alg».proof.Proof.Value.Bn
import proofs.«424731_j88648124990764_2_alg».proof.Proof.Value.Bn4
import proofs.«424731_j88648124990764_2_alg».proof.Proof.Value.Pool
import proofs.«424731_j88648124990764_2_alg».proof.Proof.Value.FiniteStages
import proofs.«424731_j88648124990764_2_alg».proof.Proof.Value.Sage
import proofs.«424731_j88648124990764_2_alg».proof.Proof.Value.Sage3
import Idealize.ShloMosaic.PureOps.Ideal.Laws
import Idealize.ShloMosaic.Lib.ValueIdx
import Idealize.ShloMosaic.Lib.StableHlo.Run

noncomputable section

namespace Cert.KernelIdeal.Value

open Cert.KernelIdeal Cert.KernelIdeal.Gen Idealize.ShloMosaic Idealize.ShloMosaic.TcCoe Idealize.ShloMosaic.ValueIdx Idealize.SL.Sem Idealize.ShloMosaic.StableHlo
open scoped BigOperators

variable (m : (ℓ : Loc nD τ sig) → Buf (Elt Ideal) ℓ) (outs : Outs (F := Ideal))

def x0 (c : Dev nD) : FVec Ideal S100000x128 .f32 :=
  Cert.Spec.embed (F := Ideal) (arg m c main_arg0) (arg m c main_arg1) (arg m c main_arg2) (arg m c main_arg5) (arg m c main_arg6) (arg m c main_arg7)
def y1 (c : Dev nD) : FVec Ideal S100000x128 .f32 :=
  Cert.Spec.sageLin (F := Ideal) (Cert.Spec.aggregate (x0 m c) (arg m c main_arg3)) (x0 m c) (arg m c main_arg8) (arg m c main_arg9) (arg m c main_arg10)
def h1 (c : Dev nD) : FVec Ideal S100000x128 .f32 := Cert.Spec.bnRelu (F := Ideal) (y1 m c) (arg m c main_arg11) (arg m c main_arg12)
def y2 (c : Dev nD) : FVec Ideal S100000x128 .f32 :=
  Cert.Spec.sageLin (F := Ideal) (Cert.Spec.aggregate (h1 m c) (arg m c main_arg3)) (h1 m c) (arg m c main_arg13) (arg m c main_arg14) (arg m c main_arg15)
def h2 (c : Dev nD) : FVec Ideal S100000x128 .f32 := Cert.Spec.bnRelu (F := Ideal) (y2 m c) (arg m c main_arg16) (arg m c main_arg17)

variable (h : Hand.OutsOk m outs) (c : Dev nD)
  (hs : ∀ n : Fin 100000, 0 ≤ ((arg m c main_arg0 : IVec S100000 32) (ix1 n)).toInt ∧ ((arg m c main_arg0 : IVec S100000 32) (ix1 n)).toInt < 64)
  (hk : ∀ n : Fin 100000, 0 ≤ ((arg m c main_arg1 : IVec S100000 32) (ix1 n)).toInt ∧ ((arg m c main_arg1 : IVec S100000 32) (ix1 n)).toInt < 32)
  (hp : ∀ n : Fin 100000, 0 ≤ ((arg m c main_arg2 : IVec S100000 32) (ix1 n)).toInt)
  (hfin : FiniteArgs m c)

include hfin in
theorem fin_y1 : RealV (y1 m c) :=
  have hx : RealV (x0 m c) := embed_finite hfin.a5 hfin.a6 hfin.a7
  sageLin_finite (aggregate_finite _ hx) hx hfin.a8 hfin.a9 hfin.a10

include hfin in
theorem fin_y2 : RealV (y2 m c) :=
  have hx : RealV (h1 m c) := norm_finite (fin_y1 m c hfin) hfin.a11 hfin.a12
  sageLin_finite (aggregate_finite _ hx) hx hfin.a13 hfin.a14 hfin.a15

include h hs hk hp in
theorem link_embed : V4 m outs c main_v8 = x0 m c := by
  obtain ⟨h5, h6, h7, ht3, ht4, ht5⟩ := entry0 m c
  exact (Hand.Vout0_at6 m outs c).trans ((h.o0 c).trans
    (embed_array (Hand.E0 m) c _ _ _ _ _ _ _ h_S_ h5 h6 h7 ht3 ht4 ht5 hs hk hp))

include h hs hk hp hfin in
theorem link_bn1 : V8 m outs c main_v50 = h1 m c := by
  obtain ⟨hag, hwl, hwr, hbl, hx⟩ := entry1 m outs c
  obtain ⟨hsc, hsh, hy7⟩ := entry2 m outs c
  obtain ⟨hS, hQ⟩ := R1.sums_array (Hand.E1 m outs) c
  rw [link_embed m outs h c hs hk hp] at hag hx
  have hA : R1.outArr1_5 (Hand.E1 m outs) c = y1 m c :=
    R1.sage_array (Hand.E1 m outs) c _ _ (arg m c main_arg8) (arg m c main_arg10) (arg m c main_arg9) hag hx hwl hbl hwr
  have h5 : V6 m outs c main_v33_0 = y1 m c := (Hand.Vout1_at5 m outs c).trans ((h.o1_5 c).trans hA)
  have h6 : V6 m outs c main_v33_1 = R1.outArr1_6 (Hand.E1 m outs) c := (Hand.Vout1_at6 m outs c).trans (h.o1_6 c)
  have h7 : V6 m outs c main_v33_2 = R1.outArr1_7 (Hand.E1 m outs) c := (Hand.Vout1_at7 m outs c).trans (h.o1_7 c)
  rw [hA, ← h6] at hS
  rw [hA, ← h7] at hQ
  rw [show V8 m outs c main_v50 = outs 8 main_v50 c from Hand.Vout2_at3 m outs c, h.o2 c]
  funext i
  obtain ⟨n, j, rfl⟩ : ∃ n j, i = ix2 n j := ⟨i 0, i 1, eq_ix2 i⟩
  rw [R2.bn_array (Hand.E2 m outs) c (y1 m c) _ _ (hy7.trans h5) hsc hsh n j]
  exact norm_eq (fin_y1 m c hfin) hfin.a11 hfin.a12 hS hQ n j

include h hs hk hp hfin in
theorem link_bn2 : V12 m outs c main_v82 = h2 m c := by
  obtain ⟨hag, hwl, hwr, hbl, hx⟩ := entry3 m outs c
  obtain ⟨hsc, hsh, hy7⟩ := entry4 m outs c
  obtain ⟨hS, hQ⟩ := R3.sums_array (Hand.E3 m outs) c
  rw [link_bn1 m outs h c hs hk hp hfin] at hag hx
  have hA : R3.outArr3_5 (Hand.E3 m outs) c = y2 m c :=
    R3.sage_array (Hand.E3 m outs) c _ _ (arg m c main_arg13) (arg m c main_arg15) (arg m c main_arg14) hag hx hwl hbl hwr
  have h5 : V10 m outs c main_v65_0 = y2 m c := (Hand.Vout3_at5 m outs c).trans ((h.o3_5 c).trans hA)
  have h6 : V10 m outs c main_v65_1 = R3.outArr3_6 (Hand.E3 m outs) c := (Hand.Vout3_at6 m outs c).trans (h.o3_6 c)
  have h7 : V10 m outs c main_v65_2 = R3.outArr3_7 (Hand.E3 m outs) c := (Hand.Vout3_at7 m outs c).trans (h.o3_7 c)
  rw [hA, ← h6] at hS
  rw [hA, ← h7] at hQ
  rw [show V12 m outs c main_v82 = outs 12 main_v82 c from Hand.Vout4_at3 m outs c, h.o4 c]
  funext i
  obtain ⟨n, j, rfl⟩ : ∃ n j, i = ix2 n j := ⟨i 0, i 1, eq_ix2 i⟩
  rw [R4.bn_array (Hand.E4 m outs) c (y2 m c) _ _ (hy7.trans h5) hsc hsh n j]
  exact norm_eq (fin_y2 m c hfin) hfin.a16 hfin.a17 hS hQ n j

include h hs hk hp hfin in
theorem kernel_value :
    V19 m outs c main_v89
      = Cert.Spec.out (F := Ideal) (arg m c main_arg0) (arg m c main_arg1) (arg m c main_arg2) (arg m c main_arg3) (arg m c main_arg4)
          (arg m c main_arg5) (arg m c main_arg6) (arg m c main_arg7)
          (arg m c main_arg8) (arg m c main_arg9) (arg m c main_arg10) (arg m c main_arg11) (arg m c main_arg12)
          (arg m c main_arg13) (arg m c main_arg14) (arg m c main_arg15) (arg m c main_arg16) (arg m c main_arg17)
          (arg m c main_arg18) (arg m c main_arg19) := by
  show _ = Cert.Spec.poolHead (F := Ideal) (h2 m c) (arg m c main_arg4) (arg m c main_arg18) (arg m c main_arg19)
  rw [result_slice m outs c, show V18 m outs c main_v88 = outs 18 main_v88 c from Hand.Vout5_at4 m outs c, h.o5 c,
    head_result (Hand.E5 m outs) (V12 m outs c) c (fun b => rfl), link_bn2 m outs h c hs hk hp hfin,
    V12_arg m outs c main_arg4 (by decide), V12_arg m outs c main_arg18 (by decide), V12_arg m outs c main_arg19 (by decide)]

end Cert.KernelIdeal.Value

end
-- ==== Proof.Ref.Ops.lean ====
/-
  The reference's @main as ONE list of its 203 whole-array operations, in order: the 158 statements of its three windows,
  each of the four calls (the variance function twice, with `where` called inside it, and `relu` twice) replaced by the
  callee's operations over that call's buffer record. The comments in the list name the stage of the computation the
  next operations belong to (N = 100000 nodes, E = 1600000 edges, 128 features, 512 graphs, 10 classes).
-/
import proofs.«424731_j88648124990764_2_alg».proof.ReferenceIdeal
import proofs.«424731_j88648124990764_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 203 operations, in order. A call's operations stand where the call does, over the call's record: the
    variance function's nineteen and, inside it, the three of `where` (records `main_call0` for layer 1's batch
    statistics, `main_call2` for layer 2's, their `call0` the inner call's), and `relu`'s three (`main_call1`,
    `main_call3`); the operand a call is given is its caller's buffer, named at the callee's argument type. -/
abbrev ops : List (HloOp τ sig (Elt F)) := [
    -- the edge list's two rows, each as a vector of E = 1600000 ids: sources (%1) and targets (%3)
    unary main_arg3 main_v0 (extractStridedSlice S1x1600000 ![0, 0] · slices_S2x1600000_S1x1600000_0_0),
    reshape main_v0 main_v1 rfl shapeCasts_S1x1600000_S1600000,
    unary main_arg3 main_v2 (extractStridedSlice S1x1600000 ![1, 0] · slices_S2x1600000_S1x1600000_1_0),
    reshape main_v2 main_v3 rfl shapeCasts_S1x1600000_S1600000,
    -- position ids capped at 512, the position table's last row
    nullary main_c (constantI S_ 32 512#32),
    unary main_c main_v4 (broadcastInDim S100000 ![] bcast_S_S100000),
    binary main_arg2 main_v4 main_v5 minsi,
    -- shape embedding: an id below 0 is moved up by the table's 64 rows, the ids are made a column, and the table's rows are gathered
    nullary main_c_0 (constantI S_ 32 0#32),
    unary main_c_0 main_v6 (broadcastInDim S100000 ![] bcast_S_S100000),
    binary main_arg0 main_v6 main_v7 (cmpi .slt),
    nullary main_c_1 (constantI S_ 32 64#32),
    unary main_c_1 main_v8 (broadcastInDim S100000 ![] bcast_S_S100000),
    binary main_arg0 main_v8 main_v9 addi,
    ternary main_v7 main_v9 main_arg0 main_v10 select,
    unary main_v10 main_v11 (broadcastInDim S100000x1 ![0] bcast_S100000_S100000x1_0),
    binary main_arg5 main_v11 main_v12 (fun x i => Host.gather gather_S64x128_S100000x1_S100000x128_1_0_n_n_0_1_1128 x i),
    -- colour embedding, the same over the table's 32 rows
    nullary main_c_2 (constantI S_ 32 0#32),
    unary main_c_2 main_v13 (broadcastInDim S100000 ![] bcast_S_S100000),
    binary main_arg1 main_v13 main_v14 (cmpi .slt),
    nullary main_c_3 (constantI S_ 32 32#32),
    unary main_c_3 main_v15 (broadcastInDim S100000 ![] bcast_S_S100000),
    binary main_arg1 main_v15 main_v16 addi,
    ternary main_v14 main_v16 main_arg1 main_v17 select,
    unary main_v17 main_v18 (broadcastInDim S100000x1 ![0] bcast_S100000_S100000x1_0),
    binary main_arg6 main_v18 main_v19 (fun x i => Host.gather gather_S32x128_S100000x1_S100000x128_1_0_n_n_0_1_1128 x i),
    -- shape row + colour row
    binary main_v12 main_v19 main_v20 addf,
    -- position embedding, of the capped ids, over the table's 513 rows
    nullary main_c_4 (constantI S_ 32 0#32),
    unary main_c_4 main_v21 (broadcastInDim S100000 ![] bcast_S_S100000),
    binary main_v5 main_v21 main_v22 (cmpi .slt),
    nullary main_c_5 (constantI S_ 32 513#32),
    unary main_c_5 main_v23 (broadcastInDim S100000 ![] bcast_S_S100000),
    binary main_v5 main_v23 main_v24 addi,
    ternary main_v22 main_v24 main_v5 main_v25 select,
    unary main_v25 main_v26 (broadcastInDim S100000x1 ![0] bcast_S100000_S100000x1_0),
    binary main_arg7 main_v26 main_v27 (fun x i => Host.gather gather_S513x128_S100000x1_S100000x128_1_0_n_n_0_1_1128 x i),
    -- x₀ = shape + colour + position, N × 128 (%28)
    binary main_v20 main_v27 main_v28 addf,
    -- layer 1, messages: source ids below 0 moved up by N = 100000, made a column; x₀'s rows gathered along the edges (%35)
    nullary main_c_6 (constantI S_ 32 0#32),
    unary main_c_6 main_v29 (broadcastInDim S1600000 ![] bcast_S_S1600000),
    binary main_v1 main_v29 main_v30 (cmpi .slt),
    nullary main_c_7 (constantI S_ 32 100000#32),
    unary main_c_7 main_v31 (broadcastInDim S1600000 ![] bcast_S_S1600000),
    binary main_v1 main_v31 main_v32 addi,
    ternary main_v30 main_v32 main_v1 main_v33 select,
    unary main_v33 main_v34 (broadcastInDim S1600000x1 ![0] bcast_S1600000_S1600000x1_0),
    binary main_v28 main_v34 main_v35 (fun x i => Host.gather gather_S100000x128_S1600000x1_S1600000x128_1_0_n_n_0_1_1128 x i),
    -- summed at their targets: scatter-add into an N × 128 array of zeros (%38)
    nullary main_cst (constant S_ .f32 0x00000000#32),
    unary main_cst main_v36 (broadcastInDim S100000x128 ![] bcast_S_S100000x128),
    unary main_v3 main_v37 (broadcastInDim S1600000x1 ![0] bcast_S1600000_S1600000x1_0),
    ternary main_v36 main_v37 main_v35 main_v38 (fun x i u => Host.scatterAdd scatter_S100000x128_S1600000x1_S1600000x128_1_0_0_1 x i u),
    -- in-degrees: a column of E ones scatter-added into N zeros (%42)
    nullary main_cst_8 (constant S_ .f32 0x3F800000#32),
    unary main_cst_8 main_v39 (broadcastInDim S1600000x1 ![] bcast_S_S1600000x1),
    nullary main_cst_9 (constant S_ .f32 0x00000000#32),
    unary main_cst_9 main_v40 (broadcastInDim S100000x1 ![] bcast_S_S100000x1),
    unary main_v3 main_v41 (broadcastInDim S1600000x1 ![0] bcast_S1600000_S1600000x1_0),
    ternary main_v40 main_v41 main_v39 main_v42 (fun x i u => Host.scatterAdd scatter_S100000x1_S1600000x1_S1600000x1_1_0_0_1 x i u),
    -- the mean over in-neighbours: the sum divided by max(degree, 1) (%46)
    nullary main_cst_10 (constant S_ .f32 0x3F800000#32),
    unary main_cst_10 main_v43 (broadcastInDim S100000x1 ![] bcast_S_S100000x1),
    binary main_v42 main_v43 main_v44 maximumf,
    unary main_v44 main_v45 (broadcastInDim S100000x128 ![0, 1] bcast_S100000x1_S100000x128_0_1),
    binary main_v38 main_v45 main_v46 Host.divf,
    -- y = mean · W_lᵀ + b_l + x₀ · W_rᵀ (%54)
    unary main_arg8 main_v47 (transpose S128x128 [1, 0] · transposes_S128x128_S128x128_1_0),
    binary main_v46 main_v47 main_v48 (fun l r => Host.dotGeneral dot_S100000x128_S128x128_S100000x128_1_0_0_1_n_n none l r),
    unary main_arg9 main_v49 (broadcastInDim S1x128 ![1] bcast_S128_S1x128_1),
    unary main_v49 main_v50 (broadcastInDim S100000x128 ![0, 1] bcast_S1x128_S100000x128_0_1),
    binary main_v48 main_v50 main_v51 addf,
    unary main_arg10 main_v52 (transpose S128x128 [1, 0] · transposes_S128x128_S128x128_1_0),
    binary main_v28 main_v52 main_v53 (fun l r => Host.dotGeneral dot_S100000x128_S128x128_S100000x128_1_0_0_1_n_n none l r),
    binary main_v51 main_v53 main_v54 addf,
    -- column means of y: the sum over the N rows divided by 100000 (%57)
    nullary main_cst_11 (constant S_ .f32 0x00000000#32),
    binary main_v54 main_cst_11 main_v55 (fun x v => Host.reduceAdd x v reducesTo_S100000x128_S128_d0 h_S_),
    nullary main_cst_12 (constant S_ .f32 0x47C35000#32),
    unary main_cst_12 main_v56 (broadcastInDim S128 ![] bcast_S_S128),
    binary main_v55 main_v56 main_v57 Host.divf,
    -- the variance's degrees-of-freedom correction, 0
    nullary main_c_13 (constantI S_ 32 0#32),
    -- var(y, 0) — the outlined function's 19 operations and, inside it, where's 3 — : the mean again, the squared deviations summed and divided by N − 0, kept where N − 0 > 0 (%58)
    TRef.nullary main_call0.cst (constant S_ .f32 0x00000000#32),
    TRef.binary (.of main_v54 : TRef sig ⟨S100000x128, .f32⟩) main_call0.cst main_call0.v0 (fun x v => Host.reduceAdd x v reducesTo_S100000x128_S128_d0 h_S_),
    TRef.unary main_call0.v0 main_call0.v1 (broadcastInDim S1x128 ![1] bcast_S128_S1x128_1),
    TRef.nullary main_call0.cst_0 (constant S_ .f32 0x47C35000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S100000x128 ![0, 1] bcast_S1x128_S100000x128_0_1),
    TRef.binary (.of main_v54 : TRef sig ⟨S100000x128, .f32⟩) main_call0.v4 main_call0.v5 subf,
    TRef.binary main_call0.v5 main_call0.v5 main_call0.v6 mulf,
    TRef.unary (.of main_c_13 : TRef sig ⟨S_, .i32⟩) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    -- y − mean
    unary main_v57 main_v59 (broadcastInDim S1x128 ![1] bcast_S128_S1x128_1),
    unary main_v59 main_v60 (broadcastInDim S100000x128 ![0, 1] bcast_S1x128_S100000x128_0_1),
    binary main_v54 main_v60 main_v61 subf,
    -- 1 / √(var + 1e-5)
    nullary main_cst_14 (constant S_ .f32 0x3727C5AC#32),
    unary main_cst_14 main_v62 (broadcastInDim S128 ![] bcast_S_S128),
    binary main_v58 main_v62 main_v63 addf,
    unary main_v63 main_v64 Host.rsqrt,
    -- (y − mean) · that
    unary main_v64 main_v65 (broadcastInDim S1x128 ![1] bcast_S128_S1x128_1),
    unary main_v65 main_v66 (broadcastInDim S100000x128 ![0, 1] bcast_S1x128_S100000x128_0_1),
    binary main_v61 main_v66 main_v67 mulf,
    -- · γ
    unary main_arg11 main_v68 (broadcastInDim S1x128 ![1] bcast_S128_S1x128_1),
    unary main_v68 main_v69 (broadcastInDim S100000x128 ![0, 1] bcast_S1x128_S100000x128_0_1),
    binary main_v67 main_v69 main_v70 mulf,
    -- + β (%73)
    unary main_arg12 main_v71 (broadcastInDim S1x128 ![1] bcast_S128_S1x128_1),
    unary main_v71 main_v72 (broadcastInDim S100000x128 ![0, 1] bcast_S1x128_S100000x128_0_1),
    binary main_v70 main_v72 main_v73 addf,
    -- relu — the outlined function's 3 operations — : h₁ = max(·, 0) (%74)
    TRef.nullary main_call1.cst (constant S_ .f32 0x00000000#32),
    TRef.unary main_call1.cst main_call1.v0 (broadcastInDim S100000x128 ![] bcast_S_S100000x128),
    TRef.binary (.of main_v73 : TRef sig ⟨S100000x128, .f32⟩) main_call1.v0 main_call1.v1 maximumf,
    -- layer 2, messages: h₁'s rows gathered along the edges (the sources wrapped as before) (%81)
    nullary main_c_15 (constantI S_ 32 0#32),
    unary main_c_15 main_v75 (broadcastInDim S1600000 ![] bcast_S_S1600000),
    binary main_v1 main_v75 main_v76 (cmpi .slt),
    nullary main_c_16 (constantI S_ 32 100000#32),
    unary main_c_16 main_v77 (broadcastInDim S1600000 ![] bcast_S_S1600000),
    binary main_v1 main_v77 main_v78 addi,
    ternary main_v76 main_v78 main_v1 main_v79 select,
    unary main_v79 main_v80 (broadcastInDim S1600000x1 ![0] bcast_S1600000_S1600000x1_0),
    binary main_v74 main_v80 main_v81 (fun x i => Host.gather gather_S100000x128_S1600000x1_S1600000x128_1_0_n_n_0_1_1128 x i),
    -- summed at their targets (%84)
    nullary main_cst_17 (constant S_ .f32 0x00000000#32),
    unary main_cst_17 main_v82 (broadcastInDim S100000x128 ![] bcast_S_S100000x128),
    unary main_v3 main_v83 (broadcastInDim S1600000x1 ![0] bcast_S1600000_S1600000x1_0),
    ternary main_v82 main_v83 main_v81 main_v84 (fun x i u => Host.scatterAdd scatter_S100000x128_S1600000x1_S1600000x128_1_0_0_1 x i u),
    -- in-degrees again (%88)
    nullary main_cst_18 (constant S_ .f32 0x3F800000#32),
    unary main_cst_18 main_v85 (broadcastInDim S1600000x1 ![] bcast_S_S1600000x1),
    nullary main_cst_19 (constant S_ .f32 0x00000000#32),
    unary main_cst_19 main_v86 (broadcastInDim S100000x1 ![] bcast_S_S100000x1),
    unary main_v3 main_v87 (broadcastInDim S1600000x1 ![0] bcast_S1600000_S1600000x1_0),
    ternary main_v86 main_v87 main_v85 main_v88 (fun x i u => Host.scatterAdd scatter_S100000x1_S1600000x1_S1600000x1_1_0_0_1 x i u),
    -- the mean over in-neighbours (%92)
    nullary main_cst_20 (constant S_ .f32 0x3F800000#32),
    unary main_cst_20 main_v89 (broadcastInDim S100000x1 ![] bcast_S_S100000x1),
    binary main_v88 main_v89 main_v90 maximumf,
    unary main_v90 main_v91 (broadcastInDim S100000x128 ![0, 1] bcast_S100000x1_S100000x128_0_1),
    binary main_v84 main_v91 main_v92 Host.divf,
    -- mean · W_lᵀ, and the bias b_l as an N × 128 array
    unary main_arg13 main_v93 (transpose S128x128 [1, 0] · transposes_S128x128_S128x128_1_0),
    binary main_v92 main_v93 main_v94 (fun l r => Host.dotGeneral dot_S100000x128_S128x128_S100000x128_1_0_0_1_n_n none l r),
    unary main_arg14 main_v95 (broadcastInDim S1x128 ![1] bcast_S128_S1x128_1),
    unary main_v95 main_v96 (broadcastInDim S100000x128 ![0, 1] bcast_S1x128_S100000x128_0_1),
    -- y₂ = mean · W_lᵀ + b_l + h₁ · W_rᵀ (%100)
    binary main_v94 main_v96 main_v97 addf,
    unary main_arg15 main_v98 (transpose S128x128 [1, 0] · transposes_S128x128_S128x128_1_0),
    binary main_v74 main_v98 main_v99 (fun l r => Host.dotGeneral dot_S100000x128_S128x128_S100000x128_1_0_0_1_n_n none l r),
    binary main_v97 main_v99 main_v100 addf,
    -- column means of y₂ (%103)
    nullary main_cst_21 (constant S_ .f32 0x00000000#32),
    binary main_v100 main_cst_21 main_v101 (fun x v => Host.reduceAdd x v reducesTo_S100000x128_S128_d0 h_S_),
    nullary main_cst_22 (constant S_ .f32 0x47C35000#32),
    unary main_cst_22 main_v102 (broadcastInDim S128 ![] bcast_S_S128),
    binary main_v101 main_v102 main_v103 Host.divf,
    -- the correction, 0
    nullary main_c_23 (constantI S_ 32 0#32),
    -- var(y₂, 0), as above (%104)
    TRef.nullary main_call2.cst (constant S_ .f32 0x00000000#32),
    TRef.binary (.of main_v100 : TRef sig ⟨S100000x128, .f32⟩) main_call2.cst main_call2.v0 (fun x v => Host.reduceAdd x v reducesTo_S100000x128_S128_d0 h_S_),
    TRef.unary main_call2.v0 main_call2.v1 (broadcastInDim S1x128 ![1] bcast_S128_S1x128_1),
    TRef.nullary main_call2.cst_0 (constant S_ .f32 0x47C35000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S100000x128 ![0, 1] bcast_S1x128_S100000x128_0_1),
    TRef.binary (.of main_v100 : TRef sig ⟨S100000x128, .f32⟩) main_call2.v4 main_call2.v5 subf,
    TRef.binary main_call2.v5 main_call2.v5 main_call2.v6 mulf,
    TRef.unary (.of main_c_23 : TRef sig ⟨S_, .i32⟩) main_call2.v7 (sitofp .f32),
    TRef.nullary main_call2.cst_1 (constant S_ .f32 0x47C35000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S100000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    -- y₂ − mean
    unary main_v103 main_v105 (broadcastInDim S1x128 ![1] bcast_S128_S1x128_1),
    unary main_v105 main_v106 (broadcastInDim S100000x128 ![0, 1] bcast_S1x128_S100000x128_0_1),
    binary main_v100 main_v106 main_v107 subf,
    -- 1 / √(var + 1e-5)
    nullary main_cst_24 (constant S_ .f32 0x3727C5AC#32),
    unary main_cst_24 main_v108 (broadcastInDim S128 ![] bcast_S_S128),
    binary main_v104 main_v108 main_v109 addf,
    unary main_v109 main_v110 Host.rsqrt,
    -- (y₂ − mean) · that
    unary main_v110 main_v111 (broadcastInDim S1x128 ![1] bcast_S128_S1x128_1),
    unary main_v111 main_v112 (broadcastInDim S100000x128 ![0, 1] bcast_S1x128_S100000x128_0_1),
    binary main_v107 main_v112 main_v113 mulf,
    -- · γ
    unary main_arg16 main_v114 (broadcastInDim S1x128 ![1] bcast_S128_S1x128_1),
    unary main_v114 main_v115 (broadcastInDim S100000x128 ![0, 1] bcast_S1x128_S100000x128_0_1),
    binary main_v113 main_v115 main_v116 mulf,
    -- + β (%119)
    unary main_arg17 main_v117 (broadcastInDim S1x128 ![1] bcast_S128_S1x128_1),
    unary main_v117 main_v118 (broadcastInDim S100000x128 ![0, 1] bcast_S1x128_S100000x128_0_1),
    binary main_v116 main_v118 main_v119 addf,
    -- relu: h₂ (%120)
    TRef.nullary main_call3.cst (constant S_ .f32 0x00000000#32),
    TRef.unary main_call3.cst main_call3.v0 (broadcastInDim S100000x128 ![] bcast_S_S100000x128),
    TRef.binary (.of main_v119 : TRef sig ⟨S100000x128, .f32⟩) main_call3.v0 main_call3.v1 maximumf,
    -- pooling: h₂'s rows scatter-added into 512 × 128 zeros at their graph ids (%123)
    nullary main_cst_25 (constant S_ .f32 0x00000000#32),
    unary main_cst_25 main_v121 (broadcastInDim S512x128 ![] bcast_S_S512x128),
    unary main_arg4 main_v122 (broadcastInDim S100000x1 ![0] bcast_S100000_S100000x1_0),
    ternary main_v121 main_v122 main_v120 main_v123 (fun x i u => Host.scatterAdd scatter_S512x128_S100000x1_S100000x128_1_0_0_1 x i u),
    -- the classifier: pooled · Wᵀ + b, 512 × 10 — the result (%128)
    unary main_arg18 main_v124 (transpose S128x10 [1, 0] · transposes_S10x128_S128x10_1_0),
    binary main_v123 main_v124 main_v125 (fun l r => Host.dotGeneral dot_S512x128_S128x10_S512x10_1_0_0_1_n_n none l r),
    unary main_arg19 main_v126 (broadcastInDim S1x10 ![1] bcast_S10_S1x10_1),
    unary main_v126 main_v127 (broadcastInDim S512x10 ![0, 1] bcast_S1x10_S512x10_0_1),
    binary main_v125 main_v127 main_v128 addf ]

end Cert.ReferenceIdeal.Hand

end
-- ==== Proof.Ref.Run.lean ====
import proofs.«424731_j88648124990764_2_alg».proof.ReferenceIdeal
import proofs.«424731_j88648124990764_2_alg».proof.Proof.Gen.ReferenceIdeal
import proofs.«424731_j88648124990764_2_alg».proof.Proof.Ref.Ops
import Idealize.ShloMosaic.Lib.StableHlo.Run
noncomputable section
namespace Cert.ReferenceIdeal.Hand
open Cert.ReferenceIdeal Cert.ReferenceIdeal.Gen Idealize.ShloMosaic Idealize.ShloMosaic.TcCoe Idealize.SL.Sem Idealize.ShloMosaic.StableHlo
variable {F : FTy → Type} [FloatOps F]
set_option maxRecDepth 65536 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 65536 in
set_option maxHeartbeats 4000000 in
theorem ops_sub : (ops : List (HloOp τ sig (Elt F))).Forall fun op => op.bufs ⊆ tcRefs τ sig := by
  simp only [ops, List.forall_cons, List.Forall, unary_bufs_sub, binary_bufs_sub, nullary_bufs_sub, ternary_bufs_sub,
    reshape_bufs_sub, and_self]
set_option maxRecDepth 65536 in
set_option maxHeartbeats 4000000 in
theorem run (m : (ℓ : Loc nD τ sig) → Buf (Elt F) ℓ) (ρ : Dev nD → PrngReg) :
    θ_run defs (onTc (τ := τ) (main (F := F))) ⟨m, fun _ => 0, ρ⟩ (fun r => ∀ c : Dev nD,
      (∀ b : Ref sig .tc, r.2.mem ((c.tc : Thread nD τ).loc b) = after ops (fun b => m (c, b)) (Proc.devRef .tc b))) :=
  run_seq scopedRefs_eq scopedSems_eq defs main (fun _ => ops) main_eq (fun _ => ops_sub) m ρ
set_option maxRecDepth 65536 in
set_option maxHeartbeats 4000000 in
theorem result_index : (ops : List (HloOp τ sig (Elt F))).Forall fun op =>
    ∃ y : Ref sig .tc, 20 ≤ y.idx.val ∧ op.writes = {Proc.devRef (τ := τ) .tc y} := by
  repeat' (first | exact ⟨_, by decide, rfl⟩ | refine And.intro ?_ ?_)
theorem kept (W : Valuation τ sig (Elt F)) {r : Ref sig .tc} (hr : r.idx.val < 20) :
    after ops W (Proc.devRef .tc r) = W (Proc.devRef .tc r) :=
  after_of_forall_not_mem ops W fun op hop hb => by
    obtain ⟨y, hy, hw⟩ := List.forall_iff_forall_mem.mp result_index op hop
    rw [hw, Finset.mem_singleton] at hb
    have e := Proc.devRef_injective _ hb
    subst e; omega
theorem kept_args (W : Valuation τ sig (Elt F)) :
    after ops W (Proc.devRef .tc main_arg0) = W (Proc.devRef .tc main_arg0)
    ∧ after ops W (Proc.devRef .tc main_arg1) = W (Proc.devRef .tc main_arg1)
    ∧ after ops W (Proc.devRef .tc main_arg2) = W (Proc.devRef .tc main_arg2)
    ∧ after ops W (Proc.devRef .tc main_arg3) = W (Proc.devRef .tc main_arg3)
    ∧ after ops W (Proc.devRef .tc main_arg4) = W (Proc.devRef .tc main_arg4)
    ∧ after ops W (Proc.devRef .tc main_arg5) = W (Proc.devRef .tc main_arg5)
    ∧ after ops W (Proc.devRef .tc main_arg6) = W (Proc.devRef .tc main_arg6)
    ∧ after ops W (Proc.devRef .tc main_arg7) = W (Proc.devRef .tc main_arg7)
    ∧ after ops W (Proc.devRef .tc main_arg8) = W (Proc.devRef .tc main_arg8)
    ∧ after ops W (Proc.devRef .tc main_arg9) = W (Proc.devRef .tc main_arg9)
    ∧ after ops W (Proc.devRef .tc main_arg10) = W (Proc.devRef .tc main_arg10)
    ∧ after ops W (Proc.devRef .tc main_arg11) = W (Proc.devRef .tc main_arg11)
    ∧ after ops W (Proc.devRef .tc main_arg12) = W (Proc.devRef .tc main_arg12)
    ∧ after ops W (Proc.devRef .tc main_arg13) = W (Proc.devRef .tc main_arg13)
    ∧ after ops W (Proc.devRef .tc main_arg14) = W (Proc.devRef .tc main_arg14)
    ∧ after ops W (Proc.devRef .tc main_arg15) = W (Proc.devRef .tc main_arg15)
    ∧ after ops W (Proc.devRef .tc main_arg16) = W (Proc.devRef .tc main_arg16)
    ∧ after ops W (Proc.devRef .tc main_arg17) = W (Proc.devRef .tc main_arg17)
    ∧ after ops W (Proc.devRef .tc main_arg18) = W (Proc.devRef .tc main_arg18)
    ∧ after ops W (Proc.devRef .tc main_arg19) = W (Proc.devRef .tc main_arg19) :=
  by refine ⟨?_, ?_, ?_, ?_, ?_, ?_, ?_, ?_, ?_, ?_, ?_, ?_, ?_, ?_, ?_, ?_, ?_, ?_, ?_, ?_⟩ <;> exact kept W (by decide)
end Cert.ReferenceIdeal.Hand
end
-- ==== Proof.Ref.Value.lean ====
import proofs.«424731_j88648124990764_2_alg».proof.Proof.Ref.Run
import proofs.«424731_j88648124990764_2_alg».proof.Proof.Spec.Stages
noncomputable section
namespace Cert.ReferenceIdeal.Hand
open Cert.ReferenceIdeal Cert.ReferenceIdeal.Gen Idealize.ShloMosaic Idealize.ShloMosaic.TcCoe Idealize.SL.Sem Idealize.ShloMosaic.StableHlo
variable {F : FTy → Type} [FloatOps F]
set_option maxRecDepth 65536 in
set_option maxHeartbeats 8000000 in
theorem ref_value (W : Valuation τ sig (Elt F)) :
    after ops W (Proc.devRef .tc main_v128)
      = Cert.Spec.out (W (Proc.devRef .tc main_arg0)) (W (Proc.devRef .tc main_arg1)) (W (Proc.devRef .tc main_arg2))
          (W (Proc.devRef .tc main_arg3)) (W (Proc.devRef .tc main_arg4)) (W (Proc.devRef .tc main_arg5))
          (W (Proc.devRef .tc main_arg6)) (W (Proc.devRef .tc main_arg7)) (W (Proc.devRef .tc main_arg8))
          (W (Proc.devRef .tc main_arg9)) (W (Proc.devRef .tc main_arg10)) (W (Proc.devRef .tc main_arg11))
          (W (Proc.devRef .tc main_arg12)) (W (Proc.devRef .tc main_arg13)) (W (Proc.devRef .tc main_arg14))
          (W (Proc.devRef .tc main_arg15)) (W (Proc.devRef .tc main_arg16)) (W (Proc.devRef .tc main_arg17))
          (W (Proc.devRef .tc main_arg18)) (W (Proc.devRef .tc main_arg19)) := by
  after_results_simp
  rfl
end Cert.ReferenceIdeal.Hand
end
-- ==== Proof.Claims.lean ====
import proofs.«424731_j88648124990764_2_alg».proof.Defs
import proofs.«424731_j88648124990764_2_alg».proof.Proof.Gen.Kernel
import proofs.«424731_j88648124990764_2_alg».proof.Proof.Gen.KernelIdeal
import proofs.«424731_j88648124990764_2_alg».proof.Proof.Gen.ReferenceIdeal
import proofs.«424731_j88648124990764_2_alg».proof.Proof.Gen.Pre_finite_inputs
import proofs.«424731_j88648124990764_2_alg».proof.Proof.Kernel.Run
import proofs.«424731_j88648124990764_2_alg».proof.Proof.Kernel.Outs
import proofs.«424731_j88648124990764_2_alg».proof.Proof.KernelIdeal.Run
import proofs.«424731_j88648124990764_2_alg».proof.Proof.KernelIdeal.Outs
import proofs.«424731_j88648124990764_2_alg».proof.Proof.Value.PreBridge
import proofs.«424731_j88648124990764_2_alg».proof.Proof.Value.Chain
import proofs.«424731_j88648124990764_2_alg».proof.Proof.Ref.Run
import proofs.«424731_j88648124990764_2_alg».proof.Proof.Ref.Value
set_option maxRecDepth 16384
noncomputable section
open Idealize.ShloMosaic Idealize.ShloMosaic.TcCoe Idealize.SL.Sem
namespace Cert.Proof.Claims
theorem frame_K : Cert.frame_Kernel := fun m ρ _ =>
  (θ_run Cert.Kernel.defs _ _).mono (fun r hr c =>
    ⟨(hr c _ (Cert.Kernel.Hand.mem_uc Cert.Kernel.main_arg0 (by decide))).trans (Cert.Kernel.Gen.V19_main_arg0 m (Cert.Kernel.Hand.outsG m) c),
     (hr c _ (Cert.Kernel.Hand.mem_uc Cert.Kernel.main_arg1 (by decide))).trans (Cert.Kernel.Gen.V19_main_arg1 m (Cert.Kernel.Hand.outsG m) c),
     (hr c _ (Cert.Kernel.Hand.mem_uc Cert.Kernel.main_arg2 (by decide))).trans (Cert.Kernel.Gen.V19_main_arg2 m (Cert.Kernel.Hand.outsG m) c),
     (hr c _ (Cert.Kernel.Hand.mem_uc Cert.Kernel.main_arg3 (by decide))).trans (Cert.Kernel.Gen.V19_main_arg3 m (Cert.Kernel.Hand.outsG m) c),
     (hr c _ (Cert.Kernel.Hand.mem_uc Cert.Kernel.main_arg4 (by decide))).trans (Cert.Kernel.Gen.V19_main_arg4 m (Cert.Kernel.Hand.outsG m) c),
     (hr c _ (Cert.Kernel.Hand.mem_uc Cert.Kernel.main_arg5 (by decide))).trans (Cert.Kernel.Gen.V19_main_arg5 m (Cert.Kernel.Hand.outsG m) c),
     (hr c _ (Cert.Kernel.Hand.mem_uc Cert.Kernel.main_arg6 (by decide))).trans (Cert.Kernel.Gen.V19_main_arg6 m (Cert.Kernel.Hand.outsG m) c),
     (hr c _ (Cert.Kernel.Hand.mem_uc Cert.Kernel.main_arg7 (by decide))).trans (Cert.Kernel.Gen.V19_main_arg7 m (Cert.Kernel.Hand.outsG m) c),
     (hr c _ (Cert.Kernel.Hand.mem_uc Cert.Kernel.main_arg8 (by decide))).trans (Cert.Kernel.Gen.V19_main_arg8 m (Cert.Kernel.Hand.outsG m) c),
     (hr c _ (Cert.Kernel.Hand.mem_uc Cert.Kernel.main_arg9 (by decide))).trans (Cert.Kernel.Gen.V19_main_arg9 m (Cert.Kernel.Hand.outsG m) c),
     (hr c _ (Cert.Kernel.Hand.mem_uc Cert.Kernel.main_arg10 (by decide))).trans (Cert.Kernel.Gen.V19_main_arg10 m (Cert.Kernel.Hand.outsG m) c),
     (hr c _ (Cert.Kernel.Hand.mem_uc Cert.Kernel.main_arg11 (by decide))).trans (Cert.Kernel.Gen.V19_main_arg11 m (Cert.Kernel.Hand.outsG m) c),
     (hr c _ (Cert.Kernel.Hand.mem_uc Cert.Kernel.main_arg12 (by decide))).trans (Cert.Kernel.Gen.V19_main_arg12 m (Cert.Kernel.Hand.outsG m) c),
     (hr c _ (Cert.Kernel.Hand.mem_uc Cert.Kernel.main_arg13 (by decide))).trans (Cert.Kernel.Gen.V19_main_arg13 m (Cert.Kernel.Hand.outsG m) c),
     (hr c _ (Cert.Kernel.Hand.mem_uc Cert.Kernel.main_arg14 (by decide))).trans (Cert.Kernel.Gen.V19_main_arg14 m (Cert.Kernel.Hand.outsG m) c),
     (hr c _ (Cert.Kernel.Hand.mem_uc Cert.Kernel.main_arg15 (by decide))).trans (Cert.Kernel.Gen.V19_main_arg15 m (Cert.Kernel.Hand.outsG m) c),
     (hr c _ (Cert.Kernel.Hand.mem_uc Cert.Kernel.main_arg16 (by decide))).trans (Cert.Kernel.Gen.V19_main_arg16 m (Cert.Kernel.Hand.outsG m) c),
     (hr c _ (Cert.Kernel.Hand.mem_uc Cert.Kernel.main_arg17 (by decide))).trans (Cert.Kernel.Gen.V19_main_arg17 m (Cert.Kernel.Hand.outsG m) c),
     (hr c _ (Cert.Kernel.Hand.mem_uc Cert.Kernel.main_arg18 (by decide))).trans (Cert.Kernel.Gen.V19_main_arg18 m (Cert.Kernel.Hand.outsG m) c),
     (hr c _ (Cert.Kernel.Hand.mem_uc Cert.Kernel.main_arg19 (by decide))).trans (Cert.Kernel.Gen.V19_main_arg19 m (Cert.Kernel.Hand.outsG m) c)⟩)
    (Cert.Kernel.Hand.run_all m (Cert.Kernel.Hand.outsG m) ρ (Cert.Kernel.Hand.outsG_ok m))
theorem frame_KI : Cert.frame_KernelIdeal := fun m ρ _ =>
  (θ_run Cert.KernelIdeal.defs _ _).mono (fun r hr c =>
    ⟨(hr c _ (Cert.KernelIdeal.Hand.mem_uc Cert.KernelIdeal.main_arg0 (by decide))).trans (Cert.KernelIdeal.Gen.V19_main_arg0 m (Cert.KernelIdeal.Hand.outsG m) c),
     (hr c _ (Cert.KernelIdeal.Hand.mem_uc Cert.KernelIdeal.main_arg1 (by decide))).trans (Cert.KernelIdeal.Gen.V19_main_arg1 m (Cert.KernelIdeal.Hand.outsG m) c),
     (hr c _ (Cert.KernelIdeal.Hand.mem_uc Cert.KernelIdeal.main_arg2 (by decide))).trans (Cert.KernelIdeal.Gen.V19_main_arg2 m (Cert.KernelIdeal.Hand.outsG m) c),
     (hr c _ (Cert.KernelIdeal.Hand.mem_uc Cert.KernelIdeal.main_arg3 (by decide))).trans (Cert.KernelIdeal.Gen.V19_main_arg3 m (Cert.KernelIdeal.Hand.outsG m) c),
     (hr c _ (Cert.KernelIdeal.Hand.mem_uc Cert.KernelIdeal.main_arg4 (by decide))).trans (Cert.KernelIdeal.Gen.V19_main_arg4 m (Cert.KernelIdeal.Hand.outsG m) c),
     (hr c _ (Cert.KernelIdeal.Hand.mem_uc Cert.KernelIdeal.main_arg5 (by decide))).trans (Cert.KernelIdeal.Gen.V19_main_arg5 m (Cert.KernelIdeal.Hand.outsG m) c),
     (hr c _ (Cert.KernelIdeal.Hand.mem_uc Cert.KernelIdeal.main_arg6 (by decide))).trans (Cert.KernelIdeal.Gen.V19_main_arg6 m (Cert.KernelIdeal.Hand.outsG m) c),
     (hr c _ (Cert.KernelIdeal.Hand.mem_uc Cert.KernelIdeal.main_arg7 (by decide))).trans (Cert.KernelIdeal.Gen.V19_main_arg7 m (Cert.KernelIdeal.Hand.outsG m) c),
     (hr c _ (Cert.KernelIdeal.Hand.mem_uc Cert.KernelIdeal.main_arg8 (by decide))).trans (Cert.KernelIdeal.Gen.V19_main_arg8 m (Cert.KernelIdeal.Hand.outsG m) c),
     (hr c _ (Cert.KernelIdeal.Hand.mem_uc Cert.KernelIdeal.main_arg9 (by decide))).trans (Cert.KernelIdeal.Gen.V19_main_arg9 m (Cert.KernelIdeal.Hand.outsG m) c),
     (hr c _ (Cert.KernelIdeal.Hand.mem_uc Cert.KernelIdeal.main_arg10 (by decide))).trans (Cert.KernelIdeal.Gen.V19_main_arg10 m (Cert.KernelIdeal.Hand.outsG m) c),
     (hr c _ (Cert.KernelIdeal.Hand.mem_uc Cert.KernelIdeal.main_arg11 (by decide))).trans (Cert.KernelIdeal.Gen.V19_main_arg11 m (Cert.KernelIdeal.Hand.outsG m) c),
     (hr c _ (Cert.KernelIdeal.Hand.mem_uc Cert.KernelIdeal.main_arg12 (by decide))).trans (Cert.KernelIdeal.Gen.V19_main_arg12 m (Cert.KernelIdeal.Hand.outsG m) c),
     (hr c _ (Cert.KernelIdeal.Hand.mem_uc Cert.KernelIdeal.main_arg13 (by decide))).trans (Cert.KernelIdeal.Gen.V19_main_arg13 m (Cert.KernelIdeal.Hand.outsG m) c),
     (hr c _ (Cert.KernelIdeal.Hand.mem_uc Cert.KernelIdeal.main_arg14 (by decide))).trans (Cert.KernelIdeal.Gen.V19_main_arg14 m (Cert.KernelIdeal.Hand.outsG m) c),
     (hr c _ (Cert.KernelIdeal.Hand.mem_uc Cert.KernelIdeal.main_arg15 (by decide))).trans (Cert.KernelIdeal.Gen.V19_main_arg15 m (Cert.KernelIdeal.Hand.outsG m) c),
     (hr c _ (Cert.KernelIdeal.Hand.mem_uc Cert.KernelIdeal.main_arg16 (by decide))).trans (Cert.KernelIdeal.Gen.V19_main_arg16 m (Cert.KernelIdeal.Hand.outsG m) c),
     (hr c _ (Cert.KernelIdeal.Hand.mem_uc Cert.KernelIdeal.main_arg17 (by decide))).trans (Cert.KernelIdeal.Gen.V19_main_arg17 m (Cert.KernelIdeal.Hand.outsG m) c),
     (hr c _ (Cert.KernelIdeal.Hand.mem_uc Cert.KernelIdeal.main_arg18 (by decide))).trans (Cert.KernelIdeal.Gen.V19_main_arg18 m (Cert.KernelIdeal.Hand.outsG m) c),
     (hr c _ (Cert.KernelIdeal.Hand.mem_uc Cert.KernelIdeal.main_arg19 (by decide))).trans (Cert.KernelIdeal.Gen.V19_main_arg19 m (Cert.KernelIdeal.Hand.outsG m) c)⟩)
    (Cert.KernelIdeal.Hand.run_all m (Cert.KernelIdeal.Hand.outsG m) ρ (Cert.KernelIdeal.Hand.outsG_ok m))
theorem frame_R : Cert.frame_ReferenceIdeal := fun m ρ _ =>
  (θ_run Cert.ReferenceIdeal.defs _ _).mono (fun r h c => by
    obtain ⟨k0, k1, k2, k3, k4, k5, k6, k7, k8, k9, k10, k11, k12, k13, k14, k15, k16, k17, k18, k19⟩ := Cert.ReferenceIdeal.Hand.kept_args (F := Ideal) (fun b => m (c, b))
    exact ⟨(h c Cert.ReferenceIdeal.main_arg0).trans k0,
      (h c Cert.ReferenceIdeal.main_arg1).trans k1,
      (h c Cert.ReferenceIdeal.main_arg2).trans k2,
      (h c Cert.ReferenceIdeal.main_arg3).trans k3,
      (h c Cert.ReferenceIdeal.main_arg4).trans k4,
      (h c Cert.ReferenceIdeal.main_arg5).trans k5,
      (h c Cert.ReferenceIdeal.main_arg6).trans k6,
      (h c Cert.ReferenceIdeal.main_arg7).trans k7,
      (h c Cert.ReferenceIdeal.main_arg8).trans k8,
      (h c Cert.ReferenceIdeal.main_arg9).trans k9,
      (h c Cert.ReferenceIdeal.main_arg10).trans k10,
      (h c Cert.ReferenceIdeal.main_arg11).trans k11,
      (h c Cert.ReferenceIdeal.main_arg12).trans k12,
      (h c Cert.ReferenceIdeal.main_arg13).trans k13,
      (h c Cert.ReferenceIdeal.main_arg14).trans k14,
      (h c Cert.ReferenceIdeal.main_arg15).trans k15,
      (h c Cert.ReferenceIdeal.main_arg16).trans k16,
      (h c Cert.ReferenceIdeal.main_arg17).trans k17,
      (h c Cert.ReferenceIdeal.main_arg18).trans k18,
      (h c Cert.ReferenceIdeal.main_arg19).trans k19⟩)
    (Cert.ReferenceIdeal.Hand.run (F := Ideal) m ρ)
theorem preserves : Cert.preserves_Kernel_KernelIdeal := trivial
theorem algebraic : Cert.algebraic_KernelIdeal_ReferenceIdeal := by
  intro m ρ m' ρ' hpre hagree
  refine ⟨fun c => (Cert.Spec.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))
      : Buf (Elt Ideal) ((c.tc : Thread Cert.KernelIdeal.nD Cert.KernelIdeal.τ).loc Cert.KernelIdeal.main_v89)), ?_, ?_⟩
  · refine (θ_run Cert.KernelIdeal.defs _ _).mono (fun r hr c => ?_)
      (Cert.KernelIdeal.Hand.run_all m (Cert.KernelIdeal.Hand.outsG m) ρ (Cert.KernelIdeal.Hand.outsG_ok m))
    obtain ⟨hs, hk, hp⟩ := Cert.KernelIdeal.Value.ranges_of_pre' m hpre c
    exact ⟨(hr c _ (Cert.KernelIdeal.Hand.mem_uc Cert.KernelIdeal.main_v89 (by decide))).trans
        (Cert.KernelIdeal.Value.kernel_value m (Cert.KernelIdeal.Hand.outsG m) (Cert.KernelIdeal.Hand.outsG_ok m) c hs hk hp
          (Cert.KernelIdeal.Value.finiteArgs_of_pre m hpre c)),
      (hr c _ (Cert.KernelIdeal.Hand.mem_uc Cert.KernelIdeal.main_arg0 (by decide))).trans (Cert.KernelIdeal.Gen.V19_main_arg0 m (Cert.KernelIdeal.Hand.outsG m) c),
      (hr c _ (Cert.KernelIdeal.Hand.mem_uc Cert.KernelIdeal.main_arg1 (by decide))).trans (Cert.KernelIdeal.Gen.V19_main_arg1 m (Cert.KernelIdeal.Hand.outsG m) c),
      (hr c _ (Cert.KernelIdeal.Hand.mem_uc Cert.KernelIdeal.main_arg2 (by decide))).trans (Cert.KernelIdeal.Gen.V19_main_arg2 m (Cert.KernelIdeal.Hand.outsG m) c),
      (hr c _ (Cert.KernelIdeal.Hand.mem_uc Cert.KernelIdeal.main_arg3 (by decide))).trans (Cert.KernelIdeal.Gen.V19_main_arg3 m (Cert.KernelIdeal.Hand.outsG m) c),
      (hr c _ (Cert.KernelIdeal.Hand.mem_uc Cert.KernelIdeal.main_arg4 (by decide))).trans (Cert.KernelIdeal.Gen.V19_main_arg4 m (Cert.KernelIdeal.Hand.outsG m) c),
      (hr c _ (Cert.KernelIdeal.Hand.mem_uc Cert.KernelIdeal.main_arg5 (by decide))).trans (Cert.KernelIdeal.Gen.V19_main_arg5 m (Cert.KernelIdeal.Hand.outsG m) c),
      (hr c _ (Cert.KernelIdeal.Hand.mem_uc Cert.KernelIdeal.main_arg6 (by decide))).trans (Cert.KernelIdeal.Gen.V19_main_arg6 m (Cert.KernelIdeal.Hand.outsG m) c),
      (hr c _ (Cert.KernelIdeal.Hand.mem_uc Cert.KernelIdeal.main_arg7 (by decide))).trans (Cert.KernelIdeal.Gen.V19_main_arg7 m (Cert.KernelIdeal.Hand.outsG m) c),
      (hr c _ (Cert.KernelIdeal.Hand.mem_uc Cert.KernelIdeal.main_arg8 (by decide))).trans (Cert.KernelIdeal.Gen.V19_main_arg8 m (Cert.KernelIdeal.Hand.outsG m) c),
      (hr c _ (Cert.KernelIdeal.Hand.mem_uc Cert.KernelIdeal.main_arg9 (by decide))).trans (Cert.KernelIdeal.Gen.V19_main_arg9 m (Cert.KernelIdeal.Hand.outsG m) c),
      (hr c _ (Cert.KernelIdeal.Hand.mem_uc Cert.KernelIdeal.main_arg10 (by decide))).trans (Cert.KernelIdeal.Gen.V19_main_arg10 m (Cert.KernelIdeal.Hand.outsG m) c),
      (hr c _ (Cert.KernelIdeal.Hand.mem_uc Cert.KernelIdeal.main_arg11 (by decide))).trans (Cert.KernelIdeal.Gen.V19_main_arg11 m (Cert.KernelIdeal.Hand.outsG m) c),
      (hr c _ (Cert.KernelIdeal.Hand.mem_uc Cert.KernelIdeal.main_arg12 (by decide))).trans (Cert.KernelIdeal.Gen.V19_main_arg12 m (Cert.KernelIdeal.Hand.outsG m) c),
      (hr c _ (Cert.KernelIdeal.Hand.mem_uc Cert.KernelIdeal.main_arg13 (by decide))).trans (Cert.KernelIdeal.Gen.V19_main_arg13 m (Cert.KernelIdeal.Hand.outsG m) c),
      (hr c _ (Cert.KernelIdeal.Hand.mem_uc Cert.KernelIdeal.main_arg14 (by decide))).trans (Cert.KernelIdeal.Gen.V19_main_arg14 m (Cert.KernelIdeal.Hand.outsG m) c),
      (hr c _ (Cert.KernelIdeal.Hand.mem_uc Cert.KernelIdeal.main_arg15 (by decide))).trans (Cert.KernelIdeal.Gen.V19_main_arg15 m (Cert.KernelIdeal.Hand.outsG m) c),
      (hr c _ (Cert.KernelIdeal.Hand.mem_uc Cert.KernelIdeal.main_arg16 (by decide))).trans (Cert.KernelIdeal.Gen.V19_main_arg16 m (Cert.KernelIdeal.Hand.outsG m) c),
      (hr c _ (Cert.KernelIdeal.Hand.mem_uc Cert.KernelIdeal.main_arg17 (by decide))).trans (Cert.KernelIdeal.Gen.V19_main_arg17 m (Cert.KernelIdeal.Hand.outsG m) c),
      (hr c _ (Cert.KernelIdeal.Hand.mem_uc Cert.KernelIdeal.main_arg18 (by decide))).trans (Cert.KernelIdeal.Gen.V19_main_arg18 m (Cert.KernelIdeal.Hand.outsG m) c),
      (hr c _ (Cert.KernelIdeal.Hand.mem_uc Cert.KernelIdeal.main_arg19 (by decide))).trans (Cert.KernelIdeal.Gen.V19_main_arg19 m (Cert.KernelIdeal.Hand.outsG m) c)⟩
  · refine (θ_run Cert.ReferenceIdeal.defs _ _).mono (fun r hr c => ?_) (Cert.ReferenceIdeal.Hand.run (F := Ideal) m' ρ')
    obtain ⟨k0, k1, k2, k3, k4, k5, k6, k7, k8, k9, k10, k11, k12, k13, k14, k15, k16, k17, k18, k19⟩ := Cert.ReferenceIdeal.Hand.kept_args (F := Ideal) (fun b => m' (c, b))
    obtain ⟨e0, e1, e2, e3, e4, e5, e6, e7, e8, e9, e10, e11, e12, e13, e14, e15, e16, e17, e18, e19⟩ := hagree c
    refine ⟨?_, (hr c Cert.ReferenceIdeal.main_arg0).trans k0,
      (hr c Cert.ReferenceIdeal.main_arg1).trans k1,
      (hr c Cert.ReferenceIdeal.main_arg2).trans k2,
      (hr c Cert.ReferenceIdeal.main_arg3).trans k3,
      (hr c Cert.ReferenceIdeal.main_arg4).trans k4,
      (hr c Cert.ReferenceIdeal.main_arg5).trans k5,
      (hr c Cert.ReferenceIdeal.main_arg6).trans k6,
      (hr c Cert.ReferenceIdeal.main_arg7).trans k7,
      (hr c Cert.ReferenceIdeal.main_arg8).trans k8,
      (hr c Cert.ReferenceIdeal.main_arg9).trans k9,
      (hr c Cert.ReferenceIdeal.main_arg10).trans k10,
      (hr c Cert.ReferenceIdeal.main_arg11).trans k11,
      (hr c Cert.ReferenceIdeal.main_arg12).trans k12,
      (hr c Cert.ReferenceIdeal.main_arg13).trans k13,
      (hr c Cert.ReferenceIdeal.main_arg14).trans k14,
      (hr c Cert.ReferenceIdeal.main_arg15).trans k15,
      (hr c Cert.ReferenceIdeal.main_arg16).trans k16,
      (hr c Cert.ReferenceIdeal.main_arg17).trans k17,
      (hr c Cert.ReferenceIdeal.main_arg18).trans k18,
      (hr c Cert.ReferenceIdeal.main_arg19).trans k19⟩
    rw [hr c Cert.ReferenceIdeal.main_v128, Cert.ReferenceIdeal.Hand.ref_value]
    show Cert.Spec.out (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) = _
    rw [e0, e1, e2, e3, e4, e5, e6, e7, e8, e9, e10, e11, e12, e13, e14, e15, e16, e17, e18, e19]
theorem claim : Cert.Claim :=
  ⟨Cert.Kernel.Gen.facts, Cert.KernelIdeal.Gen.facts, Cert.ReferenceIdeal.Gen.facts, Cert.Pre_finite_inputs.Gen.facts,
    frame_K, frame_KI, frame_R, preserves, algebraic⟩
end Cert.Proof.Claims
end
-- ==== Proof.lean ====
/-
  Two programs for a two-layer mean-aggregating graph network with batch normalisation, sum pooling per graph and a
  linear classifier return equal logits at the extended reals. A one-hot row times a table is the row a gather picks when
  the id names a row; a matrix product taken block by block over the rows is the whole product; Σ (y − μ)² = Σ y² − N μ²
  over finite entries joins the two forms of the normalisation; a one-hot of the graph ids contracted against the node
  rows is the scatter-add at those ids.
-/
import proofs.«424731_j88648124990764_2_alg».proof.Defs
import proofs.«424731_j88648124990764_2_alg».proof.Proof.Claims

namespace Cert.Proof

theorem claim : Cert.Claim := Cert.Proof.Claims.claim

end Cert.Proof
